-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1024x512 : Shape := ⟨2, ![1024, 512]⟩
abbrev S512 : Shape := ⟨1, ![512]⟩
abbrev S1024x256 : Shape := ⟨2, ![1024, 256]⟩
abbrev S256 : Shape := ⟨1, ![256]⟩
abbrev S1024 : Shape := ⟨1, ![1024]⟩
abbrev S1024x25 : Shape := ⟨2, ![1024, 25]⟩
abbrev S1024x10 : Shape := ⟨2, ![1024, 10]⟩
abbrev S10240x25 : Shape := ⟨2, ![10240, 25]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S1024x25 : S_.BroadcastsInDim S1024x25 (![] : Fin 0 → Fin S1024x25.rank)
  reducesTo_S1024x25_S_d0_1 : S1024x25.ReducesTo [0, 1] S_
  bcast_S_S1024x10 : S_.BroadcastsInDim S1024x10 (![] : Fin 0 → Fin S1024x10.rank)
  reducesTo_S1024x10_S_d0_1 : S1024x10.ReducesTo [0, 1] S_
  bcast_S_S10240x25 : S_.BroadcastsInDim S10240x25 (![] : Fin 0 → Fin S10240x25.rank)
  reducesTo_S10240x25_S_d0_1 : S10240x25.ReducesTo [0, 1] S_

variable [Facts]

def fn_part2 {F : FTy → Type} [FloatOps F] (main_arg8 : IVec S1024x10 32) (main_arg9 : IVec S10240x25 32) (main_v28 : IVec S_ 1) (main_v33 : IVec S1024x25 1) : IVec S_ 1 :=
  let main_c_12 : IVec S_ 1 := constantI S_ 1 1#1
  let main_v34 : IVec S_ 1 := (fun x v => Host.reduce IntOp.andi x v reducesTo_S1024x25_S_d0_1 h_S_) main_v33 main_c_12
  let main_v35 : IVec S_ 1 := andi main_v28 main_v34
  let main_c_13 : IVec S_ 32 := constantI S_ 32 0#32
  let main_v36 : IVec S1024x10 32 := broadcastInDim S1024x10 ![] bcast_S_S1024x10 main_c_13
  let main_v37 : IVec S1024x10 1 := cmpi .sge main_arg8 main_v36
  let main_c_14 : IVec S_ 32 := constantI S_ 32 100000#32
  let main_v38 : IVec S1024x10 32 := broadcastInDim S1024x10 ![] bcast_S_S1024x10 main_c_14
  let main_v39 : IVec S1024x10 1 := cmpi .slt main_arg8 main_v38
  let main_v40 : IVec S1024x10 1 := andi main_v37 main_v39
  let main_c_15 : IVec S_ 1 := constantI S_ 1 1#1
  let main_v41 : IVec S_ 1 := (fun x v => Host.reduce IntOp.andi x v reducesTo_S1024x10_S_d0_1 h_S_) main_v40 main_c_15
  let main_v42 : IVec S_ 1 := andi main_v35 main_v41
  let main_c_16 : IVec S_ 32 := constantI S_ 32 0#32
  let main_v43 : IVec S10240x25 32 := broadcastInDim S10240x25 ![] bcast_S_S10240x25 main_c_16
  let main_v44 : IVec S10240x25 1 := cmpi .sge main_arg9 main_v43
  let main_c_17 : IVec S_ 32 := constantI S_ 32 100000#32
  let main_v45 : IVec S10240x25 32 := broadcastInDim S10240x25 ![] bcast_S_S10240x25 main_c_17
  let main_v46 : IVec S10240x25 1 := cmpi .slt main_arg9 main_v45
  let main_v47 : IVec S10240x25 1 := andi main_v44 main_v46
  let main_c_18 : IVec S_ 1 := constantI S_ 1 1#1
  let main_v48 : IVec S_ 1 := (fun x v => Host.reduce IntOp.andi x v reducesTo_S10240x25_S_d0_1 h_S_) main_v47 main_c_18
  let main_v49 : IVec S_ 1 := andi main_v42 main_v48
  main_v49

def fn_part1 {F : FTy → Type} [FloatOps F] (main_arg4 : FVec F S1024x256 .f32) (main_arg5 : FVec F S256 .f32) (main_arg7 : IVec S1024x25 32) (main_arg8 : IVec S1024x10 32) (main_arg9 : IVec S10240x25 32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_c_10 : IVec S_ 32 := constantI S_ 32 0#32
  let main_v29 : IVec S1024x25 32 := broadcastInDim S1024x25 ![] bcast_S_S1024x25 main_c_10
  let main_v30 : IVec S1024x25 1 := cmpi .sge main_arg7 main_v29
  let main_c_11 : IVec S_ 32 := constantI S_ 32 100000#32
  let main_v31 : IVec S1024x25 32 := broadcastInDim S1024x25 ![] bcast_S_S1024x25 main_c_11
  let main_v32 : IVec S1024x25 1 := cmpi .slt main_arg7 main_v31
  let main_v33 : IVec S1024x25 1 := andi main_v30 main_v32
  fn_part2 (F := F) main_arg8 main_arg9 main_v28 main_v33

def fn {F : FTy → Type} [FloatOps F] (main_arg0 : FVec F S100000x512 .f32) (main_arg1 : FVec F S1024x512 .f32) (main_arg2 : FVec F S1024x512 .f32) (main_arg3 : FVec F S512 .f32) (main_arg4 : FVec F S1024x256 .f32) (main_arg5 : FVec F S256 .f32) (main_arg6 : IVec S1024 32) (main_arg7 : IVec S1024x25 32) (main_arg8 : IVec S1024x10 32) (main_arg9 : IVec S10240x25 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg7 main_arg8 main_arg9 main_v13 main_v16
-- ==== Kernel.lean ====
abbrev S100000x512 : Shape := ⟨2, ![100000, 512]⟩
abbrev S1024x512 : Shape := ⟨2, ![1024, 512]⟩
abbrev S512 : Shape := ⟨1, ![512]⟩
abbrev S1024x256 : Shape := ⟨2, ![1024, 256]⟩
abbrev S256 : Shape := ⟨1, ![256]⟩
abbrev S1024 : Shape := ⟨1, ![1024]⟩
abbrev S1024x25 : Shape := ⟨2, ![1024, 25]⟩
abbrev S1024x10 : Shape := ⟨2, ![1024, 10]⟩
abbrev S10240x25 : Shape := ⟨2, ![10240, 25]⟩
abbrev S25600 : Shape := ⟨1, ![25600]⟩
abbrev S100000x1x512 : Shape := ⟨3, ![100000, 1, 512]⟩
abbrev S25600x1x512 : Shape := ⟨3, ![25600, 1, 512]⟩
abbrev S1x1x512 : Shape := ⟨3, ![1, 1, 512]⟩
abbrev S1 : Shape := ⟨1, ![1]⟩
abbrev S25600x512 : Shape := ⟨2, ![25600, 512]⟩
abbrev S1024x25x512 : Shape := ⟨3, ![1024, 25, 512]⟩
abbrev S10240 : Shape := ⟨1, ![10240]⟩
abbrev S10240x1x512 : Shape := ⟨3, ![10240, 1, 512]⟩
abbrev S10240x512 : Shape := ⟨2, ![10240, 512]⟩
abbrev S1024x10x512 : Shape := ⟨3, ![1024, 10, 512]⟩
abbrev S2048x25 : Shape := ⟨2, ![2048, 25]⟩
abbrev S51200 : Shape := ⟨1, ![51200]⟩
abbrev S51200x1x512 : Shape := ⟨3, ![51200, 1, 512]⟩
abbrev S51200x512 : Shape := ⟨2, ![51200, 512]⟩
abbrev S2048x25x512 : Shape := ⟨3, ![2048, 25, 512]⟩
abbrev S10240x25x512 : Shape := ⟨3, ![10240, 25, 512]⟩
abbrev S512x512 : Shape := ⟨2, ![512, 512]⟩
abbrev S1x512 : Shape := ⟨2, ![1, 512]⟩
abbrev S128x512 : Shape := ⟨2, ![128, 512]⟩
abbrev S128x25x512 : Shape := ⟨3, ![128, 25, 512]⟩
abbrev S512x256 : Shape := ⟨2, ![512, 256]⟩
abbrev S1x256 : Shape := ⟨2, ![1, 256]⟩
abbrev S128x10x512 : Shape := ⟨3, ![128, 10, 512]⟩
abbrev S128x256 : Shape := ⟨2, ![128, 256]⟩

abbrev nBuf : Space → Nat
  | .hbm => 55
  | .vmem => 55
  | .smem => 7
  | _ => 0

abbrev bufTy : (tb : Table) → Fin (tcTables nBuf tb) → BufTy
  | .hbm, ⟨0, _⟩ => ⟨S100000x512, .f32⟩
  | .hbm, ⟨1, _⟩ => ⟨S1024x512, .f32⟩
  | .hbm, ⟨2, _⟩ => ⟨S1024x512, .f32⟩
  | .hbm, ⟨3, _⟩ => ⟨S512, .f32⟩
  | .hbm, ⟨4, _⟩ => ⟨S1024x256, .f32⟩
  | .hbm, ⟨5, _⟩ => ⟨S256, .f32⟩
  | .hbm, ⟨6, _⟩ => ⟨S1024, .i32⟩
  | .hbm, ⟨7, _⟩ => ⟨S1024x25, .i32⟩
  | .hbm, ⟨8, _⟩ => ⟨S1024x10, .i32⟩
  | .hbm, ⟨9, _⟩ => ⟨S10240x25, .i32⟩
  | .hbm, ⟨10, _⟩ => ⟨S100000x1x512, .f32⟩
  | .hbm, ⟨11, _⟩ => ⟨S25600x1x512, .f32⟩
  | .hbm, ⟨12, _⟩ => ⟨S25600x512, .f32⟩
  | .hbm, ⟨13, _⟩ => ⟨S1024x25x512, .f32⟩
  | .hbm, ⟨14, _⟩ => ⟨S100000x1x512, .f32⟩
  | .hbm, ⟨15, _⟩ => ⟨S10240x1x512, .f32⟩
  | .hbm, ⟨16, _⟩ => ⟨S10240x512, .f32⟩
  | .hbm, ⟨17, _⟩ => ⟨S1024x10x512, .f32⟩
  | .hbm, ⟨18, _⟩ => ⟨S2048x25, .i32⟩
  | .hbm, ⟨19, _⟩ => ⟨S100000x1x512, .f32⟩
  | .hbm, ⟨20, _⟩ => ⟨S51200x1x512, .f32⟩
  | .hbm, ⟨21, _⟩ => ⟨S51200x512, .f32⟩
  | .hbm, ⟨22, _⟩ => ⟨S2048x25x512, .f32⟩
  | .hbm, ⟨23, _⟩ => ⟨S2048x25, .i32⟩
  | .hbm, ⟨24, _⟩ => ⟨S100000x1x512, .f32⟩
  | .hbm, ⟨25, _⟩ => ⟨S51200x1x512, .f32⟩
  | .hbm, ⟨26, _⟩ => ⟨S51200x512, .f32⟩
  | .hbm, ⟨27, _⟩ => ⟨S2048x25x512, .f32⟩
  | .hbm, ⟨28, _⟩ => ⟨S2048x25, .i32⟩
  | .hbm, ⟨29, _⟩ => ⟨S100000x1x512, .f32⟩
  | .hbm, ⟨30, _⟩ => ⟨S51200x1x512, .f32⟩
  | .hbm, ⟨31, _⟩ => ⟨S51200x512, .f32⟩
  | .hbm, ⟨32, _⟩ => ⟨S2048x25x512, .f32⟩
  | .hbm, ⟨33, _⟩ => ⟨S2048x25, .i32⟩
  | .hbm, ⟨34, _⟩ => ⟨S100000x1x512, .f32⟩
  | .hbm, ⟨35, _⟩ => ⟨S51200x1x512, .f32⟩
  | .hbm, ⟨36, _⟩ => ⟨S51200x512, .f32⟩
  | .hbm, ⟨37, _⟩ => ⟨S2048x25x512, .f32⟩
  | .hbm, ⟨38, _⟩ => ⟨S2048x25, .i32⟩
  | .hbm, ⟨39, _⟩ => ⟨S100000x1x512, .f32⟩
  | .hbm, ⟨40, _⟩ => ⟨S51200x1x512, .f32⟩
  | .hbm, ⟨41, _⟩ => ⟨S51200x512, .f32⟩
  | .hbm, ⟨42, _⟩ => ⟨S2048x25x512, .f32⟩
  | .hbm, ⟨43, _⟩ => ⟨S10240x25x512, .f32⟩
  | .hbm, ⟨44, _⟩ => ⟨S512x512, .f32⟩
  | .hbm, ⟨45, _⟩ => ⟨S512x512, .f32⟩
  | .hbm, ⟨46, _⟩ => ⟨S1x512, .f32⟩
  | .hbm, ⟨47, _⟩ => ⟨S1024x512, .f32⟩
  | .hbm, ⟨48, _⟩ => ⟨S10240x512, .f32⟩
  | .hbm, ⟨49, _⟩ => ⟨S10240x512, .f32⟩
  | .hbm, ⟨50, _⟩ => ⟨S1024x10x512, .f32⟩
  | .hbm, ⟨51, _⟩ => ⟨S512x256, .f32⟩
  | .hbm, ⟨52, _⟩ => ⟨S512x256, .f32⟩
  | .hbm, ⟨53, _⟩ => ⟨S1x256, .f32⟩
  | .hbm, ⟨54, _⟩ => ⟨S1024x256, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | .local _ .vmem, ⟨18, _⟩ => ⟨S1x1x512, .f32⟩
  | .local _ .vmem, ⟨19, _⟩ => ⟨S1x1x512, .f32⟩
  | .local _ .vmem, ⟨20, _⟩ => ⟨S1x1x512, .f32⟩
  | .local _ .vmem, ⟨21, _⟩ => ⟨S1x1x512, .f32⟩
  | .local _ .vmem, ⟨22, _⟩ => ⟨S1x1x512, .f32⟩
  | .local _ .vmem, ⟨23, _⟩ => ⟨S1x1x512, .f32⟩
  | .local _ .vmem, ⟨24, _⟩ => ⟨S1x1x512, .f32⟩
  | .local _ .vmem, ⟨25, _⟩ => ⟨S1x1x512, .f32⟩
  | .local _ .vmem, ⟨26, _⟩ => ⟨S1x1x512, .f32⟩
  | .local _ .vmem, ⟨27, _⟩ => ⟨S1x1x512, .f32⟩
  | .local _ .vmem, ⟨28, _⟩ => ⟨S128x512, .f32⟩
  | .local _ .vmem, ⟨29, _⟩ => ⟨S128x512, .f32⟩
  | .local _ .vmem, ⟨30, _⟩ => ⟨S128x25x512, .f32⟩
  | .local _ .vmem, ⟨31, _⟩ => ⟨S128x25x512, .f32⟩
  | .local _ .vmem, ⟨32, _⟩ => ⟨S512x512, .f32⟩
  | .local _ .vmem, ⟨33, _⟩ => ⟨S512x512, .f32⟩
  | .local _ .vmem, ⟨34, _⟩ => ⟨S1x512, .f32⟩
  | .local _ .vmem, ⟨35, _⟩ => ⟨S128x512, .f32⟩
  | .local _ .vmem, ⟨36, _⟩ => ⟨S128x512, .f32⟩
  | .local _ .vmem, ⟨37, _⟩ => ⟨S128x512, .f32⟩
  | .local _ .vmem, ⟨38, _⟩ => ⟨S128x512, .f32⟩
  | .local _ .vmem, ⟨39, _⟩ => ⟨S128x25x512, .f32⟩
  | .local _ .vmem, ⟨40, _⟩ => ⟨S128x25x512, .f32⟩
  | .local _ .vmem, ⟨41, _⟩ => ⟨S512x512, .f32⟩
  | .local _ .vmem, ⟨42, _⟩ => ⟨S512x512, .f32⟩
  | .local _ .vmem, ⟨43, _⟩ => ⟨S1x512, .f32⟩
  | .local _ .vmem, ⟨44, _⟩ => ⟨S128x512, .f32⟩
  | .local _ .vmem, ⟨45, _⟩ => ⟨S128x512, .f32⟩
  | .local _ .vmem, ⟨46, _⟩ => ⟨S128x512, .f32⟩
  | .local _ .vmem, ⟨47, _⟩ => ⟨S128x512, .f32⟩
  | .local _ .vmem, ⟨48, _⟩ => ⟨S128x10x512, .f32⟩
  | .local _ .vmem, ⟨49, _⟩ => ⟨S128x10x512, .f32⟩
  | .local _ .vmem, ⟨50, _⟩ => ⟨S512x256, .f32⟩
  | .local _ .vmem, ⟨51, _⟩ => ⟨S512x256, .f32⟩
  | .local _ .vmem, ⟨52, _⟩ => ⟨S1x256, .f32⟩
  | .local _ .vmem, ⟨53, _⟩ => ⟨S128x256, .f32⟩
  | .local _ .vmem, ⟨54, _⟩ => ⟨S128x256, .f32⟩
  | .local _ .smem, ⟨0, _⟩ => ⟨S25600, .i32⟩
  | .local _ .smem, ⟨1, _⟩ => ⟨S10240, .i32⟩
  | .local _ .smem, ⟨2, _⟩ => ⟨S51200, .i32⟩
  | .local _ .smem, ⟨3, _⟩ => ⟨S51200, .i32⟩
  | .local _ .smem, ⟨4, _⟩ => ⟨S51200, .i32⟩
  | .local _ .smem, ⟨5, _⟩ => ⟨S51200, .i32⟩
  | .local _ .smem, ⟨6, _⟩ => ⟨S51200, .i32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v0 : Ref sig .tc := ⟨.smem, 0, rfl⟩
abbrev main_v5 : Ref sig .tc := ⟨.smem, 1, rfl⟩
abbrev main_v11 : Ref sig .tc := ⟨.smem, 2, rfl⟩
abbrev main_v17 : Ref sig .tc := ⟨.smem, 3, rfl⟩
abbrev main_v23 : Ref sig .tc := ⟨.smem, 4, rfl⟩
abbrev main_v29 : Ref sig .tc := ⟨.smem, 5, rfl⟩
abbrev main_v35 : Ref sig .tc := ⟨.smem, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc5_stg0_0 : Ref sig .tc := ⟨.vmem, 20, rfl⟩
abbrev cc5_stg0_1 : Ref sig .tc := ⟨.vmem, 21, rfl⟩
abbrev cc5_stg1_0 : Ref sig .tc := ⟨.vmem, 22, rfl⟩
abbrev cc5_stg1_1 : Ref sig .tc := ⟨.vmem, 23, rfl⟩
abbrev cc6_stg0_0 : Ref sig .tc := ⟨.vmem, 24, rfl⟩
abbrev cc6_stg0_1 : Ref sig .tc := ⟨.vmem, 25, rfl⟩
abbrev cc6_stg1_0 : Ref sig .tc := ⟨.vmem, 26, rfl⟩
abbrev cc6_stg1_1 : Ref sig .tc := ⟨.vmem, 27, rfl⟩
abbrev cc7_stg0_0 : Ref sig .tc := ⟨.vmem, 28, rfl⟩
abbrev cc7_stg0_1 : Ref sig .tc := ⟨.vmem, 29, rfl⟩
abbrev cc7_stg1_0 : Ref sig .tc := ⟨.vmem, 30, rfl⟩
abbrev cc7_stg1_1 : Ref sig .tc := ⟨.vmem, 31, rfl⟩
abbrev cc7_stg2_0 : Ref sig .tc := ⟨.vmem, 32, rfl⟩
abbrev cc7_stg3_0 : Ref sig .tc := ⟨.vmem, 33, rfl⟩
abbrev cc7_stg4_0 : Ref sig .tc := ⟨.vmem, 34, rfl⟩
abbrev cc7_stg5_0 : Ref sig .tc := ⟨.vmem, 35, rfl⟩
abbrev cc7_stg5_1 : Ref sig .tc := ⟨.vmem, 36, rfl⟩
abbrev cc8_stg0_0 : Ref sig .tc := ⟨.vmem, 37, rfl⟩
abbrev cc8_stg0_1 : Ref sig .tc := ⟨.vmem, 38, rfl⟩
abbrev cc8_stg1_0 : Ref sig .tc := ⟨.vmem, 39, rfl⟩
abbrev cc8_stg1_1 : Ref sig .tc := ⟨.vmem, 40, rfl⟩
abbrev cc8_stg2_0 : Ref sig .tc := ⟨.vmem, 41, rfl⟩
abbrev cc8_stg3_0 : Ref sig .tc := ⟨.vmem, 42, rfl⟩
abbrev cc8_stg4_0 : Ref sig .tc := ⟨.vmem, 43, rfl⟩
abbrev cc8_stg5_0 : Ref sig .tc := ⟨.vmem, 44, rfl⟩
abbrev cc8_stg5_1 : Ref sig .tc := ⟨.vmem, 45, rfl⟩
abbrev cc9_stg0_0 : Ref sig .tc := ⟨.vmem, 46, rfl⟩
abbrev cc9_stg0_1 : Ref sig .tc := ⟨.vmem, 47, rfl⟩
abbrev cc9_stg1_0 : Ref sig .tc := ⟨.vmem, 48, rfl⟩
abbrev cc9_stg1_1 : Ref sig .tc := ⟨.vmem, 49, rfl⟩
abbrev cc9_stg2_0 : Ref sig .tc := ⟨.vmem, 50, rfl⟩
abbrev cc9_stg3_0 : Ref sig .tc := ⟨.vmem, 51, rfl⟩
abbrev cc9_stg4_0 : Ref sig .tc := ⟨.vmem, 52, rfl⟩
abbrev cc9_stg5_0 : Ref sig .tc := ⟨.vmem, 53, rfl⟩
abbrev cc9_stg5_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc4_sem0_0 : DmaSem sig := 16
abbrev cc4_sem0_1 : DmaSem sig := 17
abbrev cc4_sem1_0 : DmaSem sig := 18
abbrev cc4_sem1_1 : DmaSem sig := 19
abbrev cc5_sem0_0 : DmaSem sig := 20
abbrev cc5_sem0_1 : DmaSem sig := 21
abbrev cc5_sem1_0 : DmaSem sig := 22
abbrev cc5_sem1_1 : DmaSem sig := 23
abbrev cc6_sem0_0 : DmaSem sig := 24
abbrev cc6_sem0_1 : DmaSem sig := 25
abbrev cc6_sem1_0 : DmaSem sig := 26
abbrev cc6_sem1_1 : DmaSem sig := 27
abbrev cc7_sem0_0 : DmaSem sig := 28
abbrev cc7_sem0_1 : DmaSem sig := 29
abbrev cc7_sem1_0 : DmaSem sig := 30
abbrev cc7_sem1_1 : DmaSem sig := 31
abbrev cc7_sem2_0 : DmaSem sig := 32
abbrev cc7_sem3_0 : DmaSem sig := 33
abbrev cc7_sem4_0 : DmaSem sig := 34
abbrev cc7_sem5_0 : DmaSem sig := 35
abbrev cc7_sem5_1 : DmaSem sig := 36
abbrev cc8_sem0_0 : DmaSem sig := 37
abbrev cc8_sem0_1 : DmaSem sig := 38
abbrev cc8_sem1_0 : DmaSem sig := 39
abbrev cc8_sem1_1 : DmaSem sig := 40
abbrev cc8_sem2_0 : DmaSem sig := 41
abbrev cc8_sem3_0 : DmaSem sig := 42
abbrev cc8_sem4_0 : DmaSem sig := 43
abbrev cc8_sem5_0 : DmaSem sig := 44
abbrev cc8_sem5_1 : DmaSem sig := 45
abbrev cc9_sem0_0 : DmaSem sig := 46
abbrev cc9_sem0_1 : DmaSem sig := 47
abbrev cc9_sem1_0 : DmaSem sig := 48
abbrev cc9_sem1_1 : DmaSem sig := 49
abbrev cc9_sem2_0 : DmaSem sig := 50
abbrev cc9_sem3_0 : DmaSem sig := 51
abbrev cc9_sem4_0 : DmaSem sig := 52
abbrev cc9_sem5_0 : DmaSem sig := 53
abbrev cc9_sem5_1 : DmaSem sig := 54

abbrev nD : Nat := 1
abbrev τ : Topo := Topo.v7x

variable {F : FTy → Type} [FloatOps F]

abbrev grid0 : Pipeline.Grid := ⟨1, ![25600], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S25600.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S25600) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![10240], ![false]⟩

abbrev pre1 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (k1_off1_inb : ∀ i : grid1.Coords, ∀ a, (k1_off1 i) a + S1.size a ≤ S10240.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S10240) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![51200], ![false]⟩

abbrev pre2 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def cc2_transform_0 (k2_off1_inb : ∀ i : grid2.Coords, ∀ a, (k2_off1 i) a + S1.size a ≤ S51200.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S51200) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![51200], ![false]⟩

abbrev pre3 : Pipeline.Prefetch sig := ⟨1, ![main_v17.idx], fun | 0 => main_v17.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def cc3_transform_0 (k3_off1_inb : ∀ i : grid3.Coords, ∀ a, (k3_off1 i) a + S1.size a ≤ S51200.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S51200) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![51200], ![false]⟩

abbrev pre4 : Pipeline.Prefetch sig := ⟨1, ![main_v23.idx], fun | 0 => main_v23.names | ⟨_ + 1, h⟩ => absurd h (Nat.not_lt.2 (Nat.le_add_left _ _)), fun | 0 => rfl | ⟨_ + 1, h⟩ => absurd h (Nat.not_lt.2 (Nat.le_add_left _ _))⟩

def k4_off1 (i : grid4.Coords) : Fin 1 → Nat :=
  let arg0 : BitVec 32 := BitVec.ofNat 32 (i 0).val
  let v0 : Index := Scalar.indexCast arg0
  ![v0.toNat]
def cc4_transform_0 (k4_off1_inb : ∀ i : grid4.Coords, ∀ a, (k4_off1 i) a + S1.size a ≤ S51200.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 0 (Rect.unit (s := S51200) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x1x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![51200], ![false]⟩

abbrev pre5 : Pipeline.Prefetch sig := ⟨1, ![main_v29.idx], fun | 0 => main_v29.names | ⟨_ + 1, h⟩ => absurd h (Nat.not_lt.2 (Nat.le_add_left _ _)), fun | 0 => rfl | ⟨_ + 1, h⟩ => absurd h (Nat.not_lt.2 (Nat.le_add_left _ _))⟩

def k5_off1 (i : grid5.Coords) : Fin 1 → Nat :=
  let arg0 : BitVec 32 := BitVec.ofNat 32 (i 0).val
  let v0 : Index := Scalar.indexCast arg0
  ![v0.toNat]
def cc5_transform_0 (k5_off1_inb : ∀ i : grid5.Coords, ∀ a, (k5_off1 i) a + S1.size a ≤ S51200.size a) (numel1_S1 : S1.numel = 1) (pf : pre5.Contents (Elt F)) (i : grid5.Coords) : Fin 3 → Nat :=
  let arg0 : BitVec 32 := BitVec.ofNat 32 (i 0).val
  let v0 : Index := Scalar.indexCast arg0
  let v1 : BitVec 32 := pf.at 0 (Rect.unit (s := S51200) ![v0.toNat] S1.size (k5_off1_inb i)) numel1_S1
  let c0_i32 : BitVec 32 := 0#32
  let c0_i32_0 : BitVec 32 := 0#32
  let c0_i32_1 : BitVec 32 := 0#32
  ![v1.toNat, c0_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x1x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x1x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev grid6 : Pipeline.Grid := ⟨1, ![51200], ![false]⟩

abbrev pre6 : Pipeline.Prefetch sig := ⟨1, ![main_v35.idx], fun | 0 => main_v35.names | ⟨_ + 1, h⟩ => absurd h (Nat.not_lt.2 (Nat.le_add_left _ _)), fun | 0 => rfl | ⟨_ + 1, h⟩ => absurd h (Nat.not_lt.2 (Nat.le_add_left _ _))⟩

def k6_off1 (i : grid6.Coords) : Fin 1 → Nat :=
  let arg0 : BitVec 32 := BitVec.ofNat 32 (i 0).val
  let v0 : Index := Scalar.indexCast arg0
  ![v0.toNat]
def cc6_transform_0 (k6_off1_inb : ∀ i : grid6.Coords, ∀ a, (k6_off1 i) a + S1.size a ≤ S51200.size a) (numel1_S1 : S1.numel = 1) (pf : pre6.Contents (Elt F)) (i : grid6.Coords) : Fin 3 → Nat :=
  let arg0 : BitVec 32 := BitVec.ofNat 32 (i 0).val
  let v0 : Index := Scalar.indexCast arg0
  let v1 : BitVec 32 := pf.at 0 (Rect.unit (s := S51200) ![v0.toNat] S1.size (k6_off1_inb i)) numel1_S1
  let c0_i32 : BitVec 32 := 0#32
  let c0_i32_0 : BitVec 32 := 0#32
  let c0_i32_1 : BitVec 32 := 0#32
  ![v1.toNat, c0_i32.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x1x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x1x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S128x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S128x25x512 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S512x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S512x512 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x512 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S128x512 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![80], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S128x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S128x25x512 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S512x512 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S512x512 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x512 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S128x512 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S128x512 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S128x10x512 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S512x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S512x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S128x256 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

class Facts₀ : Prop where
  shapeCasts_S1024x25_S25600 : S1024x25.ShapeCasts S25600
  shapeCasts_S100000x512_S100000x1x512 : S100000x512.ShapeCasts S100000x1x512
  numel1_S1 : S1.numel = 1
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  shapeCasts_S25600x1x512_S25600x512 : S25600x1x512.ShapeCasts S25600x512
  shapeCasts_S25600x512_S1024x25x512 : S25600x512.ShapeCasts S1024x25x512
  shapeCasts_S1024x10_S10240 : S1024x10.ShapeCasts S10240
  shapeCasts_S10240x1x512_S10240x512 : S10240x1x512.ShapeCasts S10240x512
  shapeCasts_S10240x512_S1024x10x512 : S10240x512.ShapeCasts S1024x10x512
  slices_S10240x25_S2048x25_0_0 : S10240x25.Slices ![0, 0] S2048x25
  shapeCasts_S2048x25_S51200 : S2048x25.ShapeCasts S51200
  shapeCasts_S51200x1x512_S51200x512 : S51200x1x512.ShapeCasts S51200x512
  shapeCasts_S51200x512_S2048x25x512 : S51200x512.ShapeCasts S2048x25x512
  slices_S10240x25_S2048x25_2048_0 : S10240x25.Slices ![2048, 0] S2048x25
  slices_S10240x25_S2048x25_4096_0 : S10240x25.Slices ![4096, 0] S2048x25
  slices_S10240x25_S2048x25_6144_0 : S10240x25.Slices ![6144, 0] S2048x25
  slices_S10240x25_S2048x25_8192_0 : S10240x25.Slices ![8192, 0] S2048x25
  concatenates_S2048x25x512_S2048x25x512_S2048x25x512_S2048x25x512_S2048x25x512_S10240x25x512_d0 : Shape.Concatenates [S2048x25x512, S2048x25x512, S2048x25x512, S2048x25x512, S2048x25x512] S10240x25x512 0
  slices_S1024x512_S512x512_0_0 : S1024x512.Slices ![0, 0] S512x512
  slices_S1024x512_S512x512_512_0 : S1024x512.Slices ![512, 0] S512x512
  shapeCasts_S512_S1x512 : S512.ShapeCasts S1x512
  inb_S128x25x512_S128x25x512_0_0_0 : ∀ a, (![0, 0, 0] : Fin 3 → Nat) a + S128x25x512.size a ≤ S128x25x512.size a
  h_S128x25x512 : 0 < S128x25x512.numel
  shapeCasts_S128x25x512_S128x25x512 : S128x25x512.ShapeCasts S128x25x512
  reduces_S128x25x512_S128x512 : S128x25x512.Reduces [1] S128x512
  inb_S128x512_S128x512_0_0 : ∀ a, (![0, 0] : Fin 2 → Nat) a + S128x512.size a ≤ S128x512.size a
  h_S128x512 : 0 < S128x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  shapeCasts_S1024x10x512_S10240x512 : S1024x10x512.ShapeCasts S10240x512
  shapeCasts_S128x512_S128x512 : S128x512.ShapeCasts S128x512
  slices_S1024x256_S512x256_0_0 : S1024x256.Slices ![0, 0] S512x256
  slices_S1024x256_S512x256_512_0 : S1024x256.Slices ![512, 0] S512x256
  shapeCasts_S256_S1x256 : S256.ShapeCasts S1x256
  inb_S128x10x512_S128x10x512_0_0_0 : ∀ a, (![0, 0, 0] : Fin 3 → Nat) a + S128x10x512.size a ≤ S128x10x512.size a
  h_S128x10x512 : 0 < S128x10x512.numel
  shapeCasts_S128x10x512_S128x10x512 : S128x10x512.ShapeCasts S128x10x512
  reduces_S128x10x512_S128x512 : S128x10x512.Reduces [1] S128x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S128x256_S128x256_0_0 : ∀ a, (![0, 0] : Fin 2 → Nat) a + S128x256.size a ≤ S128x256.size a
  h_S128x256 : 0 < S128x256.numel
  dot_S128x512_S512x512_S128x512_1_0_0_1_n_n_wf : DotDims.WF S128x512 S512x512 S128x512 [1] [0] [0] [1] [] []
  dot_S128x512_S512x256_S128x256_1_0_0_1_n_n_wf : DotDims.WF S128x512 S512x256 S128x256 [1] [0] [0] [1] [] []
  hrank0 : 0 < grid0.rank
  k0_off1_inb : ∀ i : grid0.Coords, ∀ a, (k0_off1 i) a + S1.size a ≤ S25600.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S25600x1x512.size a
  hwx0_1 : ∀ i : grid0.Coords, EltTy.bits .f32 = 32 ∨ (Rect.block (s := S25600x1x512) S1x1x512.size (cc0_transform_1 i) (hinb0_1 i)).WholeWords (EltTy.packing .f32)
  hrank1 : 0 < grid1.rank
  k1_off1_inb : ∀ i : grid1.Coords, ∀ a, (k1_off1 i) a + S1.size a ≤ S10240.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x512.size a ≤ S10240x1x512.size a
  hwx1_1 : ∀ i : grid1.Coords, EltTy.bits .f32 = 32 ∨ (Rect.block (s := S10240x1x512) S1x1x512.size (cc1_transform_1 i) (hinb1_1 i)).WholeWords (EltTy.packing .f32)
  hrank2 : 0 < grid2.rank
  k2_off1_inb : ∀ i : grid2.Coords, ∀ a, (k2_off1 i) a + S1.size a ≤ S51200.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1 pf i = cc2_transform_0 k2_off1_inb numel1_S1 pf i'
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x512.size a ≤ S51200x1x512.size a
  hwx2_1 : ∀ i : grid2.Coords, EltTy.bits .f32 = 32 ∨ (Rect.block (s := S51200x1x512) S1x1x512.size (cc2_transform_1 i) (hinb2_1 i)).WholeWords (EltTy.packing .f32)
  hrank3 : 0 < grid3.rank
  k3_off1_inb : ∀ i : grid3.Coords, ∀ a, (k3_off1 i) a + S1.size a ≤ S51200.size a
  hstage3_0 : ∀ j, (stage3_0 j).IsWhole
  nbuf3_0 : grid3.bufCount reads3_0 false = 2
  hreads3_0 : ∀ {F : FTy → Type} [FloatOps F] (pf : pre3.Contents (Elt F)) (i i' : grid3.Coords), (∀ a, reads3_0 a = true → i a = i' a) → cc3_transform_0 k3_off1_inb numel1_S1 pf i = cc3_transform_0 k3_off1_inb numel1_S1 pf i'
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x512.size a ≤ S51200x1x512.size a
  hwx3_1 : ∀ i : grid3.Coords, EltTy.bits .f32 = 32 ∨ (Rect.block (s := S51200x1x512) S1x1x512.size (cc3_transform_1 i) (hinb3_1 i)).WholeWords (EltTy.packing .f32)
  hrank4 : 0 < grid4.rank
  k4_off1_inb : ∀ i : grid4.Coords, ∀ a, (k4_off1 i) a + S1.size a ≤ S51200.size a
  hstage4_0 : ∀ j, (stage4_0 j).IsWhole
  nbuf4_0 : grid4.bufCount reads4_0 false = 2
  hreads4_0 : ∀ {F : FTy → Type} [FloatOps F] (pf : pre4.Contents (Elt F)) (i i' : grid4.Coords), (∀ a, reads4_0 a = true → i a = i' a) → cc4_transform_0 k4_off1_inb numel1_S1 pf i = cc4_transform_0 k4_off1_inb numel1_S1 pf i'
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x1x512.size a ≤ S51200x1x512.size a
  hwx4_1 : ∀ i : grid4.Coords, EltTy.bits .f32 = 32 ∨ (Rect.block (s := S51200x1x512) S1x1x512.size (cc4_transform_1 i) (hinb4_1 i)).WholeWords (EltTy.packing .f32)
  hrank5 : 0 < grid5.rank
  k5_off1_inb : ∀ i : grid5.Coords, ∀ a, (k5_off1 i) a + S1.size a ≤ S51200.size a
  hstage5_0 : ∀ j, (stage5_0 j).IsWhole
  nbuf5_0 : grid5.bufCount reads5_0 false = 2
  hreads5_0 : ∀ {F : FTy → Type} [FloatOps F] (pf : pre5.Contents (Elt F)) (i i' : grid5.Coords), (∀ a, reads5_0 a = true → i a = i' a) → cc5_transform_0 k5_off1_inb numel1_S1 pf i = cc5_transform_0 k5_off1_inb numel1_S1 pf i'
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x1x512.size a ≤ S51200x1x512.size a
  hwx5_1 : ∀ i : grid5.Coords, EltTy.bits .f32 = 32 ∨ (Rect.block (s := S51200x1x512) S1x1x512.size (cc5_transform_1 i) (hinb5_1 i)).WholeWords (EltTy.packing .f32)
  hrank6 : 0 < grid6.rank
  k6_off1_inb : ∀ i : grid6.Coords, ∀ a, (k6_off1 i) a + S1.size a ≤ S51200.size a
  hstage6_0 : ∀ j, (stage6_0 j).IsWhole
  nbuf6_0 : grid6.bufCount reads6_0 false = 2
  hreads6_0 : ∀ {F : FTy → Type} [FloatOps F] (pf : pre6.Contents (Elt F)) (i i' : grid6.Coords), (∀ a, reads6_0 a = true → i a = i' a) → cc6_transform_0 k6_off1_inb numel1_S1 pf i = cc6_transform_0 k6_off1_inb numel1_S1 pf i'
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x1x512.size a ≤ S51200x1x512.size a
  hwx6_1 : ∀ i : grid6.Coords, EltTy.bits .f32 = 32 ∨ (Rect.block (s := S51200x1x512) S1x1x512.size (cc6_transform_1 i) (hinb6_1 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S128x512.size a ≤ S1024x512.size a
  hwx7_0 : ∀ i : grid7.Coords, EltTy.bits .f32 = 32 ∨ (Rect.block (s := S1024x512) S128x512.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S128x25x512.size a ≤ S1024x25x512.size a
  hwx7_1 : ∀ i : grid7.Coords, EltTy.bits .f32 = 32 ∨ (Rect.block (s := S1024x25x512) S128x25x512.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S512x512.size a ≤ S512x512.size a
  hwx7_2 : ∀ i : grid7.Coords, EltTy.bits .f32 = 32 ∨ (Rect.block (s := S512x512) S512x512.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S512x512.size a ≤ S512x512.size a
  hwx7_3 : ∀ i : grid7.Coords, EltTy.bits .f32 = 32 ∨ (Rect.block (s := S512x512) S512x512.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x512.size a ≤ S1x512.size a
  hwx7_4 : ∀ i : grid7.Coords, EltTy.bits .f32 = 32 ∨ (Rect.block (s := S1x512) S1x512.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S128x512.size a ≤ S1024x512.size a
  hwx7_5 : ∀ i : grid7.Coords, EltTy.bits .f32 = 32 ∨ (Rect.block (s := S1024x512) S128x512.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S128x512.size a ≤ S10240x512.size a
  hwx8_0 : ∀ i : grid8.Coords, EltTy.bits .f32 = 32 ∨ (Rect.block (s := S10240x512) S128x512.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S128x25x512.size a ≤ S10240x25x512.size a
  hwx8_1 : ∀ i : grid8.Coords, EltTy.bits .f32 = 32 ∨ (Rect.block (s := S10240x25x512) S128x25x512.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S512x512.size a ≤ S512x512.size a
  hwx8_2 : ∀ i : grid8.Coords, EltTy.bits .f32 = 32 ∨ (Rect.block (s := S512x512) S512x512.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S512x512.size a ≤ S512x512.size a
  hwx8_3 : ∀ i : grid8.Coords, EltTy.bits .f32 = 32 ∨ (Rect.block (s := S512x512) S512x512.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x512.size a ≤ S1x512.size a
  hwx8_4 : ∀ i : grid8.Coords, EltTy.bits .f32 = 32 ∨ (Rect.block (s := S1x512) S1x512.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S128x512.size a ≤ S10240x512.size a
  hwx8_5 : ∀ i : grid8.Coords, EltTy.bits .f32 = 32 ∨ (Rect.block (s := S10240x512) S128x512.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S128x512.size a ≤ S1024x512.size a
  hwx9_0 : ∀ i : grid9.Coords, EltTy.bits .f32 = 32 ∨ (Rect.block (s := S1024x512) S128x512.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S128x10x512.size a ≤ S1024x10x512.size a
  hwx9_1 : ∀ i : grid9.Coords, EltTy.bits .f32 = 32 ∨ (Rect.block (s := S1024x10x512) S128x10x512.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S512x256.size a ≤ S512x256.size a
  hwx9_2 : ∀ i : grid9.Coords, EltTy.bits .f32 = 32 ∨ (Rect.block (s := S512x256) S512x256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S512x256.size a ≤ S512x256.size a
  hwx9_3 : ∀ i : grid9.Coords, EltTy.bits .f32 = 32 ∨ (Rect.block (s := S512x256) S512x256.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x256.size a ≤ S1x256.size a
  hwx9_4 : ∀ i : grid9.Coords, EltTy.bits .f32 = 32 ∨ (Rect.block (s := S1x256) S1x256.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S128x256.size a ≤ S1024x256.size a
  hwx9_5 : ∀ i : grid9.Coords, EltTy.bits .f32 = 32 ∨ (Rect.block (s := S1024x256) S128x256.size (cc9_transform_5 i) (hinb9_5 i)).WholeWords (EltTy.packing .f32)

variable [Facts₀]

def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf

abbrev spec0_0 : Pipeline.WinSpec sig grid0.rank :=
  Pipeline.WinSpec.ofSpec (Memref.whole main_v1) S1x1x512.size reads0_0 false false 2 stage0_0 sem0_0 nbuf0_0 hstage0_0

abbrev spec0_1 : Pipeline.WinSpec sig grid0.rank :=
  Pipeline.WinSpec.ofSpec (Memref.whole main_v2) S1x1x512.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 k0_off1_inb numel1_S1 pf | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | ⟨_ + 2, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x512.size a ≤ S100000x1x512.size a), EltTy.bits .f32 = 32 ∨ (Rect.block (s := S100000x1x512) S1x1x512.size (cc0_transform_0 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | ⟨_ + 2, h⟩ => absurd h (Nat.not_lt.2 (Nat.le_add_left _ _))
abbrev spec1_0 : Pipeline.WinSpec sig grid1.rank :=
  Pipeline.WinSpec.ofSpec (Memref.whole main_v6) S1x1x512.size reads1_0 false false 2 stage1_0 sem1_0 nbuf1_0 hstage1_0

abbrev spec1_1 : Pipeline.WinSpec sig grid1.rank :=
  Pipeline.WinSpec.ofSpec (Memref.whole main_v7) S1x1x512.size reads1_1 true false 2 stage1_1 sem1_1 nbuf1_1 hstage1_1

abbrev spec1 : Fin 2 → Pipeline.WinSpec sig grid1.rank := fun | 0 => spec1_0 | 1 => spec1_1 | ⟨_ + 2, h⟩ => absurd h (Nat.not_lt.2 (Nat.le_add_left _ _))
theorem hcount1 : ∀ w, grid1.bufCount (spec1 w).reads (spec1 w).sync = (spec1 w).nbuf := fun | 0 => nbuf1_0 | 1 => nbuf1_1 | ⟨_ + 2, h⟩ => absurd h (Nat.not_lt.2 (Nat.le_add_left _ _))
abbrev ix1 (pf : pre1.Contents (Elt F)) : (w : Fin 2) → grid1.Coords → Fin (spec1 w).shape.rank → Nat := fun | 0 => cc1_transform_0 k1_off1_inb numel1_S1 pf | 1 => cc1_transform_1 | ⟨_ + 2, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 | ⟨_ + 2, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1x512.size a ≤ S100000x1x512.size a), EltTy.bits .f32 = 32 ∨ (Rect.block (s := S100000x1x512) S1x1x512.size (cc1_transform_0 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok i).elim fun h _ => h a | 1 => hinb1_1 | ⟨_ + 2, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok i).elim fun _ h => h | 1 => hwx1_1 | ⟨_ + 2, h⟩ => absurd h (Nat.not_lt.2 (Nat.le_add_left _ _))
abbrev spec2_0 : Pipeline.WinSpec sig grid2.rank :=
  Pipeline.WinSpec.ofSpec (Memref.whole main_v12) S1x1x512.size reads2_0 false false 2 stage2_0 sem2_0 nbuf2_0 hstage2_0

abbrev spec2_1 : Pipeline.WinSpec sig grid2.rank :=
  Pipeline.WinSpec.ofSpec (Memref.whole main_v13) S1x1x512.size reads2_1 true false 2 stage2_1 sem2_1 nbuf2_1 hstage2_1

abbrev spec2 : Fin 2 → Pipeline.WinSpec sig grid2.rank := fun | 0 => spec2_0 | 1 => spec2_1 | ⟨_ + 2, h⟩ => absurd h (Nat.not_lt.2 (Nat.le_add_left _ _))
theorem hcount2 : ∀ w, grid2.bufCount (spec2 w).reads (spec2 w).sync = (spec2 w).nbuf := fun | 0 => nbuf2_0 | 1 => nbuf2_1 | ⟨_ + 2, h⟩ => absurd h (Nat.not_lt.2 (Nat.le_add_left _ _))
abbrev ix2 (pf : pre2.Contents (Elt F)) : (w : Fin 2) → grid2.Coords → Fin (spec2 w).shape.rank → Nat := fun | 0 => cc2_transform_0 k2_off1_inb numel1_S1 pf | 1 => cc2_transform_1 | ⟨_ + 2, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 | ⟨_ + 2, h⟩ => absurd h (Nat.not_lt.2 (Nat.le_add_left _ _))
def ok2 (pf : pre2.Contents (Elt F)) : Prop :=
  (∀ i : grid2.Coords, ∃ h : (∀ a, (cc2_transform_0 k2_off1_inb numel1_S1 pf i a + 1) * S1x1x512.size a ≤ S100000x1x512.size a), EltTy.bits .f32 = 32 ∨ (Rect.block (s := S100000x1x512) S1x1x512.size (cc2_transform_0 k2_off1_inb numel1_S1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok i).elim fun h _ => h a | 1 => hinb2_1 | ⟨_ + 2, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok i).elim fun _ h => h | 1 => hwx2_1 | ⟨_ + 2, h⟩ => absurd h (Nat.not_lt.2 (Nat.le_add_left _ _))
abbrev spec3_0 : Pipeline.WinSpec sig grid3.rank :=
  Pipeline.WinSpec.ofSpec (Memref.whole main_v18) S1x1x512.size reads3_0 false false 2 stage3_0 sem3_0 nbuf3_0 hstage3_0

abbrev spec3_1 : Pipeline.WinSpec sig grid3.rank :=
  Pipeline.WinSpec.ofSpec (Memref.whole main_v19) S1x1x512.size reads3_1 true false 2 stage3_1 sem3_1 nbuf3_1 hstage3_1

abbrev spec3 : Fin 2 → Pipeline.WinSpec sig grid3.rank := fun | 0 => spec3_0 | 1 => spec3_1 | ⟨_ + 2, h⟩ => absurd h (Nat.not_lt.2 (Nat.le_add_left _ _))
theorem hcount3 : ∀ w, grid3.bufCount (spec3 w).reads (spec3 w).sync = (spec3 w).nbuf := fun | 0 => nbuf3_0 | 1 => nbuf3_1 | ⟨_ + 2, h⟩ => absurd h (Nat.not_lt.2 (Nat.le_add_left _ _))
abbrev ix3 (pf : pre3.Contents (Elt F)) : (w : Fin 2) → grid3.Coords → Fin (spec3 w).shape.rank → Nat := fun | 0 => cc3_transform_0 k3_off1_inb numel1_S1 pf | 1 => cc3_transform_1 | ⟨_ + 2, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 pf | 1 => hreads3_1 | ⟨_ + 2, h⟩ => absurd h (Nat.not_lt.2 (Nat.le_add_left _ _))
def ok3 (pf : pre3.Contents (Elt F)) : Prop :=
  (∀ i : grid3.Coords, ∃ h : (∀ a, (cc3_transform_0 k3_off1_inb numel1_S1 pf i a + 1) * S1x1x512.size a ≤ S100000x1x512.size a), EltTy.bits .f32 = 32 ∨ (Rect.block (s := S100000x1x512) S1x1x512.size (cc3_transform_0 k3_off1_inb numel1_S1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => fun i a => (hok i).elim fun h _ => h a | 1 => hinb3_1 | ⟨_ + 2, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => fun i => (hok i).elim fun _ h => h | 1 => hwx3_1 | ⟨_ + 2, h⟩ => absurd h (Nat.not_lt.2 (Nat.le_add_left _ _))
abbrev spec4_0 : Pipeline.WinSpec sig grid4.rank :=
  Pipeline.WinSpec.ofSpec (Memref.whole main_v24) S1x1x512.size reads4_0 false false 2 stage4_0 sem4_0 nbuf4_0 hstage4_0

abbrev spec4_1 : Pipeline.WinSpec sig grid4.rank :=
  Pipeline.WinSpec.ofSpec (Memref.whole main_v25) S1x1x512.size reads4_1 true false 2 stage4_1 sem4_1 nbuf4_1 hstage4_1

abbrev spec4 : Fin 2 → Pipeline.WinSpec sig grid4.rank := fun | 0 => spec4_0 | 1 => spec4_1 | ⟨_ + 2, h⟩ => absurd h (Nat.not_lt.2 (Nat.le_add_left _ _))
theorem hcount4 : ∀ w, grid4.bufCount (spec4 w).reads (spec4 w).sync = (spec4 w).nbuf := fun | 0 => nbuf4_0 | 1 => nbuf4_1 | ⟨_ + 2, h⟩ => absurd h (Nat.not_lt.2 (Nat.le_add_left _ _))
abbrev ix4 (pf : pre4.Contents (Elt F)) : (w : Fin 2) → grid4.Coords → Fin (spec4 w).shape.rank → Nat := fun | 0 => cc4_transform_0 k4_off1_inb numel1_S1 pf | 1 => cc4_transform_1 | ⟨_ + 2, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 pf | 1 => hreads4_1 | ⟨_ + 2, h⟩ => absurd h (Nat.not_lt.2 (Nat.le_add_left _ _))
def ok4 (pf : pre4.Contents (Elt F)) : Prop :=
  (∀ i : grid4.Coords, ∃ h : (∀ a, (cc4_transform_0 k4_off1_inb numel1_S1 pf i a + 1) * S1x1x512.size a ≤ S100000x1x512.size a), EltTy.bits .f32 = 32 ∨ (Rect.block (s := S100000x1x512) S1x1x512.size (cc4_transform_0 k4_off1_inb numel1_S1 pf i) h).WholeWords (EltTy.packing .f32))
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun pf hok => fun | 0 => fun i a => (hok i).elim fun h _ => h a | 1 => hinb4_1 | ⟨_ + 2, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun pf hok => fun | 0 => fun i => (hok i).elim fun _ h => h | 1 => hwx4_1 | ⟨_ + 2, h⟩ => absurd h (Nat.not_lt.2 (Nat.le_add_left _ _))
abbrev spec5_0 : Pipeline.WinSpec sig grid5.rank :=
  Pipeline.WinSpec.ofSpec (Memref.whole main_v30) S1x1x512.size reads5_0 false false 2 stage5_0 sem5_0 nbuf5_0 hstage5_0

abbrev spec5_1 : Pipeline.WinSpec sig grid5.rank :=
  Pipeline.WinSpec.ofSpec (Memref.whole main_v31) S1x1x512.size reads5_1 true false 2 stage5_1 sem5_1 nbuf5_1 hstage5_1

abbrev spec5 : Fin 2 → Pipeline.WinSpec sig grid5.rank := fun | 0 => spec5_0 | 1 => spec5_1 | ⟨_ + 2, h⟩ => absurd h (Nat.not_lt.2 (Nat.le_add_left _ _))
theorem hcount5 : ∀ w, grid5.bufCount (spec5 w).reads (spec5 w).sync = (spec5 w).nbuf := fun | 0 => nbuf5_0 | 1 => nbuf5_1 | ⟨_ + 2, h⟩ => absurd h (Nat.not_lt.2 (Nat.le_add_left _ _))
abbrev ix5 (pf : pre5.Contents (Elt F)) : (w : Fin 2) → grid5.Coords → Fin (spec5 w).shape.rank → Nat := fun | 0 => cc5_transform_0 k5_off1_inb numel1_S1 pf | 1 => cc5_transform_1 | ⟨_ + 2, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 pf | 1 => hreads5_1 | ⟨_ + 2, h⟩ => absurd h (Nat.not_lt.2 (Nat.le_add_left _ _))
def ok5 (pf : pre5.Contents (Elt F)) : Prop :=
  (∀ i : grid5.Coords, ∃ h : (∀ a, (cc5_transform_0 k5_off1_inb numel1_S1 pf i a + 1) * S1x1x512.size a ≤ S100000x1x512.size a), EltTy.bits .f32 = 32 ∨ (Rect.block (s := S100000x1x512) S1x1x512.size (cc5_transform_0 k5_off1_inb numel1_S1 pf i) h).WholeWords (EltTy.packing .f32))
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun pf hok => fun | 0 => fun i a => (hok i).elim fun h _ => h a | 1 => hinb5_1 | ⟨_ + 2, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun pf hok => fun | 0 => fun i => (hok i).elim fun _ h => h | 1 => hwx5_1 | ⟨_ + 2, h⟩ => absurd h (Nat.not_lt.2 (Nat.le_add_left _ _))
abbrev spec6_0 : Pipeline.WinSpec sig grid6.rank :=
  Pipeline.WinSpec.ofSpec (Memref.whole main_v36) S1x1x512.size reads6_0 false false 2 stage6_0 sem6_0 nbuf6_0 hstage6_0

abbrev spec6_1 : Pipeline.WinSpec sig grid6.rank :=
  Pipeline.WinSpec.ofSpec (Memref.whole main_v37) S1x1x512.size reads6_1 true false 2 stage6_1 sem6_1 nbuf6_1 hstage6_1

abbrev spec6 : Fin 2 → Pipeline.WinSpec sig grid6.rank := fun | 0 => spec6_0 | 1 => spec6_1 | ⟨_ + 2, h⟩ => absurd h (Nat.not_lt.2 (Nat.le_add_left _ _))
theorem hcount6 : ∀ w, grid6.bufCount (spec6 w).reads (spec6 w).sync = (spec6 w).nbuf := fun | 0 => nbuf6_0 | 1 => nbuf6_1 | ⟨_ + 2, h⟩ => absurd h (Nat.not_lt.2 (Nat.le_add_left _ _))
abbrev ix6 (pf : pre6.Contents (Elt F)) : (w : Fin 2) → grid6.Coords → Fin (spec6 w).shape.rank → Nat := fun | 0 => cc6_transform_0 k6_off1_inb numel1_S1 pf | 1 => cc6_transform_1 | ⟨_ + 2, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 pf | 1 => hreads6_1 | ⟨_ + 2, h⟩ => absurd h (Nat.not_lt.2 (Nat.le_add_left _ _))
def ok6 (pf : pre6.Contents (Elt F)) : Prop :=
  (∀ i : grid6.Coords, ∃ h : (∀ a, (cc6_transform_0 k6_off1_inb numel1_S1 pf i a + 1) * S1x1x512.size a ≤ S100000x1x512.size a), EltTy.bits .f32 = 32 ∨ (Rect.block (s := S100000x1x512) S1x1x512.size (cc6_transform_0 k6_off1_inb numel1_S1 pf i) h).WholeWords (EltTy.packing .f32))
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun pf hok => fun | 0 => fun i a => (hok i).elim fun h _ => h a | 1 => hinb6_1 | ⟨_ + 2, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun pf hok => fun | 0 => fun i => (hok i).elim fun _ h => h | 1 => hwx6_1 | ⟨_ + 2, h⟩ => absurd h (Nat.not_lt.2 (Nat.le_add_left _ _))
abbrev win7_0 : Pipeline.Window sig grid7 :=
  Pipeline.Window.ofSpec (Memref.whole main_arg1) S128x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v4) S128x25x512.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v41) S512x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v42) S512x512.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v43) S1x512.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v44) S128x512.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v45) S128x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v40) S128x25x512.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v41) S512x512.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v42) S512x512.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v43) S1x512.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v46) S128x512.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v44) S128x512.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v47) S128x10x512.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v48) S512x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v49) S512x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v50) S1x256.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v51) S128x256.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole

variable [Facts]
-- ==== ReferenceIdeal.lean ====
abbrev S100000x512 : Shape := ⟨2, ![100000, 512]⟩
abbrev S1024x512 : Shape := ⟨2, ![1024, 512]⟩
abbrev S512 : Shape := ⟨1, ![512]⟩
abbrev S1024x256 : Shape := ⟨2, ![1024, 256]⟩
abbrev S256 : Shape := ⟨1, ![256]⟩
abbrev S1024 : Shape := ⟨1, ![1024]⟩
abbrev S1024x25 : Shape := ⟨2, ![1024, 25]⟩
abbrev S1024x10 : Shape := ⟨2, ![1024, 10]⟩
abbrev S10240x25 : Shape := ⟨2, ![10240, 25]⟩
abbrev S_ : Shape := ⟨0, ![]⟩
abbrev S1024x25x1 : Shape := ⟨3, ![1024, 25, 1]⟩
abbrev S1024x25x512 : Shape := ⟨3, ![1024, 25, 512]⟩
abbrev S1024x1024 : Shape := ⟨2, ![1024, 1024]⟩
abbrev S1x512 : Shape := ⟨2, ![1, 512]⟩
abbrev S1024x10x1 : Shape := ⟨3, ![1024, 10, 1]⟩
abbrev S1024x10x512 : Shape := ⟨3, ![1024, 10, 512]⟩
abbrev S10240x512 : Shape := ⟨2, ![10240, 512]⟩
abbrev S10240x25x1 : Shape := ⟨3, ![10240, 25, 1]⟩
abbrev S10240x25x512 : Shape := ⟨3, ![10240, 25, 512]⟩
abbrev S10240x1024 : Shape := ⟨2, ![10240, 1024]⟩
abbrev S1x256 : Shape := ⟨2, ![1, 256]⟩

abbrev nBuf : Space → Nat
  | .hbm => 78
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1024x512, .f32⟩
  | .hbm, ⟨2, _⟩ => ⟨S1024x512, .f32⟩
  | .hbm, ⟨3, _⟩ => ⟨S512, .f32⟩
  | .hbm, ⟨4, _⟩ => ⟨S1024x256, .f32⟩
  | .hbm, ⟨5, _⟩ => ⟨S256, .f32⟩
  | .hbm, ⟨6, _⟩ => ⟨S1024, .i32⟩
  | .hbm, ⟨7, _⟩ => ⟨S1024x25, .i32⟩
  | .hbm, ⟨8, _⟩ => ⟨S1024x10, .i32⟩
  | .hbm, ⟨9, _⟩ => ⟨S10240x25, .i32⟩
  | .hbm, ⟨10, _⟩ => ⟨S_, .i32⟩
  | .hbm, ⟨11, _⟩ => ⟨S1024x25, .i32⟩
  | .hbm, ⟨12, _⟩ => ⟨S1024x25, .i1⟩
  | .hbm, ⟨13, _⟩ => ⟨S_, .i32⟩
  | .hbm, ⟨14, _⟩ => ⟨S1024x25, .i32⟩
  | .hbm, ⟨15, _⟩ => ⟨S1024x25, .i32⟩
  | .hbm, ⟨16, _⟩ => ⟨S1024x25, .i32⟩
  | .hbm, ⟨17, _⟩ => ⟨S1024x25x1, .i32⟩
  | .hbm, ⟨18, _⟩ => ⟨S1024x25x512, .f32⟩
  | .hbm, ⟨19, _⟩ => ⟨S_, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S1024x1024, .f32⟩
  | .hbm, ⟨25, _⟩ => ⟨S1024x512, .f32⟩
  | .hbm, ⟨26, _⟩ => ⟨S1x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S_, .i32⟩
  | .hbm, ⟨33, _⟩ => ⟨S1024x10, .i32⟩
  | .hbm, ⟨34, _⟩ => ⟨S1024x10, .i1⟩
  | .hbm, ⟨35, _⟩ => ⟨S_, .i32⟩
  | .hbm, ⟨36, _⟩ => ⟨S1024x10, .i32⟩
  | .hbm, ⟨37, _⟩ => ⟨S1024x10, .i32⟩
  | .hbm, ⟨38, _⟩ => ⟨S1024x10, .i32⟩
  | .hbm, ⟨39, _⟩ => ⟨S1024x10x1, .i32⟩
  | .hbm, ⟨40, _⟩ => ⟨S1024x10x512, .f32⟩
  | .hbm, ⟨41, _⟩ => ⟨S10240x512, .f32⟩
  | .hbm, ⟨42, _⟩ => ⟨S_, .i32⟩
  | .hbm, ⟨43, _⟩ => ⟨S10240x25, .i32⟩
  | .hbm, ⟨44, _⟩ => ⟨S10240x25, .i1⟩
  | .hbm, ⟨45, _⟩ => ⟨S_, .i32⟩
  | .hbm, ⟨46, _⟩ => ⟨S10240x25, .i32⟩
  | .hbm, ⟨47, _⟩ => ⟨S10240x25, .i32⟩
  | .hbm, ⟨48, _⟩ => ⟨S10240x25, .i32⟩
  | .hbm, ⟨49, _⟩ => ⟨S10240x25x1, .i32⟩
  | .hbm, ⟨50, _⟩ => ⟨S10240x25x512, .f32⟩
  | .hbm, ⟨51, _⟩ => ⟨S_, .f32⟩
  | .hbm, ⟨52, _⟩ => ⟨S10240x512, .f32⟩
  | .hbm, ⟨53, _⟩ => ⟨S_, .f32⟩
  | .hbm, ⟨54, _⟩ => ⟨S10240x512, .f32⟩
  | .hbm, ⟨55, _⟩ => ⟨S10240x512, .f32⟩
  | .hbm, ⟨56, _⟩ => ⟨S10240x1024, .f32⟩
  | .hbm, ⟨57, _⟩ => ⟨S10240x512, .f32⟩
  | .hbm, ⟨58, _⟩ => ⟨S1x512, .f32⟩
  | .hbm, ⟨59, _⟩ => ⟨S10240x512, .f32⟩
  | .hbm, ⟨60, _⟩ => ⟨S10240x512, .f32⟩
  | .hbm, ⟨61, _⟩ => ⟨S_, .f32⟩
  | .hbm, ⟨62, _⟩ => ⟨S10240x512, .f32⟩
  | .hbm, ⟨63, _⟩ => ⟨S10240x512, .f32⟩
  | .hbm, ⟨64, _⟩ => ⟨S1024x10x512, .f32⟩
  | .hbm, ⟨65, _⟩ => ⟨S_, .f32⟩
  | .hbm, ⟨66, _⟩ => ⟨S1024x512, .f32⟩
  | .hbm, ⟨67, _⟩ => ⟨S_, .f32⟩
  | .hbm, ⟨68, _⟩ => ⟨S1024x512, .f32⟩
  | .hbm, ⟨69, _⟩ => ⟨S1024x512, .f32⟩
  | .hbm, ⟨70, _⟩ => ⟨S1024x1024, .f32⟩
  | .hbm, ⟨71, _⟩ => ⟨S1024x256, .f32⟩
  | .hbm, ⟨72, _⟩ => ⟨S1x256, .f32⟩
  | .hbm, ⟨73, _⟩ => ⟨S1024x256, .f32⟩
  | .hbm, ⟨74, _⟩ => ⟨S1024x256, .f32⟩
  | .hbm, ⟨75, _⟩ => ⟨S_, .f32⟩
  | .hbm, ⟨76, _⟩ => ⟨S1024x256, .f32⟩
  | .hbm, ⟨77, _⟩ => ⟨S1024x256, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call0_cst : Ref sig .tc := ⟨.hbm, 29, rfl⟩
abbrev main_call0_v0 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call1_cst : Ref sig .tc := ⟨.hbm, 61, rfl⟩
abbrev main_call1_v0 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call2_cst : Ref sig .tc := ⟨.hbm, 75, rfl⟩
abbrev main_call2_v0 : Ref sig .tc := ⟨.hbm, 76, rfl⟩
abbrev main_v49 : Ref sig .tc := ⟨.hbm, 77, rfl⟩

abbrev nD : Nat := 1
abbrev τ : Topo := Topo.v7x

variable {F : FTy → Type} [FloatOps F]

class Facts₀ : Prop where
  bcast_S_S1024x25 : S_.BroadcastsInDim S1024x25 (![] : Fin 0 → Fin S1024x25.rank)
  bcast_S1024x25_S1024x25x1_0_1 : S1024x25.BroadcastsInDim S1024x25x1 (![0, 1] : Fin 2 → Fin S1024x25x1.rank)
  reducesTo_S1024x25x512_S1024x512_d1 : S1024x25x512.ReducesTo [1] S1024x512
  h_S_ : 0 < S_.numel
  bcast_S_S1024x512 : S_.BroadcastsInDim S1024x512 (![] : Fin 0 → Fin S1024x512.rank)
  concatenates_S1024x512_S1024x512_S1024x1024_d1 : Shape.Concatenates [S1024x512, S1024x512] S1024x1024 1
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x10 : S_.BroadcastsInDim S1024x10 (![] : Fin 0 → Fin S1024x10.rank)
  bcast_S1024x10_S1024x10x1_0_1 : S1024x10.BroadcastsInDim S1024x10x1 (![0, 1] : Fin 2 → Fin S1024x10x1.rank)
  shapeCasts_S1024x10x512_S10240x512 : S1024x10x512.ShapeCasts S10240x512
  bcast_S_S10240x25 : S_.BroadcastsInDim S10240x25 (![] : Fin 0 → Fin S10240x25.rank)
  bcast_S10240x25_S10240x25x1_0_1 : S10240x25.BroadcastsInDim S10240x25x1 (![0, 1] : Fin 2 → Fin S10240x25x1.rank)
  reducesTo_S10240x25x512_S10240x512_d1 : S10240x25x512.ReducesTo [1] S10240x512
  bcast_S_S10240x512 : S_.BroadcastsInDim S10240x512 (![] : Fin 0 → Fin S10240x512.rank)
  concatenates_S10240x512_S10240x512_S10240x1024_d1 : Shape.Concatenates [S10240x512, S10240x512] S10240x1024 1
  bcast_S1x512_S10240x512_0_1 : S1x512.BroadcastsInDim S10240x512 (![0, 1] : Fin 2 → Fin S10240x512.rank)
  shapeCasts_S10240x512_S1024x10x512 : S10240x512.ShapeCasts S1024x10x512
  reducesTo_S1024x10x512_S1024x512_d1 : S1024x10x512.ReducesTo [1] S1024x512
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  gather_S100000x512_S1024x25x1_S1024x25x512_2_0_n_n_0_2_1512_wf : GatherDims.WF S100000x512 S1024x25x1 S1024x25x512 [2] [0] [] [0] [] 2 ![1, 512]
  dot_S1024x1024_S1024x512_S1024x512_1_0_0_1_n_n_wf : DotDims.WF S1024x1024 S1024x512 S1024x512 [1] [0] [0] [1] [] []
  gather_S100000x512_S1024x10x1_S1024x10x512_2_0_n_n_0_2_1512_wf : GatherDims.WF S100000x512 S1024x10x1 S1024x10x512 [2] [0] [] [0] [] 2 ![1, 512]
  gather_S100000x512_S10240x25x1_S10240x25x512_2_0_n_n_0_2_1512_wf : GatherDims.WF S100000x512 S10240x25x1 S10240x25x512 [2] [0] [] [0] [] 2 ![1, 512]
  dot_S10240x1024_S1024x512_S10240x512_1_0_0_1_n_n_wf : DotDims.WF S10240x1024 S1024x512 S10240x512 [1] [0] [0] [1] [] []
  dot_S1024x1024_S1024x256_S1024x256_1_0_0_1_n_n_wf : DotDims.WF S1024x1024 S1024x256 S1024x256 [1] [0] [0] [1] [] []

variable [Facts₀]

def gather_S100000x512_S1024x25x1_S1024x25x512_2_0_n_n_0_2_1512 : GatherDims S100000x512 S1024x25x1 S1024x25x512 where
  offsetDims := [2]
  collapsedSliceDims := [0]
  operandBatchingDims := []
  startIndicesBatchingDims := []
  startIndexMap := [0]
  indexVectorDim := 2
  sliceSizes := ![1, 512]
  wf := gather_S100000x512_S1024x25x1_S1024x25x512_2_0_n_n_0_2_1512_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def gather_S100000x512_S1024x10x1_S1024x10x512_2_0_n_n_0_2_1512 : GatherDims S100000x512 S1024x10x1 S1024x10x512 where
  offsetDims := [2]
  collapsedSliceDims := [0]
  operandBatchingDims := []
  startIndicesBatchingDims := []
  startIndexMap := [0]
  indexVectorDim := 2
  sliceSizes := ![1, 512]
  wf := gather_S100000x512_S1024x10x1_S1024x10x512_2_0_n_n_0_2_1512_wf
def gather_S100000x512_S10240x25x1_S10240x25x512_2_0_n_n_0_2_1512 : GatherDims S100000x512 S10240x25x1 S10240x25x512 where
  offsetDims := [2]
  collapsedSliceDims := [0]
  operandBatchingDims := []
  startIndicesBatchingDims := []
  startIndexMap := [0]
  indexVectorDim := 2
  sliceSizes := ![1, 512]
  wf := gather_S100000x512_S10240x25x1_S10240x25x512_2_0_n_n_0_2_1512_wf
def dot_S10240x1024_S1024x512_S10240x512_1_0_0_1_n_n : DotDims S10240x1024 S1024x512 S10240x512 where
  lhsContracting := [1]
  rhsContracting := [0]
  lhsNonContracting := [0]
  rhsNonContracting := [1]
  lhsBatch := []
  rhsBatch := []
  wf := dot_S10240x1024_S1024x512_S10240x512_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

class Facts : Prop extends Facts₀ where

variable [Facts]
-- ==== Proof.PreIdx.lean ====
import proofs.«414926_j197568496007_1_alg».proof.Pre_finite_inputs
import Idealize.ShloMosaic.Lib.ReduceAll
import Idealize.ShloMosaic.Lib.ValueIdx

namespace Cert.PreIdx

open Idealize.ShloMosaic Cert.Pre_finite_inputs

instance subsingleton_S_ : Subsingleton S_.Idx := ⟨fun a b => funext fun d => d.elim0⟩

theorem toNat_lt_of_signed (w : BitVec 32) (h0 : IntOp.cmpi .sge w 0#32 = 1#1) (h1 : IntOp.cmpi .slt w 100000#32 = 1#1) :
    w.toNat < 100000 := by
  rw [IntOp.cmpi_sge] at h0
  rw [IntOp.cmpi_slt] at h1
  have e0 : (0#32 : BitVec 32).toInt = 0 := by decide
  have e1 : (100000#32 : BitVec 32).toInt = 100000 := by decide
  rw [e0] at h0
  rw [e1] at h1
  rw [BitVec.toInt_eq_toNat_cond] at h0 h1
  have hw := w.isLt
  split at h0 <;> omega

theorem andi_apply_eq_one {s : Shape} (x y : IVec s 1) (i : s.Idx) : andi x y i = 1#1 ↔ x i = 1#1 ∧ y i = 1#1 :=
  IntOp.andi_eq_one

theorem elem_lt {s : Shape} (hb : S_.BroadcastsInDim s (![] : Fin 0 → Fin s.rank)) (x : IVec s 32) (i : s.Idx)
    (h : andi (cmpi .sge x (broadcastInDim s ![] hb (constantI S_ 32 0#32)))
              (cmpi .slt x (broadcastInDim s ![] hb (constantI S_ 32 100000#32))) i = 1#1) :
    (x i).toNat < 100000 := by
  obtain ⟨h0, h1⟩ := (andi_apply_eq_one _ _ i).1 h
  exact toNat_lt_of_signed (x i) h0 h1

theorem all_lt {s : Shape} [Facts] (hb : S_.BroadcastsInDim s (![] : Fin 0 → Fin s.rank)) {axes : List (Fin s.rank)}
    (hr : s.ReducesTo axes S_) (x : IVec s 32) (j : S_.Idx)
    (h : Host.reduce IntOp.andi
          (andi (cmpi .sge x (broadcastInDim s ![] hb (constantI S_ 32 0#32)))
                (cmpi .slt x (broadcastInDim s ![] hb (constantI S_ 32 100000#32))))
          (constantI S_ 1 1#1) hr Facts.h_S_ j = 1#1) (i : s.Idx) :
    (x i).toNat < 100000 :=
  elem_lt hb x i (Host.reduce_andi_all _ _ hr Facts.h_S_ j h i)

theorem idx_lt {F : FTy → Type} [FloatOps F] [Facts]
    (a0 : FVec F S100000x512 .f32) (a1 : FVec F S1024x512 .f32) (a2 : FVec F S1024x512 .f32) (a3 : FVec F S512 .f32)
    (a4 : FVec F S1024x256 .f32) (a5 : FVec F S256 .f32)
    (a6 : IVec S1024 32) (a7 : IVec S1024x25 32) (a8 : IVec S1024x10 32) (a9 : IVec S10240x25 32)
    (h : fn (F := F) a0 a1 a2 a3 a4 a5 a6 a7 a8 a9 = fun _ => 1#1) :
    (∀ i, (a7 i).toNat < 100000) ∧ (∀ i, (a8 i).toNat < 100000) ∧ (∀ i, (a9 i).toNat < 100000) := by
  have e := congrFun h ValueIdx.ix0
  dsimp only [fn, fn_part1, fn_part2] at e
  obtain ⟨e1, e9⟩ := (andi_apply_eq_one _ _ _).1 e
  obtain ⟨e2, e8⟩ := (andi_apply_eq_one _ _ _).1 e1
  obtain ⟨-, e7⟩ := (andi_apply_eq_one _ _ _).1 e2
  exact ⟨all_lt _ _ a7 _ e7, all_lt _ _ a8 _ e8, all_lt _ _ a9 _ e9⟩

end Cert.PreIdx
-- ==== Proof.Tables.lean ====
import proofs.«414926_j197568496007_1_alg».proof.Proof.Gen.KernelIdeal.Launch

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

abbrev W0 (c : Dev nD) : Valuation τ sig (Elt F) := fun b => m (c, b)

def T0 : pre0.Contents (Elt F) := fun j => StableHlo.after hostOps0 (W0 m (0 : Dev nD)) (pre0.ref j)
def T1 : pre1.Contents (Elt F) := fun j => StableHlo.after hostOps1 (W0 m (0 : Dev nD)) (pre1.ref j)
def T2 : pre2.Contents (Elt F) := fun j => StableHlo.after hostOps2 (W0 m (0 : Dev nD)) (pre2.ref j)
def T3 : pre3.Contents (Elt F) := fun j => StableHlo.after hostOps3 (W0 m (0 : Dev nD)) (pre3.ref j)
def T4 : pre4.Contents (Elt F) := fun j => StableHlo.after hostOps4 (W0 m (0 : Dev nD)) (pre4.ref j)
def T5 : pre5.Contents (Elt F) := fun j => StableHlo.after hostOps5 (W0 m (0 : Dev nD)) (pre5.ref j)
def T6 : pre6.Contents (Elt F) := fun j => StableHlo.after hostOps6 (W0 m (0 : Dev nD)) (pre6.ref j)

structure Oks : Prop where
  h0 : ok0 (F := F) (T0 m)
  h1 : ok1 (F := F) (T1 m)
  h2 : ok2 (F := F) (T2 m)
  h3 : ok3 (F := F) (T3 m)
  h4 : ok4 (F := F) (T4 m)
  h5 : ok5 (F := F) (T5 m)
  h6 : ok6 (F := F) (T6 m)

end Cert.KernelIdeal.Hand

end
-- ==== Proof.OkOfPre.lean ====
import proofs.«414926_j197568496007_1_alg».proof.Proof.Tables
import proofs.«414926_j197568496007_1_alg».proof.Proof.PreIdx
import Idealize.ShloMosaic.Lib.StableHlo.Run

noncomputable section

namespace Cert.KernelIdeal.Hand

open Cert.KernelIdeal Cert.KernelIdeal.Gen
open Idealize.ShloMosaic Idealize.ShloMosaic.TcCoe Idealize.SL.Sem

variable {F : FTy → Type} [FloatOps F]

theorem block_in (w : Nat) (hw : w < 100000) : ∀ a : Fin 3, (![w, 0, 0] a + 1) * S1x1x512.size a ≤ S100000x1x512.size a
  | ⟨0, _⟩ => by show (w + 1) * 1 ≤ 100000; omega
  | ⟨1, _⟩ => by show (0 + 1) * 1 ≤ 1; omega
  | ⟨2, _⟩ => by show (0 + 1) * 512 ≤ 512; omega

variable (m : (ℓ : Loc nD τ sig) → Buf (Elt F) ℓ)

theorem T0_lt (h7 : ∀ k : S1024x25.Idx, ((m (((0 : Dev nD).tc : Thread nD τ).loc main_arg7) k : BitVec 32)).toNat < 100000) (i : S25600.Idx) :
    ((T0 m 0 i : BitVec 32)).toNat < 100000 := by
  unfold T0
  show ((StableHlo.after hostOps0 (W0 m (0 : Dev nD)) (Proc.devRef .tc main_v0) i : BitVec 32)).toNat < 100000
  after_results
  exact h7 _

theorem T1_lt (h8 : ∀ k : S1024x10.Idx, ((m (((0 : Dev nD).tc : Thread nD τ).loc main_arg8) k : BitVec 32)).toNat < 100000) (i : S10240.Idx) :
    ((T1 m 0 i : BitVec 32)).toNat < 100000 := by
  unfold T1
  show ((StableHlo.after hostOps1 (W0 m (0 : Dev nD)) (Proc.devRef .tc main_v5) i : BitVec 32)).toNat < 100000
  after_results
  exact h8 _

theorem T2_lt (h9 : ∀ k : S10240x25.Idx, ((m (((0 : Dev nD).tc : Thread nD τ).loc main_arg9) k : BitVec 32)).toNat < 100000) (i : S51200.Idx) :
    ((T2 m 0 i : BitVec 32)).toNat < 100000 := by
  unfold T2
  show ((StableHlo.after hostOps2 (W0 m (0 : Dev nD)) (Proc.devRef .tc main_v11) i : BitVec 32)).toNat < 100000
  after_results
  exact h9 _

theorem T3_lt (h9 : ∀ k : S10240x25.Idx, ((m (((0 : Dev nD).tc : Thread nD τ).loc main_arg9) k : BitVec 32)).toNat < 100000) (i : S51200.Idx) :
    ((T3 m 0 i : BitVec 32)).toNat < 100000 := by
  unfold T3
  show ((StableHlo.after hostOps3 (W0 m (0 : Dev nD)) (Proc.devRef .tc main_v17) i : BitVec 32)).toNat < 100000
  after_results
  exact h9 _

theorem T4_lt (h9 : ∀ k : S10240x25.Idx, ((m (((0 : Dev nD).tc : Thread nD τ).loc main_arg9) k : BitVec 32)).toNat < 100000) (i : S51200.Idx) :
    ((T4 m 0 i : BitVec 32)).toNat < 100000 := by
  unfold T4
  show ((StableHlo.after hostOps4 (W0 m (0 : Dev nD)) (Proc.devRef .tc main_v23) i : BitVec 32)).toNat < 100000
  after_results
  exact h9 _

theorem T5_lt (h9 : ∀ k : S10240x25.Idx, ((m (((0 : Dev nD).tc : Thread nD τ).loc main_arg9) k : BitVec 32)).toNat < 100000) (i : S51200.Idx) :
    ((T5 m 0 i : BitVec 32)).toNat < 100000 := by
  unfold T5
  show ((StableHlo.after hostOps5 (W0 m (0 : Dev nD)) (Proc.devRef .tc main_v29) i : BitVec 32)).toNat < 100000
  after_results
  exact h9 _

theorem T6_lt (h9 : ∀ k : S10240x25.Idx, ((m (((0 : Dev nD).tc : Thread nD τ).loc main_arg9) k : BitVec 32)).toNat < 100000) (i : S51200.Idx) :
    ((T6 m 0 i : BitVec 32)).toNat < 100000 := by
  unfold T6
  show ((StableHlo.after hostOps6 (W0 m (0 : Dev nD)) (Proc.devRef .tc main_v35) i : BitVec 32)).toNat < 100000
  after_results
  exact h9 _

theorem oks_of_pre [Cert.Pre_finite_inputs.Facts]
    (h : ∀ c : Dev nD, Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = fun _ => 1#1) : Oks m := by
  obtain ⟨h7, h8, h9⟩ := Cert.PreIdx.idx_lt _ _ _ _ _ _ _ _ _ _ (h 0)
  exact ⟨fun _ => ⟨block_in _ (T0_lt m h7 _), .inl rfl⟩, fun _ => ⟨block_in _ (T1_lt m h8 _), .inl rfl⟩, fun _ => ⟨block_in _ (T2_lt m h9 _), .inl rfl⟩,
    fun _ => ⟨block_in _ (T3_lt m h9 _), .inl rfl⟩, fun _ => ⟨block_in _ (T4_lt m h9 _), .inl rfl⟩, fun _ => ⟨block_in _ (T5_lt m h9 _), .inl rfl⟩,
    fun _ => ⟨block_in _ (T6_lt m h9 _), .inl rfl⟩⟩

end Cert.KernelIdeal.Hand

end
-- ==== Proof.G0.lean ====
import proofs.«414926_j197568496007_1_alg».proof.Proof.Gen.KernelIdeal.Launch
import proofs.«414926_j197568496007_1_alg».proof.Proof.Gen.KernelIdeal.Skeleton
import proofs.«414926_j197568496007_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))
variable (tbl : pre0.Contents (Elt F)) (hO : ok0 (F := F) tbl)

abbrev adm0 : (pcfg0 (F := F)).Adm := ⟨tbl, hO⟩
abbrev cfgM0 : Pipeline.Cfg sig Λ₀ := cfg0 (adm0 tbl hO)

def iblk0 (c : Dev nD) (w : Fin (cfgM0 tbl hO).W) (t : Fin (cfgM0 tbl hO).N) :
    (((cfgM0 tbl hO).win w).xblock ((cfgM0 tbl hO).grid.coords t)).Idx → Elt F ((cfgM0 tbl hO).win w).elt :=
  (((cfgM0 tbl hO).win w).blk t).view.read (Elt F) (V c (Pipeline.arrRef spec0 w))

abbrev ms0_0 (t : Fin (cfgM0 tbl hO).N) : Memref sig .tc .vmem S1x1x512 .f32 := spec0_0.stage ((cfgM0 tbl hO).slots t 0)
abbrev hs0_0 (t : Fin (cfgM0 tbl hO).N) : (ms0_0 tbl hO t).IsWhole := hstage0_0 (((cfgM0 tbl hO).slots t 0).cast nbuf0_0)
abbrev ms0_1 (t : Fin (cfgM0 tbl hO).N) : Memref sig .tc .vmem S1x1x512 .f32 := spec0_1.stage ((cfgM0 tbl hO).slots t 1)
abbrev hs0_1 (t : Fin (cfgM0 tbl hO).N) : (ms0_1 tbl hO t).IsWhole := hstage0_1 (((cfgM0 tbl hO).slots t 1).cast nbuf0_1)

end

/-- Some coordinates of the first call's grid: the row-gather body uses neither them nor the id table. -/
abbrev i₀ : grid0.Coords := grid0.coords ⟨0, by decide⟩

abbrev r0_0 : Rect S1x1x512 := Rect.unit (s := S1x1x512) ![0, 0, 0] S1x1x512.size inb_S1x1x512_S1x1x512_0_0_0

/-- The body stores its input row unchanged: the payload is a reshape to the same shape. -/
theorem copied (x0 : Vec F S1x1x512 .f32) : View.canon [⟨r0_0, k0_pay1 (View.ld x0 r0_0)⟩] = x0 := by
  rw [View.canon_unit_zero (funext fun a => by fin_cases a <;> rfl),
    show k0_pay1 (View.ld x0 r0_0) = View.ld x0 r0_0 from shapeCast_self _ _,
    View.ld_unit_zero (S := S1x1x512) (funext fun a => by fin_cases a <;> rfl)]

theorem cover0_1 (p0 : Vec F S1x1x512 .f32) (y : S1x1x512.Idx) :
    ∃ pc ∈ ([⟨r0_0, p0⟩] : List (View.Piece (Elt F) S1x1x512 .f32)), y ∈ pc.1.set :=
  View.cover_of_tiled [⟨r0_0, p0⟩] S1x1x512.size (by rfl) y

set_option maxHeartbeats 1000000 in
/-- The body copies its input row `x` to its output row; every other resource is returned untouched. -/
theorem copy_body (c : Dev nD) (Φ O : sProp 𝕄) (a2 : Memref sig .tc .vmem S1x1x512 .f32) (h2 : a2.IsWhole)
    (a3 : Memref sig .tc .vmem S1x1x512 .f32) (h3 : a3.IsWhole) {D D' : Type} (x' : D → Vec F S1x1x512 .f32) (y : D' → Vec F S1x1x512 .f32)
    (x : Vec F S1x1x512 .f32) (hx : ∀ d, x' d = x) :
    iprop(Φ ∗ O ∗ (∃ d, owns (c : Thread nD τ) a2 fullShare (x' d)) ∗ (∃ d, owns (c : Thread nD τ) a3 fullShare (y d)))
      ⊢ wp frame (wpE (defs₀ (F := F)) Variants.none c none) Set.univ
          (cc0__gather_kernel i₀ (Memref.whole main_v0) (Memref.isWhole_whole _) a2 h2 a3 h3)
          (fun _ => iprop(Φ ∗ O ∗ owns (c : Thread nD τ) a2 fullShare x ∗ owns (c : Thread nD τ) a3 fullShare x)) := by
  simp only [hx]
  simp only [cc0__gather_kernel_eq_skeleton]; unfold cc0__gather_kernel_skel
  unfold owns
  iintro ⟨HΦ, Ho, ⟨%d0, %f0, %hf0, H0⟩, ⟨%d1, %f1, -, H1⟩⟩
  subst hf0
  sl_exec
  sl_step
  isplitl [HΦ]; · iexact HΦ
  isplitl [Ho]; · iexact Ho
  isplitl [H0]
  · iexists f0; isplitr; · ipureintro; rfl
    iexact H0
  iexists _; isplitr
  swap; · iexact H1
  ipureintro
  exact (View.read_writes_eq_canon _ _ _ (cover0_1 _)).trans (copied _)

section
variable (V : (c : Dev nD) → (b : Ref sig .tc) → Buf (Elt F) ((c : Thread nD τ).loc b))
variable (tbl : pre0.Contents (Elt F)) (hO : ok0 (F := F) tbl)

def dat0 (c : Dev nD) : Dat τ (Elt F) Unit ℕ (UR sig nD τ) ℕ (cfgM0 tbl hO) c where
  A w := V c (Pipeline.arrRef spec0 w)
  after w t := match w with
    | ⟨0, _⟩ => iblk0 V tbl hO c 0 t
    | ⟨1, _⟩ => iblk0 V tbl hO c 0 t
  Φ _ := iprop(Pipeline.ΦA spec0 c ∗ Pipeline.prefHeld pre0 c (fun _ => fullShare) tbl)
  q _ := fullShare
  owed _ := 0

theorem before0_0 (c : Dev nD) (t : Fin (cfgM0 tbl hO).N) (d) : (dat0 V tbl hO c).before 0 t d = iblk0 V tbl hO c 0 t :=
  ((dat0 V tbl hO c).before_in_eq_fetched 0 rfl (fun _ => rfl) (fun _ _ _ => rfl) (fun _ => rfl) t d).trans rfl

theorem body_obligation0 (c : Dev nD) : BodyObligation (dat0 (F := F) V tbl hO c) (defs₀ (F := F)) Variants.none () Set.univ := fun t => by
  rw [bigSep_W0, bigSep_W0]
  exact copy_body c _ _ (ms0_0 tbl hO t) (hs0_0 tbl hO t) (ms0_1 tbl hO t) (hs0_1 tbl hO t) _ _ _ (before0_0 V tbl hO c t)

end

end Cert.KernelIdeal.Hand

end
-- ==== Proof.B0.lean ====
import proofs.«414926_j197568496007_1_alg».proof.Proof.Tables
import proofs.«414926_j197568496007_1_alg».proof.Proof.G0
import proofs.«414926_j197568496007_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

abbrev keep : List (Ref sig .tc) :=
  [main_arg0, main_arg1, main_arg2, main_arg3, main_arg4, main_arg5, main_arg6, main_arg7, main_arg8, main_arg9]

section
variable (m : (ℓ : Loc nD τ sig) → Buf (Elt F) ℓ) (hO : Oks m)

abbrev W1 (c : Dev nD) : Valuation τ sig (Elt F) := StableHlo.after hostOps0 (W0 m c)

abbrev V1 (c : Dev nD) (b : Ref sig .tc) : Buf (Elt F) ((c : Thread nD τ).loc b) := W1 m c b

theorem tblAt0 (c : Dev nD) (j : Fin pre0.K) : V1 m c (pre0.ref j) = T0 m j := by
  obtain rfl : c = 0 := Subsingleton.elim _ _; rfl

def W2 (c : Dev nD) : Valuation τ sig (Elt F) :=
  Pipeline.withArrays spec0 c (W1 m c) fun w => (dat0 (V1 m) (T0 m) hO.h0 c).arrAt w (cfgM0 (T0 m) hO.h0).N
theorem W2_arr (c : Dev nD) (w : Fin (cfgM0 (T0 m) hO.h0).W) :
    W2 m hO c (Proc.devRef .tc (Pipeline.arrRef spec0 w)) = (dat0 (V1 m) (T0 m) hO.h0 c).arrAt w (cfgM0 (T0 m) hO.h0).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m hO c (Proc.devRef .tc b) = W1 m c (Proc.devRef .tc b) := by
  unfold W2; exact Pipeline.withArrays_of_ne spec0 c _ _ b hb

theorem W2_all (c : Dev nD) (r : Ref sig .tc) (hr : r ∈ keep) : W2 m hO c r = W0 m c r :=
  (W2_of_ne m hO c r ((by decide : ∀ r ∈ keep, ∀ w : Fin 2, Pipeline.arrRef spec0 w ≠ r) r hr)).trans
    (StableHlo.after_of_writes_sub hostOps0 _ hostOps0_writes ((by decide : ∀ r ∈ keep, r ∉ hostOps0_W) r hr))

end

end Cert.KernelIdeal.Hand

end
-- ==== Proof.G1.lean ====
import proofs.«414926_j197568496007_1_alg».proof.Proof.G0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))
variable (tbl : pre1.Contents (Elt F)) (hO : ok1 (F := F) tbl)

abbrev adm1 : (pcfg1 (F := F)).Adm := ⟨tbl, hO⟩
abbrev cfgM1 : Pipeline.Cfg sig Λ₀ := cfg1 (adm1 tbl hO)

def iblk1 (c : Dev nD) (w : Fin (cfgM1 tbl hO).W) (t : Fin (cfgM1 tbl hO).N) :
    (((cfgM1 tbl hO).win w).xblock ((cfgM1 tbl hO).grid.coords t)).Idx → Elt F ((cfgM1 tbl hO).win w).elt :=
  (((cfgM1 tbl hO).win w).blk t).view.read (Elt F) (V c (Pipeline.arrRef spec1 w))

abbrev ms1_0 (t : Fin (cfgM1 tbl hO).N) : Memref sig .tc .vmem S1x1x512 .f32 := spec1_0.stage ((cfgM1 tbl hO).slots t 0)
abbrev hs1_0 (t : Fin (cfgM1 tbl hO).N) : (ms1_0 tbl hO t).IsWhole := hstage1_0 (((cfgM1 tbl hO).slots t 0).cast nbuf1_0)
abbrev ms1_1 (t : Fin (cfgM1 tbl hO).N) : Memref sig .tc .vmem S1x1x512 .f32 := spec1_1.stage ((cfgM1 tbl hO).slots t 1)
abbrev hs1_1 (t : Fin (cfgM1 tbl hO).N) : (ms1_1 tbl hO t).IsWhole := hstage1_1 (((cfgM1 tbl hO).slots t 1).cast nbuf1_1)

def dat1 (c : Dev nD) : Dat τ (Elt F) Unit ℕ (UR sig nD τ) ℕ (cfgM1 tbl hO) c where
  A w := V c (Pipeline.arrRef spec1 w)
  after w t := match w with
    | ⟨0, _⟩ => iblk1 V tbl hO c 0 t
    | ⟨1, _⟩ => iblk1 V tbl hO c 0 t
  Φ _ := iprop(Pipeline.ΦA spec1 c ∗ Pipeline.prefHeld pre1 c (fun _ => fullShare) tbl)
  q _ := fullShare
  owed _ := 0

theorem before1_0 (c : Dev nD) (t : Fin (cfgM1 tbl hO).N) (d) : (dat1 V tbl hO c).before 0 t d = iblk1 V tbl hO c 0 t :=
  ((dat1 V tbl hO c).before_in_eq_fetched 0 rfl (fun _ => rfl) (fun _ _ _ => rfl) (fun _ => rfl) t d).trans rfl

theorem body_obligation1 (c : Dev nD) : BodyObligation (dat1 (F := F) V tbl hO c) (defs₀ (F := F)) Variants.none () Set.univ := fun t => by
  rw [bigSep_W1, bigSep_W1]
  exact copy_body c _ _ (ms1_0 tbl hO t) (hs1_0 tbl hO t) (ms1_1 tbl hO t) (hs1_1 tbl hO t) _ _ _ (before1_0 V tbl hO c t)

end

end Cert.KernelIdeal.Hand

end
-- ==== Proof.B1.lean ====
import proofs.«414926_j197568496007_1_alg».proof.Proof.B0
import proofs.«414926_j197568496007_1_alg».proof.Proof.G1

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

section
variable (m : (ℓ : Loc nD τ sig) → Buf (Elt F) ℓ) (hO : Oks m)

abbrev W3 (c : Dev nD) : Valuation τ sig (Elt F) := StableHlo.after hostOps1 (W2 m hO c)

abbrev V3 (c : Dev nD) (b : Ref sig .tc) : Buf (Elt F) ((c : Thread nD τ).loc b) := W3 m hO c b

theorem tblAt1 (c : Dev nD) (j : Fin pre1.K) : V3 m hO c (pre1.ref j) = T1 m j := by
  obtain rfl : c = 0 := Subsingleton.elim _ _
  match j with
  | ⟨0, _⟩ =>
    show StableHlo.after hostOps1 (W2 m hO 0) (Proc.devRef .tc main_v5) = StableHlo.after hostOps1 (W0 m 0) (Proc.devRef .tc main_v5)
    after_results
    rw [W2_all m hO 0 main_arg8 (by decide)]

def W4 (c : Dev nD) : Valuation τ sig (Elt F) :=
  Pipeline.withArrays spec1 c (W3 m hO c) fun w => (dat1 (V3 m hO) (T1 m) hO.h1 c).arrAt w (cfgM1 (T1 m) hO.h1).N
theorem W4_arr (c : Dev nD) (w : Fin (cfgM1 (T1 m) hO.h1).W) :
    W4 m hO c (Proc.devRef .tc (Pipeline.arrRef spec1 w)) = (dat1 (V3 m hO) (T1 m) hO.h1 c).arrAt w (cfgM1 (T1 m) hO.h1).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m hO c (Proc.devRef .tc b) = W3 m hO c (Proc.devRef .tc b) := by
  unfold W4; exact Pipeline.withArrays_of_ne spec1 c _ _ b hb

theorem W4_all (c : Dev nD) (r : Ref sig .tc) (hr : r ∈ keep) : W4 m hO c r = W0 m c r :=
  (W4_of_ne m hO c r ((by decide : ∀ r ∈ keep, ∀ w : Fin 2, Pipeline.arrRef spec1 w ≠ r) r hr)).trans
    ((StableHlo.after_of_writes_sub hostOps1 _ hostOps1_writes ((by decide : ∀ r ∈ keep, r ∉ hostOps1_W) r hr)).trans (W2_all m hO c r hr))

end

end Cert.KernelIdeal.Hand

end
-- ==== Proof.G2.lean ====
import proofs.«414926_j197568496007_1_alg».proof.Proof.G0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))
variable (tbl : pre2.Contents (Elt F)) (hO : ok2 (F := F) tbl)

abbrev adm2 : (pcfg2 (F := F)).Adm := ⟨tbl, hO⟩
abbrev cfgM2 : Pipeline.Cfg sig Λ₀ := cfg2 (adm2 tbl hO)

def iblk2 (c : Dev nD) (w : Fin (cfgM2 tbl hO).W) (t : Fin (cfgM2 tbl hO).N) :
    (((cfgM2 tbl hO).win w).xblock ((cfgM2 tbl hO).grid.coords t)).Idx → Elt F ((cfgM2 tbl hO).win w).elt :=
  (((cfgM2 tbl hO).win w).blk t).view.read (Elt F) (V c (Pipeline.arrRef spec2 w))

abbrev ms2_0 (t : Fin (cfgM2 tbl hO).N) : Memref sig .tc .vmem S1x1x512 .f32 := spec2_0.stage ((cfgM2 tbl hO).slots t 0)
abbrev hs2_0 (t : Fin (cfgM2 tbl hO).N) : (ms2_0 tbl hO t).IsWhole := hstage2_0 (((cfgM2 tbl hO).slots t 0).cast nbuf2_0)
abbrev ms2_1 (t : Fin (cfgM2 tbl hO).N) : Memref sig .tc .vmem S1x1x512 .f32 := spec2_1.stage ((cfgM2 tbl hO).slots t 1)
abbrev hs2_1 (t : Fin (cfgM2 tbl hO).N) : (ms2_1 tbl hO t).IsWhole := hstage2_1 (((cfgM2 tbl hO).slots t 1).cast nbuf2_1)

def dat2 (c : Dev nD) : Dat τ (Elt F) Unit ℕ (UR sig nD τ) ℕ (cfgM2 tbl hO) c where
  A w := V c (Pipeline.arrRef spec2 w)
  after w t := match w with
    | ⟨0, _⟩ => iblk2 V tbl hO c 0 t
    | ⟨1, _⟩ => iblk2 V tbl hO c 0 t
  Φ _ := iprop(Pipeline.ΦA spec2 c ∗ Pipeline.prefHeld pre2 c (fun _ => fullShare) tbl)
  q _ := fullShare
  owed _ := 0

theorem before2_0 (c : Dev nD) (t : Fin (cfgM2 tbl hO).N) (d) : (dat2 V tbl hO c).before 0 t d = iblk2 V tbl hO c 0 t :=
  ((dat2 V tbl hO c).before_in_eq_fetched 0 rfl (fun _ => rfl) (fun _ _ _ => rfl) (fun _ => rfl) t d).trans rfl

theorem body_obligation2 (c : Dev nD) : BodyObligation (dat2 (F := F) V tbl hO c) (defs₀ (F := F)) Variants.none () Set.univ := fun t => by
  rw [bigSep_W2, bigSep_W2]
  exact copy_body c _ _ (ms2_0 tbl hO t) (hs2_0 tbl hO t) (ms2_1 tbl hO t) (hs2_1 tbl hO t) _ _ _ (before2_0 V tbl hO c t)

end

end Cert.KernelIdeal.Hand

end
-- ==== Proof.B2.lean ====
import proofs.«414926_j197568496007_1_alg».proof.Proof.B1
import proofs.«414926_j197568496007_1_alg».proof.Proof.G2

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

section
variable (m : (ℓ : Loc nD τ sig) → Buf (Elt F) ℓ) (hO : Oks m)

abbrev W5 (c : Dev nD) : Valuation τ sig (Elt F) := StableHlo.after hostOps2 (W4 m hO c)

abbrev V5 (c : Dev nD) (b : Ref sig .tc) : Buf (Elt F) ((c : Thread nD τ).loc b) := W5 m hO c b

theorem tblAt2 (c : Dev nD) (j : Fin pre2.K) : V5 m hO c (pre2.ref j) = T2 m j := by
  obtain rfl : c = 0 := Subsingleton.elim _ _
  match j with
  | ⟨0, _⟩ =>
    show StableHlo.after hostOps2 (W4 m hO 0) (Proc.devRef .tc main_v11) = StableHlo.after hostOps2 (W0 m 0) (Proc.devRef .tc main_v11)
    after_results
    rw [W4_all m hO 0 main_arg9 (by decide)]

def W6 (c : Dev nD) : Valuation τ sig (Elt F) :=
  Pipeline.withArrays spec2 c (W5 m hO c) fun w => (dat2 (V5 m hO) (T2 m) hO.h2 c).arrAt w (cfgM2 (T2 m) hO.h2).N
theorem W6_arr (c : Dev nD) (w : Fin (cfgM2 (T2 m) hO.h2).W) :
    W6 m hO c (Proc.devRef .tc (Pipeline.arrRef spec2 w)) = (dat2 (V5 m hO) (T2 m) hO.h2 c).arrAt w (cfgM2 (T2 m) hO.h2).N := by
  unfold W6; exact Pipeline.withArrays_arr spec2 (launch2 (F := F)).win.arr_inj c _ _ w
theorem W6_of_ne (c : Dev nD) (b : Ref sig .tc) (hb : ∀ w, Pipeline.arrRef spec2 w ≠ b) :
    W6 m hO c (Proc.devRef .tc b) = W5 m hO c (Proc.devRef .tc b) := by
  unfold W6; exact Pipeline.withArrays_of_ne spec2 c _ _ b hb

theorem W6_all (c : Dev nD) (r : Ref sig .tc) (hr : r ∈ keep) : W6 m hO c r = W0 m c r :=
  (W6_of_ne m hO c r ((by decide : ∀ r ∈ keep, ∀ w : Fin 2, Pipeline.arrRef spec2 w ≠ r) r hr)).trans
    ((StableHlo.after_of_writes_sub hostOps2 _ hostOps2_writes ((by decide : ∀ r ∈ keep, r ∉ hostOps2_W) r hr)).trans (W4_all m hO c r hr))

end

end Cert.KernelIdeal.Hand

end
-- ==== Proof.G3.lean ====
import proofs.«414926_j197568496007_1_alg».proof.Proof.G0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))
variable (tbl : pre3.Contents (Elt F)) (hO : ok3 (F := F) tbl)

abbrev adm3 : (pcfg3 (F := F)).Adm := ⟨tbl, hO⟩
abbrev cfgM3 : Pipeline.Cfg sig Λ₀ := cfg3 (adm3 tbl hO)

def iblk3 (c : Dev nD) (w : Fin (cfgM3 tbl hO).W) (t : Fin (cfgM3 tbl hO).N) :
    (((cfgM3 tbl hO).win w).xblock ((cfgM3 tbl hO).grid.coords t)).Idx → Elt F ((cfgM3 tbl hO).win w).elt :=
  (((cfgM3 tbl hO).win w).blk t).view.read (Elt F) (V c (Pipeline.arrRef spec3 w))

abbrev ms3_0 (t : Fin (cfgM3 tbl hO).N) : Memref sig .tc .vmem S1x1x512 .f32 := spec3_0.stage ((cfgM3 tbl hO).slots t 0)
abbrev hs3_0 (t : Fin (cfgM3 tbl hO).N) : (ms3_0 tbl hO t).IsWhole := hstage3_0 (((cfgM3 tbl hO).slots t 0).cast nbuf3_0)
abbrev ms3_1 (t : Fin (cfgM3 tbl hO).N) : Memref sig .tc .vmem S1x1x512 .f32 := spec3_1.stage ((cfgM3 tbl hO).slots t 1)
abbrev hs3_1 (t : Fin (cfgM3 tbl hO).N) : (ms3_1 tbl hO t).IsWhole := hstage3_1 (((cfgM3 tbl hO).slots t 1).cast nbuf3_1)

def dat3 (c : Dev nD) : Dat τ (Elt F) Unit ℕ (UR sig nD τ) ℕ (cfgM3 tbl hO) c where
  A w := V c (Pipeline.arrRef spec3 w)
  after w t := match w with
    | ⟨0, _⟩ => iblk3 V tbl hO c 0 t
    | ⟨1, _⟩ => iblk3 V tbl hO c 0 t
  Φ _ := iprop(Pipeline.ΦA spec3 c ∗ Pipeline.prefHeld pre3 c (fun _ => fullShare) tbl)
  q _ := fullShare
  owed _ := 0

theorem before3_0 (c : Dev nD) (t : Fin (cfgM3 tbl hO).N) (d) : (dat3 V tbl hO c).before 0 t d = iblk3 V tbl hO c 0 t :=
  ((dat3 V tbl hO c).before_in_eq_fetched 0 rfl (fun _ => rfl) (fun _ _ _ => rfl) (fun _ => rfl) t d).trans rfl

theorem body_obligation3 (c : Dev nD) : BodyObligation (dat3 (F := F) V tbl hO c) (defs₀ (F := F)) Variants.none () Set.univ := fun t => by
  rw [bigSep_W3, bigSep_W3]
  exact copy_body c _ _ (ms3_0 tbl hO t) (hs3_0 tbl hO t) (ms3_1 tbl hO t) (hs3_1 tbl hO t) _ _ _ (before3_0 V tbl hO c t)

end

end Cert.KernelIdeal.Hand

end
-- ==== Proof.B3.lean ====
import proofs.«414926_j197568496007_1_alg».proof.Proof.B2
import proofs.«414926_j197568496007_1_alg».proof.Proof.G3

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

section
variable (m : (ℓ : Loc nD τ sig) → Buf (Elt F) ℓ) (hO : Oks m)

abbrev W7 (c : Dev nD) : Valuation τ sig (Elt F) := StableHlo.after hostOps3 (W6 m hO c)

abbrev V7 (c : Dev nD) (b : Ref sig .tc) : Buf (Elt F) ((c : Thread nD τ).loc b) := W7 m hO c b

theorem tblAt3 (c : Dev nD) (j : Fin pre3.K) : V7 m hO c (pre3.ref j) = T3 m j := by
  obtain rfl : c = 0 := Subsingleton.elim _ _
  match j with
  | ⟨0, _⟩ =>
    show StableHlo.after hostOps3 (W6 m hO 0) (Proc.devRef .tc main_v17) = StableHlo.after hostOps3 (W0 m 0) (Proc.devRef .tc main_v17)
    after_results
    rw [W6_all m hO 0 main_arg9 (by decide)]

def W8 (c : Dev nD) : Valuation τ sig (Elt F) :=
  Pipeline.withArrays spec3 c (W7 m hO c) fun w => (dat3 (V7 m hO) (T3 m) hO.h3 c).arrAt w (cfgM3 (T3 m) hO.h3).N
theorem W8_arr (c : Dev nD) (w : Fin (cfgM3 (T3 m) hO.h3).W) :
    W8 m hO c (Proc.devRef .tc (Pipeline.arrRef spec3 w)) = (dat3 (V7 m hO) (T3 m) hO.h3 c).arrAt w (cfgM3 (T3 m) hO.h3).N := by
  unfold W8; exact Pipeline.withArrays_arr spec3 (launch3 (F := F)).win.arr_inj c _ _ w
theorem W8_of_ne (c : Dev nD) (b : Ref sig .tc) (hb : ∀ w, Pipeline.arrRef spec3 w ≠ b) :
    W8 m hO c (Proc.devRef .tc b) = W7 m hO c (Proc.devRef .tc b) := by
  unfold W8; exact Pipeline.withArrays_of_ne spec3 c _ _ b hb

theorem W8_all (c : Dev nD) (r : Ref sig .tc) (hr : r ∈ keep) : W8 m hO c r = W0 m c r :=
  (W8_of_ne m hO c r ((by decide : ∀ r ∈ keep, ∀ w : Fin 2, Pipeline.arrRef spec3 w ≠ r) r hr)).trans
    ((StableHlo.after_of_writes_sub hostOps3 _ hostOps3_writes ((by decide : ∀ r ∈ keep, r ∉ hostOps3_W) r hr)).trans (W6_all m hO c r hr))

end

end Cert.KernelIdeal.Hand

end
-- ==== Proof.G4.lean ====
import proofs.«414926_j197568496007_1_alg».proof.Proof.G0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))
variable (tbl : pre4.Contents (Elt F)) (hO : ok4 (F := F) tbl)

abbrev adm4 : (pcfg4 (F := F)).Adm := ⟨tbl, hO⟩
abbrev cfgM4 : Pipeline.Cfg sig Λ₀ := cfg4 (adm4 tbl hO)

def iblk4 (c : Dev nD) (w : Fin (cfgM4 tbl hO).W) (t : Fin (cfgM4 tbl hO).N) :
    (((cfgM4 tbl hO).win w).xblock ((cfgM4 tbl hO).grid.coords t)).Idx → Elt F ((cfgM4 tbl hO).win w).elt :=
  (((cfgM4 tbl hO).win w).blk t).view.read (Elt F) (V c (Pipeline.arrRef spec4 w))

abbrev ms4_0 (t : Fin (cfgM4 tbl hO).N) : Memref sig .tc .vmem S1x1x512 .f32 := spec4_0.stage ((cfgM4 tbl hO).slots t 0)
abbrev hs4_0 (t : Fin (cfgM4 tbl hO).N) : (ms4_0 tbl hO t).IsWhole := hstage4_0 (((cfgM4 tbl hO).slots t 0).cast nbuf4_0)
abbrev ms4_1 (t : Fin (cfgM4 tbl hO).N) : Memref sig .tc .vmem S1x1x512 .f32 := spec4_1.stage ((cfgM4 tbl hO).slots t 1)
abbrev hs4_1 (t : Fin (cfgM4 tbl hO).N) : (ms4_1 tbl hO t).IsWhole := hstage4_1 (((cfgM4 tbl hO).slots t 1).cast nbuf4_1)

def dat4 (c : Dev nD) : Dat τ (Elt F) Unit ℕ (UR sig nD τ) ℕ (cfgM4 tbl hO) c where
  A w := V c (Pipeline.arrRef spec4 w)
  after w t := match w with
    | ⟨0, _⟩ => iblk4 V tbl hO c 0 t
    | ⟨1, _⟩ => iblk4 V tbl hO c 0 t
  Φ _ := iprop(Pipeline.ΦA spec4 c ∗ Pipeline.prefHeld pre4 c (fun _ => fullShare) tbl)
  q _ := fullShare
  owed _ := 0

theorem before4_0 (c : Dev nD) (t : Fin (cfgM4 tbl hO).N) (d) : (dat4 V tbl hO c).before 0 t d = iblk4 V tbl hO c 0 t :=
  ((dat4 V tbl hO c).before_in_eq_fetched 0 rfl (fun _ => rfl) (fun _ _ _ => rfl) (fun _ => rfl) t d).trans rfl

theorem body_obligation4 (c : Dev nD) : BodyObligation (dat4 (F := F) V tbl hO c) (defs₀ (F := F)) Variants.none () Set.univ := fun t => by
  rw [bigSep_W4, bigSep_W4]
  exact copy_body c _ _ (ms4_0 tbl hO t) (hs4_0 tbl hO t) (ms4_1 tbl hO t) (hs4_1 tbl hO t) _ _ _ (before4_0 V tbl hO c t)

end

end Cert.KernelIdeal.Hand

end
-- ==== Proof.B4.lean ====
import proofs.«414926_j197568496007_1_alg».proof.Proof.B3
import proofs.«414926_j197568496007_1_alg».proof.Proof.G4

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

section
variable (m : (ℓ : Loc nD τ sig) → Buf (Elt F) ℓ) (hO : Oks m)

abbrev W9 (c : Dev nD) : Valuation τ sig (Elt F) := StableHlo.after hostOps4 (W8 m hO c)

abbrev V9 (c : Dev nD) (b : Ref sig .tc) : Buf (Elt F) ((c : Thread nD τ).loc b) := W9 m hO c b

theorem tblAt4 (c : Dev nD) (j : Fin pre4.K) : V9 m hO c (pre4.ref j) = T4 m j := by
  obtain rfl : c = 0 := Subsingleton.elim _ _
  match j with
  | ⟨0, _⟩ =>
    show StableHlo.after hostOps4 (W8 m hO 0) (Proc.devRef .tc main_v23) = StableHlo.after hostOps4 (W0 m 0) (Proc.devRef .tc main_v23)
    after_results
    rw [W8_all m hO 0 main_arg9 (by decide)]

def W10 (c : Dev nD) : Valuation τ sig (Elt F) :=
  Pipeline.withArrays spec4 c (W9 m hO c) fun w => (dat4 (V9 m hO) (T4 m) hO.h4 c).arrAt w (cfgM4 (T4 m) hO.h4).N
theorem W10_arr (c : Dev nD) (w : Fin (cfgM4 (T4 m) hO.h4).W) :
    W10 m hO c (Proc.devRef .tc (Pipeline.arrRef spec4 w)) = (dat4 (V9 m hO) (T4 m) hO.h4 c).arrAt w (cfgM4 (T4 m) hO.h4).N := by
  unfold W10; exact Pipeline.withArrays_arr spec4 (launch4 (F := F)).win.arr_inj c _ _ w
theorem W10_of_ne (c : Dev nD) (b : Ref sig .tc) (hb : ∀ w, Pipeline.arrRef spec4 w ≠ b) :
    W10 m hO c (Proc.devRef .tc b) = W9 m hO c (Proc.devRef .tc b) := by
  unfold W10; exact Pipeline.withArrays_of_ne spec4 c _ _ b hb

theorem W10_all (c : Dev nD) (r : Ref sig .tc) (hr : r ∈ keep) : W10 m hO c r = W0 m c r :=
  (W10_of_ne m hO c r ((by decide : ∀ r ∈ keep, ∀ w : Fin 2, Pipeline.arrRef spec4 w ≠ r) r hr)).trans
    ((StableHlo.after_of_writes_sub hostOps4 _ hostOps4_writes ((by decide : ∀ r ∈ keep, r ∉ hostOps4_W) r hr)).trans (W8_all m hO c r hr))

end

end Cert.KernelIdeal.Hand

end
-- ==== Proof.G5.lean ====
import proofs.«414926_j197568496007_1_alg».proof.Proof.G0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))
variable (tbl : pre5.Contents (Elt F)) (hO : ok5 (F := F) tbl)

abbrev adm5 : (pcfg5 (F := F)).Adm := ⟨tbl, hO⟩
abbrev cfgM5 : Pipeline.Cfg sig Λ₀ := cfg5 (adm5 tbl hO)

def iblk5 (c : Dev nD) (w : Fin (cfgM5 tbl hO).W) (t : Fin (cfgM5 tbl hO).N) :
    (((cfgM5 tbl hO).win w).xblock ((cfgM5 tbl hO).grid.coords t)).Idx → Elt F ((cfgM5 tbl hO).win w).elt :=
  (((cfgM5 tbl hO).win w).blk t).view.read (Elt F) (V c (Pipeline.arrRef spec5 w))

abbrev ms5_0 (t : Fin (cfgM5 tbl hO).N) : Memref sig .tc .vmem S1x1x512 .f32 := spec5_0.stage ((cfgM5 tbl hO).slots t 0)
abbrev hs5_0 (t : Fin (cfgM5 tbl hO).N) : (ms5_0 tbl hO t).IsWhole := hstage5_0 (((cfgM5 tbl hO).slots t 0).cast nbuf5_0)
abbrev ms5_1 (t : Fin (cfgM5 tbl hO).N) : Memref sig .tc .vmem S1x1x512 .f32 := spec5_1.stage ((cfgM5 tbl hO).slots t 1)
abbrev hs5_1 (t : Fin (cfgM5 tbl hO).N) : (ms5_1 tbl hO t).IsWhole := hstage5_1 (((cfgM5 tbl hO).slots t 1).cast nbuf5_1)

def dat5 (c : Dev nD) : Dat τ (Elt F) Unit ℕ (UR sig nD τ) ℕ (cfgM5 tbl hO) c where
  A w := V c (Pipeline.arrRef spec5 w)
  after w t := match w with
    | ⟨0, _⟩ => iblk5 V tbl hO c 0 t
    | ⟨1, _⟩ => iblk5 V tbl hO c 0 t
  Φ _ := iprop(Pipeline.ΦA spec5 c ∗ Pipeline.prefHeld pre5 c (fun _ => fullShare) tbl)
  q _ := fullShare
  owed _ := 0

theorem before5_0 (c : Dev nD) (t : Fin (cfgM5 tbl hO).N) (d) : (dat5 V tbl hO c).before 0 t d = iblk5 V tbl hO c 0 t :=
  ((dat5 V tbl hO c).before_in_eq_fetched 0 rfl (fun _ => rfl) (fun _ _ _ => rfl) (fun _ => rfl) t d).trans rfl

theorem body_obligation5 (c : Dev nD) : BodyObligation (dat5 (F := F) V tbl hO c) (defs₀ (F := F)) Variants.none () Set.univ := fun t => by
  rw [bigSep_W5, bigSep_W5]
  exact copy_body c _ _ (ms5_0 tbl hO t) (hs5_0 tbl hO t) (ms5_1 tbl hO t) (hs5_1 tbl hO t) _ _ _ (before5_0 V tbl hO c t)

end

end Cert.KernelIdeal.Hand

end
-- ==== Proof.B5.lean ====
import proofs.«414926_j197568496007_1_alg».proof.Proof.B4
import proofs.«414926_j197568496007_1_alg».proof.Proof.G5

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

section
variable (m : (ℓ : Loc nD τ sig) → Buf (Elt F) ℓ) (hO : Oks m)

abbrev W11 (c : Dev nD) : Valuation τ sig (Elt F) := StableHlo.after hostOps5 (W10 m hO c)

abbrev V11 (c : Dev nD) (b : Ref sig .tc) : Buf (Elt F) ((c : Thread nD τ).loc b) := W11 m hO c b

theorem tblAt5 (c : Dev nD) (j : Fin pre5.K) : V11 m hO c (pre5.ref j) = T5 m j := by
  obtain rfl : c = 0 := Subsingleton.elim _ _
  match j with
  | ⟨0, _⟩ =>
    show StableHlo.after hostOps5 (W10 m hO 0) (Proc.devRef .tc main_v29) = StableHlo.after hostOps5 (W0 m 0) (Proc.devRef .tc main_v29)
    after_results
    rw [W10_all m hO 0 main_arg9 (by decide)]

def W12 (c : Dev nD) : Valuation τ sig (Elt F) :=
  Pipeline.withArrays spec5 c (W11 m hO c) fun w => (dat5 (V11 m hO) (T5 m) hO.h5 c).arrAt w (cfgM5 (T5 m) hO.h5).N
theorem W12_arr (c : Dev nD) (w : Fin (cfgM5 (T5 m) hO.h5).W) :
    W12 m hO c (Proc.devRef .tc (Pipeline.arrRef spec5 w)) = (dat5 (V11 m hO) (T5 m) hO.h5 c).arrAt w (cfgM5 (T5 m) hO.h5).N := by
  unfold W12; exact Pipeline.withArrays_arr spec5 (launch5 (F := F)).win.arr_inj c _ _ w
theorem W12_of_ne (c : Dev nD) (b : Ref sig .tc) (hb : ∀ w, Pipeline.arrRef spec5 w ≠ b) :
    W12 m hO c (Proc.devRef .tc b) = W11 m hO c (Proc.devRef .tc b) := by
  unfold W12; exact Pipeline.withArrays_of_ne spec5 c _ _ b hb

theorem W12_all (c : Dev nD) (r : Ref sig .tc) (hr : r ∈ keep) : W12 m hO c r = W0 m c r :=
  (W12_of_ne m hO c r ((by decide : ∀ r ∈ keep, ∀ w : Fin 2, Pipeline.arrRef spec5 w ≠ r) r hr)).trans
    ((StableHlo.after_of_writes_sub hostOps5 _ hostOps5_writes ((by decide : ∀ r ∈ keep, r ∉ hostOps5_W) r hr)).trans (W10_all m hO c r hr))

end

end Cert.KernelIdeal.Hand

end
-- ==== Proof.G6.lean ====
import proofs.«414926_j197568496007_1_alg».proof.Proof.G0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))
variable (tbl : pre6.Contents (Elt F)) (hO : ok6 (F := F) tbl)

abbrev adm6 : (pcfg6 (F := F)).Adm := ⟨tbl, hO⟩
abbrev cfgM6 : Pipeline.Cfg sig Λ₀ := cfg6 (adm6 tbl hO)

def iblk6 (c : Dev nD) (w : Fin (cfgM6 tbl hO).W) (t : Fin (cfgM6 tbl hO).N) :
    (((cfgM6 tbl hO).win w).xblock ((cfgM6 tbl hO).grid.coords t)).Idx → Elt F ((cfgM6 tbl hO).win w).elt :=
  (((cfgM6 tbl hO).win w).blk t).view.read (Elt F) (V c (Pipeline.arrRef spec6 w))

abbrev ms6_0 (t : Fin (cfgM6 tbl hO).N) : Memref sig .tc .vmem S1x1x512 .f32 := spec6_0.stage ((cfgM6 tbl hO).slots t 0)
abbrev hs6_0 (t : Fin (cfgM6 tbl hO).N) : (ms6_0 tbl hO t).IsWhole := hstage6_0 (((cfgM6 tbl hO).slots t 0).cast nbuf6_0)
abbrev ms6_1 (t : Fin (cfgM6 tbl hO).N) : Memref sig .tc .vmem S1x1x512 .f32 := spec6_1.stage ((cfgM6 tbl hO).slots t 1)
abbrev hs6_1 (t : Fin (cfgM6 tbl hO).N) : (ms6_1 tbl hO t).IsWhole := hstage6_1 (((cfgM6 tbl hO).slots t 1).cast nbuf6_1)

def dat6 (c : Dev nD) : Dat τ (Elt F) Unit ℕ (UR sig nD τ) ℕ (cfgM6 tbl hO) c where
  A w := V c (Pipeline.arrRef spec6 w)
  after w t := match w with
    | ⟨0, _⟩ => iblk6 V tbl hO c 0 t
    | ⟨1, _⟩ => iblk6 V tbl hO c 0 t
  Φ _ := iprop(Pipeline.ΦA spec6 c ∗ Pipeline.prefHeld pre6 c (fun _ => fullShare) tbl)
  q _ := fullShare
  owed _ := 0

theorem before6_0 (c : Dev nD) (t : Fin (cfgM6 tbl hO).N) (d) : (dat6 V tbl hO c).before 0 t d = iblk6 V tbl hO c 0 t :=
  ((dat6 V tbl hO c).before_in_eq_fetched 0 rfl (fun _ => rfl) (fun _ _ _ => rfl) (fun _ => rfl) t d).trans rfl

theorem body_obligation6 (c : Dev nD) : BodyObligation (dat6 (F := F) V tbl hO c) (defs₀ (F := F)) Variants.none () Set.univ := fun t => by
  rw [bigSep_W6, bigSep_W6]
  exact copy_body c _ _ (ms6_0 tbl hO t) (hs6_0 tbl hO t) (ms6_1 tbl hO t) (hs6_1 tbl hO t) _ _ _ (before6_0 V tbl hO c t)

end

end Cert.KernelIdeal.Hand

end
-- ==== Proof.B6.lean ====
import proofs.«414926_j197568496007_1_alg».proof.Proof.B5
import proofs.«414926_j197568496007_1_alg».proof.Proof.G6

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

section
variable (m : (ℓ : Loc nD τ sig) → Buf (Elt F) ℓ) (hO : Oks m)

abbrev W13 (c : Dev nD) : Valuation τ sig (Elt F) := StableHlo.after hostOps6 (W12 m hO c)

abbrev V13 (c : Dev nD) (b : Ref sig .tc) : Buf (Elt F) ((c : Thread nD τ).loc b) := W13 m hO c b

theorem tblAt6 (c : Dev nD) (j : Fin pre6.K) : V13 m hO c (pre6.ref j) = T6 m j := by
  obtain rfl : c = 0 := Subsingleton.elim _ _
  match j with
  | ⟨0, _⟩ =>
    show StableHlo.after hostOps6 (W12 m hO 0) (Proc.devRef .tc main_v35) = StableHlo.after hostOps6 (W0 m 0) (Proc.devRef .tc main_v35)
    after_results
    rw [W12_all m hO 0 main_arg9 (by decide)]

def W14 (c : Dev nD) : Valuation τ sig (Elt F) :=
  Pipeline.withArrays spec6 c (W13 m hO c) fun w => (dat6 (V13 m hO) (T6 m) hO.h6 c).arrAt w (cfgM6 (T6 m) hO.h6).N
theorem W14_arr (c : Dev nD) (w : Fin (cfgM6 (T6 m) hO.h6).W) :
    W14 m hO c (Proc.devRef .tc (Pipeline.arrRef spec6 w)) = (dat6 (V13 m hO) (T6 m) hO.h6 c).arrAt w (cfgM6 (T6 m) hO.h6).N := by
  unfold W14; exact Pipeline.withArrays_arr spec6 (launch6 (F := F)).win.arr_inj c _ _ w
theorem W14_of_ne (c : Dev nD) (b : Ref sig .tc) (hb : ∀ w, Pipeline.arrRef spec6 w ≠ b) :
    W14 m hO c (Proc.devRef .tc b) = W13 m hO c (Proc.devRef .tc b) := by
  unfold W14; exact Pipeline.withArrays_of_ne spec6 c _ _ b hb

theorem W14_all (c : Dev nD) (r : Ref sig .tc) (hr : r ∈ keep) : W14 m hO c r = W0 m c r :=
  (W14_of_ne m hO c r ((by decide : ∀ r ∈ keep, ∀ w : Fin 2, Pipeline.arrRef spec6 w ≠ r) r hr)).trans
    ((StableHlo.after_of_writes_sub hostOps6 _ hostOps6_writes ((by decide : ∀ r ∈ keep, r ∉ hostOps6_W) r hr)).trans (W12_all m hO c r hr))

end

end Cert.KernelIdeal.Hand

end
-- ==== Proof.C7.lean ====
import proofs.«414926_j197568496007_1_alg».proof.Proof.Gen.KernelIdeal.Launch
import proofs.«414926_j197568496007_1_alg».proof.Proof.Gen.KernelIdeal.Skeleton
import proofs.«414926_j197568496007_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region7

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem hz7_2 : (![0, 0] : Fin 2 → Nat) = fun _ => 0 := funext fun a => by fin_cases a <;> rfl
theorem hz7_3 : (![0, 0, 0] : Fin 3 → Nat) = fun _ => 0 := funext fun a => by fin_cases a <;> rfl

abbrev r7_S128x512 : Rect S128x512 := Rect.unit (s := S128x512) ![0, 0] S128x512.size inb_S128x512_S128x512_0_0
abbrev r7_S128x25x512 : Rect S128x25x512 := Rect.unit (s := S128x25x512) ![0, 0, 0] S128x25x512.size inb_S128x25x512_S128x25x512_0_0_0
abbrev r7_S512x512 : Rect S512x512 := Rect.unit (s := S512x512) ![0, 0] S512x512.size inb_S512x512_S512x512_0_0
abbrev r7_S1x512 : Rect S1x512 := Rect.unit (s := S1x512) ![0, 0] S1x512.size inb_S1x512_S1x512_0_0

def out7_5 (x0 : Vec F S128x512 .f32) (x1 : Vec F S128x25x512 .f32) (x2 x3 : Vec F S512x512 .f32) (x4 : Vec F S1x512 .f32) : Vec F S128x512 .f32 :=
  View.canon [⟨r7_S128x512, k7_pay1 (View.ld x1 r7_S128x25x512) (View.ld x0 r7_S128x512) (View.ld x2 r7_S512x512) (View.ld x3 r7_S512x512) (View.ld x4 r7_S1x512)⟩]

theorem out7_5_eq (x0 : Vec F S128x512 .f32) (x1 : Vec F S128x25x512 .f32) (x2 x3 : Vec F S512x512 .f32) (x4 : Vec F S1x512 .f32) :
    out7_5 x0 x1 x2 x3 x4 = k7_pay1 x1 x0 x2 x3 x4 := by
  unfold out7_5
  rw [View.canon_unit_zero hz7_2]
  simp only [View.ld_unit_zero (S := S128x512) hz7_2, View.ld_unit_zero (S := S128x25x512) hz7_3,
    View.ld_unit_zero (S := S512x512) hz7_2, View.ld_unit_zero (S := S1x512) hz7_2]

theorem cover7_5 (p0 : Vec F S128x512 .f32) (y : S128x512.Idx) :
    ∃ pc ∈ ([⟨r7_S128x512, p0⟩] : List (View.Piece (Elt F) S128x512 .f32)), y ∈ pc.1.set :=
  ⟨_, List.mem_singleton_self _, View.mem_set_unit_zero hz7_2 inb_S128x512_S128x512_0_0 y⟩

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_5 (c : Dev nD) (t : Fin cfg7.N) :
    (dat7 V c).after 5 t = out7_5 (iblk7 V c 0 t) (iblk7 V c 1 t) (iblk7 V c 2 t) (iblk7 V c 3 t) (iblk7 V c 4 t) := by
  dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl
theorem before7_2 (c : Dev nD) (t : Fin cfg7.N) (d) : (dat7 V c).before 2 t d = iblk7 V c 2 t :=
  ((dat7 V c).before_in_eq_fetched 2 rfl (fun _ => rfl) (fun _ _ _ => rfl) (fun _ => rfl) t d).trans rfl
theorem before7_3 (c : Dev nD) (t : Fin cfg7.N) (d) : (dat7 V c).before 3 t d = iblk7 V c 3 t :=
  ((dat7 V c).before_in_eq_fetched 3 rfl (fun _ => rfl) (fun _ _ _ => rfl) (fun _ => rfl) t d).trans rfl
theorem before7_4 (c : Dev nD) (t : Fin cfg7.N) (d) : (dat7 V c).before 4 t d = iblk7 V c 4 t :=
  ((dat7 V c).before_in_eq_fetched 4 rfl (fun _ => rfl) (fun _ _ _ => rfl) (fun _ => rfl) t d).trans rfl

set_option maxHeartbeats 1000000 in
/-- The fused layer's body leaves its five inputs as they are and puts its one store in the output; the rest is returned untouched. -/
theorem combine_body7 (c : Dev nD) (Φ O : sProp 𝕄) (i : grid7.Coords)
    (arg1 : Memref sig .tc .vmem S128x512 .f32) (harg1 : arg1.IsWhole) (arg2 : Memref sig .tc .vmem S128x25x512 .f32) (harg2 : arg2.IsWhole)
    (arg3 : Memref sig .tc .vmem S512x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S128x512 .f32) (harg6 : arg6.IsWhole)
    {D0 D1 D2 D3 D4 D5 : Type} (x0' : D0 → Vec F S128x512 .f32) (x1' : D1 → Vec F S128x25x512 .f32) (x2' : D2 → Vec F S512x512 .f32)
    (x3' : D3 → Vec F S512x512 .f32) (x4' : D4 → Vec F S1x512 .f32) (y : D5 → Vec F S128x512 .f32)
    (x0 : Vec F S128x512 .f32) (x1 : Vec F S128x25x512 .f32) (x2 : Vec F S512x512 .f32) (x3 : Vec F S512x512 .f32) (x4 : Vec F S1x512 .f32)
    (e0 : ∀ d, x0' d = x0) (e1 : ∀ d, x1' d = x1) (e2 : ∀ d, x2' d = x2) (e3 : ∀ d, x3' d = x3) (e4 : ∀ d, x4' d = x4)
    (z : Vec F S128x512 .f32) (hz : z = out7_5 x0 x1 x2 x3 x4) :
    iprop(Φ ∗ O ∗ (∃ d, owns (c : Thread nD τ) arg1 fullShare (x0' d)) ∗ (∃ d, owns (c : Thread nD τ) arg2 fullShare (x1' d))
        ∗ (∃ d, owns (c : Thread nD τ) arg3 fullShare (x2' d)) ∗ (∃ d, owns (c : Thread nD τ) arg4 fullShare (x3' d))
        ∗ (∃ d, owns (c : Thread nD τ) arg5 fullShare (x4' d)) ∗ (∃ d, owns (c : Thread nD τ) arg6 fullShare (y d)))
      ⊢ wp frame (wpE (defs₀ (F := F)) Variants.none c none) Set.univ
          (cc7__combine_kernel i arg1 harg1 arg2 harg2 arg3 harg3 arg4 harg4 arg5 harg5 arg6 harg6)
          (fun _ => iprop(Φ ∗ O ∗ owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare z)) := by
  subst hz; simp only [e0, e1, e2, e3, e4]
  simp only [cc7__combine_kernel_eq_skeleton]; unfold cc7__combine_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  subst hf0; subst hf1; subst hf2; subst hf3; subst hf4
  sl_exec
  sl_step
  isplitl [HΦ]; · iexact HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

theorem body_obligation7 (c : Dev nD) : BodyObligation (dat7 (F := F) V c) (defs₀ (F := F)) Variants.none () Set.univ := fun t => by
  rw [bigSep_W7, bigSep_W7]
  exact combine_body7 c ((dat7 V c).Φ t.castSucc) ((dat7 V c).owesAt () t.castSucc) (grid7.coords t) (st7_0 t) (hstage7_0 ((cfg7.slots t 0).cast nbuf7_0)) (st7_1 t) (hstage7_1 ((cfg7.slots t 1).cast nbuf7_1)) (st7_2 t) (hstage7_2 ((cfg7.slots t 2).cast nbuf7_2)) (st7_3 t) (hstage7_3 ((cfg7.slots t 3).cast nbuf7_3)) (st7_4 t) (hstage7_4 ((cfg7.slots t 4).cast nbuf7_4)) (st7_5 t) (hstage7_5 ((cfg7.slots t 5).cast nbuf7_5))
    ((dat7 V c).before 0 t) ((dat7 V c).before 1 t) ((dat7 V c).before 2 t) ((dat7 V c).before 3 t) ((dat7 V c).before 4 t) ((dat7 V c).before 5 t)
    (iblk7 V c 0 t) (iblk7 V c 1 t) (iblk7 V c 2 t) (iblk7 V c 3 t) (iblk7 V c 4 t)
    (before7_0 V c t) (before7_1 V c t) (before7_2 V c t) (before7_3 V c t) (before7_4 V c t)
    ((dat7 V c).after 5 t) (after7_5 V c t)

end Region7

end Cert.KernelIdeal.Hand

end
-- ==== Proof.B7.lean ====
import proofs.«414926_j197568496007_1_alg».proof.Proof.B6
import proofs.«414926_j197568496007_1_alg».proof.Proof.C7

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

section
variable (m : (ℓ : Loc nD τ sig) → Buf (Elt F) ℓ) (hO : Oks m)

abbrev W15 (c : Dev nD) : Valuation τ sig (Elt F) := StableHlo.after hostOps7 (W14 m hO c)

abbrev V15 (c : Dev nD) (b : Ref sig .tc) : Buf (Elt F) ((c : Thread nD τ).loc b) := W15 m hO c b

theorem W15_keep (c : Dev nD) (r : Ref sig .tc) (hr : r ∈ keep) : W15 m hO c r = W14 m hO c r :=
  StableHlo.after_of_writes_sub hostOps7 _ hostOps7_writes ((by decide : ∀ r ∈ keep, r ∉ hostOps7_W) r hr)

def W16 (c : Dev nD) : Valuation τ sig (Elt F) :=
  Pipeline.withArrays spec7 c (W15 m hO c) fun w => (dat7 (V15 m hO) c).arrAt w cfg7.N
theorem W16_arr (c : Dev nD) (w : Fin cfg7.W) :
    W16 m hO c (Proc.devRef .tc (Pipeline.arrRef spec7 w)) = (dat7 (V15 m hO) c).arrAt w cfg7.N := by
  unfold W16; exact Pipeline.withArrays_arr spec7 (launch7 (F := F)).win.arr_inj c _ _ w
theorem W16_of_ne (c : Dev nD) (b : Ref sig .tc) (hb : ∀ w, Pipeline.arrRef spec7 w ≠ b) :
    W16 m hO c (Proc.devRef .tc b) = W15 m hO c (Proc.devRef .tc b) := by
  unfold W16; exact Pipeline.withArrays_of_ne spec7 c _ _ b hb

theorem W16_keep (c : Dev nD) (r : Ref sig .tc) (hr : r ∈ keep) : W16 m hO c r = W15 m hO c r := by
  by_cases h1 : r = main_arg1
  · subst h1
    exact (W16_arr m hO c 0).trans (((dat7 (V15 m hO) c).arrAt_in 0 rfl _).trans (A_eq7 (V15 m hO) c 0))
  · exact W16_of_ne m hO c r ((by decide : ∀ r ∈ keep, r ≠ main_arg1 → ∀ w : Fin 6, Pipeline.arrRef spec7 w ≠ r) r hr h1)

theorem W16_all (c : Dev nD) (r : Ref sig .tc) (hr : r ∈ keep) : W16 m hO c r = W0 m c r :=
  (W16_keep m hO c r hr).trans ((W15_keep m hO c r hr).trans (W14_all m hO c r hr))

end

end Cert.KernelIdeal.Hand

end
-- ==== Proof.C8.lean ====
import proofs.«414926_j197568496007_1_alg».proof.Proof.Gen.KernelIdeal.Launch
import proofs.«414926_j197568496007_1_alg».proof.Proof.Gen.KernelIdeal.Skeleton
import proofs.«414926_j197568496007_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region8

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem hz8_2 : (![0, 0] : Fin 2 → Nat) = fun _ => 0 := funext fun a => by fin_cases a <;> rfl
theorem hz8_3 : (![0, 0, 0] : Fin 3 → Nat) = fun _ => 0 := funext fun a => by fin_cases a <;> rfl

abbrev r8_S128x512 : Rect S128x512 := Rect.unit (s := S128x512) ![0, 0] S128x512.size inb_S128x512_S128x512_0_0
abbrev r8_S128x25x512 : Rect S128x25x512 := Rect.unit (s := S128x25x512) ![0, 0, 0] S128x25x512.size inb_S128x25x512_S128x25x512_0_0_0
abbrev r8_S512x512 : Rect S512x512 := Rect.unit (s := S512x512) ![0, 0] S512x512.size inb_S512x512_S512x512_0_0
abbrev r8_S1x512 : Rect S1x512 := Rect.unit (s := S1x512) ![0, 0] S1x512.size inb_S1x512_S1x512_0_0

def out8_5 (x0 : Vec F S128x512 .f32) (x1 : Vec F S128x25x512 .f32) (x2 x3 : Vec F S512x512 .f32) (x4 : Vec F S1x512 .f32) : Vec F S128x512 .f32 :=
  View.canon [⟨r8_S128x512, k8_pay1 (View.ld x1 r8_S128x25x512) (View.ld x0 r8_S128x512) (View.ld x2 r8_S512x512) (View.ld x3 r8_S512x512) (View.ld x4 r8_S1x512)⟩]

theorem out8_5_eq (x0 : Vec F S128x512 .f32) (x1 : Vec F S128x25x512 .f32) (x2 x3 : Vec F S512x512 .f32) (x4 : Vec F S1x512 .f32) :
    out8_5 x0 x1 x2 x3 x4 = k8_pay1 x1 x0 x2 x3 x4 := by
  unfold out8_5
  rw [View.canon_unit_zero hz8_2]
  simp only [View.ld_unit_zero (S := S128x512) hz8_2, View.ld_unit_zero (S := S128x25x512) hz8_3,
    View.ld_unit_zero (S := S512x512) hz8_2, View.ld_unit_zero (S := S1x512) hz8_2]

theorem cover8_5 (p0 : Vec F S128x512 .f32) (y : S128x512.Idx) :
    ∃ pc ∈ ([⟨r8_S128x512, p0⟩] : List (View.Piece (Elt F) S128x512 .f32)), y ∈ pc.1.set :=
  ⟨_, List.mem_singleton_self _, View.mem_set_unit_zero hz8_2 inb_S128x512_S128x512_0_0 y⟩

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_5 (c : Dev nD) (t : Fin cfg8.N) :
    (dat8 V c).after 5 t = out8_5 (iblk8 V c 0 t) (iblk8 V c 1 t) (iblk8 V c 2 t) (iblk8 V c 3 t) (iblk8 V c 4 t) := by
  dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun _ => rfl) t d).trans rfl
theorem before8_1 (c : Dev nD) (t : Fin cfg8.N) (d) : (dat8 V c).before 1 t d = iblk8 V c 1 t :=
  ((dat8 V c).before_in_eq_fetched 1 rfl (fun _ => rfl) (fun _ _ _ => rfl) (fun _ => rfl) t d).trans rfl
theorem before8_2 (c : Dev nD) (t : Fin cfg8.N) (d) : (dat8 V c).before 2 t d = iblk8 V c 2 t :=
  ((dat8 V c).before_in_eq_fetched 2 rfl (fun _ => rfl) (fun _ _ _ => rfl) (fun _ => rfl) t d).trans rfl
theorem before8_3 (c : Dev nD) (t : Fin cfg8.N) (d) : (dat8 V c).before 3 t d = iblk8 V c 3 t :=
  ((dat8 V c).before_in_eq_fetched 3 rfl (fun _ => rfl) (fun _ _ _ => rfl) (fun _ => rfl) t d).trans rfl
theorem before8_4 (c : Dev nD) (t : Fin cfg8.N) (d) : (dat8 V c).before 4 t d = iblk8 V c 4 t :=
  ((dat8 V c).before_in_eq_fetched 4 rfl (fun _ => rfl) (fun _ _ _ => rfl) (fun _ => rfl) t d).trans rfl

set_option maxHeartbeats 1000000 in
/-- The fused layer's body leaves its five inputs as they are and puts its one store in the output; the rest is returned untouched. -/
theorem combine_body8 (c : Dev nD) (Φ O : sProp 𝕄) (i : grid8.Coords)
    (arg1 : Memref sig .tc .vmem S128x512 .f32) (harg1 : arg1.IsWhole) (arg2 : Memref sig .tc .vmem S128x25x512 .f32) (harg2 : arg2.IsWhole)
    (arg3 : Memref sig .tc .vmem S512x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S128x512 .f32) (harg6 : arg6.IsWhole)
    {D0 D1 D2 D3 D4 D5 : Type} (x0' : D0 → Vec F S128x512 .f32) (x1' : D1 → Vec F S128x25x512 .f32) (x2' : D2 → Vec F S512x512 .f32)
    (x3' : D3 → Vec F S512x512 .f32) (x4' : D4 → Vec F S1x512 .f32) (y : D5 → Vec F S128x512 .f32)
    (x0 : Vec F S128x512 .f32) (x1 : Vec F S128x25x512 .f32) (x2 : Vec F S512x512 .f32) (x3 : Vec F S512x512 .f32) (x4 : Vec F S1x512 .f32)
    (e0 : ∀ d, x0' d = x0) (e1 : ∀ d, x1' d = x1) (e2 : ∀ d, x2' d = x2) (e3 : ∀ d, x3' d = x3) (e4 : ∀ d, x4' d = x4)
    (z : Vec F S128x512 .f32) (hz : z = out8_5 x0 x1 x2 x3 x4) :
    iprop(Φ ∗ O ∗ (∃ d, owns (c : Thread nD τ) arg1 fullShare (x0' d)) ∗ (∃ d, owns (c : Thread nD τ) arg2 fullShare (x1' d))
        ∗ (∃ d, owns (c : Thread nD τ) arg3 fullShare (x2' d)) ∗ (∃ d, owns (c : Thread nD τ) arg4 fullShare (x3' d))
        ∗ (∃ d, owns (c : Thread nD τ) arg5 fullShare (x4' d)) ∗ (∃ d, owns (c : Thread nD τ) arg6 fullShare (y d)))
      ⊢ wp frame (wpE (defs₀ (F := F)) Variants.none c none) Set.univ
          (cc8__combine_kernel i arg1 harg1 arg2 harg2 arg3 harg3 arg4 harg4 arg5 harg5 arg6 harg6)
          (fun _ => iprop(Φ ∗ O ∗ owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare z)) := by
  subst hz; simp only [e0, e1, e2, e3, e4]
  simp only [cc8__combine_kernel_eq_skeleton]; unfold cc8__combine_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  subst hf0; subst hf1; subst hf2; subst hf3; subst hf4
  sl_exec
  sl_step
  isplitl [HΦ]; · iexact HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

theorem body_obligation8 (c : Dev nD) : BodyObligation (dat8 (F := F) V c) (defs₀ (F := F)) Variants.none () Set.univ := fun t => by
  rw [bigSep_W8, bigSep_W8]
  exact combine_body8 c ((dat8 V c).Φ t.castSucc) ((dat8 V c).owesAt () t.castSucc) (grid8.coords t) (st8_0 t) (hstage8_0 ((cfg8.slots t 0).cast nbuf8_0)) (st8_1 t) (hstage8_1 ((cfg8.slots t 1).cast nbuf8_1)) (st8_2 t) (hstage8_2 ((cfg8.slots t 2).cast nbuf8_2)) (st8_3 t) (hstage8_3 ((cfg8.slots t 3).cast nbuf8_3)) (st8_4 t) (hstage8_4 ((cfg8.slots t 4).cast nbuf8_4)) (st8_5 t) (hstage8_5 ((cfg8.slots t 5).cast nbuf8_5))
    ((dat8 V c).before 0 t) ((dat8 V c).before 1 t) ((dat8 V c).before 2 t) ((dat8 V c).before 3 t) ((dat8 V c).before 4 t) ((dat8 V c).before 5 t)
    (iblk8 V c 0 t) (iblk8 V c 1 t) (iblk8 V c 2 t) (iblk8 V c 3 t) (iblk8 V c 4 t)
    (before8_0 V c t) (before8_1 V c t) (before8_2 V c t) (before8_3 V c t) (before8_4 V c t)
    ((dat8 V c).after 5 t) (after8_5 V c t)

end Region8

end Cert.KernelIdeal.Hand

end
-- ==== Proof.B8.lean ====
import proofs.«414926_j197568496007_1_alg».proof.Proof.B7
import proofs.«414926_j197568496007_1_alg».proof.Proof.C8

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

section
variable (m : (ℓ : Loc nD τ sig) → Buf (Elt F) ℓ) (hO : Oks m)

abbrev W17 (c : Dev nD) : Valuation τ sig (Elt F) := StableHlo.after hostOps8 (W16 m hO c)

abbrev V17 (c : Dev nD) (b : Ref sig .tc) : Buf (Elt F) ((c : Thread nD τ).loc b) := W17 m hO c b

theorem W17_keep (c : Dev nD) (r : Ref sig .tc) (hr : r ∈ keep) : W17 m hO c r = W16 m hO c r :=
  StableHlo.after_of_writes_sub hostOps8 _ hostOps8_writes ((by decide : ∀ r ∈ keep, r ∉ hostOps8_W) r hr)

def W18 (c : Dev nD) : Valuation τ sig (Elt F) :=
  Pipeline.withArrays spec8 c (W17 m hO c) fun w => (dat8 (V17 m hO) c).arrAt w cfg8.N
theorem W18_arr (c : Dev nD) (w : Fin cfg8.W) :
    W18 m hO c (Proc.devRef .tc (Pipeline.arrRef spec8 w)) = (dat8 (V17 m hO) c).arrAt w cfg8.N := by
  unfold W18; exact Pipeline.withArrays_arr spec8 (launch8 (F := F)).win.arr_inj c _ _ w
theorem W18_of_ne (c : Dev nD) (b : Ref sig .tc) (hb : ∀ w, Pipeline.arrRef spec8 w ≠ b) :
    W18 m hO c (Proc.devRef .tc b) = W17 m hO c (Proc.devRef .tc b) := by
  unfold W18; exact Pipeline.withArrays_of_ne spec8 c _ _ b hb
theorem W18_keep (c : Dev nD) (r : Ref sig .tc) (hr : r ∈ keep) : W18 m hO c r = W17 m hO c r :=
  W18_of_ne m hO c r ((by decide : ∀ r ∈ keep, ∀ w : Fin 6, Pipeline.arrRef spec8 w ≠ r) r hr)

theorem W18_all (c : Dev nD) (r : Ref sig .tc) (hr : r ∈ keep) : W18 m hO c r = W0 m c r :=
  (W18_keep m hO c r hr).trans ((W17_keep m hO c r hr).trans (W16_all m hO c r hr))

end

end Cert.KernelIdeal.Hand

end
-- ==== Proof.C9.lean ====
import proofs.«414926_j197568496007_1_alg».proof.Proof.Gen.KernelIdeal.Launch
import proofs.«414926_j197568496007_1_alg».proof.Proof.Gen.KernelIdeal.Skeleton
import proofs.«414926_j197568496007_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region9

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem hz9_2 : (![0, 0] : Fin 2 → Nat) = fun _ => 0 := funext fun a => by fin_cases a <;> rfl
theorem hz9_3 : (![0, 0, 0] : Fin 3 → Nat) = fun _ => 0 := funext fun a => by fin_cases a <;> rfl

abbrev r9_S128x512 : Rect S128x512 := Rect.unit (s := S128x512) ![0, 0] S128x512.size inb_S128x512_S128x512_0_0
abbrev r9_S128x10x512 : Rect S128x10x512 := Rect.unit (s := S128x10x512) ![0, 0, 0] S128x10x512.size inb_S128x10x512_S128x10x512_0_0_0
abbrev r9_S512x256 : Rect S512x256 := Rect.unit (s := S512x256) ![0, 0] S512x256.size inb_S512x256_S512x256_0_0
abbrev r9_S1x256 : Rect S1x256 := Rect.unit (s := S1x256) ![0, 0] S1x256.size inb_S1x256_S1x256_0_0
abbrev r9_S128x256 : Rect S128x256 := Rect.unit (s := S128x256) ![0, 0] S128x256.size inb_S128x256_S128x256_0_0

def out9_5 (x0 : Vec F S128x512 .f32) (x1 : Vec F S128x10x512 .f32) (x2 x3 : Vec F S512x256 .f32) (x4 : Vec F S1x256 .f32) : Vec F S128x256 .f32 :=
  View.canon [⟨r9_S128x256, k9_pay1 (View.ld x1 r9_S128x10x512) (View.ld x0 r9_S128x512) (View.ld x2 r9_S512x256) (View.ld x3 r9_S512x256) (View.ld x4 r9_S1x256)⟩]

theorem out9_5_eq (x0 : Vec F S128x512 .f32) (x1 : Vec F S128x10x512 .f32) (x2 x3 : Vec F S512x256 .f32) (x4 : Vec F S1x256 .f32) :
    out9_5 x0 x1 x2 x3 x4 = k9_pay1 x1 x0 x2 x3 x4 := by
  unfold out9_5
  rw [View.canon_unit_zero hz9_2]
  simp only [View.ld_unit_zero (S := S128x512) hz9_2, View.ld_unit_zero (S := S128x10x512) hz9_3,
    View.ld_unit_zero (S := S512x256) hz9_2, View.ld_unit_zero (S := S1x256) hz9_2]

theorem cover9_5 (p0 : Vec F S128x256 .f32) (y : S128x256.Idx) :
    ∃ pc ∈ ([⟨r9_S128x256, p0⟩] : List (View.Piece (Elt F) S128x256 .f32)), y ∈ pc.1.set :=
  ⟨_, List.mem_singleton_self _, View.mem_set_unit_zero hz9_2 inb_S128x256_S128x256_0_0 y⟩

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

theorem after9_5 (c : Dev nD) (t : Fin cfg9.N) :
    (dat9 V c).after 5 t = out9_5 (iblk9 V c 0 t) (iblk9 V c 1 t) (iblk9 V c 2 t) (iblk9 V c 3 t) (iblk9 V c 4 t) := by
  dsimp only [dat9]

theorem before9_0 (c : Dev nD) (t : Fin cfg9.N) (d) : (dat9 V c).before 0 t d = iblk9 V c 0 t :=
  ((dat9 V c).before_in_eq_fetched 0 rfl (fun _ => rfl) (fun _ _ _ => rfl) (fun _ => rfl) t d).trans rfl
theorem before9_1 (c : Dev nD) (t : Fin cfg9.N) (d) : (dat9 V c).before 1 t d = iblk9 V c 1 t :=
  ((dat9 V c).before_in_eq_fetched 1 rfl (fun _ => rfl) (fun _ _ _ => rfl) (fun _ => rfl) t d).trans rfl
theorem before9_2 (c : Dev nD) (t : Fin cfg9.N) (d) : (dat9 V c).before 2 t d = iblk9 V c 2 t :=
  ((dat9 V c).before_in_eq_fetched 2 rfl (fun _ => rfl) (fun _ _ _ => rfl) (fun _ => rfl) t d).trans rfl
theorem before9_3 (c : Dev nD) (t : Fin cfg9.N) (d) : (dat9 V c).before 3 t d = iblk9 V c 3 t :=
  ((dat9 V c).before_in_eq_fetched 3 rfl (fun _ => rfl) (fun _ _ _ => rfl) (fun _ => rfl) t d).trans rfl
theorem before9_4 (c : Dev nD) (t : Fin cfg9.N) (d) : (dat9 V c).before 4 t d = iblk9 V c 4 t :=
  ((dat9 V c).before_in_eq_fetched 4 rfl (fun _ => rfl) (fun _ _ _ => rfl) (fun _ => rfl) t d).trans rfl

set_option maxHeartbeats 1000000 in
/-- The fused layer's body leaves its five inputs as they are and puts its one store in the output; the rest is returned untouched. -/
theorem combine_body9 (c : Dev nD) (Φ O : sProp 𝕄) (i : grid9.Coords)
    (arg1 : Memref sig .tc .vmem S128x512 .f32) (harg1 : arg1.IsWhole) (arg2 : Memref sig .tc .vmem S128x10x512 .f32) (harg2 : arg2.IsWhole)
    (arg3 : Memref sig .tc .vmem S512x256 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S128x256 .f32) (harg6 : arg6.IsWhole)
    {D0 D1 D2 D3 D4 D5 : Type} (x0' : D0 → Vec F S128x512 .f32) (x1' : D1 → Vec F S128x10x512 .f32) (x2' : D2 → Vec F S512x256 .f32)
    (x3' : D3 → Vec F S512x256 .f32) (x4' : D4 → Vec F S1x256 .f32) (y : D5 → Vec F S128x256 .f32)
    (x0 : Vec F S128x512 .f32) (x1 : Vec F S128x10x512 .f32) (x2 : Vec F S512x256 .f32) (x3 : Vec F S512x256 .f32) (x4 : Vec F S1x256 .f32)
    (e0 : ∀ d, x0' d = x0) (e1 : ∀ d, x1' d = x1) (e2 : ∀ d, x2' d = x2) (e3 : ∀ d, x3' d = x3) (e4 : ∀ d, x4' d = x4)
    (z : Vec F S128x256 .f32) (hz : z = out9_5 x0 x1 x2 x3 x4) :
    iprop(Φ ∗ O ∗ (∃ d, owns (c : Thread nD τ) arg1 fullShare (x0' d)) ∗ (∃ d, owns (c : Thread nD τ) arg2 fullShare (x1' d))
        ∗ (∃ d, owns (c : Thread nD τ) arg3 fullShare (x2' d)) ∗ (∃ d, owns (c : Thread nD τ) arg4 fullShare (x3' d))
        ∗ (∃ d, owns (c : Thread nD τ) arg5 fullShare (x4' d)) ∗ (∃ d, owns (c : Thread nD τ) arg6 fullShare (y d)))
      ⊢ wp frame (wpE (defs₀ (F := F)) Variants.none c none) Set.univ
          (cc9__combine_kernel i arg1 harg1 arg2 harg2 arg3 harg3 arg4 harg4 arg5 harg5 arg6 harg6)
          (fun _ => iprop(Φ ∗ O ∗ owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare z)) := by
  subst hz; simp only [e0, e1, e2, e3, e4]
  simp only [cc9__combine_kernel_eq_skeleton]; unfold cc9__combine_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  subst hf0; subst hf1; subst hf2; subst hf3; subst hf4
  sl_exec
  sl_step
  isplitl [HΦ]; · iexact HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

theorem body_obligation9 (c : Dev nD) : BodyObligation (dat9 (F := F) V c) (defs₀ (F := F)) Variants.none () Set.univ := fun t => by
  rw [bigSep_W9, bigSep_W9]
  exact combine_body9 c ((dat9 V c).Φ t.castSucc) ((dat9 V c).owesAt () t.castSucc) (grid9.coords t) (st9_0 t) (hstage9_0 ((cfg9.slots t 0).cast nbuf9_0)) (st9_1 t) (hstage9_1 ((cfg9.slots t 1).cast nbuf9_1)) (st9_2 t) (hstage9_2 ((cfg9.slots t 2).cast nbuf9_2)) (st9_3 t) (hstage9_3 ((cfg9.slots t 3).cast nbuf9_3)) (st9_4 t) (hstage9_4 ((cfg9.slots t 4).cast nbuf9_4)) (st9_5 t) (hstage9_5 ((cfg9.slots t 5).cast nbuf9_5))
    ((dat9 V c).before 0 t) ((dat9 V c).before 1 t) ((dat9 V c).before 2 t) ((dat9 V c).before 3 t) ((dat9 V c).before 4 t) ((dat9 V c).before 5 t)
    (iblk9 V c 0 t) (iblk9 V c 1 t) (iblk9 V c 2 t) (iblk9 V c 3 t) (iblk9 V c 4 t)
    (before9_0 V c t) (before9_1 V c t) (before9_2 V c t) (before9_3 V c t) (before9_4 V c t)
    ((dat9 V c).after 5 t) (after9_5 V c t)

end Region9

end Cert.KernelIdeal.Hand

end
-- ==== Proof.B9.lean ====
import proofs.«414926_j197568496007_1_alg».proof.Proof.B8
import proofs.«414926_j197568496007_1_alg».proof.Proof.C9

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

section
variable (m : (ℓ : Loc nD τ sig) → Buf (Elt F) ℓ) (hO : Oks m)

abbrev W19 (c : Dev nD) : Valuation τ sig (Elt F) := StableHlo.after hostOps9 (W18 m hO c)

abbrev V19 (c : Dev nD) (b : Ref sig .tc) : Buf (Elt F) ((c : Thread nD τ).loc b) := W19 m hO c b

theorem W19_keep (c : Dev nD) (r : Ref sig .tc) (hr : r ∈ keep) : W19 m hO c r = W18 m hO c r :=
  StableHlo.after_of_writes_sub hostOps9 _ hostOps9_writes ((by decide : ∀ r ∈ keep, r ∉ hostOps9_W) r hr)

def W20 (c : Dev nD) : Valuation τ sig (Elt F) :=
  Pipeline.withArrays spec9 c (W19 m hO c) fun w => (dat9 (V19 m hO) c).arrAt w cfg9.N
theorem W20_arr (c : Dev nD) (w : Fin cfg9.W) :
    W20 m hO c (Proc.devRef .tc (Pipeline.arrRef spec9 w)) = (dat9 (V19 m hO) c).arrAt w cfg9.N := by
  unfold W20; exact Pipeline.withArrays_arr spec9 (launch9 (F := F)).win.arr_inj c _ _ w
theorem W20_of_ne (c : Dev nD) (b : Ref sig .tc) (hb : ∀ w, Pipeline.arrRef spec9 w ≠ b) :
    W20 m hO c (Proc.devRef .tc b) = W19 m hO c (Proc.devRef .tc b) := by
  unfold W20; exact Pipeline.withArrays_of_ne spec9 c _ _ b hb
theorem W20_keep (c : Dev nD) (r : Ref sig .tc) (hr : r ∈ keep) : W20 m hO c r = W19 m hO c r :=
  W20_of_ne m hO c r ((by decide : ∀ r ∈ keep, ∀ w : Fin 6, Pipeline.arrRef spec9 w ≠ r) r hr)

theorem W20_all (c : Dev nD) (r : Ref sig .tc) (hr : r ∈ keep) : W20 m hO c r = W0 m c r :=
  (W20_keep m hO c r hr).trans ((W19_keep m hO c r hr).trans (W18_all m hO c r hr))

end

end Cert.KernelIdeal.Hand

end
-- ==== Proof.Fam.lean ====
import proofs.«414926_j197568496007_1_alg».proof.Proof.B9

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable (m : (ℓ : Loc nD τ sig) → Buf (Elt F) ℓ) (hO : Oks m)

def adm : (p : Fin 10) → (pcfgs (F := F) p).Adm
  | ⟨0, _⟩ => ⟨T0 m, hO.h0⟩
  | ⟨1, _⟩ => ⟨T1 m, hO.h1⟩
  | ⟨2, _⟩ => ⟨T2 m, hO.h2⟩
  | ⟨3, _⟩ => ⟨T3 m, hO.h3⟩
  | ⟨4, _⟩ => ⟨T4 m, hO.h4⟩
  | ⟨5, _⟩ => ⟨T5 m, hO.h5⟩
  | ⟨6, _⟩ => ⟨T6 m, hO.h6⟩
  | ⟨7, _⟩ => cfg7.toPCfg_adm
  | ⟨8, _⟩ => cfg8.toPCfg_adm
  | ⟨9, _⟩ => cfg9.toPCfg_adm

def pdats : (p : Fin 10) → (c : Dev nD) → Dat τ (Elt F) Unit ℕ (UR sig nD τ) ℕ (Pipeline.pin (pcfgs (F := F)) (adm m hO) p) c
  | ⟨0, _⟩ => fun c => dat0 (V1 m) (T0 m) hO.h0 c
  | ⟨1, _⟩ => fun c => dat1 (V3 m hO) (T1 m) hO.h1 c
  | ⟨2, _⟩ => fun c => dat2 (V5 m hO) (T2 m) hO.h2 c
  | ⟨3, _⟩ => fun c => dat3 (V7 m hO) (T3 m) hO.h3 c
  | ⟨4, _⟩ => fun c => dat4 (V9 m hO) (T4 m) hO.h4 c
  | ⟨5, _⟩ => fun c => dat5 (V11 m hO) (T5 m) hO.h5 c
  | ⟨6, _⟩ => fun c => dat6 (V13 m hO) (T6 m) hO.h6 c
  | ⟨7, _⟩ => fun c => dat7 (V15 m hO) c
  | ⟨8, _⟩ => fun c => dat8 (V17 m hO) c
  | ⟨9, _⟩ => fun c => dat9 (V19 m hO) c

end

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.Regs.lean ====
import proofs.«414926_j197568496007_1_alg».proof.Proof.Fam

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable (m : (ℓ : Loc nD τ sig) → Buf (Elt F) ℓ) (hO : Oks m)

/-- A valuation read at the TensorCore's references. -/
abbrev atTc (W : Dev nD → Valuation τ sig (Elt F)) (c : Dev nD) (b : Ref sig .tc) : Buf (Elt F) ((c : Thread nD τ).loc b) := W c b

variable (p : Fin 10) (Wi : Dev nD → Valuation τ sig (Elt F))

/-- The buffers that are neither an array nor a table of call `p`, at its entry contents. -/
abbrev restP (c : Dev nD) : sProp 𝕄 :=
  Pipeline.unscopedRestP (Ix := Unit) (Name := ℕ) (U := UR sig nD τ) (Lvl := ℕ) (pcfgs (F := F) p).pre (pcfgs (F := F) p).spec c (atTc Wi c)

/-- What call `p` leaves: its arrays at their final contents, every other buffer as entered. -/
abbrev outOf (c : Dev nD) : Valuation τ sig (Elt F) :=
  Pipeline.withArrays (Pipeline.pin (pcfgs (F := F)) (adm m hO) p).spec c (Wi c) fun w =>
    (pdats m hO p c).arrAt w (Pipeline.pin (pcfgs (F := F)) (adm m hO) p).N

/-- Call `p`'s tables, at the contents the family fixes for them. -/
abbrev tabs (c : Dev nD) : sProp 𝕄 := Pipeline.prefHeld (pcfgs (F := F) p).pre c (fun _ => fullShare) (adm m hO p).1

/-- If the entry contents have the tables at those contents, the buffers that are no array of the call are the tables and the rest. -/
theorem rest_split (lf : Pipeline.PLaunchFacts (nD := nD) (τ := τ) (pcfgs (F := F)) p) (htbl : ∀ c k, atTc Wi c ((pcfgs (F := F) p).pre.ref k) = (adm m hO p).1 k) (c : Dev nD) :
    (Pipeline.unscopedRest (Ix := Unit) (Name := ℕ) (U := UR sig nD τ) (Lvl := ℕ) (pcfgs (F := F) p).spec c (atTc Wi c) : sProp 𝕄)
      = iprop(tabs m hO p c ∗ restP p Wi c) :=
  (Pipeline.unscopedRest_split (Ix := Unit) (Name := ℕ) (U := UR sig nD τ) (Lvl := ℕ) lf.pre c (atTc Wi c)).trans
    (congrArg (fun T => iprop(Pipeline.prefHeld (pcfgs (F := F) p).pre c (fun _ => fullShare) T ∗ restP p Wi c)) (funext (htbl c)))

set_option backward.isDefEq.respectTransparency.types false in
/-- Call `p` as a segment of @main: its arrays are taken out at entry and put back at exit; its tables and the generator register pass through. -/
def regOf (lf : Pipeline.PLaunchFacts (nD := nD) (τ := τ) (pcfgs (F := F)) p)
    (hb : ∀ c, BodyObligation (pdats m hO p c) (defs₀ (F := F)) Variants.none () Set.univ)
    (howed : ∀ c t, (pdats m hO p c).owed t = 0)
    (hshare : ∀ c w, (pdats m hO p c).share w = fullShare)
    (hrec : ∀ c, (pdats m hO p c).recorded 0 = Set.univ)
    (hA : ∀ c w, (pdats m hO p c).A w = atTc Wi c (Pipeline.arrRef (Pipeline.pin (pcfgs (F := F)) (adm m hO) p).spec w))
    (hΦi : ∀ c, iprop(Pipeline.ΦA (pcfgs (F := F) p).spec c ∗ tabs m hO p c) ⊢ (pdats m hO p c).Φ 0)
    (hΦo : ∀ c, (pdats m hO p c).Φ (Fin.last _) ⊢ iprop(Pipeline.ΦA (pcfgs (F := F) p).spec c ∗ tabs m hO p c))
    (htbl : ∀ c k, atTc Wi c ((pcfgs (F := F) p).pre.ref k) = (adm m hO p).1 k) :
    Pipeline.RegionSeg (pcfgs (F := F)) (adm m hO) (pdats m hO) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (outOf m hO p Wi c) ∗ R c)
  X c := iprop(∃ r, prngReg c r)
  Y c := iprop((∃ r, prngReg c r) ∗ tabs m hO p c)
  Z c := restP p Wi c
  hentry c := by
    rw [Pipeline.ownSems0_none]
    have hsplit := Pipeline.arrays_of_unscopedBufs (p := p) (pcfgs (F := F)) (adm m hO) (pdats m hO) lf.win lf.arr_whole c (hshare c) (atTc Wi c) (hA c)
    rw [Pipeline.unscopedBufs_held] at hsplit
    iintro ⟨⟨Hub, Hp, HO⟩, -, -⟩
    ihave H := hsplit $$ Hub
    icases H with ⟨Ha, Hrest⟩
    ihave Hrest' := (Entails.of_eq (rest_split m hO p Wi lf htbl c)) $$ Hrest
    icases Hrest' with ⟨Hpf, Hz⟩
    imodintro
    isplitl [Ha]; · iexact Ha
    isplitl [Hpf]; · iexact Hpf
    isplitl [HO]
    · unfold Pipeline.Dat.owesAt; rw [howed c]; unfold Pipeline.owesWithin
      icases HO with ⟨%W, HO⟩; iexists W; isplitr; · ipureintro; exact fun x _ => Or.inl (by rw [hrec c]; exact Set.mem_univ x)
      iexact HO
    isplitl [Hp]; · iexact Hp
    iexact Hz
  hin c := by
    refine .trans ?_ (hΦi c); unfold Pipeline.ΦA
    iintro ⟨Hp, Hpf, Hr⟩
    isplitl [Hr Hp]
    · isplitl [Hr]; · iexact Hr
      iexact Hp
    iexact Hpf
  hout c := by
    rw [Pipeline.ownSems0_none]; refine (hΦo c).trans ?_; unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := p) (pcfgs (F := F)) (adm m hO) (Ix := Unit) (Name := ℕ) (U := UR sig nD τ) (Lvl := ℕ)
      lf.win lf.arr_whole c (pdats m hO) (hshare c) (atTc Wi c) (atTc (outOf m hO p Wi) c)
      ((pdats m hO p c).arrAt · (Pipeline.pin (pcfgs (F := F)) (adm m hO) p).N)
      (fun w => (Pipeline.withArrays_arr _ lf.win.arr_inj c (Wi c) (fun w => (pdats m hO p c).arrAt w _) w).symm)
      (fun b hb => Pipeline.withArrays_of_ne _ c (Wi c) (fun w => (pdats m hO p c).arrAt w _) b
        fun w e => hb (Finset.mem_image.mpr ⟨w, Finset.mem_univ _, e⟩))
    rw [Pipeline.unscopedBufs_held] at hjoin
    iintro ⟨Ha, HO, ⟨HY, Hpf⟩, Hz⟩
    ihave Hrest := (Entails.of_eq (rest_split m hO p Wi lf htbl c).symm) $$ [Hpf Hz]
    · isplitl [Hpf]; · iexact Hpf
      iexact Hz
    imodintro
    isplitl [Ha Hrest]
    · iapply hjoin; isplitl [Ha] <;> iassumption
    isplitl [HY]; · iexact HY
    unfold Pipeline.Dat.owesAt; rw [howed c]; unfold Pipeline.owesWithin
    icases HO with ⟨%W, -, HO⟩; iexists W; iexact HO

end

section
variable (m : (ℓ : Loc nD τ sig) → Buf (Elt F) ℓ) (hO : Oks m)

/-- A call without tables holds none. -/
theorem drop_tabs (p : Fin 10) (h0 : IsEmpty (Fin (pcfgs (F := F) p).pre.K)) (c : Dev nD) (A : sProp 𝕄) :
    iprop(A ∗ tabs m hO p c) ⊣⊢ A := by
  rw [show tabs m hO p c = BI.emp from by
    haveI := h0; show Pipeline.prefHeld _ _ _ _ = _; unfold Pipeline.prefHeld; rw [Finset.univ_eq_empty, BI.bigSep_empty]]
  exact sep_emp

def reg0 := regOf m hO 0 (W1 m) launch0 (body_obligation0 (V1 m) (T0 m) hO.h0) (fun _ _ => rfl)
  (fun c => (pdats m hO 0 c).share_full fun _ => rfl) (fun _ => rfl) (fun _ _ => rfl) (fun _ => .rfl) (fun _ => .rfl) (tblAt0 m)
def reg1 := regOf m hO 1 (W3 m hO) launch1 (body_obligation1 (V3 m hO) (T1 m) hO.h1) (fun _ _ => rfl)
  (fun c => (pdats m hO 1 c).share_full fun _ => rfl) (fun _ => rfl) (fun _ _ => rfl) (fun _ => .rfl) (fun _ => .rfl) (tblAt1 m hO)
def reg2 := regOf m hO 2 (W5 m hO) launch2 (body_obligation2 (V5 m hO) (T2 m) hO.h2) (fun _ _ => rfl)
  (fun c => (pdats m hO 2 c).share_full fun _ => rfl) (fun _ => rfl) (fun _ _ => rfl) (fun _ => .rfl) (fun _ => .rfl) (tblAt2 m hO)
def reg3 := regOf m hO 3 (W7 m hO) launch3 (body_obligation3 (V7 m hO) (T3 m) hO.h3) (fun _ _ => rfl)
  (fun c => (pdats m hO 3 c).share_full fun _ => rfl) (fun _ => rfl) (fun _ _ => rfl) (fun _ => .rfl) (fun _ => .rfl) (tblAt3 m hO)
def reg4 := regOf m hO 4 (W9 m hO) launch4 (body_obligation4 (V9 m hO) (T4 m) hO.h4) (fun _ _ => rfl)
  (fun c => (pdats m hO 4 c).share_full fun _ => rfl) (fun _ => rfl) (fun _ _ => rfl) (fun _ => .rfl) (fun _ => .rfl) (tblAt4 m hO)
def reg5 := regOf m hO 5 (W11 m hO) launch5 (body_obligation5 (V11 m hO) (T5 m) hO.h5) (fun _ _ => rfl)
  (fun c => (pdats m hO 5 c).share_full fun _ => rfl) (fun _ => rfl) (fun _ _ => rfl) (fun _ => .rfl) (fun _ => .rfl) (tblAt5 m hO)
def reg6 := regOf m hO 6 (W13 m hO) launch6 (body_obligation6 (V13 m hO) (T6 m) hO.h6) (fun _ _ => rfl)
  (fun c => (pdats m hO 6 c).share_full fun _ => rfl) (fun _ => rfl) (fun _ _ => rfl) (fun _ => .rfl) (fun _ => .rfl) (tblAt6 m hO)
def reg7 := regOf m hO 7 (W15 m hO) launch7 (body_obligation7 (V15 m hO)) (fun _ _ => rfl)
  (fun c => (pdats m hO 7 c).share_full fun _ => rfl) (fun _ => rfl) (fun _ _ => rfl) (fun c => (drop_tabs m hO 7 Fin.isEmpty c _).1)
  (fun c => (drop_tabs m hO 7 Fin.isEmpty c _).2) fun _ k => k.elim0
def reg8 := regOf m hO 8 (W17 m hO) launch8 (body_obligation8 (V17 m hO)) (fun _ _ => rfl)
  (fun c => (pdats m hO 8 c).share_full fun _ => rfl) (fun _ => rfl) (fun _ _ => rfl) (fun c => (drop_tabs m hO 8 Fin.isEmpty c _).1)
  (fun c => (drop_tabs m hO 8 Fin.isEmpty c _).2) fun _ k => k.elim0
def reg9 := regOf m hO 9 (W19 m hO) launch9 (body_obligation9 (V19 m hO)) (fun _ _ => rfl)
  (fun c => (pdats m hO 9 c).share_full fun _ => rfl) (fun _ => rfl) (fun _ _ => rfl) (fun c => (drop_tabs m hO 9 Fin.isEmpty c _).1)
  (fun c => (drop_tabs m hO 9 Fin.isEmpty c _).2) fun _ k => k.elim0

end

end Cert.KernelIdeal.Hand

end
-- ==== Proof.RunAll.lean ====
import proofs.«414926_j197568496007_1_alg».proof.Proof.Regs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (m : (ℓ : Loc nD τ sig) → Buf (Elt F) ℓ) (ρ : Dev nD → PrngReg) (hO : Oks m)

abbrev segs : List (Pipeline.Seg (pcfgs (F := F)) (adm m hO) (pdats m hO) () defs₀ 𝒱₀ L lv) :=
  [
    .host (hseg hostOps0 hostOps0_sub hostOps0_fresh (W0 m)),
    .region (reg0 m hO),
    .host (hseg hostOps1 hostOps1_sub hostOps1_fresh (W2 m hO)),
    .region (reg1 m hO),
    .host (hseg hostOps2 hostOps2_sub hostOps2_fresh (W4 m hO)),
    .region (reg2 m hO),
    .host (hseg hostOps3 hostOps3_sub hostOps3_fresh (W6 m hO)),
    .region (reg3 m hO),
    .host (hseg hostOps4 hostOps4_sub hostOps4_fresh (W8 m hO)),
    .region (reg4 m hO),
    .host (hseg hostOps5 hostOps5_sub hostOps5_fresh (W10 m hO)),
    .region (reg5 m hO),
    .host (hseg hostOps6 hostOps6_sub hostOps6_fresh (W12 m hO)),
    .region (reg6 m hO),
    .host (hseg hostOps7 hostOps7_sub hostOps7_fresh (W14 m hO)),
    .region (reg7 m hO),
    .host (hseg hostOps8 hostOps8_sub hostOps8_fresh (W16 m hO)),
    .region (reg8 m hO),
    .host (hseg hostOps9 hostOps9_sub hostOps9_fresh (W18 m hO)),
    .region (reg9 m hO) ]

theorem main_run (c : Dev nD) : main (F := F) c = Pipeline.Seg.run (segs m hO) := (main_chain c).trans (by chain_rfl)

abbrev Tₙ (c : Dev nD) : sProp 𝕄 := iprop(StableHlo.held (c : Thread nD τ) (Pipeline.ucRefs τ sig) (W20 m hO c) ∗ ∃ r, prngReg c r)

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = W20 m hO c b) :=
  Pipeline.θ_run_regions_kit (pcfgs (F := F)) (adm m hO) (pdats m hO) () (cellOf_inj (adm m hO)) emb₁ defs₀ 𝒱₀ L lv m ρ main (segs m hO)
    (fun c Q => by rw [main_run m hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hO)) (cellOf_inj (adm m hO)))
      (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO)))
              (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO)))
              (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hO)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show iprop(StableHlo.held (c : Thread nD τ) (Pipeline.ucRefs τ sig) (W20 m hO c) ∗ R c)
          ⊢ iprop(Tₙ m hO c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m hO c b)
    (hfin := fun c s' => by
      iintro ⟨⟨Hh, -⟩, HSI⟩
      unfold StableHlo.held
      imodintro
      iapply (pointsTo_read_all (Pipeline.ucRefs τ sig) (fun b => (((c : Thread nD τ)).1, b)) (W20 m hO c) s')
      isplitl [Hh] <;> iassumption)
    (hQ := fun s h c => h c)

/-- Read off the last boundary: the result array, and every argument array as launched. -/
theorem run_frame : θ_run defs (onTc (τ := τ) (main (F := F))) ⟨m, fun _ => 0, ρ⟩
    (fun r => ∀ c : Dev nD, r.2.mem ((c : Thread nD τ).loc main_v51) = W20 m hO c (Proc.devRef .tc main_v51)
      ∧ keep.Forall fun a => r.2.mem ((c : Thread nD τ).loc a) = m ((c : Thread nD τ).loc a)) :=
  (θ_run defs _ _).mono (fun r h c => ⟨h c _ (mem_uc main_v51 (by decide)), List.forall_iff_forall_mem.mpr fun a ha =>
    (h c _ (mem_uc a ((by decide : ∀ a ∈ keep, ¬ (Proc.devRef .tc a : DevRef τ sig).isScoped) a ha))).trans
      ((W20_all m hO c a ha).trans rfl)⟩) (run_all m ρ hO)

end

end Cert.KernelIdeal.Hand

end
-- ==== Proof.C7Val.lean ====
import proofs.«414926_j197568496007_1_alg».proof.Proof.C7
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

section Region7
variable (V : (c : Dev nD) → (b : Ref sig .tc) → Buf (Elt F) ((c : Thread nD τ).loc b))

def row7 (t : Fin 8) (p : Fin 128) : Fin 1024 := ⟨128 * t.val + p.val, by have := t.isLt; have := p.isLt; omega⟩

def hsBlk7 (c : Dev nD) (t : Fin 8) : Vec F S128x512 .f32 :=
  fun y => (V c main_arg1 : S1024x512.Idx → Elt F .f32) (ValueIdx.ix2 (row7 t (y 0)) (y 1))

def nbBlk7 (c : Dev nD) (t : Fin 8) : Vec F S128x25x512 .f32 :=
  fun y => (V c main_v4 : S1024x25x512.Idx → Elt F .f32) (ValueIdx.ix3 (row7 t (y 0)) (y 1) (y 2))

def pt7 (t : Fin cfg7.N) : Fin 8 := ⟨t.val, by have h : t.val < grid7.N := t.isLt; rw [N_7] at h; exact h⟩

theorem idx_facts7 : ∀ t : Fin cfg7.N,
    win7_0.index t (0 : Fin 2) = t.val ∧ win7_0.index t (1 : Fin 2) = 0
    ∧ win7_1.index t (0 : Fin 3) = t.val ∧ win7_1.index t (1 : Fin 3) = 0 ∧ win7_1.index t (2 : Fin 3) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

set_option maxHeartbeats 400000 in
theorem iblk7_0_eq (c : Dev nD) (t : Fin cfg7.N) : (iblk7 V c 0 t : Vec F S128x512 .f32) = hsBlk7 V c (pt7 t) := by
  obtain ⟨e0, e1, -⟩ := idx_facts7 t
  funext y
  unfold iblk7 hsBlk7
  rw [View.read_apply]
  show V c main_arg1 (((cfg7.win 0).blk t).view.emb y) = V c main_arg1 (ValueIdx.ix2 (row7 (pt7 t) (y 0)) (y 1))
  refine congrArg _ ?_
  funext a
  apply Fin.ext
  match a with
  | ⟨0, _⟩ => show win7_0.index t (0 : Fin 2) * 128 + 1 * (y 0).val = 128 * t.val + (y 0).val; rw [e0]; omega
  | ⟨1, _⟩ => show win7_0.index t (1 : Fin 2) * 512 + 1 * (y 1).val = (y 1).val; rw [e1]; omega

set_option maxHeartbeats 400000 in
theorem iblk7_1_eq (c : Dev nD) (t : Fin cfg7.N) : (iblk7 V c 1 t : Vec F S128x25x512 .f32) = nbBlk7 V c (pt7 t) := by
  obtain ⟨-, -, e0, e1, e2, -⟩ := idx_facts7 t
  funext y
  unfold iblk7 nbBlk7
  rw [View.read_apply]
  show V c main_v4 (((cfg7.win 1).blk t).view.emb y) = V c main_v4 (ValueIdx.ix3 (row7 (pt7 t) (y 0)) (y 1) (y 2))
  refine congrArg _ ?_
  funext a
  apply Fin.ext
  match a with
  | ⟨0, _⟩ => show win7_1.index t (0 : Fin 3) * 128 + 1 * (y 0).val = 128 * t.val + (y 0).val; rw [e0]; omega
  | ⟨1, _⟩ => show win7_1.index t (1 : Fin 3) * 25 + 1 * (y 1).val = (y 1).val; rw [e1]; omega
  | ⟨2, _⟩ => show win7_1.index t (2 : Fin 3) * 512 + 1 * (y 2).val = (y 2).val; rw [e2]; omega

set_option maxHeartbeats 400000 in
theorem iblk7_2_eq (c : Dev nD) (t : Fin cfg7.N) : (iblk7 V c 2 t : Vec F S512x512 .f32) = (V c main_v41 : S512x512.Idx → Elt F .f32) := by
  obtain ⟨-, -, -, -, -, e0, e1, -⟩ := idx_facts7 t
  funext y
  unfold iblk7
  rw [View.read_apply]
  show V c main_v41 (((cfg7.win 2).blk t).view.emb y) = V c main_v41 y
  refine congrArg _ ?_
  funext a
  apply Fin.ext
  match a with
  | ⟨0, _⟩ => show win7_2.index t (0 : Fin 2) * 512 + 1 * (y 0).val = (y 0).val; rw [e0]; omega
  | ⟨1, _⟩ => show win7_2.index t (1 : Fin 2) * 512 + 1 * (y 1).val = (y 1).val; rw [e1]; omega

set_option maxHeartbeats 400000 in
theorem iblk7_3_eq (c : Dev nD) (t : Fin cfg7.N) : (iblk7 V c 3 t : Vec F S512x512 .f32) = (V c main_v42 : S512x512.Idx → Elt F .f32) := by
  obtain ⟨-, -, -, -, -, -, -, e0, e1, -⟩ := idx_facts7 t
  funext y
  unfold iblk7
  rw [View.read_apply]
  show V c main_v42 (((cfg7.win 3).blk t).view.emb y) = V c main_v42 y
  refine congrArg _ ?_
  funext a
  apply Fin.ext
  match a with
  | ⟨0, _⟩ => show win7_3.index t (0 : Fin 2) * 512 + 1 * (y 0).val = (y 0).val; rw [e0]; omega
  | ⟨1, _⟩ => show win7_3.index t (1 : Fin 2) * 512 + 1 * (y 1).val = (y 1).val; rw [e1]; omega

set_option maxHeartbeats 400000 in
theorem iblk7_4_eq (c : Dev nD) (t : Fin cfg7.N) : (iblk7 V c 4 t : Vec F S1x512 .f32) = (V c main_v43 : S1x512.Idx → Elt F .f32) := by
  obtain ⟨-, -, -, -, -, -, -, -, -, e0, e1, -⟩ := idx_facts7 t
  funext y
  unfold iblk7
  rw [View.read_apply]
  show V c main_v43 (((cfg7.win 4).blk t).view.emb y) = V c main_v43 y
  refine congrArg _ ?_
  funext a
  apply Fin.ext
  match a with
  | ⟨0, _⟩ => show win7_4.index t (0 : Fin 2) * 1 + 1 * (y 0).val = (y 0).val; rw [e0]; omega
  | ⟨1, _⟩ => show win7_4.index t (1 : Fin 2) * 512 + 1 * (y 1).val = (y 1).val; rw [e1]; omega

def blkOf7 (i : S1024x512.Idx) : Fin 8 := ⟨(i 0).val / 128, by have h : (i 0).val < 1024 := (i 0).isLt; omega⟩
def inBlk7 (i : S1024x512.Idx) : Fin 128 := ⟨(i 0).val % 128, Nat.mod_lt _ (by decide)⟩

def G7 (c : Dev nD) : S1024x512.Idx → Elt F .f32 := fun i =>
  k7_pay1 (nbBlk7 V c (blkOf7 i)) (hsBlk7 V c (blkOf7 i)) (V c main_v41) (V c main_v42) (V c main_v43)
    (ValueIdx.ix2 (inBlk7 i) (i 1 : Fin 512))

theorem G7_at (c : Dev nD) (i : S1024x512.Idx) (t : Fin 8) (y : S128x512.Idx)
    (h0 : (i 0).val = 128 * t.val + (y 0).val) (h1 : (i 1).val = (y 1).val) :
    G7 V c i = k7_pay1 (nbBlk7 V c t) (hsBlk7 V c t) (V c main_v41) (V c main_v42) (V c main_v43) y := by
  have hy : (y 0).val < 128 := (y 0).isLt
  have hb : blkOf7 i = t := Fin.ext (by show (i 0).val / 128 = t.val; omega)
  have e : (ValueIdx.ix2 (inBlk7 i) (i 1 : Fin 512) : S128x512.Idx) = y := by
    funext a
    apply Fin.ext
    match a with
    | ⟨0, _⟩ => show (i 0).val % 128 = (y 0).val; omega
    | ⟨1, _⟩ => exact h1
  unfold G7
  rw [hb, e]

set_option maxHeartbeats 400000 in

theorem flushed7_eq (c : Dev nD) (t : Fin cfg7.N) :
    (dat7 V c).flushed 5 t = ((cfg7.win 5).blk t).view.read (Elt F) (G7 V c) := by
  show (cfg7.win 5).cut (grid7.coords t) ((dat7 V c).after 5 t) = _
  rw [after7_5, out7_5_eq, iblk7_0_eq, iblk7_1_eq, iblk7_2_eq, iblk7_3_eq, iblk7_4_eq]
  obtain ⟨-, -, -, -, -, -, -, -, -, -, -, e0, e1⟩ := idx_facts7 t
  funext y
  rw [View.read_apply]
  show k7_pay1 (nbBlk7 V c (pt7 t)) (hsBlk7 V c (pt7 t)) (V c main_v41) (V c main_v42) (V c main_v43) y
      = G7 V c (((cfg7.win 5).blk t).view.emb y)
  refine (G7_at V c _ (pt7 t) y ?_ ?_).symm
  · show win7_5.index t (0 : Fin 2) * 128 + 1 * (y 0).val = 128 * t.val + (y 0).val; rw [e0]; omega
  · show win7_5.index t (1 : Fin 2) * 512 + 1 * (y 1).val = (y 1).val; rw [e1]; omega

theorem mem_blk7 (t : Fin cfg7.N) (i : S1024x512.Idx) :
    i ∈ ((cfg7.win 5).blk t).view.set ↔ ∀ a : Fin 2, win7_5.index t a * S128x512.size a ≤ (i a).val ∧ (i a).val < win7_5.index t a * S128x512.size a + S128x512.size a := by
  show i ∈ ((View.whole main_v44).slice (win7_5.rect t)).set ↔ _
  rw [View.set_slice_whole, Rect.mem_set_unit]
  exact Iff.rfl

theorem cover7 (i : S1024x512.Idx) : ∃ t : Fin cfg7.N, (cfg7.win 5).flush t = true ∧ i ∈ ((cfg7.win 5).blk t).view.set := by
  have hi0 : (i 0).val < 1024 := (i 0).isLt
  have hi1 : (i 1).val < 512 := (i 1).isLt
  obtain ⟨t, ht⟩ : ∃ t : Fin cfg7.N, t.val = (i 0).val / 128 :=
    ⟨⟨(i 0).val / 128, by show (i 0).val / 128 < grid7.N; rw [N_7]; omega⟩, rfl⟩
  obtain ⟨-, -, -, -, -, -, -, -, -, -, -, e0, e1⟩ := idx_facts7 t
  refine ⟨t, flush7_5 t, ?_⟩
  rw [mem_blk7]
  intro a
  match a with
  | ⟨0, _⟩ => show win7_5.index t (0 : Fin 2) * 128 ≤ (i 0).val ∧ (i 0).val < win7_5.index t (0 : Fin 2) * 128 + 128; rw [e0, ht]; omega
  | ⟨1, _⟩ => show win7_5.index t (1 : Fin 2) * 512 ≤ (i 1).val ∧ (i 1).val < win7_5.index t (1 : Fin 2) * 512 + 512; rw [e1]; omega

theorem final7 (c : Dev nD) : (dat7 V c).arrAt 5 cfg7.N = G7 V c :=
  (dat7 V c).arrAt_eq_of_cover 5 (G7 V c) (fun t _ => flushed7_eq V c t) cover7

theorem comb7_final (c : Dev nD) (t : Fin 8) (p : Fin 128) (j : Fin 512) :
    (dat7 V c).arrAt 5 cfg7.N (ValueIdx.ix2 (row7 t p) j : S1024x512.Idx)
      = k7_pay1 (nbBlk7 V c t) (hsBlk7 V c t) (V c main_v41) (V c main_v42) (V c main_v43) (ValueIdx.ix2 p j) :=
  (congrFun (final7 V c) _).trans (G7_at V c _ t (ValueIdx.ix2 p j) rfl rfl)

end Region7

end Cert.KernelIdeal.Hand

end
-- ==== Proof.C8Val.lean ====
import proofs.«414926_j197568496007_1_alg».proof.Proof.C8
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

section Region8
variable (V : (c : Dev nD) → (b : Ref sig .tc) → Buf (Elt F) ((c : Thread nD τ).loc b))

def row8 (t : Fin 80) (p : Fin 128) : Fin 10240 := ⟨128 * t.val + p.val, by have := t.isLt; have := p.isLt; omega⟩

def hsBlk8 (c : Dev nD) (t : Fin 80) : Vec F S128x512 .f32 :=
  fun y => (V c main_v45 : S10240x512.Idx → Elt F .f32) (ValueIdx.ix2 (row8 t (y 0)) (y 1))

def nbBlk8 (c : Dev nD) (t : Fin 80) : Vec F S128x25x512 .f32 :=
  fun y => (V c main_v40 : S10240x25x512.Idx → Elt F .f32) (ValueIdx.ix3 (row8 t (y 0)) (y 1) (y 2))

def pt8 (t : Fin cfg8.N) : Fin 80 := ⟨t.val, by have h : t.val < grid8.N := t.isLt; rw [N_8] at h; exact h⟩

theorem idx_facts8 : ∀ t : Fin cfg8.N,
    win8_0.index t (0 : Fin 2) = t.val ∧ win8_0.index t (1 : Fin 2) = 0
    ∧ win8_1.index t (0 : Fin 3) = t.val ∧ win8_1.index t (1 : Fin 3) = 0 ∧ win8_1.index t (2 : Fin 3) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

set_option maxHeartbeats 400000 in
theorem iblk8_0_eq (c : Dev nD) (t : Fin cfg8.N) : (iblk8 V c 0 t : Vec F S128x512 .f32) = hsBlk8 V c (pt8 t) := by
  obtain ⟨e0, e1, -⟩ := idx_facts8 t
  funext y
  unfold iblk8 hsBlk8
  rw [View.read_apply]
  show V c main_v45 (((cfg8.win 0).blk t).view.emb y) = V c main_v45 (ValueIdx.ix2 (row8 (pt8 t) (y 0)) (y 1))
  refine congrArg _ ?_
  funext a
  apply Fin.ext
  match a with
  | ⟨0, _⟩ => show win8_0.index t (0 : Fin 2) * 128 + 1 * (y 0).val = 128 * t.val + (y 0).val; rw [e0]; omega
  | ⟨1, _⟩ => show win8_0.index t (1 : Fin 2) * 512 + 1 * (y 1).val = (y 1).val; rw [e1]; omega

set_option maxHeartbeats 400000 in
theorem iblk8_1_eq (c : Dev nD) (t : Fin cfg8.N) : (iblk8 V c 1 t : Vec F S128x25x512 .f32) = nbBlk8 V c (pt8 t) := by
  obtain ⟨-, -, e0, e1, e2, -⟩ := idx_facts8 t
  funext y
  unfold iblk8 nbBlk8
  rw [View.read_apply]
  show V c main_v40 (((cfg8.win 1).blk t).view.emb y) = V c main_v40 (ValueIdx.ix3 (row8 (pt8 t) (y 0)) (y 1) (y 2))
  refine congrArg _ ?_
  funext a
  apply Fin.ext
  match a with
  | ⟨0, _⟩ => show win8_1.index t (0 : Fin 3) * 128 + 1 * (y 0).val = 128 * t.val + (y 0).val; rw [e0]; omega
  | ⟨1, _⟩ => show win8_1.index t (1 : Fin 3) * 25 + 1 * (y 1).val = (y 1).val; rw [e1]; omega
  | ⟨2, _⟩ => show win8_1.index t (2 : Fin 3) * 512 + 1 * (y 2).val = (y 2).val; rw [e2]; omega

set_option maxHeartbeats 400000 in
theorem iblk8_2_eq (c : Dev nD) (t : Fin cfg8.N) : (iblk8 V c 2 t : Vec F S512x512 .f32) = (V c main_v41 : S512x512.Idx → Elt F .f32) := by
  obtain ⟨-, -, -, -, -, e0, e1, -⟩ := idx_facts8 t
  funext y
  unfold iblk8
  rw [View.read_apply]
  show V c main_v41 (((cfg8.win 2).blk t).view.emb y) = V c main_v41 y
  refine congrArg _ ?_
  funext a
  apply Fin.ext
  match a with
  | ⟨0, _⟩ => show win8_2.index t (0 : Fin 2) * 512 + 1 * (y 0).val = (y 0).val; rw [e0]; omega
  | ⟨1, _⟩ => show win8_2.index t (1 : Fin 2) * 512 + 1 * (y 1).val = (y 1).val; rw [e1]; omega

set_option maxHeartbeats 400000 in
theorem iblk8_3_eq (c : Dev nD) (t : Fin cfg8.N) : (iblk8 V c 3 t : Vec F S512x512 .f32) = (V c main_v42 : S512x512.Idx → Elt F .f32) := by
  obtain ⟨-, -, -, -, -, -, -, e0, e1, -⟩ := idx_facts8 t
  funext y
  unfold iblk8
  rw [View.read_apply]
  show V c main_v42 (((cfg8.win 3).blk t).view.emb y) = V c main_v42 y
  refine congrArg _ ?_
  funext a
  apply Fin.ext
  match a with
  | ⟨0, _⟩ => show win8_3.index t (0 : Fin 2) * 512 + 1 * (y 0).val = (y 0).val; rw [e0]; omega
  | ⟨1, _⟩ => show win8_3.index t (1 : Fin 2) * 512 + 1 * (y 1).val = (y 1).val; rw [e1]; omega

set_option maxHeartbeats 400000 in
theorem iblk8_4_eq (c : Dev nD) (t : Fin cfg8.N) : (iblk8 V c 4 t : Vec F S1x512 .f32) = (V c main_v43 : S1x512.Idx → Elt F .f32) := by
  obtain ⟨-, -, -, -, -, -, -, -, -, e0, e1, -⟩ := idx_facts8 t
  funext y
  unfold iblk8
  rw [View.read_apply]
  show V c main_v43 (((cfg8.win 4).blk t).view.emb y) = V c main_v43 y
  refine congrArg _ ?_
  funext a
  apply Fin.ext
  match a with
  | ⟨0, _⟩ => show win8_4.index t (0 : Fin 2) * 1 + 1 * (y 0).val = (y 0).val; rw [e0]; omega
  | ⟨1, _⟩ => show win8_4.index t (1 : Fin 2) * 512 + 1 * (y 1).val = (y 1).val; rw [e1]; omega

def blkOf8 (i : S10240x512.Idx) : Fin 80 := ⟨(i 0).val / 128, by have h : (i 0).val < 10240 := (i 0).isLt; omega⟩
def inBlk8 (i : S10240x512.Idx) : Fin 128 := ⟨(i 0).val % 128, Nat.mod_lt _ (by decide)⟩

def G8 (c : Dev nD) : S10240x512.Idx → Elt F .f32 := fun i =>
  k8_pay1 (nbBlk8 V c (blkOf8 i)) (hsBlk8 V c (blkOf8 i)) (V c main_v41) (V c main_v42) (V c main_v43)
    (ValueIdx.ix2 (inBlk8 i) (i 1 : Fin 512))

theorem G8_at (c : Dev nD) (i : S10240x512.Idx) (t : Fin 80) (y : S128x512.Idx)
    (h0 : (i 0).val = 128 * t.val + (y 0).val) (h1 : (i 1).val = (y 1).val) :
    G8 V c i = k8_pay1 (nbBlk8 V c t) (hsBlk8 V c t) (V c main_v41) (V c main_v42) (V c main_v43) y := by
  have hy : (y 0).val < 128 := (y 0).isLt
  have hb : blkOf8 i = t := Fin.ext (by show (i 0).val / 128 = t.val; omega)
  have e : (ValueIdx.ix2 (inBlk8 i) (i 1 : Fin 512) : S128x512.Idx) = y := by
    funext a
    apply Fin.ext
    match a with
    | ⟨0, _⟩ => show (i 0).val % 128 = (y 0).val; omega
    | ⟨1, _⟩ => exact h1
  unfold G8
  rw [hb, e]

set_option maxHeartbeats 400000 in

theorem flushed8_eq (c : Dev nD) (t : Fin cfg8.N) :
    (dat8 V c).flushed 5 t = ((cfg8.win 5).blk t).view.read (Elt F) (G8 V c) := by
  show (cfg8.win 5).cut (grid8.coords t) ((dat8 V c).after 5 t) = _
  rw [after8_5, out8_5_eq, iblk8_0_eq, iblk8_1_eq, iblk8_2_eq, iblk8_3_eq, iblk8_4_eq]
  obtain ⟨-, -, -, -, -, -, -, -, -, -, -, e0, e1⟩ := idx_facts8 t
  funext y
  rw [View.read_apply]
  show k8_pay1 (nbBlk8 V c (pt8 t)) (hsBlk8 V c (pt8 t)) (V c main_v41) (V c main_v42) (V c main_v43) y
      = G8 V c (((cfg8.win 5).blk t).view.emb y)
  refine (G8_at V c _ (pt8 t) y ?_ ?_).symm
  · show win8_5.index t (0 : Fin 2) * 128 + 1 * (y 0).val = 128 * t.val + (y 0).val; rw [e0]; omega
  · show win8_5.index t (1 : Fin 2) * 512 + 1 * (y 1).val = (y 1).val; rw [e1]; omega

theorem mem_blk8 (t : Fin cfg8.N) (i : S10240x512.Idx) :
    i ∈ ((cfg8.win 5).blk t).view.set ↔ ∀ a : Fin 2, win8_5.index t a * S128x512.size a ≤ (i a).val ∧ (i a).val < win8_5.index t a * S128x512.size a + S128x512.size a := by
  show i ∈ ((View.whole main_v46).slice (win8_5.rect t)).set ↔ _
  rw [View.set_slice_whole, Rect.mem_set_unit]
  exact Iff.rfl

theorem cover8 (i : S10240x512.Idx) : ∃ t : Fin cfg8.N, (cfg8.win 5).flush t = true ∧ i ∈ ((cfg8.win 5).blk t).view.set := by
  have hi0 : (i 0).val < 10240 := (i 0).isLt
  have hi1 : (i 1).val < 512 := (i 1).isLt
  obtain ⟨t, ht⟩ : ∃ t : Fin cfg8.N, t.val = (i 0).val / 128 :=
    ⟨⟨(i 0).val / 128, by show (i 0).val / 128 < grid8.N; rw [N_8]; omega⟩, rfl⟩
  obtain ⟨-, -, -, -, -, -, -, -, -, -, -, e0, e1⟩ := idx_facts8 t
  refine ⟨t, flush8_5 t, ?_⟩
  rw [mem_blk8]
  intro a
  match a with
  | ⟨0, _⟩ => show win8_5.index t (0 : Fin 2) * 128 ≤ (i 0).val ∧ (i 0).val < win8_5.index t (0 : Fin 2) * 128 + 128; rw [e0, ht]; omega
  | ⟨1, _⟩ => show win8_5.index t (1 : Fin 2) * 512 ≤ (i 1).val ∧ (i 1).val < win8_5.index t (1 : Fin 2) * 512 + 512; rw [e1]; omega

theorem final8 (c : Dev nD) : (dat8 V c).arrAt 5 cfg8.N = G8 V c :=
  (dat8 V c).arrAt_eq_of_cover 5 (G8 V c) (fun t _ => flushed8_eq V c t) cover8

theorem comb8_final (c : Dev nD) (t : Fin 80) (p : Fin 128) (j : Fin 512) :
    (dat8 V c).arrAt 5 cfg8.N (ValueIdx.ix2 (row8 t p) j : S10240x512.Idx)
      = k8_pay1 (nbBlk8 V c t) (hsBlk8 V c t) (V c main_v41) (V c main_v42) (V c main_v43) (ValueIdx.ix2 p j) :=
  (congrFun (final8 V c) _).trans (G8_at V c _ t (ValueIdx.ix2 p j) rfl rfl)

end Region8

end Cert.KernelIdeal.Hand

end
-- ==== Proof.C9Val.lean ====
import proofs.«414926_j197568496007_1_alg».proof.Proof.C9
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

def blkRow9 (t : Fin 8) (p : Fin 128) : Fin 1024 := ⟨128 * t.val + p.val, by omega⟩

def blkOf9 (r : Fin 1024) : Fin 8 := ⟨r.val / 128, by omega⟩

def inBlk9 (r : Fin 1024) : Fin 128 := ⟨r.val % 128, by omega⟩

@[simp] theorem blkRow9_val (t : Fin 8) (p : Fin 128) : (blkRow9 t p).val = 128 * t.val + p.val := rfl
theorem blkOf9_blkRow9 (t : Fin 8) (p : Fin 128) : blkOf9 (blkRow9 t p) = t := Fin.ext (by show (128 * t.val + p.val) / 128 = t.val; omega)
theorem inBlk9_blkRow9 (t : Fin 8) (p : Fin 128) : inBlk9 (blkRow9 t p) = p := Fin.ext (by show (128 * t.val + p.val) % 128 = p.val; omega)
theorem blkRow9_blkOf9_inBlk9 (r : Fin 1024) : blkRow9 (blkOf9 r) (inBlk9 r) = r := Fin.ext (by show 128 * (r.val / 128) + r.val % 128 = r.val; omega)

def pt9 (t : Fin 8) : Fin cfg9.N := ⟨t.val, by show t.val < grid9.N; rw [N_9]; exact t.isLt⟩
@[simp] theorem pt9_val (t : Fin 8) : (pt9 t).val = t.val := rfl

section Region9Val

variable (V : (c : Dev nD) → (b : Ref sig .tc) → Buf (Elt F) ((c : Thread nD τ).loc b))

def hsBlk9 (c : Dev nD) (t : Fin 8) : Vec F S128x512 .f32 :=
  fun y => (V c main_v44 : S1024x512.Idx → Elt F .f32) (ValueIdx.ix2 (blkRow9 t (y 0)) (y 1))

def nbBlk9 (c : Dev nD) (t : Fin 8) : Vec F S128x10x512 .f32 :=
  fun y => (V c main_v47 : S1024x10x512.Idx → Elt F .f32) (ValueIdx.ix3 (blkRow9 t (y 0)) (y 1) (y 2))

def res9 (c : Dev nD) : S1024x256.Idx → Elt F .f32 := fun i =>
  k9_pay1 (nbBlk9 V c (blkOf9 (i 0))) (hsBlk9 V c (blkOf9 (i 0))) (V c main_v48) (V c main_v49) (V c main_v50)
    (ValueIdx.ix2 (inBlk9 (i 0)) (i 1))

theorem idx_facts9 : ∀ t : Fin cfg9.N,
    win9_0.index t (0 : Fin 2) = t.val ∧ win9_0.index t (1 : Fin 2) = 0
    ∧ win9_1.index t (0 : Fin 3) = t.val ∧ win9_1.index t (1 : Fin 3) = 0 ∧ win9_1.index t (2 : Fin 3) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

theorem iblk9_0_eq (c : Dev nD) (t : Fin 8) : (iblk9 V c 0 (pt9 t) : Vec F S128x512 .f32) = hsBlk9 V c t := by
  obtain ⟨e0, e1, -⟩ := idx_facts9 (pt9 t)
  funext x
  unfold iblk9 hsBlk9
  rw [View.read_apply]
  show V c main_v44 _ = V c main_v44 _
  congr 1
  funext a
  apply Fin.ext
  match a with
  | ⟨0, _⟩ => show win9_0.index (pt9 t) (0 : Fin 2) * 128 + 1 * (x 0).val = 128 * t.val + (x 0).val; rw [e0, pt9_val]; omega
  | ⟨1, _⟩ => show win9_0.index (pt9 t) (1 : Fin 2) * 512 + 1 * (x 1).val = (x 1).val; rw [e1]; omega

theorem iblk9_1_eq (c : Dev nD) (t : Fin 8) : (iblk9 V c 1 (pt9 t) : Vec F S128x10x512 .f32) = nbBlk9 V c t := by
  obtain ⟨-, -, e0, e1, e2, -⟩ := idx_facts9 (pt9 t)
  funext x
  unfold iblk9 nbBlk9
  rw [View.read_apply]
  show V c main_v47 _ = V c main_v47 _
  congr 1
  funext a
  apply Fin.ext
  match a with
  | ⟨0, _⟩ => show win9_1.index (pt9 t) (0 : Fin 3) * 128 + 1 * (x 0).val = 128 * t.val + (x 0).val; rw [e0, pt9_val]; omega
  | ⟨1, _⟩ => show win9_1.index (pt9 t) (1 : Fin 3) * 10 + 1 * (x 1).val = (x 1).val; rw [e1]; omega
  | ⟨2, _⟩ => show win9_1.index (pt9 t) (2 : Fin 3) * 512 + 1 * (x 2).val = (x 2).val; rw [e2]; omega

theorem iblk9_2_eq (c : Dev nD) (t : Fin 8) : (iblk9 V c 2 (pt9 t) : Vec F S512x256 .f32) = V c main_v48 := by
  obtain ⟨-, -, -, -, -, e0, e1, -⟩ := idx_facts9 (pt9 t)
  funext x
  unfold iblk9
  rw [View.read_apply]
  show V c main_v48 _ = V c main_v48 _
  congr 1
  funext a
  apply Fin.ext
  match a with
  | ⟨0, _⟩ => show win9_2.index (pt9 t) (0 : Fin 2) * 512 + 1 * (x 0).val = (x 0).val; rw [e0]; omega
  | ⟨1, _⟩ => show win9_2.index (pt9 t) (1 : Fin 2) * 256 + 1 * (x 1).val = (x 1).val; rw [e1]; omega

theorem iblk9_3_eq (c : Dev nD) (t : Fin 8) : (iblk9 V c 3 (pt9 t) : Vec F S512x256 .f32) = V c main_v49 := by
  obtain ⟨-, -, -, -, -, -, -, e0, e1, -⟩ := idx_facts9 (pt9 t)
  funext x
  unfold iblk9
  rw [View.read_apply]
  show V c main_v49 _ = V c main_v49 _
  congr 1
  funext a
  apply Fin.ext
  match a with
  | ⟨0, _⟩ => show win9_3.index (pt9 t) (0 : Fin 2) * 512 + 1 * (x 0).val = (x 0).val; rw [e0]; omega
  | ⟨1, _⟩ => show win9_3.index (pt9 t) (1 : Fin 2) * 256 + 1 * (x 1).val = (x 1).val; rw [e1]; omega

theorem iblk9_4_eq (c : Dev nD) (t : Fin 8) : (iblk9 V c 4 (pt9 t) : Vec F S1x256 .f32) = V c main_v50 := by
  obtain ⟨-, -, -, -, -, -, -, -, -, e0, e1, -⟩ := idx_facts9 (pt9 t)
  funext x
  unfold iblk9
  rw [View.read_apply]
  show V c main_v50 _ = V c main_v50 _
  congr 1
  funext a
  apply Fin.ext
  match a with
  | ⟨0, _⟩ => show win9_4.index (pt9 t) (0 : Fin 2) * 1 + 1 * (x 0).val = (x 0).val; rw [e0]; omega
  | ⟨1, _⟩ => show win9_4.index (pt9 t) (1 : Fin 2) * 256 + 1 * (x 1).val = (x 1).val; rw [e1]; omega

theorem pay9_congr {x1 x1' : Vec F S128x10x512 .f32} {x0 x0' : Vec F S128x512 .f32} {x2 x2' x3 x3' : Vec F S512x256 .f32}
    {x4 x4' : Vec F S1x256 .f32} {y y' : S128x256.Idx} (h1 : x1 = x1') (h0 : x0 = x0') (h2 : x2 = x2') (h3 : x3 = x3')
    (h4 : x4 = x4') (hy : y = y') : k9_pay1 x1 x0 x2 x3 x4 y = k9_pay1 x1' x0' x2' x3' x4' y' := by
  subst h1 h0 h2 h3 h4 hy; rfl

theorem flushed9_eq (c : Dev nD) (t : Fin 8) :
    (dat9 V c).flushed 5 (pt9 t) = ((cfg9.win 5).blk (pt9 t)).view.read (Elt F) (res9 V c) := by
  obtain ⟨-, -, -, -, -, -, -, -, -, -, -, e0, e1⟩ := idx_facts9 (pt9 t)
  show (cfg9.win 5).cut (grid9.coords (pt9 t)) ((dat9 V c).after 5 (pt9 t)) = _
  rw [after9_5, out9_5_eq]
  refine funext fun (y : S128x256.Idx) => ?_
  obtain ⟨p, q, rfl⟩ : ∃ (p : Fin 128) (q : Fin 256), y = ValueIdx.ix2 p q := ⟨y 0, y 1, ValueIdx.eq_ix2 y⟩
  rw [View.read_apply]

  have hr : ((cfg9.win 5).blk (pt9 t)).view.emb (ValueIdx.ix2 p q) = ValueIdx.ix2 (blkRow9 t p) q := by
    funext a
    apply Fin.ext
    match a with
    | ⟨0, _⟩ => show win9_5.index (pt9 t) (0 : Fin 2) * 128 + 1 * p.val = 128 * t.val + p.val; rw [e0, pt9_val]; omega
    | ⟨1, _⟩ => show win9_5.index (pt9 t) (1 : Fin 2) * 256 + 1 * q.val = q.val; rw [e1]; omega
  rw [hr]
  show k9_pay1 (iblk9 V c 1 (pt9 t)) (iblk9 V c 0 (pt9 t)) (iblk9 V c 2 (pt9 t)) (iblk9 V c 3 (pt9 t)) (iblk9 V c 4 (pt9 t))
      (ValueIdx.ix2 p q)
    = k9_pay1 (nbBlk9 V c (blkOf9 (blkRow9 t p))) (hsBlk9 V c (blkOf9 (blkRow9 t p))) (V c main_v48) (V c main_v49)
        (V c main_v50) (ValueIdx.ix2 (inBlk9 (blkRow9 t p)) q)
  rw [blkOf9_blkRow9, inBlk9_blkRow9]
  exact pay9_congr (iblk9_1_eq V c t) (iblk9_0_eq V c t) (iblk9_2_eq V c t) (iblk9_3_eq V c t) (iblk9_4_eq V c t) rfl

theorem mem_blk9 (t : Fin cfg9.N) (i : S1024x256.Idx) :
    i ∈ ((cfg9.win 5).blk t).view.set ↔ ∀ a : Fin 2, win9_5.index t a * S128x256.size a ≤ (i a).val ∧ (i a).val < win9_5.index t a * S128x256.size a + S128x256.size a := by
  show i ∈ ((View.whole main_v51).slice (win9_5.rect t)).set ↔ _
  rw [View.set_slice_whole, Rect.mem_set_unit]
  exact Iff.rfl

theorem cover9 (i : S1024x256.Idx) : ∃ t : Fin cfg9.N, (cfg9.win 5).flush t = true ∧ i ∈ ((cfg9.win 5).blk t).view.set := by
  have hi0 : (i 0).val < 1024 := (i 0).isLt
  have hi1 : (i 1).val < 256 := (i 1).isLt
  obtain ⟨-, -, -, -, -, -, -, -, -, -, -, e0, e1⟩ := idx_facts9 (pt9 (blkOf9 (i 0)))
  refine ⟨pt9 (blkOf9 (i 0)), flush9_5 _, ?_⟩
  rw [mem_blk9]
  intro a
  match a with
  | ⟨0, _⟩ =>
    show win9_5.index (pt9 (blkOf9 (i 0))) (0 : Fin 2) * 128 ≤ (i 0).val ∧ (i 0).val < win9_5.index (pt9 (blkOf9 (i 0))) (0 : Fin 2) * 128 + 128
    rw [e0]
    show (i 0).val / 128 * 128 ≤ (i 0).val ∧ (i 0).val < (i 0).val / 128 * 128 + 128
    omega
  | ⟨1, _⟩ =>
    show win9_5.index (pt9 (blkOf9 (i 0))) (1 : Fin 2) * 256 ≤ (i 1).val ∧ (i 1).val < win9_5.index (pt9 (blkOf9 (i 0))) (1 : Fin 2) * 256 + 256
    rw [e1]
    omega

theorem pt9_surj (t : Fin cfg9.N) : ∃ t8 : Fin 8, t = pt9 t8 :=
  ⟨⟨t.val, t.isLt.trans_eq N_9⟩, Fin.ext rfl⟩

theorem final9 (c : Dev nD) : (dat9 V c).arrAt 5 cfg9.N = res9 V c :=
  (dat9 V c).arrAt_eq_of_cover 5 (res9 V c)
    (fun t _ => by obtain ⟨t8, rfl⟩ := pt9_surj t; exact flushed9_eq V c t8) cover9

theorem comb9_final (c : Dev nD) (t : Fin 8) (p : Fin 128) (j : Fin 256) :
    (dat9 V c).arrAt 5 cfg9.N (ValueIdx.ix2 (blkRow9 t p) j)
      = k9_pay1 (nbBlk9 V c t) (hsBlk9 V c t) (V c main_v48) (V c main_v49) (V c main_v50) (ValueIdx.ix2 p j) := by
  rw [final9]
  show k9_pay1 (nbBlk9 V c (blkOf9 (blkRow9 t p))) (hsBlk9 V c (blkOf9 (blkRow9 t p))) (V c main_v48) (V c main_v49)
      (V c main_v50) (ValueIdx.ix2 (inBlk9 (blkRow9 t p)) j) = _
  rw [blkOf9_blkRow9, inBlk9_blkRow9]

end Region9Val

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev SFeats : Shape := ⟨2, ![100000, 512]⟩
abbrev SX : Shape := ⟨2, ![1024, 512]⟩
abbrev SW0 : Shape := ⟨2, ![1024, 512]⟩
abbrev SB0 : Shape := ⟨1, ![512]⟩
abbrev SW1 : Shape := ⟨2, ![1024, 256]⟩
abbrev SB1 : Shape := ⟨1, ![256]⟩
abbrev SN1 : Shape := ⟨2, ![1024, 25]⟩
abbrev SN2 : Shape := ⟨2, ![1024, 10]⟩
abbrev SN21 : Shape := ⟨2, ![10240, 25]⟩
abbrev SOut : Shape := ⟨2, ![1024, 256]⟩

def row (w : BitVec 32) : Fin 100000 := ⟨min w.toNat 99999, by omega⟩

theorem row_val (w : BitVec 32) : (row w).val = min w.toNat 99999 := rfl

theorem row_of_lt {w : BitVec 32} (h : w.toNat < 100000) : (row w).val = w.toNat := by
  rw [row_val]; omega

def lo (q : Fin 512) : Fin 1024 := ⟨q.val, by omega⟩

def hi (q : Fin 512) : Fin 1024 := ⟨512 + q.val, by omega⟩

@[simp] theorem lo_val (q : Fin 512) : (lo q).val = q.val := rfl
@[simp] theorem hi_val (q : Fin 512) : (hi q).val = 512 + q.val := rfl

def flat (r : Fin 1024) (n : Fin 10) : Fin 10240 := ⟨10 * r.val + n.val, by omega⟩

def rowOf (s : Fin 10240) : Fin 1024 := ⟨s.val / 10, by omega⟩

def nbrOf (s : Fin 10240) : Fin 10 := ⟨s.val % 10, by omega⟩

@[simp] theorem flat_val (r : Fin 1024) (n : Fin 10) : (flat r n).val = 10 * r.val + n.val := rfl
@[simp] theorem rowOf_val (s : Fin 10240) : (rowOf s).val = s.val / 10 := rfl
@[simp] theorem nbrOf_val (s : Fin 10240) : (nbrOf s).val = s.val % 10 := rfl

def c25 : EReal := Ideal.ofBits .f32 0x41C80000#32

def c10 : EReal := Ideal.ofBits .f32 0x41200000#32

def relu (v : EReal) : EReal := max v 0

section Net

variable (feats : SFeats.Idx → EReal) (x : SX.Idx → EReal) (W0 : SW0.Idx → EReal) (b0 : SB0.Idx → EReal)
  (W1 : SW1.Idx → EReal) (b1 : SB1.Idx → EReal)
  (n1 : SN1.Idx → BitVec 32) (n2 : SN2.Idx → BitVec 32) (n21 : SN21.Idx → BitVec 32)

def agg1 (r : Fin 1024) (q : Fin 512) : EReal :=
  Ideal.div (∑ n : Fin 25, feats (ix2 (row (n1 (ix2 r n))) q)) c25

def hself (r : Fin 1024) (k : Fin 512) : EReal :=
  relu ((∑ q : Fin 512, x (ix2 r q) * W0 (ix2 (lo q) k))
      + (∑ q : Fin 512, agg1 feats n1 r q * W0 (ix2 (hi q) k))
      + b0 (ix1 k))

def nf2 (s : Fin 10240) (q : Fin 512) : EReal :=
  feats (ix2 (row (n2 (ix2 (rowOf s) (nbrOf s)))) q)

def agg21 (s : Fin 10240) (q : Fin 512) : EReal :=
  Ideal.div (∑ n : Fin 25, feats (ix2 (row (n21 (ix2 s n))) q)) c25

def hn (s : Fin 10240) (k : Fin 512) : EReal :=
  relu ((∑ q : Fin 512, nf2 feats n2 s q * W0 (ix2 (lo q) k))
      + (∑ q : Fin 512, agg21 feats n21 s q * W0 (ix2 (hi q) k))
      + b0 (ix1 k))

def agg2 (r : Fin 1024) (k : Fin 512) : EReal :=
  Ideal.div (∑ n : Fin 10, hn feats W0 b0 n2 n21 (flat r n) k) c10

def out (r : Fin 1024) (j : Fin 256) : EReal :=
  relu ((∑ k : Fin 512, hself feats x W0 b0 n1 r k * W1 (ix2 (lo k) j))
      + (∑ k : Fin 512, agg2 feats W0 b0 n2 n21 r k * W1 (ix2 (hi k) j))
      + b1 (ix1 j))

def sage : SOut.Idx → EReal := fun i => out feats x W0 b0 W1 b1 n1 n2 n21 (i 0) (i 1)

end Net

end Cert.Spec

end
-- ==== Proof.PayVal.lean ====
import proofs.«414926_j197568496007_1_alg».proof.Proof.Gen.KernelIdeal.Skeleton
import proofs.«414926_j197568496007_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.PayVal

open Cert.KernelIdeal Cert.KernelIdeal.Gen Idealize.ShloMosaic Idealize.ShloMosaic.ValueIdx

theorem lhs_w0_0 (i : S128x512.Idx) (q : dot_S128x512_S512x512_S128x512_1_0_0_1_n_n.contr.Idx) :
    (dot_S128x512_S512x512_S128x512_1_0_0_1_n_n.lhsIdx i q 0).val = (i 0).val := by
  unfold DotDims.lhsIdx
  rw [dif_neg (show ¬(0 : Fin S128x512.rank) ∈ dot_S128x512_S512x512_S128x512_1_0_0_1_n_n.lhsBatch by decide), dif_pos (show (0 : Fin S128x512.rank) ∈ dot_S128x512_S512x512_S128x512_1_0_0_1_n_n.lhsNonContracting by decide)]
  rfl

theorem lhs_w0_1 (i : S128x512.Idx) (q : dot_S128x512_S512x512_S128x512_1_0_0_1_n_n.contr.Idx) :
    (dot_S128x512_S512x512_S128x512_1_0_0_1_n_n.lhsIdx i q 1).val = (q ⟨0, by decide⟩).val :=
  dot_S128x512_S512x512_S128x512_1_0_0_1_n_n.lhsIdx_val_of_single rfl i q

theorem rhs_w0_0 (i : S128x512.Idx) (q : dot_S128x512_S512x512_S128x512_1_0_0_1_n_n.contr.Idx) :
    (dot_S128x512_S512x512_S128x512_1_0_0_1_n_n.rhsIdx i q 0).val = (q ⟨0, by decide⟩).val :=
  dot_S128x512_S512x512_S128x512_1_0_0_1_n_n.rhsIdx_val_of_single rfl i q

theorem rhs_w0_1 (i : S128x512.Idx) (q : dot_S128x512_S512x512_S128x512_1_0_0_1_n_n.contr.Idx) :
    (dot_S128x512_S512x512_S128x512_1_0_0_1_n_n.rhsIdx i q 1).val = (i 1).val := by
  unfold DotDims.rhsIdx
  rw [dif_neg (show ¬(1 : Fin S512x512.rank) ∈ dot_S128x512_S512x512_S128x512_1_0_0_1_n_n.rhsBatch by decide), dif_pos (show (1 : Fin S512x512.rank) ∈ dot_S128x512_S512x512_S128x512_1_0_0_1_n_n.rhsNonContracting by decide)]
  rfl

theorem matmul_w0_apply (l : FVec Ideal S128x512 .bf16) (r : FVec Ideal S512x512 .bf16) (p : Fin 128) (j : Fin 512) :
    matmul dot_S128x512_S512x512_S128x512_1_0_0_1_n_n none l r (constant (F := Ideal) S128x512 .f32 0x00000000#32) (ValueIdx.ix2 p j)
      = ∑ q : Fin 512, l (ValueIdx.ix2 p q) * r (ValueIdx.ix2 q j) := by
  simp only [matmul]
  rw [Ideal.matmul_constant_zero_apply, ← Equiv.sum_comp (contrEquiv1 dot_S128x512_S512x512_S128x512_1_0_0_1_n_n 512 rfl rfl).symm]
  refine Finset.sum_congr rfl fun k _ => ?_
  have hk := contrEquiv1_symm_val dot_S128x512_S512x512_S128x512_1_0_0_1_n_n 512 rfl rfl k
  have el : dot_S128x512_S512x512_S128x512_1_0_0_1_n_n.lhsIdx (ValueIdx.ix2 p j) ((contrEquiv1 dot_S128x512_S512x512_S128x512_1_0_0_1_n_n 512 rfl rfl).symm k) = ValueIdx.ix2 p k := funext fun a => Fin.ext (by
    match a with
    | ⟨0, _⟩ => exact lhs_w0_0 _ _
    | ⟨1, _⟩ => exact (lhs_w0_1 _ _).trans hk)
  have er : dot_S128x512_S512x512_S128x512_1_0_0_1_n_n.rhsIdx (ValueIdx.ix2 p j) ((contrEquiv1 dot_S128x512_S512x512_S128x512_1_0_0_1_n_n 512 rfl rfl).symm k) = ValueIdx.ix2 k j := funext fun a => Fin.ext (by
    match a with
    | ⟨0, _⟩ => exact (rhs_w0_0 _ _).trans hk
    | ⟨1, _⟩ => exact rhs_w0_1 _ _)
  rw [el, er]

theorem lhs_w1_0 (i : S128x256.Idx) (q : dot_S128x512_S512x256_S128x256_1_0_0_1_n_n.contr.Idx) :
    (dot_S128x512_S512x256_S128x256_1_0_0_1_n_n.lhsIdx i q 0).val = (i 0).val := by
  unfold DotDims.lhsIdx
  rw [dif_neg (show ¬(0 : Fin S128x512.rank) ∈ dot_S128x512_S512x256_S128x256_1_0_0_1_n_n.lhsBatch by decide), dif_pos (show (0 : Fin S128x512.rank) ∈ dot_S128x512_S512x256_S128x256_1_0_0_1_n_n.lhsNonContracting by decide)]
  rfl

theorem lhs_w1_1 (i : S128x256.Idx) (q : dot_S128x512_S512x256_S128x256_1_0_0_1_n_n.contr.Idx) :
    (dot_S128x512_S512x256_S128x256_1_0_0_1_n_n.lhsIdx i q 1).val = (q ⟨0, by decide⟩).val :=
  dot_S128x512_S512x256_S128x256_1_0_0_1_n_n.lhsIdx_val_of_single rfl i q

theorem rhs_w1_0 (i : S128x256.Idx) (q : dot_S128x512_S512x256_S128x256_1_0_0_1_n_n.contr.Idx) :
    (dot_S128x512_S512x256_S128x256_1_0_0_1_n_n.rhsIdx i q 0).val = (q ⟨0, by decide⟩).val :=
  dot_S128x512_S512x256_S128x256_1_0_0_1_n_n.rhsIdx_val_of_single rfl i q

theorem rhs_w1_1 (i : S128x256.Idx) (q : dot_S128x512_S512x256_S128x256_1_0_0_1_n_n.contr.Idx) :
    (dot_S128x512_S512x256_S128x256_1_0_0_1_n_n.rhsIdx i q 1).val = (i 1).val := by
  unfold DotDims.rhsIdx
  rw [dif_neg (show ¬(1 : Fin S512x256.rank) ∈ dot_S128x512_S512x256_S128x256_1_0_0_1_n_n.rhsBatch by decide), dif_pos (show (1 : Fin S512x256.rank) ∈ dot_S128x512_S512x256_S128x256_1_0_0_1_n_n.rhsNonContracting by decide)]
  rfl

theorem matmul_w1_apply (l : FVec Ideal S128x512 .bf16) (r : FVec Ideal S512x256 .bf16) (p : Fin 128) (j : Fin 256) :
    matmul dot_S128x512_S512x256_S128x256_1_0_0_1_n_n none l r (constant (F := Ideal) S128x256 .f32 0x00000000#32) (ValueIdx.ix2 p j)
      = ∑ q : Fin 512, l (ValueIdx.ix2 p q) * r (ValueIdx.ix2 q j) := by
  simp only [matmul]
  rw [Ideal.matmul_constant_zero_apply, ← Equiv.sum_comp (contrEquiv1 dot_S128x512_S512x256_S128x256_1_0_0_1_n_n 512 rfl rfl).symm]
  refine Finset.sum_congr rfl fun k _ => ?_
  have hk := contrEquiv1_symm_val dot_S128x512_S512x256_S128x256_1_0_0_1_n_n 512 rfl rfl k
  have el : dot_S128x512_S512x256_S128x256_1_0_0_1_n_n.lhsIdx (ValueIdx.ix2 p j) ((contrEquiv1 dot_S128x512_S512x256_S128x256_1_0_0_1_n_n 512 rfl rfl).symm k) = ValueIdx.ix2 p k := funext fun a => Fin.ext (by
    match a with
    | ⟨0, _⟩ => exact lhs_w1_0 _ _
    | ⟨1, _⟩ => exact (lhs_w1_1 _ _).trans hk)
  have er : dot_S128x512_S512x256_S128x256_1_0_0_1_n_n.rhsIdx (ValueIdx.ix2 p j) ((contrEquiv1 dot_S128x512_S512x256_S128x256_1_0_0_1_n_n 512 rfl rfl).symm k) = ValueIdx.ix2 k j := funext fun a => Fin.ext (by
    match a with
    | ⟨0, _⟩ => exact (rhs_w1_0 _ _).trans hk
    | ⟨1, _⟩ => exact rhs_w1_1 _ _)
  rw [el, er]

theorem laneSum25_apply (src : FVec Ideal S128x25x512 .f32) (hφ : FKind.Formats .f32)
    (hacc : (0x00000000#32 : BitVec 32) = 0x00000000#32) (p : Fin 128) (q : Fin 512) :
    multiReduction (F := Ideal) .add [1] S128x512 src 0x00000000#32 reduces_S128x25x512_S128x512 hφ hacc (ValueIdx.ix2 p q)
      = ∑ n : Fin 25, src (ValueIdx.ix3 p n q) := by
  refine (Ideal.multiReduction_add_single src 0x00000000#32 reduces_S128x25x512_S128x512 hφ hacc (ValueIdx.ix2 p q)).trans ?_
  refine Finset.sum_congr rfl fun n _ => congrArg src (funext fun a => Fin.ext ?_)
  match a with
  | ⟨0, _⟩ => rfl
  | ⟨1, _⟩ => rfl
  | ⟨2, _⟩ => rfl

theorem laneSum10_apply (src : FVec Ideal S128x10x512 .f32) (hφ : FKind.Formats .f32)
    (hacc : (0x00000000#32 : BitVec 32) = 0x00000000#32) (p : Fin 128) (q : Fin 512) :
    multiReduction (F := Ideal) .add [1] S128x512 src 0x00000000#32 reduces_S128x10x512_S128x512 hφ hacc (ValueIdx.ix2 p q)
      = ∑ n : Fin 10, src (ValueIdx.ix3 p n q) := by
  refine (Ideal.multiReduction_add_single src 0x00000000#32 reduces_S128x10x512_S128x512 hφ hacc (ValueIdx.ix2 p q)).trans ?_
  refine Finset.sum_congr rfl fun n _ => congrArg src (funext fun a => Fin.ext ?_)
  match a with
  | ⟨0, _⟩ => rfl
  | ⟨1, _⟩ => rfl
  | ⟨2, _⟩ => rfl

theorem k7_pay1_apply (nb : Vec Ideal S128x25x512 .f32) (hs : Vec Ideal S128x512 .f32) (ws wn : Vec Ideal S512x512 .f32)
    (b : Vec Ideal S1x512 .f32) (p : Fin 128) (j : Fin 512) :
    k7_pay1 (F := Ideal) nb hs ws wn b (ValueIdx.ix2 p j)
      = Cert.Spec.relu ((∑ q : Fin 512, hs (ValueIdx.ix2 p q) * ws (ValueIdx.ix2 q j))
          + (∑ q : Fin 512, Ideal.div (∑ n : Fin 25, nb (ValueIdx.ix3 p n q)) Cert.Spec.c25 * wn (ValueIdx.ix2 q j))
          + b (ValueIdx.ix2 0 j)) := by

  have hsum : ∀ q : Fin 512, multiReduction (F := Ideal) .add [1] S128x512 nb 0x00000000#32
      reduces_S128x25x512_S128x512 (.inl rfl) rfl (ValueIdx.ix2 p q) = ∑ n : Fin 25, nb (ValueIdx.ix3 p n q) :=
    fun q => laneSum25_apply nb _ _ p q
  unfold k7_pay1

  simp only [shapeCast_self]

  rw [maximumf_apply, addf_apply, addf_apply, broadcast_apply, matmul_w0_apply, matmul_w0_apply,
    broadcastTo_1b_ab_apply]

  simp only [truncf_apply, divf_apply, broadcast_apply, hsum]

  unfold Cert.Spec.relu Cert.Spec.c25
  exact congrArg (max _) Ideal.ofBits_zero_f32

theorem k8_pay1_apply (nb : Vec Ideal S128x25x512 .f32) (hs : Vec Ideal S128x512 .f32) (ws wn : Vec Ideal S512x512 .f32)
    (b : Vec Ideal S1x512 .f32) (p : Fin 128) (j : Fin 512) :
    k8_pay1 (F := Ideal) nb hs ws wn b (ValueIdx.ix2 p j)
      = Cert.Spec.relu ((∑ q : Fin 512, hs (ValueIdx.ix2 p q) * ws (ValueIdx.ix2 q j))
          + (∑ q : Fin 512, Ideal.div (∑ n : Fin 25, nb (ValueIdx.ix3 p n q)) Cert.Spec.c25 * wn (ValueIdx.ix2 q j))
          + b (ValueIdx.ix2 0 j)) := by

  have hsum : ∀ q : Fin 512, multiReduction (F := Ideal) .add [1] S128x512 nb 0x00000000#32
      reduces_S128x25x512_S128x512 (.inl rfl) rfl (ValueIdx.ix2 p q) = ∑ n : Fin 25, nb (ValueIdx.ix3 p n q) :=
    fun q => laneSum25_apply nb _ _ p q
  unfold k8_pay1

  simp only [shapeCast_self]

  rw [maximumf_apply, addf_apply, addf_apply, broadcast_apply, matmul_w0_apply, matmul_w0_apply,
    broadcastTo_1b_ab_apply]

  simp only [truncf_apply, divf_apply, broadcast_apply, hsum]

  unfold Cert.Spec.relu Cert.Spec.c25
  exact congrArg (max _) Ideal.ofBits_zero_f32

theorem k9_pay1_apply (nb : Vec Ideal S128x10x512 .f32) (hs : Vec Ideal S128x512 .f32) (ws wn : Vec Ideal S512x256 .f32)
    (b : Vec Ideal S1x256 .f32) (p : Fin 128) (j : Fin 256) :
    k9_pay1 (F := Ideal) nb hs ws wn b (ValueIdx.ix2 p j)
      = Cert.Spec.relu ((∑ q : Fin 512, hs (ValueIdx.ix2 p q) * ws (ValueIdx.ix2 q j))
          + (∑ q : Fin 512, Ideal.div (∑ n : Fin 10, nb (ValueIdx.ix3 p n q)) Cert.Spec.c10 * wn (ValueIdx.ix2 q j))
          + b (ValueIdx.ix2 0 j)) := by

  have hsum : ∀ q : Fin 512, multiReduction (F := Ideal) .add [1] S128x512 nb 0x00000000#32
      reduces_S128x10x512_S128x512 (.inl rfl) rfl (ValueIdx.ix2 p q) = ∑ n : Fin 10, nb (ValueIdx.ix3 p n q) :=
    fun q => laneSum10_apply nb _ _ p q
  unfold k9_pay1

  simp only [shapeCast_self]

  rw [maximumf_apply, addf_apply, addf_apply, broadcast_apply, matmul_w1_apply, matmul_w1_apply,
    broadcastTo_1b_ab_apply]

  simp only [truncf_apply, divf_apply, broadcast_apply, hsum]

  unfold Cert.Spec.relu Cert.Spec.c10
  exact congrArg (max _) Ideal.ofBits_zero_f32

end Cert.KernelIdeal.PayVal

end
-- ==== Proof.G0Val.lean ====
import proofs.«414926_j197568496007_1_alg».proof.Proof.G0
import proofs.«414926_j197568496007_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

section
variable (tbl : pre0.Contents (Elt F))

abbrev word0 (n : Fin 25600) : BitVec 32 := tbl 0 (ValueIdx.ix1 n)

def rowIdx0 (i : S25600x1x512.Idx) : S100000x1x512.Idx :=
  ValueIdx.ix3 (Cert.Spec.row (word0 tbl (i 0))) (i 1) (i 2)

end

theorem pt_lt0 (t : Fin grid0.N) : t.val < 25600 := lt_of_lt_of_eq t.isLt N_0

theorem coords0 (t : Fin grid0.N) : (grid0.coords t 0).val = t.val := by
  have hs : grid0.stride 0 = 1 := by decide
  have h := pt_lt0 t
  show t.val / grid0.stride 0 % 25600 = t.val
  rw [hs]; omega

theorem word_of_coord0 (n : Nat) (h : n < 25600) : (Scalar.indexCast (BitVec.ofNat 32 n)).toNat = n := by
  show (BitVec.ofNat 32 n).toNat = n
  rw [BitVec.toNat_ofNat]; omega

section
variable (tbl : pre0.Contents (Elt F))

theorem at_word0 (v n : Nat) (hvn : v = n) (hn : n < 25600) (inb : ∀ a, (![v] : Fin 1 → Nat) a + S1.size a ≤ S25600.size a) :
    tbl.at 0 (Rect.unit (s := S25600) ![v] S1.size inb) numel1_S1 = word0 tbl ⟨n, hn⟩ := by
  subst hvn
  show tbl 0 _ = tbl 0 _
  refine congrArg (tbl 0) ?_
  funext d
  apply Fin.ext
  match d with
  | ⟨0, _⟩ => show v + 1 * 0 = v; omega

theorem transform0_0 (i : grid0.Coords) :
    cc0_transform_0 k0_off1_inb numel1_S1 tbl i = ![(word0 tbl ⟨(i 0).val, (i 0).isLt⟩).toNat, 0, 0] :=
  congrArg (fun w : BitVec 32 => (![w.toNat, 0, 0] : Fin 3 → Nat))
    (at_word0 tbl _ _ (word_of_coord0 _ (i 0).isLt) (i 0).isLt (k0_off1_inb i))

theorem transform0_1 (i : grid0.Coords) : cc0_transform_1 i = ![(i 0).val, 0, 0] :=
  congrArg (fun n : Nat => (![n, 0, 0] : Fin 3 → Nat)) (word_of_coord0 _ (i 0).isLt)

theorem word_lt0 (hO : ok0 (F := F) tbl) (n : Fin 25600) : (word0 tbl n).toNat < 100000 := by
  obtain ⟨h, -⟩ := hO (fun a => match a with | ⟨0, _⟩ => n)
  have h0 := h 0
  rw [transform0_0] at h0
  have h1 : ((word0 tbl n).toNat + 1) * 1 ≤ 100000 := h0
  omega

theorem rowIdx0_row (hO : ok0 (F := F) tbl) (i : S25600x1x512.Idx) (n : Fin 25600) (hn : i 0 = n) :
    (rowIdx0 tbl i 0).val = (word0 tbl n).toNat := by
  subst hn
  exact Cert.Spec.row_of_lt (word_lt0 tbl hO _)

end

section
variable (tbl : pre0.Contents (Elt F)) (hO : ok0 (F := F) tbl)

theorem index0_0 (t : Fin (cfgM0 tbl hO).N) :
    ((cfgM0 tbl hO).win 0).index t = ![(word0 tbl ⟨t.val, pt_lt0 t⟩).toNat, 0, 0] := by
  have e : ((cfgM0 tbl hO).win 0).index t = cc0_transform_0 k0_off1_inb numel1_S1 tbl (grid0.coords t) := rfl
  rw [e, transform0_0]
  have ht : (⟨(grid0.coords t 0).val, (grid0.coords t 0).isLt⟩ : Fin 25600) = ⟨t.val, pt_lt0 t⟩ := Fin.ext (coords0 t)
  rw [ht]

theorem index0_1 (t : Fin (cfgM0 tbl hO).N) : ((cfgM0 tbl hO).win 1).index t = ![t.val, 0, 0] := by
  have e : ((cfgM0 tbl hO).win 1).index t = cc0_transform_1 (grid0.coords t) := rfl
  rw [e, transform0_1, coords0]

end

section
variable (V : (c : Dev nD) → (b : Ref sig .tc) → Buf (Elt F) ((c : Thread nD τ).loc b))
variable (tbl : pre0.Contents (Elt F)) (hO : ok0 (F := F) tbl)

abbrev gath0 (c : Dev nD) : S25600x1x512.Idx → Elt F .f32 := fun i => V c main_v1 (rowIdx0 tbl i)

theorem iblk0_apply (c : Dev nD) (t : Fin (cfgM0 tbl hO).N) (y : S1x1x512.Idx) (k : S100000x1x512.Idx)
    (hk0 : (k 0).val = (word0 tbl ⟨t.val, pt_lt0 t⟩).toNat) (hk1 : (k 1).val = (y 1).val) (hk2 : (k 2).val = (y 2).val) :
    (iblk0 V tbl hO c 0 t : Vec F S1x1x512 .f32) y = (V c main_v1 : S100000x1x512.Idx → Elt F .f32) k := by
  have hi := index0_0 tbl hO t
  show V c main_v1 ((((cfgM0 tbl hO).win 0).blk t).view.emb y) = V c main_v1 k
  refine congrArg (V c main_v1) ?_
  funext a
  apply Fin.ext
  have i0 : ((cfgM0 tbl hO).win 0).index t (0 : Fin 3) = (word0 tbl ⟨t.val, pt_lt0 t⟩).toNat := congrFun hi (0 : Fin 3)
  have i1 : ((cfgM0 tbl hO).win 0).index t (1 : Fin 3) = 0 := congrFun hi (1 : Fin 3)
  have i2 : ((cfgM0 tbl hO).win 0).index t (2 : Fin 3) = 0 := congrFun hi (2 : Fin 3)
  have y0 : (y 0).val < 1 := (y 0).isLt
  have y1 : (y 1).val < 1 := (y 1).isLt
  match a with
  | ⟨0, _⟩ => show ((cfgM0 tbl hO).win 0).index t (0 : Fin 3) * 1 + 1 * (y 0).val = (k 0).val; omega
  | ⟨1, _⟩ => show ((cfgM0 tbl hO).win 0).index t (1 : Fin 3) * 1 + 1 * (y 1).val = (k 1).val; omega
  | ⟨2, _⟩ => show ((cfgM0 tbl hO).win 0).index t (2 : Fin 3) * 512 + 1 * (y 2).val = (k 2).val; omega

end

section
variable (V : (c : Dev nD) → (b : Ref sig .tc) → Buf (Elt F) ((c : Thread nD τ).loc b))
variable (tbl : pre0.Contents (Elt F)) (hO : ok0 (F := F) tbl)

theorem flushed0_eq (c : Dev nD) (t : Fin (cfgM0 tbl hO).N) :
    (dat0 V tbl hO c).flushed 1 t = (((cfgM0 tbl hO).win 1).blk t).view.read (Elt F) (gath0 V tbl c) := by
  show ((cfgM0 tbl hO).win 1).cut (grid0.coords t) (iblk0 V tbl hO c 0 t : Vec F S1x1x512 .f32) = _
  have hi := index0_1 tbl hO t
  have i0 : ((cfgM0 tbl hO).win 1).index t (0 : Fin 3) = t.val := congrFun hi (0 : Fin 3)
  have i1 : ((cfgM0 tbl hO).win 1).index t (1 : Fin 3) = 0 := congrFun hi (1 : Fin 3)
  have i2 : ((cfgM0 tbl hO).win 1).index t (2 : Fin 3) = 0 := congrFun hi (2 : Fin 3)
  refine funext fun (j : S1x1x512.Idx) => ?_
  show (iblk0 V tbl hO c 0 t : Vec F S1x1x512 .f32) j = V c main_v1 (rowIdx0 tbl ((((cfgM0 tbl hO).win 1).blk t).view.emb j))
  have j0 : (j 0).val < 1 := (j 0).isLt
  have j1 : (j 1).val < 1 := (j 1).isLt
  have hr : (((((cfgM0 tbl hO).win 1).blk t).view.emb j) (0 : Fin 3) : Fin 25600) = ⟨t.val, pt_lt0 t⟩ :=
    Fin.ext (by show ((cfgM0 tbl hO).win 1).index t (0 : Fin 3) * 1 + 1 * (j 0).val = t.val; omega)
  refine iblk0_apply V tbl hO c t j _ ?_ ?_ ?_
  · exact rowIdx0_row tbl hO _ _ hr
  · show ((cfgM0 tbl hO).win 1).index t (1 : Fin 3) * 1 + 1 * (j 1).val = (j 1).val; omega
  · show ((cfgM0 tbl hO).win 1).index t (2 : Fin 3) * 512 + 1 * (j 2).val = (j 2).val; omega

theorem mem_blk0 (t : Fin (cfgM0 tbl hO).N) (i : S25600x1x512.Idx) :
    i ∈ (((cfgM0 tbl hO).win 1).blk t).view.set ↔ ∀ a : Fin 3, ((cfgM0 tbl hO).win 1).index t a * S1x1x512.size a ≤ (i a).val ∧ (i a).val < ((cfgM0 tbl hO).win 1).index t a * S1x1x512.size a + S1x1x512.size a := by
  have e : (((cfgM0 tbl hO).win 1).blk t).view.set = (((cfgM0 tbl hO).win 1).rect t).set := View.set_slice_whole main_v2 _
  refine (Iff.of_eq (congrArg (fun S => i ∈ S) e)).trans ?_
  exact Rect.mem_set_unit

theorem flush0_1 (t : Fin (cfgM0 tbl hO).N) : ((cfgM0 tbl hO).win 1).flush t = true := by
  have ho : ((cfgM0 tbl hO).win 1).isOut = true := rfl
  unfold Pipeline.Window.flush
  rw [ho, Bool.true_and, Bool.or_eq_true, decide_eq_true_eq, decide_eq_true_eq]
  by_cases h : t.val + 1 = (cfgM0 tbl hO).grid.N
  · exact Or.inl h
  · refine Or.inr ⟨Nat.lt_of_le_of_ne (Nat.succ_le_of_lt t.isLt) h, fun e => ?_⟩
    have e0 := congrFun e (0 : Fin 3)
    rw [index0_1, index0_1] at e0
    have e1 : t.val + 1 = t.val := e0
    omega

theorem cover0 (i : S25600x1x512.Idx) :
    ∃ t : Fin (cfgM0 tbl hO).N, ((cfgM0 tbl hO).win 1).flush t = true ∧ i ∈ (((cfgM0 tbl hO).win 1).blk t).view.set := by
  have h0 : (i 0).val < 25600 := (i 0).isLt
  have h1 : (i 1).val < 1 := (i 1).isLt
  have h2 : (i 2).val < 512 := (i 2).isLt
  obtain ⟨t, ht⟩ : ∃ t : Fin (cfgM0 tbl hO).N, t.val = (i 0).val := ⟨⟨(i 0).val, lt_of_lt_of_eq h0 N_0.symm⟩, rfl⟩
  refine ⟨t, flush0_1 tbl hO t, ?_⟩
  rw [mem_blk0]
  have hi := index0_1 tbl hO t
  have i0 : ((cfgM0 tbl hO).win 1).index t (0 : Fin 3) = t.val := congrFun hi (0 : Fin 3)
  have i1 : ((cfgM0 tbl hO).win 1).index t (1 : Fin 3) = 0 := congrFun hi (1 : Fin 3)
  have i2 : ((cfgM0 tbl hO).win 1).index t (2 : Fin 3) = 0 := congrFun hi (2 : Fin 3)
  intro a
  match a with
  | ⟨0, _⟩ => show ((cfgM0 tbl hO).win 1).index t (0 : Fin 3) * 1 ≤ (i 0).val ∧ (i 0).val < ((cfgM0 tbl hO).win 1).index t (0 : Fin 3) * 1 + 1; omega
  | ⟨1, _⟩ => show ((cfgM0 tbl hO).win 1).index t (1 : Fin 3) * 1 ≤ (i 1).val ∧ (i 1).val < ((cfgM0 tbl hO).win 1).index t (1 : Fin 3) * 1 + 1; omega
  | ⟨2, _⟩ => show ((cfgM0 tbl hO).win 1).index t (2 : Fin 3) * 512 ≤ (i 2).val ∧ (i 2).val < ((cfgM0 tbl hO).win 1).index t (2 : Fin 3) * 512 + 512; omega

theorem gath0_final_fun (c : Dev nD) : (dat0 V tbl hO c).arrAt 1 (cfgM0 tbl hO).N = gath0 V tbl c :=
  (dat0 V tbl hO c).arrAt_eq_of_cover 1 (gath0 V tbl c) (fun t _ => flushed0_eq V tbl hO c t) (cover0 tbl hO)

theorem gath0_final (c : Dev nD) (i : S25600x1x512.Idx) :
    (dat0 V tbl hO c).arrAt 1 (cfgM0 tbl hO).N i = V c main_v1 (rowIdx0 tbl i) :=
  congrFun (gath0_final_fun V tbl hO c) i

end

end Cert.KernelIdeal.Hand

end
-- ==== Proof.G1Val.lean ====
import proofs.«414926_j197568496007_1_alg».proof.Proof.G1
import proofs.«414926_j197568496007_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

section
variable (tbl : pre1.Contents (Elt F))

abbrev word1 (n : Fin 10240) : BitVec 32 := tbl 0 (ValueIdx.ix1 n)

def rowIdx1 (i : S10240x1x512.Idx) : S100000x1x512.Idx :=
  ValueIdx.ix3 (Cert.Spec.row (word1 tbl (i 0))) (i 1) (i 2)

end

theorem pt_lt1 (t : Fin grid1.N) : t.val < 10240 := lt_of_lt_of_eq t.isLt N_1

theorem coords1 (t : Fin grid1.N) : (grid1.coords t 0).val = t.val := by
  have hs : grid1.stride 0 = 1 := by decide
  have h := pt_lt1 t
  show t.val / grid1.stride 0 % 10240 = t.val
  rw [hs]; omega

theorem word_of_coord1 (n : Nat) (h : n < 10240) : (Scalar.indexCast (BitVec.ofNat 32 n)).toNat = n := by
  show (BitVec.ofNat 32 n).toNat = n
  rw [BitVec.toNat_ofNat]; omega

section
variable (tbl : pre1.Contents (Elt F))

theorem at_word1 (v n : Nat) (hvn : v = n) (hn : n < 10240) (inb : ∀ a, (![v] : Fin 1 → Nat) a + S1.size a ≤ S10240.size a) :
    tbl.at 0 (Rect.unit (s := S10240) ![v] S1.size inb) numel1_S1 = word1 tbl ⟨n, hn⟩ := by
  subst hvn
  show tbl 0 _ = tbl 0 _
  refine congrArg (tbl 0) ?_
  funext d
  apply Fin.ext
  match d with
  | ⟨0, _⟩ => show v + 1 * 0 = v; omega

theorem transform1_0 (i : grid1.Coords) :
    cc1_transform_0 k1_off1_inb numel1_S1 tbl i = ![(word1 tbl ⟨(i 0).val, (i 0).isLt⟩).toNat, 0, 0] :=
  congrArg (fun w : BitVec 32 => (![w.toNat, 0, 0] : Fin 3 → Nat))
    (at_word1 tbl _ _ (word_of_coord1 _ (i 0).isLt) (i 0).isLt (k1_off1_inb i))

theorem transform1_1 (i : grid1.Coords) : cc1_transform_1 i = ![(i 0).val, 0, 0] :=
  congrArg (fun n : Nat => (![n, 0, 0] : Fin 3 → Nat)) (word_of_coord1 _ (i 0).isLt)

theorem word_lt1 (hO : ok1 (F := F) tbl) (n : Fin 10240) : (word1 tbl n).toNat < 100000 := by
  obtain ⟨h, -⟩ := hO (fun a => match a with | ⟨0, _⟩ => n)
  have h0 := h 0
  rw [transform1_0] at h0
  have h1 : ((word1 tbl n).toNat + 1) * 1 ≤ 100000 := h0
  omega

theorem rowIdx1_row (hO : ok1 (F := F) tbl) (i : S10240x1x512.Idx) (n : Fin 10240) (hn : i 0 = n) :
    (rowIdx1 tbl i 0).val = (word1 tbl n).toNat := by
  subst hn
  exact Cert.Spec.row_of_lt (word_lt1 tbl hO _)

end

section
variable (tbl : pre1.Contents (Elt F)) (hO : ok1 (F := F) tbl)

theorem index1_0 (t : Fin (cfgM1 tbl hO).N) :
    ((cfgM1 tbl hO).win 0).index t = ![(word1 tbl ⟨t.val, pt_lt1 t⟩).toNat, 0, 0] := by
  have e : ((cfgM1 tbl hO).win 0).index t = cc1_transform_0 k1_off1_inb numel1_S1 tbl (grid1.coords t) := rfl
  rw [e, transform1_0]
  have ht : (⟨(grid1.coords t 0).val, (grid1.coords t 0).isLt⟩ : Fin 10240) = ⟨t.val, pt_lt1 t⟩ := Fin.ext (coords1 t)
  rw [ht]

theorem index1_1 (t : Fin (cfgM1 tbl hO).N) : ((cfgM1 tbl hO).win 1).index t = ![t.val, 0, 0] := by
  have e : ((cfgM1 tbl hO).win 1).index t = cc1_transform_1 (grid1.coords t) := rfl
  rw [e, transform1_1, coords1]

end

section
variable (V : (c : Dev nD) → (b : Ref sig .tc) → Buf (Elt F) ((c : Thread nD τ).loc b))
variable (tbl : pre1.Contents (Elt F)) (hO : ok1 (F := F) tbl)

abbrev gath1 (c : Dev nD) : S10240x1x512.Idx → Elt F .f32 := fun i => V c main_v6 (rowIdx1 tbl i)

theorem iblk1_apply (c : Dev nD) (t : Fin (cfgM1 tbl hO).N) (y : S1x1x512.Idx) (k : S100000x1x512.Idx)
    (hk0 : (k 0).val = (word1 tbl ⟨t.val, pt_lt1 t⟩).toNat) (hk1 : (k 1).val = (y 1).val) (hk2 : (k 2).val = (y 2).val) :
    (iblk1 V tbl hO c 0 t : Vec F S1x1x512 .f32) y = (V c main_v6 : S100000x1x512.Idx → Elt F .f32) k := by
  have hi := index1_0 tbl hO t
  show V c main_v6 ((((cfgM1 tbl hO).win 0).blk t).view.emb y) = V c main_v6 k
  refine congrArg (V c main_v6) ?_
  funext a
  apply Fin.ext
  have i0 : ((cfgM1 tbl hO).win 0).index t (0 : Fin 3) = (word1 tbl ⟨t.val, pt_lt1 t⟩).toNat := congrFun hi (0 : Fin 3)
  have i1 : ((cfgM1 tbl hO).win 0).index t (1 : Fin 3) = 0 := congrFun hi (1 : Fin 3)
  have i2 : ((cfgM1 tbl hO).win 0).index t (2 : Fin 3) = 0 := congrFun hi (2 : Fin 3)
  have y0 : (y 0).val < 1 := (y 0).isLt
  have y1 : (y 1).val < 1 := (y 1).isLt
  match a with
  | ⟨0, _⟩ => show ((cfgM1 tbl hO).win 0).index t (0 : Fin 3) * 1 + 1 * (y 0).val = (k 0).val; omega
  | ⟨1, _⟩ => show ((cfgM1 tbl hO).win 0).index t (1 : Fin 3) * 1 + 1 * (y 1).val = (k 1).val; omega
  | ⟨2, _⟩ => show ((cfgM1 tbl hO).win 0).index t (2 : Fin 3) * 512 + 1 * (y 2).val = (k 2).val; omega

end

section
variable (V : (c : Dev nD) → (b : Ref sig .tc) → Buf (Elt F) ((c : Thread nD τ).loc b))
variable (tbl : pre1.Contents (Elt F)) (hO : ok1 (F := F) tbl)

theorem flushed1_eq (c : Dev nD) (t : Fin (cfgM1 tbl hO).N) :
    (dat1 V tbl hO c).flushed 1 t = (((cfgM1 tbl hO).win 1).blk t).view.read (Elt F) (gath1 V tbl c) := by
  show ((cfgM1 tbl hO).win 1).cut (grid1.coords t) (iblk1 V tbl hO c 0 t : Vec F S1x1x512 .f32) = _
  have hi := index1_1 tbl hO t
  have i0 : ((cfgM1 tbl hO).win 1).index t (0 : Fin 3) = t.val := congrFun hi (0 : Fin 3)
  have i1 : ((cfgM1 tbl hO).win 1).index t (1 : Fin 3) = 0 := congrFun hi (1 : Fin 3)
  have i2 : ((cfgM1 tbl hO).win 1).index t (2 : Fin 3) = 0 := congrFun hi (2 : Fin 3)
  refine funext fun (j : S1x1x512.Idx) => ?_
  show (iblk1 V tbl hO c 0 t : Vec F S1x1x512 .f32) j = V c main_v6 (rowIdx1 tbl ((((cfgM1 tbl hO).win 1).blk t).view.emb j))
  have j0 : (j 0).val < 1 := (j 0).isLt
  have j1 : (j 1).val < 1 := (j 1).isLt
  have hr : (((((cfgM1 tbl hO).win 1).blk t).view.emb j) (0 : Fin 3) : Fin 10240) = ⟨t.val, pt_lt1 t⟩ :=
    Fin.ext (by show ((cfgM1 tbl hO).win 1).index t (0 : Fin 3) * 1 + 1 * (j 0).val = t.val; omega)
  refine iblk1_apply V tbl hO c t j _ ?_ ?_ ?_
  · exact rowIdx1_row tbl hO _ _ hr
  · show ((cfgM1 tbl hO).win 1).index t (1 : Fin 3) * 1 + 1 * (j 1).val = (j 1).val; omega
  · show ((cfgM1 tbl hO).win 1).index t (2 : Fin 3) * 512 + 1 * (j 2).val = (j 2).val; omega

theorem mem_blk1 (t : Fin (cfgM1 tbl hO).N) (i : S10240x1x512.Idx) :
    i ∈ (((cfgM1 tbl hO).win 1).blk t).view.set ↔ ∀ a : Fin 3, ((cfgM1 tbl hO).win 1).index t a * S1x1x512.size a ≤ (i a).val ∧ (i a).val < ((cfgM1 tbl hO).win 1).index t a * S1x1x512.size a + S1x1x512.size a := by
  have e : (((cfgM1 tbl hO).win 1).blk t).view.set = (((cfgM1 tbl hO).win 1).rect t).set := View.set_slice_whole main_v7 _
  refine (Iff.of_eq (congrArg (fun S => i ∈ S) e)).trans ?_
  exact Rect.mem_set_unit

theorem flush1_1 (t : Fin (cfgM1 tbl hO).N) : ((cfgM1 tbl hO).win 1).flush t = true := by
  have ho : ((cfgM1 tbl hO).win 1).isOut = true := rfl
  unfold Pipeline.Window.flush
  rw [ho, Bool.true_and, Bool.or_eq_true, decide_eq_true_eq, decide_eq_true_eq]
  by_cases h : t.val + 1 = (cfgM1 tbl hO).grid.N
  · exact Or.inl h
  · refine Or.inr ⟨Nat.lt_of_le_of_ne (Nat.succ_le_of_lt t.isLt) h, fun e => ?_⟩
    have e0 := congrFun e (0 : Fin 3)
    rw [index1_1, index1_1] at e0
    have e1 : t.val + 1 = t.val := e0
    omega

theorem cover1 (i : S10240x1x512.Idx) :
    ∃ t : Fin (cfgM1 tbl hO).N, ((cfgM1 tbl hO).win 1).flush t = true ∧ i ∈ (((cfgM1 tbl hO).win 1).blk t).view.set := by
  have h0 : (i 0).val < 10240 := (i 0).isLt
  have h1 : (i 1).val < 1 := (i 1).isLt
  have h2 : (i 2).val < 512 := (i 2).isLt
  obtain ⟨t, ht⟩ : ∃ t : Fin (cfgM1 tbl hO).N, t.val = (i 0).val := ⟨⟨(i 0).val, lt_of_lt_of_eq h0 N_1.symm⟩, rfl⟩
  refine ⟨t, flush1_1 tbl hO t, ?_⟩
  rw [mem_blk1]
  have hi := index1_1 tbl hO t
  have i0 : ((cfgM1 tbl hO).win 1).index t (0 : Fin 3) = t.val := congrFun hi (0 : Fin 3)
  have i1 : ((cfgM1 tbl hO).win 1).index t (1 : Fin 3) = 0 := congrFun hi (1 : Fin 3)
  have i2 : ((cfgM1 tbl hO).win 1).index t (2 : Fin 3) = 0 := congrFun hi (2 : Fin 3)
  intro a
  match a with
  | ⟨0, _⟩ => show ((cfgM1 tbl hO).win 1).index t (0 : Fin 3) * 1 ≤ (i 0).val ∧ (i 0).val < ((cfgM1 tbl hO).win 1).index t (0 : Fin 3) * 1 + 1; omega
  | ⟨1, _⟩ => show ((cfgM1 tbl hO).win 1).index t (1 : Fin 3) * 1 ≤ (i 1).val ∧ (i 1).val < ((cfgM1 tbl hO).win 1).index t (1 : Fin 3) * 1 + 1; omega
  | ⟨2, _⟩ => show ((cfgM1 tbl hO).win 1).index t (2 : Fin 3) * 512 ≤ (i 2).val ∧ (i 2).val < ((cfgM1 tbl hO).win 1).index t (2 : Fin 3) * 512 + 512; omega

theorem gath1_final_fun (c : Dev nD) : (dat1 V tbl hO c).arrAt 1 (cfgM1 tbl hO).N = gath1 V tbl c :=
  (dat1 V tbl hO c).arrAt_eq_of_cover 1 (gath1 V tbl c) (fun t _ => flushed1_eq V tbl hO c t) (cover1 tbl hO)

theorem gath1_final (c : Dev nD) (i : S10240x1x512.Idx) :
    (dat1 V tbl hO c).arrAt 1 (cfgM1 tbl hO).N i = V c main_v6 (rowIdx1 tbl i) :=
  congrFun (gath1_final_fun V tbl hO c) i

end

end Cert.KernelIdeal.Hand

end
-- ==== Proof.G2Val.lean ====
import proofs.«414926_j197568496007_1_alg».proof.Proof.G2
import proofs.«414926_j197568496007_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

section
variable (tbl : pre2.Contents (Elt F))

abbrev word2 (n : Fin 51200) : BitVec 32 := tbl 0 (ValueIdx.ix1 n)

def rowIdx2 (i : S51200x1x512.Idx) : S100000x1x512.Idx :=
  ValueIdx.ix3 (Cert.Spec.row (word2 tbl (i 0))) (i 1) (i 2)

end

theorem pt_lt2 (t : Fin grid2.N) : t.val < 51200 := lt_of_lt_of_eq t.isLt N_2

theorem coords2 (t : Fin grid2.N) : (grid2.coords t 0).val = t.val := by
  have hs : grid2.stride 0 = 1 := by decide
  have h := pt_lt2 t
  show t.val / grid2.stride 0 % 51200 = t.val
  rw [hs]; omega

theorem word_of_coord2 (n : Nat) (h : n < 51200) : (Scalar.indexCast (BitVec.ofNat 32 n)).toNat = n := by
  show (BitVec.ofNat 32 n).toNat = n
  rw [BitVec.toNat_ofNat]; omega

section
variable (tbl : pre2.Contents (Elt F))

theorem at_word2 (v n : Nat) (hvn : v = n) (hn : n < 51200) (inb : ∀ a, (![v] : Fin 1 → Nat) a + S1.size a ≤ S51200.size a) :
    tbl.at 0 (Rect.unit (s := S51200) ![v] S1.size inb) numel1_S1 = word2 tbl ⟨n, hn⟩ := by
  subst hvn
  show tbl 0 _ = tbl 0 _
  refine congrArg (tbl 0) ?_
  funext d
  apply Fin.ext
  match d with
  | ⟨0, _⟩ => show v + 1 * 0 = v; omega

theorem transform2_0 (i : grid2.Coords) :
    cc2_transform_0 k2_off1_inb numel1_S1 tbl i = ![(word2 tbl ⟨(i 0).val, (i 0).isLt⟩).toNat, 0, 0] :=
  congrArg (fun w : BitVec 32 => (![w.toNat, 0, 0] : Fin 3 → Nat))
    (at_word2 tbl _ _ (word_of_coord2 _ (i 0).isLt) (i 0).isLt (k2_off1_inb i))

theorem transform2_1 (i : grid2.Coords) : cc2_transform_1 i = ![(i 0).val, 0, 0] :=
  congrArg (fun n : Nat => (![n, 0, 0] : Fin 3 → Nat)) (word_of_coord2 _ (i 0).isLt)

theorem word_lt2 (hO : ok2 (F := F) tbl) (n : Fin 51200) : (word2 tbl n).toNat < 100000 := by
  obtain ⟨h, -⟩ := hO (fun a => match a with | ⟨0, _⟩ => n)
  have h0 := h 0
  rw [transform2_0] at h0
  have h1 : ((word2 tbl n).toNat + 1) * 1 ≤ 100000 := h0
  omega

theorem rowIdx2_row (hO : ok2 (F := F) tbl) (i : S51200x1x512.Idx) (n : Fin 51200) (hn : i 0 = n) :
    (rowIdx2 tbl i 0).val = (word2 tbl n).toNat := by
  subst hn
  exact Cert.Spec.row_of_lt (word_lt2 tbl hO _)

end

section
variable (tbl : pre2.Contents (Elt F)) (hO : ok2 (F := F) tbl)

theorem index2_0 (t : Fin (cfgM2 tbl hO).N) :
    ((cfgM2 tbl hO).win 0).index t = ![(word2 tbl ⟨t.val, pt_lt2 t⟩).toNat, 0, 0] := by
  have e : ((cfgM2 tbl hO).win 0).index t = cc2_transform_0 k2_off1_inb numel1_S1 tbl (grid2.coords t) := rfl
  rw [e, transform2_0]
  have ht : (⟨(grid2.coords t 0).val, (grid2.coords t 0).isLt⟩ : Fin 51200) = ⟨t.val, pt_lt2 t⟩ := Fin.ext (coords2 t)
  rw [ht]

theorem index2_1 (t : Fin (cfgM2 tbl hO).N) : ((cfgM2 tbl hO).win 1).index t = ![t.val, 0, 0] := by
  have e : ((cfgM2 tbl hO).win 1).index t = cc2_transform_1 (grid2.coords t) := rfl
  rw [e, transform2_1, coords2]

end

section
variable (V : (c : Dev nD) → (b : Ref sig .tc) → Buf (Elt F) ((c : Thread nD τ).loc b))
variable (tbl : pre2.Contents (Elt F)) (hO : ok2 (F := F) tbl)

abbrev gath2 (c : Dev nD) : S51200x1x512.Idx → Elt F .f32 := fun i => V c main_v12 (rowIdx2 tbl i)

theorem iblk2_apply (c : Dev nD) (t : Fin (cfgM2 tbl hO).N) (y : S1x1x512.Idx) (k : S100000x1x512.Idx)
    (hk0 : (k 0).val = (word2 tbl ⟨t.val, pt_lt2 t⟩).toNat) (hk1 : (k 1).val = (y 1).val) (hk2 : (k 2).val = (y 2).val) :
    (iblk2 V tbl hO c 0 t : Vec F S1x1x512 .f32) y = (V c main_v12 : S100000x1x512.Idx → Elt F .f32) k := by
  have hi := index2_0 tbl hO t
  show V c main_v12 ((((cfgM2 tbl hO).win 0).blk t).view.emb y) = V c main_v12 k
  refine congrArg (V c main_v12) ?_
  funext a
  apply Fin.ext
  have i0 : ((cfgM2 tbl hO).win 0).index t (0 : Fin 3) = (word2 tbl ⟨t.val, pt_lt2 t⟩).toNat := congrFun hi (0 : Fin 3)
  have i1 : ((cfgM2 tbl hO).win 0).index t (1 : Fin 3) = 0 := congrFun hi (1 : Fin 3)
  have i2 : ((cfgM2 tbl hO).win 0).index t (2 : Fin 3) = 0 := congrFun hi (2 : Fin 3)
  have y0 : (y 0).val < 1 := (y 0).isLt
  have y1 : (y 1).val < 1 := (y 1).isLt
  match a with
  | ⟨0, _⟩ => show ((cfgM2 tbl hO).win 0).index t (0 : Fin 3) * 1 + 1 * (y 0).val = (k 0).val; omega
  | ⟨1, _⟩ => show ((cfgM2 tbl hO).win 0).index t (1 : Fin 3) * 1 + 1 * (y 1).val = (k 1).val; omega
  | ⟨2, _⟩ => show ((cfgM2 tbl hO).win 0).index t (2 : Fin 3) * 512 + 1 * (y 2).val = (k 2).val; omega

end

section
variable (V : (c : Dev nD) → (b : Ref sig .tc) → Buf (Elt F) ((c : Thread nD τ).loc b))
variable (tbl : pre2.Contents (Elt F)) (hO : ok2 (F := F) tbl)

theorem flushed2_eq (c : Dev nD) (t : Fin (cfgM2 tbl hO).N) :
    (dat2 V tbl hO c).flushed 1 t = (((cfgM2 tbl hO).win 1).blk t).view.read (Elt F) (gath2 V tbl c) := by
  show ((cfgM2 tbl hO).win 1).cut (grid2.coords t) (iblk2 V tbl hO c 0 t : Vec F S1x1x512 .f32) = _
  have hi := index2_1 tbl hO t
  have i0 : ((cfgM2 tbl hO).win 1).index t (0 : Fin 3) = t.val := congrFun hi (0 : Fin 3)
  have i1 : ((cfgM2 tbl hO).win 1).index t (1 : Fin 3) = 0 := congrFun hi (1 : Fin 3)
  have i2 : ((cfgM2 tbl hO).win 1).index t (2 : Fin 3) = 0 := congrFun hi (2 : Fin 3)
  refine funext fun (j : S1x1x512.Idx) => ?_
  show (iblk2 V tbl hO c 0 t : Vec F S1x1x512 .f32) j = V c main_v12 (rowIdx2 tbl ((((cfgM2 tbl hO).win 1).blk t).view.emb j))
  have j0 : (j 0).val < 1 := (j 0).isLt
  have j1 : (j 1).val < 1 := (j 1).isLt
  have hr : (((((cfgM2 tbl hO).win 1).blk t).view.emb j) (0 : Fin 3) : Fin 51200) = ⟨t.val, pt_lt2 t⟩ :=
    Fin.ext (by show ((cfgM2 tbl hO).win 1).index t (0 : Fin 3) * 1 + 1 * (j 0).val = t.val; omega)
  refine iblk2_apply V tbl hO c t j _ ?_ ?_ ?_
  · exact rowIdx2_row tbl hO _ _ hr
  · show ((cfgM2 tbl hO).win 1).index t (1 : Fin 3) * 1 + 1 * (j 1).val = (j 1).val; omega
  · show ((cfgM2 tbl hO).win 1).index t (2 : Fin 3) * 512 + 1 * (j 2).val = (j 2).val; omega

theorem mem_blk2 (t : Fin (cfgM2 tbl hO).N) (i : S51200x1x512.Idx) :
    i ∈ (((cfgM2 tbl hO).win 1).blk t).view.set ↔ ∀ a : Fin 3, ((cfgM2 tbl hO).win 1).index t a * S1x1x512.size a ≤ (i a).val ∧ (i a).val < ((cfgM2 tbl hO).win 1).index t a * S1x1x512.size a + S1x1x512.size a := by
  have e : (((cfgM2 tbl hO).win 1).blk t).view.set = (((cfgM2 tbl hO).win 1).rect t).set := View.set_slice_whole main_v13 _
  refine (Iff.of_eq (congrArg (fun S => i ∈ S) e)).trans ?_
  exact Rect.mem_set_unit

theorem flush2_1 (t : Fin (cfgM2 tbl hO).N) : ((cfgM2 tbl hO).win 1).flush t = true := by
  have ho : ((cfgM2 tbl hO).win 1).isOut = true := rfl
  unfold Pipeline.Window.flush
  rw [ho, Bool.true_and, Bool.or_eq_true, decide_eq_true_eq, decide_eq_true_eq]
  by_cases h : t.val + 1 = (cfgM2 tbl hO).grid.N
  · exact Or.inl h
  · refine Or.inr ⟨Nat.lt_of_le_of_ne (Nat.succ_le_of_lt t.isLt) h, fun e => ?_⟩
    have e0 := congrFun e (0 : Fin 3)
    rw [index2_1, index2_1] at e0
    have e1 : t.val + 1 = t.val := e0
    omega

theorem cover2 (i : S51200x1x512.Idx) :
    ∃ t : Fin (cfgM2 tbl hO).N, ((cfgM2 tbl hO).win 1).flush t = true ∧ i ∈ (((cfgM2 tbl hO).win 1).blk t).view.set := by
  have h0 : (i 0).val < 51200 := (i 0).isLt
  have h1 : (i 1).val < 1 := (i 1).isLt
  have h2 : (i 2).val < 512 := (i 2).isLt
  obtain ⟨t, ht⟩ : ∃ t : Fin (cfgM2 tbl hO).N, t.val = (i 0).val := ⟨⟨(i 0).val, lt_of_lt_of_eq h0 N_2.symm⟩, rfl⟩
  refine ⟨t, flush2_1 tbl hO t, ?_⟩
  rw [mem_blk2]
  have hi := index2_1 tbl hO t
  have i0 : ((cfgM2 tbl hO).win 1).index t (0 : Fin 3) = t.val := congrFun hi (0 : Fin 3)
  have i1 : ((cfgM2 tbl hO).win 1).index t (1 : Fin 3) = 0 := congrFun hi (1 : Fin 3)
  have i2 : ((cfgM2 tbl hO).win 1).index t (2 : Fin 3) = 0 := congrFun hi (2 : Fin 3)
  intro a
  match a with
  | ⟨0, _⟩ => show ((cfgM2 tbl hO).win 1).index t (0 : Fin 3) * 1 ≤ (i 0).val ∧ (i 0).val < ((cfgM2 tbl hO).win 1).index t (0 : Fin 3) * 1 + 1; omega
  | ⟨1, _⟩ => show ((cfgM2 tbl hO).win 1).index t (1 : Fin 3) * 1 ≤ (i 1).val ∧ (i 1).val < ((cfgM2 tbl hO).win 1).index t (1 : Fin 3) * 1 + 1; omega
  | ⟨2, _⟩ => show ((cfgM2 tbl hO).win 1).index t (2 : Fin 3) * 512 ≤ (i 2).val ∧ (i 2).val < ((cfgM2 tbl hO).win 1).index t (2 : Fin 3) * 512 + 512; omega

theorem gath2_final_fun (c : Dev nD) : (dat2 V tbl hO c).arrAt 1 (cfgM2 tbl hO).N = gath2 V tbl c :=
  (dat2 V tbl hO c).arrAt_eq_of_cover 1 (gath2 V tbl c) (fun t _ => flushed2_eq V tbl hO c t) (cover2 tbl hO)

theorem gath2_final (c : Dev nD) (i : S51200x1x512.Idx) :
    (dat2 V tbl hO c).arrAt 1 (cfgM2 tbl hO).N i = V c main_v12 (rowIdx2 tbl i) :=
  congrFun (gath2_final_fun V tbl hO c) i

end

end Cert.KernelIdeal.Hand

end
-- ==== Proof.G3Val.lean ====
import proofs.«414926_j197568496007_1_alg».proof.Proof.G3
import proofs.«414926_j197568496007_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

section
variable (tbl : pre3.Contents (Elt F))

abbrev word3 (n : Fin 51200) : BitVec 32 := tbl 0 (ValueIdx.ix1 n)

def rowIdx3 (i : S51200x1x512.Idx) : S100000x1x512.Idx :=
  ValueIdx.ix3 (Cert.Spec.row (word3 tbl (i 0))) (i 1) (i 2)

end

theorem pt_lt3 (t : Fin grid3.N) : t.val < 51200 := lt_of_lt_of_eq t.isLt N_3

theorem coords3 (t : Fin grid3.N) : (grid3.coords t 0).val = t.val := by
  have hs : grid3.stride 0 = 1 := by decide
  have h := pt_lt3 t
  show t.val / grid3.stride 0 % 51200 = t.val
  rw [hs]; omega

theorem word_of_coord3 (n : Nat) (h : n < 51200) : (Scalar.indexCast (BitVec.ofNat 32 n)).toNat = n := by
  show (BitVec.ofNat 32 n).toNat = n
  rw [BitVec.toNat_ofNat]; omega

section
variable (tbl : pre3.Contents (Elt F))

theorem at_word3 (v n : Nat) (hvn : v = n) (hn : n < 51200) (inb : ∀ a, (![v] : Fin 1 → Nat) a + S1.size a ≤ S51200.size a) :
    tbl.at 0 (Rect.unit (s := S51200) ![v] S1.size inb) numel1_S1 = word3 tbl ⟨n, hn⟩ := by
  subst hvn
  show tbl 0 _ = tbl 0 _
  refine congrArg (tbl 0) ?_
  funext d
  apply Fin.ext
  match d with
  | ⟨0, _⟩ => show v + 1 * 0 = v; omega

theorem transform3_0 (i : grid3.Coords) :
    cc3_transform_0 k3_off1_inb numel1_S1 tbl i = ![(word3 tbl ⟨(i 0).val, (i 0).isLt⟩).toNat, 0, 0] :=
  congrArg (fun w : BitVec 32 => (![w.toNat, 0, 0] : Fin 3 → Nat))
    (at_word3 tbl _ _ (word_of_coord3 _ (i 0).isLt) (i 0).isLt (k3_off1_inb i))

theorem transform3_1 (i : grid3.Coords) : cc3_transform_1 i = ![(i 0).val, 0, 0] :=
  congrArg (fun n : Nat => (![n, 0, 0] : Fin 3 → Nat)) (word_of_coord3 _ (i 0).isLt)

theorem word_lt3 (hO : ok3 (F := F) tbl) (n : Fin 51200) : (word3 tbl n).toNat < 100000 := by
  obtain ⟨h, -⟩ := hO (fun a => match a with | ⟨0, _⟩ => n)
  have h0 := h 0
  rw [transform3_0] at h0
  have h1 : ((word3 tbl n).toNat + 1) * 1 ≤ 100000 := h0
  omega

theorem rowIdx3_row (hO : ok3 (F := F) tbl) (i : S51200x1x512.Idx) (n : Fin 51200) (hn : i 0 = n) :
    (rowIdx3 tbl i 0).val = (word3 tbl n).toNat := by
  subst hn
  exact Cert.Spec.row_of_lt (word_lt3 tbl hO _)

end

section
variable (tbl : pre3.Contents (Elt F)) (hO : ok3 (F := F) tbl)

theorem index3_0 (t : Fin (cfgM3 tbl hO).N) :
    ((cfgM3 tbl hO).win 0).index t = ![(word3 tbl ⟨t.val, pt_lt3 t⟩).toNat, 0, 0] := by
  have e : ((cfgM3 tbl hO).win 0).index t = cc3_transform_0 k3_off1_inb numel1_S1 tbl (grid3.coords t) := rfl
  rw [e, transform3_0]
  have ht : (⟨(grid3.coords t 0).val, (grid3.coords t 0).isLt⟩ : Fin 51200) = ⟨t.val, pt_lt3 t⟩ := Fin.ext (coords3 t)
  rw [ht]

theorem index3_1 (t : Fin (cfgM3 tbl hO).N) : ((cfgM3 tbl hO).win 1).index t = ![t.val, 0, 0] := by
  have e : ((cfgM3 tbl hO).win 1).index t = cc3_transform_1 (grid3.coords t) := rfl
  rw [e, transform3_1, coords3]

end

section
variable (V : (c : Dev nD) → (b : Ref sig .tc) → Buf (Elt F) ((c : Thread nD τ).loc b))
variable (tbl : pre3.Contents (Elt F)) (hO : ok3 (F := F) tbl)

abbrev gath3 (c : Dev nD) : S51200x1x512.Idx → Elt F .f32 := fun i => V c main_v18 (rowIdx3 tbl i)

theorem iblk3_apply (c : Dev nD) (t : Fin (cfgM3 tbl hO).N) (y : S1x1x512.Idx) (k : S100000x1x512.Idx)
    (hk0 : (k 0).val = (word3 tbl ⟨t.val, pt_lt3 t⟩).toNat) (hk1 : (k 1).val = (y 1).val) (hk2 : (k 2).val = (y 2).val) :
    (iblk3 V tbl hO c 0 t : Vec F S1x1x512 .f32) y = (V c main_v18 : S100000x1x512.Idx → Elt F .f32) k := by
  have hi := index3_0 tbl hO t
  show V c main_v18 ((((cfgM3 tbl hO).win 0).blk t).view.emb y) = V c main_v18 k
  refine congrArg (V c main_v18) ?_
  funext a
  apply Fin.ext
  have i0 : ((cfgM3 tbl hO).win 0).index t (0 : Fin 3) = (word3 tbl ⟨t.val, pt_lt3 t⟩).toNat := congrFun hi (0 : Fin 3)
  have i1 : ((cfgM3 tbl hO).win 0).index t (1 : Fin 3) = 0 := congrFun hi (1 : Fin 3)
  have i2 : ((cfgM3 tbl hO).win 0).index t (2 : Fin 3) = 0 := congrFun hi (2 : Fin 3)
  have y0 : (y 0).val < 1 := (y 0).isLt
  have y1 : (y 1).val < 1 := (y 1).isLt
  match a with
  | ⟨0, _⟩ => show ((cfgM3 tbl hO).win 0).index t (0 : Fin 3) * 1 + 1 * (y 0).val = (k 0).val; omega
  | ⟨1, _⟩ => show ((cfgM3 tbl hO).win 0).index t (1 : Fin 3) * 1 + 1 * (y 1).val = (k 1).val; omega
  | ⟨2, _⟩ => show ((cfgM3 tbl hO).win 0).index t (2 : Fin 3) * 512 + 1 * (y 2).val = (k 2).val; omega

end

section
variable (V : (c : Dev nD) → (b : Ref sig .tc) → Buf (Elt F) ((c : Thread nD τ).loc b))
variable (tbl : pre3.Contents (Elt F)) (hO : ok3 (F := F) tbl)

theorem flushed3_eq (c : Dev nD) (t : Fin (cfgM3 tbl hO).N) :
    (dat3 V tbl hO c).flushed 1 t = (((cfgM3 tbl hO).win 1).blk t).view.read (Elt F) (gath3 V tbl c) := by
  show ((cfgM3 tbl hO).win 1).cut (grid3.coords t) (iblk3 V tbl hO c 0 t : Vec F S1x1x512 .f32) = _
  have hi := index3_1 tbl hO t
  have i0 : ((cfgM3 tbl hO).win 1).index t (0 : Fin 3) = t.val := congrFun hi (0 : Fin 3)
  have i1 : ((cfgM3 tbl hO).win 1).index t (1 : Fin 3) = 0 := congrFun hi (1 : Fin 3)
  have i2 : ((cfgM3 tbl hO).win 1).index t (2 : Fin 3) = 0 := congrFun hi (2 : Fin 3)
  refine funext fun (j : S1x1x512.Idx) => ?_
  show (iblk3 V tbl hO c 0 t : Vec F S1x1x512 .f32) j = V c main_v18 (rowIdx3 tbl ((((cfgM3 tbl hO).win 1).blk t).view.emb j))
  have j0 : (j 0).val < 1 := (j 0).isLt
  have j1 : (j 1).val < 1 := (j 1).isLt
  have hr : (((((cfgM3 tbl hO).win 1).blk t).view.emb j) (0 : Fin 3) : Fin 51200) = ⟨t.val, pt_lt3 t⟩ :=
    Fin.ext (by show ((cfgM3 tbl hO).win 1).index t (0 : Fin 3) * 1 + 1 * (j 0).val = t.val; omega)
  refine iblk3_apply V tbl hO c t j _ ?_ ?_ ?_
  · exact rowIdx3_row tbl hO _ _ hr
  · show ((cfgM3 tbl hO).win 1).index t (1 : Fin 3) * 1 + 1 * (j 1).val = (j 1).val; omega
  · show ((cfgM3 tbl hO).win 1).index t (2 : Fin 3) * 512 + 1 * (j 2).val = (j 2).val; omega

theorem mem_blk3 (t : Fin (cfgM3 tbl hO).N) (i : S51200x1x512.Idx) :
    i ∈ (((cfgM3 tbl hO).win 1).blk t).view.set ↔ ∀ a : Fin 3, ((cfgM3 tbl hO).win 1).index t a * S1x1x512.size a ≤ (i a).val ∧ (i a).val < ((cfgM3 tbl hO).win 1).index t a * S1x1x512.size a + S1x1x512.size a := by
  have e : (((cfgM3 tbl hO).win 1).blk t).view.set = (((cfgM3 tbl hO).win 1).rect t).set := View.set_slice_whole main_v19 _
  refine (Iff.of_eq (congrArg (fun S => i ∈ S) e)).trans ?_
  exact Rect.mem_set_unit

theorem flush3_1 (t : Fin (cfgM3 tbl hO).N) : ((cfgM3 tbl hO).win 1).flush t = true := by
  have ho : ((cfgM3 tbl hO).win 1).isOut = true := rfl
  unfold Pipeline.Window.flush
  rw [ho, Bool.true_and, Bool.or_eq_true, decide_eq_true_eq, decide_eq_true_eq]
  by_cases h : t.val + 1 = (cfgM3 tbl hO).grid.N
  · exact Or.inl h
  · refine Or.inr ⟨Nat.lt_of_le_of_ne (Nat.succ_le_of_lt t.isLt) h, fun e => ?_⟩
    have e0 := congrFun e (0 : Fin 3)
    rw [index3_1, index3_1] at e0
    have e1 : t.val + 1 = t.val := e0
    omega

theorem cover3 (i : S51200x1x512.Idx) :
    ∃ t : Fin (cfgM3 tbl hO).N, ((cfgM3 tbl hO).win 1).flush t = true ∧ i ∈ (((cfgM3 tbl hO).win 1).blk t).view.set := by
  have h0 : (i 0).val < 51200 := (i 0).isLt
  have h1 : (i 1).val < 1 := (i 1).isLt
  have h2 : (i 2).val < 512 := (i 2).isLt
  obtain ⟨t, ht⟩ : ∃ t : Fin (cfgM3 tbl hO).N, t.val = (i 0).val := ⟨⟨(i 0).val, lt_of_lt_of_eq h0 N_3.symm⟩, rfl⟩
  refine ⟨t, flush3_1 tbl hO t, ?_⟩
  rw [mem_blk3]
  have hi := index3_1 tbl hO t
  have i0 : ((cfgM3 tbl hO).win 1).index t (0 : Fin 3) = t.val := congrFun hi (0 : Fin 3)
  have i1 : ((cfgM3 tbl hO).win 1).index t (1 : Fin 3) = 0 := congrFun hi (1 : Fin 3)
  have i2 : ((cfgM3 tbl hO).win 1).index t (2 : Fin 3) = 0 := congrFun hi (2 : Fin 3)
  intro a
  match a with
  | ⟨0, _⟩ => show ((cfgM3 tbl hO).win 1).index t (0 : Fin 3) * 1 ≤ (i 0).val ∧ (i 0).val < ((cfgM3 tbl hO).win 1).index t (0 : Fin 3) * 1 + 1; omega
  | ⟨1, _⟩ => show ((cfgM3 tbl hO).win 1).index t (1 : Fin 3) * 1 ≤ (i 1).val ∧ (i 1).val < ((cfgM3 tbl hO).win 1).index t (1 : Fin 3) * 1 + 1; omega
  | ⟨2, _⟩ => show ((cfgM3 tbl hO).win 1).index t (2 : Fin 3) * 512 ≤ (i 2).val ∧ (i 2).val < ((cfgM3 tbl hO).win 1).index t (2 : Fin 3) * 512 + 512; omega

theorem gath3_final_fun (c : Dev nD) : (dat3 V tbl hO c).arrAt 1 (cfgM3 tbl hO).N = gath3 V tbl c :=
  (dat3 V tbl hO c).arrAt_eq_of_cover 1 (gath3 V tbl c) (fun t _ => flushed3_eq V tbl hO c t) (cover3 tbl hO)

theorem gath3_final (c : Dev nD) (i : S51200x1x512.Idx) :
    (dat3 V tbl hO c).arrAt 1 (cfgM3 tbl hO).N i = V c main_v18 (rowIdx3 tbl i) :=
  congrFun (gath3_final_fun V tbl hO c) i

end

end Cert.KernelIdeal.Hand

end
-- ==== Proof.G4Val.lean ====
import proofs.«414926_j197568496007_1_alg».proof.Proof.G4
import proofs.«414926_j197568496007_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

section
variable (tbl : pre4.Contents (Elt F))

abbrev word4 (n : Fin 51200) : BitVec 32 := tbl 0 (ValueIdx.ix1 n)

def rowIdx4 (i : S51200x1x512.Idx) : S100000x1x512.Idx :=
  ValueIdx.ix3 (Cert.Spec.row (word4 tbl (i 0))) (i 1) (i 2)

end

theorem pt_lt4 (t : Fin grid4.N) : t.val < 51200 := lt_of_lt_of_eq t.isLt N_4

theorem coords4 (t : Fin grid4.N) : (grid4.coords t 0).val = t.val := by
  have hs : grid4.stride 0 = 1 := by decide
  have h := pt_lt4 t
  show t.val / grid4.stride 0 % 51200 = t.val
  rw [hs]; omega

theorem word_of_coord4 (n : Nat) (h : n < 51200) : (Scalar.indexCast (BitVec.ofNat 32 n)).toNat = n := by
  show (BitVec.ofNat 32 n).toNat = n
  rw [BitVec.toNat_ofNat]; omega

section
variable (tbl : pre4.Contents (Elt F))

theorem at_word4 (v n : Nat) (hvn : v = n) (hn : n < 51200) (inb : ∀ a, (![v] : Fin 1 → Nat) a + S1.size a ≤ S51200.size a) :
    tbl.at 0 (Rect.unit (s := S51200) ![v] S1.size inb) numel1_S1 = word4 tbl ⟨n, hn⟩ := by
  subst hvn
  show tbl 0 _ = tbl 0 _
  refine congrArg (tbl 0) ?_
  funext d
  apply Fin.ext
  match d with
  | ⟨0, _⟩ => show v + 1 * 0 = v; omega

theorem transform4_0 (i : grid4.Coords) :
    cc4_transform_0 k4_off1_inb numel1_S1 tbl i = ![(word4 tbl ⟨(i 0).val, (i 0).isLt⟩).toNat, 0, 0] :=
  congrArg (fun w : BitVec 32 => (![w.toNat, 0, 0] : Fin 3 → Nat))
    (at_word4 tbl _ _ (word_of_coord4 _ (i 0).isLt) (i 0).isLt (k4_off1_inb i))

theorem transform4_1 (i : grid4.Coords) : cc4_transform_1 i = ![(i 0).val, 0, 0] :=
  congrArg (fun n : Nat => (![n, 0, 0] : Fin 3 → Nat)) (word_of_coord4 _ (i 0).isLt)

theorem word_lt4 (hO : ok4 (F := F) tbl) (n : Fin 51200) : (word4 tbl n).toNat < 100000 := by
  obtain ⟨h, -⟩ := hO (fun a => match a with | ⟨0, _⟩ => n)
  have h0 := h 0
  rw [transform4_0] at h0
  have h1 : ((word4 tbl n).toNat + 1) * 1 ≤ 100000 := h0
  omega

theorem rowIdx4_row (hO : ok4 (F := F) tbl) (i : S51200x1x512.Idx) (n : Fin 51200) (hn : i 0 = n) :
    (rowIdx4 tbl i 0).val = (word4 tbl n).toNat := by
  subst hn
  exact Cert.Spec.row_of_lt (word_lt4 tbl hO _)

end

section
variable (tbl : pre4.Contents (Elt F)) (hO : ok4 (F := F) tbl)

theorem index4_0 (t : Fin (cfgM4 tbl hO).N) :
    ((cfgM4 tbl hO).win 0).index t = ![(word4 tbl ⟨t.val, pt_lt4 t⟩).toNat, 0, 0] := by
  have e : ((cfgM4 tbl hO).win 0).index t = cc4_transform_0 k4_off1_inb numel1_S1 tbl (grid4.coords t) := rfl
  rw [e, transform4_0]
  have ht : (⟨(grid4.coords t 0).val, (grid4.coords t 0).isLt⟩ : Fin 51200) = ⟨t.val, pt_lt4 t⟩ := Fin.ext (coords4 t)
  rw [ht]

theorem index4_1 (t : Fin (cfgM4 tbl hO).N) : ((cfgM4 tbl hO).win 1).index t = ![t.val, 0, 0] := by
  have e : ((cfgM4 tbl hO).win 1).index t = cc4_transform_1 (grid4.coords t) := rfl
  rw [e, transform4_1, coords4]

end

section
variable (V : (c : Dev nD) → (b : Ref sig .tc) → Buf (Elt F) ((c : Thread nD τ).loc b))
variable (tbl : pre4.Contents (Elt F)) (hO : ok4 (F := F) tbl)

abbrev gath4 (c : Dev nD) : S51200x1x512.Idx → Elt F .f32 := fun i => V c main_v24 (rowIdx4 tbl i)

theorem iblk4_apply (c : Dev nD) (t : Fin (cfgM4 tbl hO).N) (y : S1x1x512.Idx) (k : S100000x1x512.Idx)
    (hk0 : (k 0).val = (word4 tbl ⟨t.val, pt_lt4 t⟩).toNat) (hk1 : (k 1).val = (y 1).val) (hk2 : (k 2).val = (y 2).val) :
    (iblk4 V tbl hO c 0 t : Vec F S1x1x512 .f32) y = (V c main_v24 : S100000x1x512.Idx → Elt F .f32) k := by
  have hi := index4_0 tbl hO t
  show V c main_v24 ((((cfgM4 tbl hO).win 0).blk t).view.emb y) = V c main_v24 k
  refine congrArg (V c main_v24) ?_
  funext a
  apply Fin.ext
  have i0 : ((cfgM4 tbl hO).win 0).index t (0 : Fin 3) = (word4 tbl ⟨t.val, pt_lt4 t⟩).toNat := congrFun hi (0 : Fin 3)
  have i1 : ((cfgM4 tbl hO).win 0).index t (1 : Fin 3) = 0 := congrFun hi (1 : Fin 3)
  have i2 : ((cfgM4 tbl hO).win 0).index t (2 : Fin 3) = 0 := congrFun hi (2 : Fin 3)
  have y0 : (y 0).val < 1 := (y 0).isLt
  have y1 : (y 1).val < 1 := (y 1).isLt
  match a with
  | ⟨0, _⟩ => show ((cfgM4 tbl hO).win 0).index t (0 : Fin 3) * 1 + 1 * (y 0).val = (k 0).val; omega
  | ⟨1, _⟩ => show ((cfgM4 tbl hO).win 0).index t (1 : Fin 3) * 1 + 1 * (y 1).val = (k 1).val; omega
  | ⟨2, _⟩ => show ((cfgM4 tbl hO).win 0).index t (2 : Fin 3) * 512 + 1 * (y 2).val = (k 2).val; omega

end

section
variable (V : (c : Dev nD) → (b : Ref sig .tc) → Buf (Elt F) ((c : Thread nD τ).loc b))
variable (tbl : pre4.Contents (Elt F)) (hO : ok4 (F := F) tbl)

theorem flushed4_eq (c : Dev nD) (t : Fin (cfgM4 tbl hO).N) :
    (dat4 V tbl hO c).flushed 1 t = (((cfgM4 tbl hO).win 1).blk t).view.read (Elt F) (gath4 V tbl c) := by
  show ((cfgM4 tbl hO).win 1).cut (grid4.coords t) (iblk4 V tbl hO c 0 t : Vec F S1x1x512 .f32) = _
  have hi := index4_1 tbl hO t
  have i0 : ((cfgM4 tbl hO).win 1).index t (0 : Fin 3) = t.val := congrFun hi (0 : Fin 3)
  have i1 : ((cfgM4 tbl hO).win 1).index t (1 : Fin 3) = 0 := congrFun hi (1 : Fin 3)
  have i2 : ((cfgM4 tbl hO).win 1).index t (2 : Fin 3) = 0 := congrFun hi (2 : Fin 3)
  refine funext fun (j : S1x1x512.Idx) => ?_
  show (iblk4 V tbl hO c 0 t : Vec F S1x1x512 .f32) j = V c main_v24 (rowIdx4 tbl ((((cfgM4 tbl hO).win 1).blk t).view.emb j))
  have j0 : (j 0).val < 1 := (j 0).isLt
  have j1 : (j 1).val < 1 := (j 1).isLt
  have hr : (((((cfgM4 tbl hO).win 1).blk t).view.emb j) (0 : Fin 3) : Fin 51200) = ⟨t.val, pt_lt4 t⟩ :=
    Fin.ext (by show ((cfgM4 tbl hO).win 1).index t (0 : Fin 3) * 1 + 1 * (j 0).val = t.val; omega)
  refine iblk4_apply V tbl hO c t j _ ?_ ?_ ?_
  · exact rowIdx4_row tbl hO _ _ hr
  · show ((cfgM4 tbl hO).win 1).index t (1 : Fin 3) * 1 + 1 * (j 1).val = (j 1).val; omega
  · show ((cfgM4 tbl hO).win 1).index t (2 : Fin 3) * 512 + 1 * (j 2).val = (j 2).val; omega

theorem mem_blk4 (t : Fin (cfgM4 tbl hO).N) (i : S51200x1x512.Idx) :
    i ∈ (((cfgM4 tbl hO).win 1).blk t).view.set ↔ ∀ a : Fin 3, ((cfgM4 tbl hO).win 1).index t a * S1x1x512.size a ≤ (i a).val ∧ (i a).val < ((cfgM4 tbl hO).win 1).index t a * S1x1x512.size a + S1x1x512.size a := by
  have e : (((cfgM4 tbl hO).win 1).blk t).view.set = (((cfgM4 tbl hO).win 1).rect t).set := View.set_slice_whole main_v25 _
  refine (Iff.of_eq (congrArg (fun S => i ∈ S) e)).trans ?_
  exact Rect.mem_set_unit

theorem flush4_1 (t : Fin (cfgM4 tbl hO).N) : ((cfgM4 tbl hO).win 1).flush t = true := by
  have ho : ((cfgM4 tbl hO).win 1).isOut = true := rfl
  unfold Pipeline.Window.flush
  rw [ho, Bool.true_and, Bool.or_eq_true, decide_eq_true_eq, decide_eq_true_eq]
  by_cases h : t.val + 1 = (cfgM4 tbl hO).grid.N
  · exact Or.inl h
  · refine Or.inr ⟨Nat.lt_of_le_of_ne (Nat.succ_le_of_lt t.isLt) h, fun e => ?_⟩
    have e0 := congrFun e (0 : Fin 3)
    rw [index4_1, index4_1] at e0
    have e1 : t.val + 1 = t.val := e0
    omega

theorem cover4 (i : S51200x1x512.Idx) :
    ∃ t : Fin (cfgM4 tbl hO).N, ((cfgM4 tbl hO).win 1).flush t = true ∧ i ∈ (((cfgM4 tbl hO).win 1).blk t).view.set := by
  have h0 : (i 0).val < 51200 := (i 0).isLt
  have h1 : (i 1).val < 1 := (i 1).isLt
  have h2 : (i 2).val < 512 := (i 2).isLt
  obtain ⟨t, ht⟩ : ∃ t : Fin (cfgM4 tbl hO).N, t.val = (i 0).val := ⟨⟨(i 0).val, lt_of_lt_of_eq h0 N_4.symm⟩, rfl⟩
  refine ⟨t, flush4_1 tbl hO t, ?_⟩
  rw [mem_blk4]
  have hi := index4_1 tbl hO t
  have i0 : ((cfgM4 tbl hO).win 1).index t (0 : Fin 3) = t.val := congrFun hi (0 : Fin 3)
  have i1 : ((cfgM4 tbl hO).win 1).index t (1 : Fin 3) = 0 := congrFun hi (1 : Fin 3)
  have i2 : ((cfgM4 tbl hO).win 1).index t (2 : Fin 3) = 0 := congrFun hi (2 : Fin 3)
  intro a
  match a with
  | ⟨0, _⟩ => show ((cfgM4 tbl hO).win 1).index t (0 : Fin 3) * 1 ≤ (i 0).val ∧ (i 0).val < ((cfgM4 tbl hO).win 1).index t (0 : Fin 3) * 1 + 1; omega
  | ⟨1, _⟩ => show ((cfgM4 tbl hO).win 1).index t (1 : Fin 3) * 1 ≤ (i 1).val ∧ (i 1).val < ((cfgM4 tbl hO).win 1).index t (1 : Fin 3) * 1 + 1; omega
  | ⟨2, _⟩ => show ((cfgM4 tbl hO).win 1).index t (2 : Fin 3) * 512 ≤ (i 2).val ∧ (i 2).val < ((cfgM4 tbl hO).win 1).index t (2 : Fin 3) * 512 + 512; omega

theorem gath4_final_fun (c : Dev nD) : (dat4 V tbl hO c).arrAt 1 (cfgM4 tbl hO).N = gath4 V tbl c :=
  (dat4 V tbl hO c).arrAt_eq_of_cover 1 (gath4 V tbl c) (fun t _ => flushed4_eq V tbl hO c t) (cover4 tbl hO)

theorem gath4_final (c : Dev nD) (i : S51200x1x512.Idx) :
    (dat4 V tbl hO c).arrAt 1 (cfgM4 tbl hO).N i = V c main_v24 (rowIdx4 tbl i) :=
  congrFun (gath4_final_fun V tbl hO c) i

end

end Cert.KernelIdeal.Hand

end
-- ==== Proof.G5Val.lean ====
import proofs.«414926_j197568496007_1_alg».proof.Proof.G5
import proofs.«414926_j197568496007_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

section
variable (tbl : pre5.Contents (Elt F))

abbrev word5 (n : Fin 51200) : BitVec 32 := tbl 0 (ValueIdx.ix1 n)

def rowIdx5 (i : S51200x1x512.Idx) : S100000x1x512.Idx :=
  ValueIdx.ix3 (Cert.Spec.row (word5 tbl (i 0))) (i 1) (i 2)

end

theorem pt_lt5 (t : Fin grid5.N) : t.val < 51200 := lt_of_lt_of_eq t.isLt N_5

theorem coords5 (t : Fin grid5.N) : (grid5.coords t 0).val = t.val := by
  have hs : grid5.stride 0 = 1 := by decide
  have h := pt_lt5 t
  show t.val / grid5.stride 0 % 51200 = t.val
  rw [hs]; omega

theorem word_of_coord5 (n : Nat) (h : n < 51200) : (Scalar.indexCast (BitVec.ofNat 32 n)).toNat = n := by
  show (BitVec.ofNat 32 n).toNat = n
  rw [BitVec.toNat_ofNat]; omega

section
variable (tbl : pre5.Contents (Elt F))

theorem at_word5 (v n : Nat) (hvn : v = n) (hn : n < 51200) (inb : ∀ a, (![v] : Fin 1 → Nat) a + S1.size a ≤ S51200.size a) :
    tbl.at 0 (Rect.unit (s := S51200) ![v] S1.size inb) numel1_S1 = word5 tbl ⟨n, hn⟩ := by
  subst hvn
  show tbl 0 _ = tbl 0 _
  refine congrArg (tbl 0) ?_
  funext d
  apply Fin.ext
  match d with
  | ⟨0, _⟩ => show v + 1 * 0 = v; omega

theorem transform5_0 (i : grid5.Coords) :
    cc5_transform_0 k5_off1_inb numel1_S1 tbl i = ![(word5 tbl ⟨(i 0).val, (i 0).isLt⟩).toNat, 0, 0] :=
  congrArg (fun w : BitVec 32 => (![w.toNat, 0, 0] : Fin 3 → Nat))
    (at_word5 tbl _ _ (word_of_coord5 _ (i 0).isLt) (i 0).isLt (k5_off1_inb i))

theorem transform5_1 (i : grid5.Coords) : cc5_transform_1 i = ![(i 0).val, 0, 0] :=
  congrArg (fun n : Nat => (![n, 0, 0] : Fin 3 → Nat)) (word_of_coord5 _ (i 0).isLt)

theorem word_lt5 (hO : ok5 (F := F) tbl) (n : Fin 51200) : (word5 tbl n).toNat < 100000 := by
  obtain ⟨h, -⟩ := hO (fun a => match a with | ⟨0, _⟩ => n)
  have h0 := h 0
  rw [transform5_0] at h0
  have h1 : ((word5 tbl n).toNat + 1) * 1 ≤ 100000 := h0
  omega

theorem rowIdx5_row (hO : ok5 (F := F) tbl) (i : S51200x1x512.Idx) (n : Fin 51200) (hn : i 0 = n) :
    (rowIdx5 tbl i 0).val = (word5 tbl n).toNat := by
  subst hn
  exact Cert.Spec.row_of_lt (word_lt5 tbl hO _)

end

section
variable (tbl : pre5.Contents (Elt F)) (hO : ok5 (F := F) tbl)

theorem index5_0 (t : Fin (cfgM5 tbl hO).N) :
    ((cfgM5 tbl hO).win 0).index t = ![(word5 tbl ⟨t.val, pt_lt5 t⟩).toNat, 0, 0] := by
  have e : ((cfgM5 tbl hO).win 0).index t = cc5_transform_0 k5_off1_inb numel1_S1 tbl (grid5.coords t) := rfl
  rw [e, transform5_0]
  have ht : (⟨(grid5.coords t 0).val, (grid5.coords t 0).isLt⟩ : Fin 51200) = ⟨t.val, pt_lt5 t⟩ := Fin.ext (coords5 t)
  rw [ht]

theorem index5_1 (t : Fin (cfgM5 tbl hO).N) : ((cfgM5 tbl hO).win 1).index t = ![t.val, 0, 0] := by
  have e : ((cfgM5 tbl hO).win 1).index t = cc5_transform_1 (grid5.coords t) := rfl
  rw [e, transform5_1, coords5]

end

section
variable (V : (c : Dev nD) → (b : Ref sig .tc) → Buf (Elt F) ((c : Thread nD τ).loc b))
variable (tbl : pre5.Contents (Elt F)) (hO : ok5 (F := F) tbl)

abbrev gath5 (c : Dev nD) : S51200x1x512.Idx → Elt F .f32 := fun i => V c main_v30 (rowIdx5 tbl i)

theorem iblk5_apply (c : Dev nD) (t : Fin (cfgM5 tbl hO).N) (y : S1x1x512.Idx) (k : S100000x1x512.Idx)
    (hk0 : (k 0).val = (word5 tbl ⟨t.val, pt_lt5 t⟩).toNat) (hk1 : (k 1).val = (y 1).val) (hk2 : (k 2).val = (y 2).val) :
    (iblk5 V tbl hO c 0 t : Vec F S1x1x512 .f32) y = (V c main_v30 : S100000x1x512.Idx → Elt F .f32) k := by
  have hi := index5_0 tbl hO t
  show V c main_v30 ((((cfgM5 tbl hO).win 0).blk t).view.emb y) = V c main_v30 k
  refine congrArg (V c main_v30) ?_
  funext a
  apply Fin.ext
  have i0 : ((cfgM5 tbl hO).win 0).index t (0 : Fin 3) = (word5 tbl ⟨t.val, pt_lt5 t⟩).toNat := congrFun hi (0 : Fin 3)
  have i1 : ((cfgM5 tbl hO).win 0).index t (1 : Fin 3) = 0 := congrFun hi (1 : Fin 3)
  have i2 : ((cfgM5 tbl hO).win 0).index t (2 : Fin 3) = 0 := congrFun hi (2 : Fin 3)
  have y0 : (y 0).val < 1 := (y 0).isLt
  have y1 : (y 1).val < 1 := (y 1).isLt
  match a with
  | ⟨0, _⟩ => show ((cfgM5 tbl hO).win 0).index t (0 : Fin 3) * 1 + 1 * (y 0).val = (k 0).val; omega
  | ⟨1, _⟩ => show ((cfgM5 tbl hO).win 0).index t (1 : Fin 3) * 1 + 1 * (y 1).val = (k 1).val; omega
  | ⟨2, _⟩ => show ((cfgM5 tbl hO).win 0).index t (2 : Fin 3) * 512 + 1 * (y 2).val = (k 2).val; omega

end

section
variable (V : (c : Dev nD) → (b : Ref sig .tc) → Buf (Elt F) ((c : Thread nD τ).loc b))
variable (tbl : pre5.Contents (Elt F)) (hO : ok5 (F := F) tbl)

theorem flushed5_eq (c : Dev nD) (t : Fin (cfgM5 tbl hO).N) :
    (dat5 V tbl hO c).flushed 1 t = (((cfgM5 tbl hO).win 1).blk t).view.read (Elt F) (gath5 V tbl c) := by
  show ((cfgM5 tbl hO).win 1).cut (grid5.coords t) (iblk5 V tbl hO c 0 t : Vec F S1x1x512 .f32) = _
  have hi := index5_1 tbl hO t
  have i0 : ((cfgM5 tbl hO).win 1).index t (0 : Fin 3) = t.val := congrFun hi (0 : Fin 3)
  have i1 : ((cfgM5 tbl hO).win 1).index t (1 : Fin 3) = 0 := congrFun hi (1 : Fin 3)
  have i2 : ((cfgM5 tbl hO).win 1).index t (2 : Fin 3) = 0 := congrFun hi (2 : Fin 3)
  refine funext fun (j : S1x1x512.Idx) => ?_
  show (iblk5 V tbl hO c 0 t : Vec F S1x1x512 .f32) j = V c main_v30 (rowIdx5 tbl ((((cfgM5 tbl hO).win 1).blk t).view.emb j))
  have j0 : (j 0).val < 1 := (j 0).isLt
  have j1 : (j 1).val < 1 := (j 1).isLt
  have hr : (((((cfgM5 tbl hO).win 1).blk t).view.emb j) (0 : Fin 3) : Fin 51200) = ⟨t.val, pt_lt5 t⟩ :=
    Fin.ext (by show ((cfgM5 tbl hO).win 1).index t (0 : Fin 3) * 1 + 1 * (j 0).val = t.val; omega)
  refine iblk5_apply V tbl hO c t j _ ?_ ?_ ?_
  · exact rowIdx5_row tbl hO _ _ hr
  · show ((cfgM5 tbl hO).win 1).index t (1 : Fin 3) * 1 + 1 * (j 1).val = (j 1).val; omega
  · show ((cfgM5 tbl hO).win 1).index t (2 : Fin 3) * 512 + 1 * (j 2).val = (j 2).val; omega

theorem mem_blk5 (t : Fin (cfgM5 tbl hO).N) (i : S51200x1x512.Idx) :
    i ∈ (((cfgM5 tbl hO).win 1).blk t).view.set ↔ ∀ a : Fin 3, ((cfgM5 tbl hO).win 1).index t a * S1x1x512.size a ≤ (i a).val ∧ (i a).val < ((cfgM5 tbl hO).win 1).index t a * S1x1x512.size a + S1x1x512.size a := by
  have e : (((cfgM5 tbl hO).win 1).blk t).view.set = (((cfgM5 tbl hO).win 1).rect t).set := View.set_slice_whole main_v31 _
  refine (Iff.of_eq (congrArg (fun S => i ∈ S) e)).trans ?_
  exact Rect.mem_set_unit

theorem flush5_1 (t : Fin (cfgM5 tbl hO).N) : ((cfgM5 tbl hO).win 1).flush t = true := by
  have ho : ((cfgM5 tbl hO).win 1).isOut = true := rfl
  unfold Pipeline.Window.flush
  rw [ho, Bool.true_and, Bool.or_eq_true, decide_eq_true_eq, decide_eq_true_eq]
  by_cases h : t.val + 1 = (cfgM5 tbl hO).grid.N
  · exact Or.inl h
  · refine Or.inr ⟨Nat.lt_of_le_of_ne (Nat.succ_le_of_lt t.isLt) h, fun e => ?_⟩
    have e0 := congrFun e (0 : Fin 3)
    rw [index5_1, index5_1] at e0
    have e1 : t.val + 1 = t.val := e0
    omega

theorem cover5 (i : S51200x1x512.Idx) :
    ∃ t : Fin (cfgM5 tbl hO).N, ((cfgM5 tbl hO).win 1).flush t = true ∧ i ∈ (((cfgM5 tbl hO).win 1).blk t).view.set := by
  have h0 : (i 0).val < 51200 := (i 0).isLt
  have h1 : (i 1).val < 1 := (i 1).isLt
  have h2 : (i 2).val < 512 := (i 2).isLt
  obtain ⟨t, ht⟩ : ∃ t : Fin (cfgM5 tbl hO).N, t.val = (i 0).val := ⟨⟨(i 0).val, lt_of_lt_of_eq h0 N_5.symm⟩, rfl⟩
  refine ⟨t, flush5_1 tbl hO t, ?_⟩
  rw [mem_blk5]
  have hi := index5_1 tbl hO t
  have i0 : ((cfgM5 tbl hO).win 1).index t (0 : Fin 3) = t.val := congrFun hi (0 : Fin 3)
  have i1 : ((cfgM5 tbl hO).win 1).index t (1 : Fin 3) = 0 := congrFun hi (1 : Fin 3)
  have i2 : ((cfgM5 tbl hO).win 1).index t (2 : Fin 3) = 0 := congrFun hi (2 : Fin 3)
  intro a
  match a with
  | ⟨0, _⟩ => show ((cfgM5 tbl hO).win 1).index t (0 : Fin 3) * 1 ≤ (i 0).val ∧ (i 0).val < ((cfgM5 tbl hO).win 1).index t (0 : Fin 3) * 1 + 1; omega
  | ⟨1, _⟩ => show ((cfgM5 tbl hO).win 1).index t (1 : Fin 3) * 1 ≤ (i 1).val ∧ (i 1).val < ((cfgM5 tbl hO).win 1).index t (1 : Fin 3) * 1 + 1; omega
  | ⟨2, _⟩ => show ((cfgM5 tbl hO).win 1).index t (2 : Fin 3) * 512 ≤ (i 2).val ∧ (i 2).val < ((cfgM5 tbl hO).win 1).index t (2 : Fin 3) * 512 + 512; omega

theorem gath5_final_fun (c : Dev nD) : (dat5 V tbl hO c).arrAt 1 (cfgM5 tbl hO).N = gath5 V tbl c :=
  (dat5 V tbl hO c).arrAt_eq_of_cover 1 (gath5 V tbl c) (fun t _ => flushed5_eq V tbl hO c t) (cover5 tbl hO)

theorem gath5_final (c : Dev nD) (i : S51200x1x512.Idx) :
    (dat5 V tbl hO c).arrAt 1 (cfgM5 tbl hO).N i = V c main_v30 (rowIdx5 tbl i) :=
  congrFun (gath5_final_fun V tbl hO c) i

end

end Cert.KernelIdeal.Hand

end
-- ==== Proof.G6Val.lean ====
import proofs.«414926_j197568496007_1_alg».proof.Proof.G6
import proofs.«414926_j197568496007_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

section
variable (tbl : pre6.Contents (Elt F))

abbrev word6 (n : Fin 51200) : BitVec 32 := tbl 0 (ValueIdx.ix1 n)

def rowIdx6 (i : S51200x1x512.Idx) : S100000x1x512.Idx :=
  ValueIdx.ix3 (Cert.Spec.row (word6 tbl (i 0))) (i 1) (i 2)

end

theorem pt_lt6 (t : Fin grid6.N) : t.val < 51200 := lt_of_lt_of_eq t.isLt N_6

theorem coords6 (t : Fin grid6.N) : (grid6.coords t 0).val = t.val := by
  have hs : grid6.stride 0 = 1 := by decide
  have h := pt_lt6 t
  show t.val / grid6.stride 0 % 51200 = t.val
  rw [hs]; omega

theorem word_of_coord6 (n : Nat) (h : n < 51200) : (Scalar.indexCast (BitVec.ofNat 32 n)).toNat = n := by
  show (BitVec.ofNat 32 n).toNat = n
  rw [BitVec.toNat_ofNat]; omega

section
variable (tbl : pre6.Contents (Elt F))

theorem at_word6 (v n : Nat) (hvn : v = n) (hn : n < 51200) (inb : ∀ a, (![v] : Fin 1 → Nat) a + S1.size a ≤ S51200.size a) :
    tbl.at 0 (Rect.unit (s := S51200) ![v] S1.size inb) numel1_S1 = word6 tbl ⟨n, hn⟩ := by
  subst hvn
  show tbl 0 _ = tbl 0 _
  refine congrArg (tbl 0) ?_
  funext d
  apply Fin.ext
  match d with
  | ⟨0, _⟩ => show v + 1 * 0 = v; omega

theorem transform6_0 (i : grid6.Coords) :
    cc6_transform_0 k6_off1_inb numel1_S1 tbl i = ![(word6 tbl ⟨(i 0).val, (i 0).isLt⟩).toNat, 0, 0] :=
  congrArg (fun w : BitVec 32 => (![w.toNat, 0, 0] : Fin 3 → Nat))
    (at_word6 tbl _ _ (word_of_coord6 _ (i 0).isLt) (i 0).isLt (k6_off1_inb i))

theorem transform6_1 (i : grid6.Coords) : cc6_transform_1 i = ![(i 0).val, 0, 0] :=
  congrArg (fun n : Nat => (![n, 0, 0] : Fin 3 → Nat)) (word_of_coord6 _ (i 0).isLt)

theorem word_lt6 (hO : ok6 (F := F) tbl) (n : Fin 51200) : (word6 tbl n).toNat < 100000 := by
  obtain ⟨h, -⟩ := hO (fun a => match a with | ⟨0, _⟩ => n)
  have h0 := h 0
  rw [transform6_0] at h0
  have h1 : ((word6 tbl n).toNat + 1) * 1 ≤ 100000 := h0
  omega

theorem rowIdx6_row (hO : ok6 (F := F) tbl) (i : S51200x1x512.Idx) (n : Fin 51200) (hn : i 0 = n) :
    (rowIdx6 tbl i 0).val = (word6 tbl n).toNat := by
  subst hn
  exact Cert.Spec.row_of_lt (word_lt6 tbl hO _)

end

section
variable (tbl : pre6.Contents (Elt F)) (hO : ok6 (F := F) tbl)

theorem index6_0 (t : Fin (cfgM6 tbl hO).N) :
    ((cfgM6 tbl hO).win 0).index t = ![(word6 tbl ⟨t.val, pt_lt6 t⟩).toNat, 0, 0] := by
  have e : ((cfgM6 tbl hO).win 0).index t = cc6_transform_0 k6_off1_inb numel1_S1 tbl (grid6.coords t) := rfl
  rw [e, transform6_0]
  have ht : (⟨(grid6.coords t 0).val, (grid6.coords t 0).isLt⟩ : Fin 51200) = ⟨t.val, pt_lt6 t⟩ := Fin.ext (coords6 t)
  rw [ht]

theorem index6_1 (t : Fin (cfgM6 tbl hO).N) : ((cfgM6 tbl hO).win 1).index t = ![t.val, 0, 0] := by
  have e : ((cfgM6 tbl hO).win 1).index t = cc6_transform_1 (grid6.coords t) := rfl
  rw [e, transform6_1, coords6]

end

section
variable (V : (c : Dev nD) → (b : Ref sig .tc) → Buf (Elt F) ((c : Thread nD τ).loc b))
variable (tbl : pre6.Contents (Elt F)) (hO : ok6 (F := F) tbl)

abbrev gath6 (c : Dev nD) : S51200x1x512.Idx → Elt F .f32 := fun i => V c main_v36 (rowIdx6 tbl i)

theorem iblk6_apply (c : Dev nD) (t : Fin (cfgM6 tbl hO).N) (y : S1x1x512.Idx) (k : S100000x1x512.Idx)
    (hk0 : (k 0).val = (word6 tbl ⟨t.val, pt_lt6 t⟩).toNat) (hk1 : (k 1).val = (y 1).val) (hk2 : (k 2).val = (y 2).val) :
    (iblk6 V tbl hO c 0 t : Vec F S1x1x512 .f32) y = (V c main_v36 : S100000x1x512.Idx → Elt F .f32) k := by
  have hi := index6_0 tbl hO t
  show V c main_v36 ((((cfgM6 tbl hO).win 0).blk t).view.emb y) = V c main_v36 k
  refine congrArg (V c main_v36) ?_
  funext a
  apply Fin.ext
  have i0 : ((cfgM6 tbl hO).win 0).index t (0 : Fin 3) = (word6 tbl ⟨t.val, pt_lt6 t⟩).toNat := congrFun hi (0 : Fin 3)
  have i1 : ((cfgM6 tbl hO).win 0).index t (1 : Fin 3) = 0 := congrFun hi (1 : Fin 3)
  have i2 : ((cfgM6 tbl hO).win 0).index t (2 : Fin 3) = 0 := congrFun hi (2 : Fin 3)
  have y0 : (y 0).val < 1 := (y 0).isLt
  have y1 : (y 1).val < 1 := (y 1).isLt
  match a with
  | ⟨0, _⟩ => show ((cfgM6 tbl hO).win 0).index t (0 : Fin 3) * 1 + 1 * (y 0).val = (k 0).val; omega
  | ⟨1, _⟩ => show ((cfgM6 tbl hO).win 0).index t (1 : Fin 3) * 1 + 1 * (y 1).val = (k 1).val; omega
  | ⟨2, _⟩ => show ((cfgM6 tbl hO).win 0).index t (2 : Fin 3) * 512 + 1 * (y 2).val = (k 2).val; omega

end

section
variable (V : (c : Dev nD) → (b : Ref sig .tc) → Buf (Elt F) ((c : Thread nD τ).loc b))
variable (tbl : pre6.Contents (Elt F)) (hO : ok6 (F := F) tbl)

theorem flushed6_eq (c : Dev nD) (t : Fin (cfgM6 tbl hO).N) :
    (dat6 V tbl hO c).flushed 1 t = (((cfgM6 tbl hO).win 1).blk t).view.read (Elt F) (gath6 V tbl c) := by
  show ((cfgM6 tbl hO).win 1).cut (grid6.coords t) (iblk6 V tbl hO c 0 t : Vec F S1x1x512 .f32) = _
  have hi := index6_1 tbl hO t
  have i0 : ((cfgM6 tbl hO).win 1).index t (0 : Fin 3) = t.val := congrFun hi (0 : Fin 3)
  have i1 : ((cfgM6 tbl hO).win 1).index t (1 : Fin 3) = 0 := congrFun hi (1 : Fin 3)
  have i2 : ((cfgM6 tbl hO).win 1).index t (2 : Fin 3) = 0 := congrFun hi (2 : Fin 3)
  refine funext fun (j : S1x1x512.Idx) => ?_
  show (iblk6 V tbl hO c 0 t : Vec F S1x1x512 .f32) j = V c main_v36 (rowIdx6 tbl ((((cfgM6 tbl hO).win 1).blk t).view.emb j))
  have j0 : (j 0).val < 1 := (j 0).isLt
  have j1 : (j 1).val < 1 := (j 1).isLt
  have hr : (((((cfgM6 tbl hO).win 1).blk t).view.emb j) (0 : Fin 3) : Fin 51200) = ⟨t.val, pt_lt6 t⟩ :=
    Fin.ext (by show ((cfgM6 tbl hO).win 1).index t (0 : Fin 3) * 1 + 1 * (j 0).val = t.val; omega)
  refine iblk6_apply V tbl hO c t j _ ?_ ?_ ?_
  · exact rowIdx6_row tbl hO _ _ hr
  · show ((cfgM6 tbl hO).win 1).index t (1 : Fin 3) * 1 + 1 * (j 1).val = (j 1).val; omega
  · show ((cfgM6 tbl hO).win 1).index t (2 : Fin 3) * 512 + 1 * (j 2).val = (j 2).val; omega

theorem mem_blk6 (t : Fin (cfgM6 tbl hO).N) (i : S51200x1x512.Idx) :
    i ∈ (((cfgM6 tbl hO).win 1).blk t).view.set ↔ ∀ a : Fin 3, ((cfgM6 tbl hO).win 1).index t a * S1x1x512.size a ≤ (i a).val ∧ (i a).val < ((cfgM6 tbl hO).win 1).index t a * S1x1x512.size a + S1x1x512.size a := by
  have e : (((cfgM6 tbl hO).win 1).blk t).view.set = (((cfgM6 tbl hO).win 1).rect t).set := View.set_slice_whole main_v37 _
  refine (Iff.of_eq (congrArg (fun S => i ∈ S) e)).trans ?_
  exact Rect.mem_set_unit

theorem flush6_1 (t : Fin (cfgM6 tbl hO).N) : ((cfgM6 tbl hO).win 1).flush t = true := by
  have ho : ((cfgM6 tbl hO).win 1).isOut = true := rfl
  unfold Pipeline.Window.flush
  rw [ho, Bool.true_and, Bool.or_eq_true, decide_eq_true_eq, decide_eq_true_eq]
  by_cases h : t.val + 1 = (cfgM6 tbl hO).grid.N
  · exact Or.inl h
  · refine Or.inr ⟨Nat.lt_of_le_of_ne (Nat.succ_le_of_lt t.isLt) h, fun e => ?_⟩
    have e0 := congrFun e (0 : Fin 3)
    rw [index6_1, index6_1] at e0
    have e1 : t.val + 1 = t.val := e0
    omega

theorem cover6 (i : S51200x1x512.Idx) :
    ∃ t : Fin (cfgM6 tbl hO).N, ((cfgM6 tbl hO).win 1).flush t = true ∧ i ∈ (((cfgM6 tbl hO).win 1).blk t).view.set := by
  have h0 : (i 0).val < 51200 := (i 0).isLt
  have h1 : (i 1).val < 1 := (i 1).isLt
  have h2 : (i 2).val < 512 := (i 2).isLt
  obtain ⟨t, ht⟩ : ∃ t : Fin (cfgM6 tbl hO).N, t.val = (i 0).val := ⟨⟨(i 0).val, lt_of_lt_of_eq h0 N_6.symm⟩, rfl⟩
  refine ⟨t, flush6_1 tbl hO t, ?_⟩
  rw [mem_blk6]
  have hi := index6_1 tbl hO t
  have i0 : ((cfgM6 tbl hO).win 1).index t (0 : Fin 3) = t.val := congrFun hi (0 : Fin 3)
  have i1 : ((cfgM6 tbl hO).win 1).index t (1 : Fin 3) = 0 := congrFun hi (1 : Fin 3)
  have i2 : ((cfgM6 tbl hO).win 1).index t (2 : Fin 3) = 0 := congrFun hi (2 : Fin 3)
  intro a
  match a with
  | ⟨0, _⟩ => show ((cfgM6 tbl hO).win 1).index t (0 : Fin 3) * 1 ≤ (i 0).val ∧ (i 0).val < ((cfgM6 tbl hO).win 1).index t (0 : Fin 3) * 1 + 1; omega
  | ⟨1, _⟩ => show ((cfgM6 tbl hO).win 1).index t (1 : Fin 3) * 1 ≤ (i 1).val ∧ (i 1).val < ((cfgM6 tbl hO).win 1).index t (1 : Fin 3) * 1 + 1; omega
  | ⟨2, _⟩ => show ((cfgM6 tbl hO).win 1).index t (2 : Fin 3) * 512 ≤ (i 2).val ∧ (i 2).val < ((cfgM6 tbl hO).win 1).index t (2 : Fin 3) * 512 + 512; omega

theorem gath6_final_fun (c : Dev nD) : (dat6 V tbl hO c).arrAt 1 (cfgM6 tbl hO).N = gath6 V tbl c :=
  (dat6 V tbl hO c).arrAt_eq_of_cover 1 (gath6 V tbl c) (fun t _ => flushed6_eq V tbl hO c t) (cover6 tbl hO)

theorem gath6_final (c : Dev nD) (i : S51200x1x512.Idx) :
    (dat6 V tbl hO c).arrAt 1 (cfgM6 tbl hO).N i = V c main_v36 (rowIdx6 tbl i) :=
  congrFun (gath6_final_fun V tbl hO c) i

end

end Cert.KernelIdeal.Hand

end
-- ==== Proof.KerGather.lean ====
import proofs.«414926_j197568496007_1_alg».proof.Proof.B9
import proofs.«414926_j197568496007_1_alg».proof.Proof.G0Val
import proofs.«414926_j197568496007_1_alg».proof.Proof.G1Val
import proofs.«414926_j197568496007_1_alg».proof.Proof.G2Val
import proofs.«414926_j197568496007_1_alg».proof.Proof.G3Val
import proofs.«414926_j197568496007_1_alg».proof.Proof.G4Val
import proofs.«414926_j197568496007_1_alg».proof.Proof.G5Val
import proofs.«414926_j197568496007_1_alg».proof.Proof.G6Val
import proofs.«414926_j197568496007_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.BI.BIBase Idealize.SL.BI.Laws Idealize.SL.ProofMode Idealize.SL.Sem
open Idealize.ShloMosaic.Pipeline (Dat Cfg Window BodyObligation cellOf)

variable {F : FTy → Type} [FloatOps F]

namespace KG

section Layout
variable {α : Type}

theorem cast_addMid {N C : Nat} (x : (⟨2, ![N, C]⟩ : Shape).Idx → α)
    (h : (⟨2, ![N, C]⟩ : Shape).ShapeCasts ⟨3, ![N, 1, C]⟩) (a : Fin N) (q : Fin C) :
    shapeCast ⟨3, ![N, 1, C]⟩ x h (ValueIdx.ix3 a (0 : Fin 1) q) = x (ValueIdx.ix2 a q) :=
  shapeCast_apply x h _ _ (by
    rw [Shape.rowMajor_val_two, Shape.rowMajor_val_three]
    show a.val * C + q.val = (a.val * 1 + 0) * C + q.val
    rw [Nat.mul_one, Nat.add_zero])

theorem cast_dropMid {T C : Nat} (x : (⟨3, ![T, 1, C]⟩ : Shape).Idx → α)
    (h : (⟨3, ![T, 1, C]⟩ : Shape).ShapeCasts ⟨2, ![T, C]⟩) (t : Fin T) (q : Fin C) :
    shapeCast ⟨2, ![T, C]⟩ x h (ValueIdx.ix2 t q) = x (ValueIdx.ix3 t (0 : Fin 1) q) :=
  shapeCast_apply x h _ _ (by
    rw [Shape.rowMajor_val_two, Shape.rowMajor_val_three]
    show (t.val * 1 + 0) * C + q.val = t.val * C + q.val
    rw [Nat.mul_one, Nat.add_zero])

theorem cast_split {T R K C : Nat} (x : (⟨2, ![T, C]⟩ : Shape).Idx → α)
    (h : (⟨2, ![T, C]⟩ : Shape).ShapeCasts ⟨3, ![R, K, C]⟩) (r : Fin R) (n : Fin K) (q : Fin C) (t : Fin T)
    (ht : t.val = K * r.val + n.val) :
    shapeCast ⟨3, ![R, K, C]⟩ x h (ValueIdx.ix3 r n q) = x (ValueIdx.ix2 t q) :=
  shapeCast_apply x h _ _ (by
    rw [Shape.rowMajor_val_two, Shape.rowMajor_val_three]
    show t.val * C + q.val = (r.val * K + n.val) * C + q.val
    rw [ht, Nat.mul_comm K])

theorem cast_merge {T R K C : Nat} (x : (⟨3, ![R, K, C]⟩ : Shape).Idx → α)
    (h : (⟨3, ![R, K, C]⟩ : Shape).ShapeCasts ⟨2, ![T, C]⟩) (r : Fin R) (n : Fin K) (q : Fin C) (t : Fin T)
    (ht : t.val = K * r.val + n.val) :
    shapeCast ⟨2, ![T, C]⟩ x h (ValueIdx.ix2 t q) = x (ValueIdx.ix3 r n q) :=
  shapeCast_apply x h _ _ (by
    rw [Shape.rowMajor_val_two, Shape.rowMajor_val_three]
    show (r.val * K + n.val) * C + q.val = t.val * C + q.val
    rw [ht, Nat.mul_comm K])

theorem cast_flat {T R K : Nat} (x : (⟨2, ![R, K]⟩ : Shape).Idx → α)
    (h : (⟨2, ![R, K]⟩ : Shape).ShapeCasts ⟨1, ![T]⟩) (r : Fin R) (n : Fin K) (t : Fin T)
    (ht : t.val = K * r.val + n.val) :
    shapeCast ⟨1, ![T]⟩ x h (ValueIdx.ix1 t) = x (ValueIdx.ix2 r n) :=
  shapeCast_apply x h _ _ (by
    rw [Shape.rowMajor_val_two, Shape.rowMajor_val_one]
    show r.val * K + n.val = t.val
    rw [ht, Nat.mul_comm K])

theorem slice_rows {N M C off : Nat} (x : (⟨2, ![N, C]⟩ : Shape).Idx → α)
    (h : (⟨2, ![N, C]⟩ : Shape).Slices ![off, 0] ⟨2, ![M, C]⟩) (u : Fin M) (k : Fin C) (t : Fin N)
    (ht : t.val = off + u.val) :
    extractStridedSlice ⟨2, ![M, C]⟩ ![off, 0] x h (ValueIdx.ix2 u k) = x (ValueIdx.ix2 t k) :=
  extractStridedSlice_apply ![off, 0] x h _ _ (fun a => by
    match a with
    | ⟨0, _⟩ => exact ht
    | ⟨1, _⟩ => exact (Nat.zero_add _).symm)

theorem concat5_at (x0 x1 x2 x3 x4 : S2048x25x512.Idx → α)
    (h : Shape.Concatenates (([⟨S2048x25x512, x0⟩, ⟨S2048x25x512, x1⟩, ⟨S2048x25x512, x2⟩, ⟨S2048x25x512, x3⟩, ⟨S2048x25x512, x4⟩] : List ((s : Shape) × (s.Idx → α))).map (·.1)) S10240x25x512 0)
    (k : Fin 5) (u : Fin 2048) (n : Fin 25) (q : Fin 512) (s : Fin 10240) (hs : s.val = 2048 * k.val + u.val) :
    concatenate S10240x25x512 0 [⟨S2048x25x512, x0⟩, ⟨S2048x25x512, x1⟩, ⟨S2048x25x512, x2⟩, ⟨S2048x25x512, x3⟩, ⟨S2048x25x512, x4⟩] h (ValueIdx.ix3 s n q)
      = (![x0, x1, x2, x3, x4] k) (ValueIdx.ix3 u n q) := by
  have hi : ∀ b : Fin S2048x25x512.rank, b.cast (rfl : S2048x25x512.rank = S10240x25x512.rank) ≠ (0 : Fin 3) →
      ((ValueIdx.ix3 u n q : S2048x25x512.Idx) b).val = ((ValueIdx.ix3 s n q : S10240x25x512.Idx) (b.cast rfl)).val := fun b hb => by
    match b with
    | ⟨0, _⟩ => exact absurd rfl hb
    | ⟨1, _⟩ => rfl
    | ⟨2, _⟩ => rfl
  match k, hs with
  | ⟨0, _⟩, hs => exact concatenate_apply_piece 0 _ h _ 0 (by show (0 : Nat) < 5; omega) S2048x25x512 x0 rfl rfl 0 rfl _ hi (by have hs' : s.val = 2048 * 0 + u.val := hs; show 0 + u.val = s.val; omega)
  | ⟨1, _⟩, hs => exact concatenate_apply_piece 0 _ h _ 1 (by show (1 : Nat) < 5; omega) S2048x25x512 x1 rfl rfl 2048 rfl _ hi (by have hs' : s.val = 2048 * 1 + u.val := hs; show 2048 + u.val = s.val; omega)
  | ⟨2, _⟩, hs => exact concatenate_apply_piece 0 _ h _ 2 (by show (2 : Nat) < 5; omega) S2048x25x512 x2 rfl rfl 4096 rfl _ hi (by have hs' : s.val = 2048 * 2 + u.val := hs; show 4096 + u.val = s.val; omega)
  | ⟨3, _⟩, hs => exact concatenate_apply_piece 0 _ h _ 3 (by show (3 : Nat) < 5; omega) S2048x25x512 x3 rfl rfl 6144 rfl _ hi (by have hs' : s.val = 2048 * 3 + u.val := hs; show 6144 + u.val = s.val; omega)
  | ⟨4, _⟩, hs => exact concatenate_apply_piece 0 _ h _ 4 (by show (4 : Nat) < 5; omega) S2048x25x512 x4 rfl rfl 8192 rfl _ hi (by have hs' : s.val = 2048 * 4 + u.val := hs; show 8192 + u.val = s.val; omega)

end Layout

end KG

namespace KG

section
variable (m : (ℓ : Loc nD τ sig) → Buf (Elt F) ℓ) (hO : Oks m) (c : Dev nD)

theorem v4_keep : W15 m hO c (Proc.devRef .tc main_v4) = W3 m hO c (Proc.devRef .tc main_v4) :=
  (StableHlo.after_of_writes_sub hostOps7 _ hostOps7_writes (by decide)).trans <|
  (W14_of_ne m hO c main_v4 (by decide)).trans <|
  (StableHlo.after_of_writes_sub hostOps6 _ hostOps6_writes (by decide)).trans <|
  (W12_of_ne m hO c main_v4 (by decide)).trans <|
  (StableHlo.after_of_writes_sub hostOps5 _ hostOps5_writes (by decide)).trans <|
  (W10_of_ne m hO c main_v4 (by decide)).trans <|
  (StableHlo.after_of_writes_sub hostOps4 _ hostOps4_writes (by decide)).trans <|
  (W8_of_ne m hO c main_v4 (by decide)).trans <|
  (StableHlo.after_of_writes_sub hostOps3 _ hostOps3_writes (by decide)).trans <|
  (W6_of_ne m hO c main_v4 (by decide)).trans <|
  (StableHlo.after_of_writes_sub hostOps2 _ hostOps2_writes (by decide)).trans <|
  (W4_of_ne m hO c main_v4 (by decide))

theorem fcopy0 (a : Fin 100000) (q : Fin 512) :
    W1 m c (Proc.devRef .tc main_v1) (ValueIdx.ix3 a (0 : Fin 1) q) = m ((c.tc : Thread nD τ).loc main_arg0) (ValueIdx.ix2 a q) := by
  show StableHlo.after hostOps0 (W0 m c) (Proc.devRef .tc main_v1) _ = _
  after_results
  exact cast_addMid _ _ a q

theorem tbl0 (t : Fin 25600) (r : Fin 1024) (n : Fin 25) (ht : t.val = 25 * r.val + n.val) :
    T0 m 0 (ValueIdx.ix1 t) = m (((0 : Dev nD).tc : Thread nD τ).loc main_arg7) (ValueIdx.ix2 r n) := by
  show StableHlo.after hostOps0 (W0 m 0) (Proc.devRef .tc main_v0) _ = _
  after_results
  exact cast_flat _ _ r n t ht

theorem gath0_at (t : Fin 25600) (q : Fin 512) :
    W2 m hO c (Proc.devRef .tc main_v2) (ValueIdx.ix3 t (0 : Fin 1) q)
      = m ((c.tc : Thread nD τ).loc main_arg0) (ValueIdx.ix2 (Cert.Spec.row (T0 m 0 (ValueIdx.ix1 t))) q) := by
  refine (congrFun (W2_arr m hO c 1) _).trans ?_
  refine (gath0_final (V1 m) (T0 m) hO.h0 c _).trans ?_
  exact fcopy0 m c _ q

theorem v4_at3 (r : Fin 1024) (n : Fin 25) (q : Fin 512) (t : Fin 25600) (ht : t.val = 25 * r.val + n.val) :
    W3 m hO c (Proc.devRef .tc main_v4) (ValueIdx.ix3 r n q)
      = W2 m hO c (Proc.devRef .tc main_v2) (ValueIdx.ix3 t (0 : Fin 1) q) := by
  show StableHlo.after hostOps1 (W2 m hO c) (Proc.devRef .tc main_v4) _ = _
  after_results
  exact (cast_split _ _ r n q t ht).trans (cast_dropMid _ _ t q)

end

end KG

section
variable (m : (ℓ : Loc nD τ sig) → Buf (Elt F) ℓ) (hO : Oks m) (c : Dev nD)

theorem nf1_at (h7 : ∀ i, (m ((c.tc : Thread nD τ).loc main_arg7) i).toNat < 100000) (r : Fin 1024) (n : Fin 25) (q : Fin 512) :
    (V15 m hO c main_v4 : S1024x25x512.Idx → Elt F .f32) (ValueIdx.ix3 r n q)
      = m ((c.tc : Thread nD τ).loc main_arg0) (ValueIdx.ix2 (Cert.Spec.row (m ((c.tc : Thread nD τ).loc main_arg7) (ValueIdx.ix2 r n))) q) := by
  obtain rfl : c = 0 := Subsingleton.elim _ _
  have ht : (⟨25 * r.val + n.val, by omega⟩ : Fin 25600).val = 25 * r.val + n.val := rfl
  refine (congrFun (KG.v4_keep m hO 0) _).trans ?_
  refine (KG.v4_at3 m hO 0 r n q _ ht).trans ?_
  refine (KG.gath0_at m hO 0 _ q).trans ?_
  rw [KG.tbl0 m _ r n ht]

end

namespace KG

section
variable (m : (ℓ : Loc nD τ sig) → Buf (Elt F) ℓ) (hO : Oks m) (c : Dev nD)

theorem v9_keep : W16 m hO c (Proc.devRef .tc main_v9) = W5 m hO c (Proc.devRef .tc main_v9) :=
  (W16_of_ne m hO c main_v9 (by decide)).trans <|
  (StableHlo.after_of_writes_sub hostOps7 _ hostOps7_writes (by decide)).trans <|
  (W14_of_ne m hO c main_v9 (by decide)).trans <|
  (StableHlo.after_of_writes_sub hostOps6 _ hostOps6_writes (by decide)).trans <|
  (W12_of_ne m hO c main_v9 (by decide)).trans <|
  (StableHlo.after_of_writes_sub hostOps5 _ hostOps5_writes (by decide)).trans <|
  (W10_of_ne m hO c main_v9 (by decide)).trans <|
  (StableHlo.after_of_writes_sub hostOps4 _ hostOps4_writes (by decide)).trans <|
  (W8_of_ne m hO c main_v9 (by decide)).trans <|
  (StableHlo.after_of_writes_sub hostOps3 _ hostOps3_writes (by decide)).trans <|
  (W6_of_ne m hO c main_v9 (by decide))

theorem fcopy1 (a : Fin 100000) (q : Fin 512) :
    W3 m hO c (Proc.devRef .tc main_v6) (ValueIdx.ix3 a (0 : Fin 1) q) = m ((c.tc : Thread nD τ).loc main_arg0) (ValueIdx.ix2 a q) := by
  show StableHlo.after hostOps1 (W2 m hO c) (Proc.devRef .tc main_v6) _ = _
  after_results
  exact (cast_addMid _ _ a q).trans (congrFun (W2_all m hO c main_arg0 (by decide)) _)

theorem gath1_at (t : Fin 10240) (q : Fin 512) :
    W4 m hO c (Proc.devRef .tc main_v7) (ValueIdx.ix3 t (0 : Fin 1) q)
      = m ((c.tc : Thread nD τ).loc main_arg0) (ValueIdx.ix2 (Cert.Spec.row (T1 m 0 (ValueIdx.ix1 t))) q) := by
  refine (congrFun (W4_arr m hO c 1) _).trans ?_
  refine (gath1_final (V3 m hO) (T1 m) hO.h1 c _).trans ?_
  exact fcopy1 m hO c _ q

theorem tbl1 (t : Fin 10240) (r : Fin 1024) (n : Fin 10) (ht : t.val = 10 * r.val + n.val) :
    T1 m 0 (ValueIdx.ix1 t) = m (((0 : Dev nD).tc : Thread nD τ).loc main_arg8) (ValueIdx.ix2 r n) := by
  show StableHlo.after hostOps1 (W0 m 0) (Proc.devRef .tc main_v5) _ = _
  after_results
  exact cast_flat _ _ r n t ht

theorem v9_at5 (r : Fin 1024) (n : Fin 10) (q : Fin 512) (t : Fin 10240) (ht : t.val = 10 * r.val + n.val) :
    W5 m hO c (Proc.devRef .tc main_v9) (ValueIdx.ix3 r n q)
      = W4 m hO c (Proc.devRef .tc main_v7) (ValueIdx.ix3 t (0 : Fin 1) q) := by
  show StableHlo.after hostOps2 (W4 m hO c) (Proc.devRef .tc main_v9) _ = _
  after_results
  exact (cast_split _ _ r n q t ht).trans (cast_dropMid _ _ t q)

theorem v45_at17 (s : Fin 10240) (q : Fin 512) :
    W17 m hO c (Proc.devRef .tc main_v45) (ValueIdx.ix2 s q)
      = W16 m hO c (Proc.devRef .tc main_v9) (ValueIdx.ix3 (Cert.Spec.rowOf s) (Cert.Spec.nbrOf s) q) := by
  show StableHlo.after hostOps8 (W16 m hO c) (Proc.devRef .tc main_v45) _ = _
  after_results
  exact cast_merge _ _ (Cert.Spec.rowOf s) (Cert.Spec.nbrOf s) q s (by
    show s.val = 10 * (s.val / 10) + s.val % 10; omega)

end

end KG

section
variable (m : (ℓ : Loc nD τ sig) → Buf (Elt F) ℓ) (hO : Oks m) (c : Dev nD)

theorem nf2_at (h8 : ∀ i, (m ((c.tc : Thread nD τ).loc main_arg8) i).toNat < 100000) (s : Fin 10240) (q : Fin 512) :
    (V17 m hO c main_v45 : S10240x512.Idx → Elt F .f32) (ValueIdx.ix2 s q)
      = m ((c.tc : Thread nD τ).loc main_arg0) (ValueIdx.ix2 (Cert.Spec.row (m ((c.tc : Thread nD τ).loc main_arg8) (ValueIdx.ix2 (Cert.Spec.rowOf s) (Cert.Spec.nbrOf s)))) q) := by
  obtain rfl : c = 0 := Subsingleton.elim _ _
  have ht : s.val = 10 * (Cert.Spec.rowOf s).val + (Cert.Spec.nbrOf s).val := by
    show s.val = 10 * (s.val / 10) + s.val % 10; omega
  refine (KG.v45_at17 m hO 0 s q).trans ?_
  refine (congrFun (KG.v9_keep m hO 0) _).trans ?_
  refine (KG.v9_at5 m hO 0 _ _ q s ht).trans ?_
  refine (KG.gath1_at m hO 0 s q).trans ?_
  rw [KG.tbl1 m s _ _ ht]

end

namespace KG

section
variable (m : (ℓ : Loc nD τ sig) → Buf (Elt F) ℓ) (hO : Oks m) (c : Dev nD)

theorem fcopy2 (a : Fin 100000) (q : Fin 512) :
    W5 m hO c (Proc.devRef .tc main_v12) (ValueIdx.ix3 a (0 : Fin 1) q) = m ((c.tc : Thread nD τ).loc main_arg0) (ValueIdx.ix2 a q) := by
  show StableHlo.after hostOps2 (W4 m hO c) (Proc.devRef .tc main_v12) _ = _
  after_results
  exact (cast_addMid _ _ a q).trans (congrFun (W4_all m hO c main_arg0 (by decide)) _)

theorem gath2_at (t : Fin 51200) (q : Fin 512) :
    W6 m hO c (Proc.devRef .tc main_v13) (ValueIdx.ix3 t (0 : Fin 1) q)
      = m ((c.tc : Thread nD τ).loc main_arg0) (ValueIdx.ix2 (Cert.Spec.row (T2 m 0 (ValueIdx.ix1 t))) q) := by
  refine (congrFun (W6_arr m hO c 1) _).trans ?_
  refine (gath2_final (V5 m hO) (T2 m) hO.h2 c _).trans ?_
  exact fcopy2 m hO c _ q

theorem tbl2 (t : Fin 51200) (u : Fin 2048) (n : Fin 25) (s : Fin 10240) (ht : t.val = 25 * u.val + n.val) (hs : s.val = 0 + u.val) :
    T2 m 0 (ValueIdx.ix1 t) = m (((0 : Dev nD).tc : Thread nD τ).loc main_arg9) (ValueIdx.ix2 s n) := by
  show StableHlo.after hostOps2 (W0 m 0) (Proc.devRef .tc main_v11) _ = _
  after_results
  exact (cast_flat _ _ u n t ht).trans (slice_rows _ _ u n s hs)

theorem chunk2_at (u : Fin 2048) (n : Fin 25) (q : Fin 512) (t : Fin 51200) (ht : t.val = 25 * u.val + n.val) :
    W7 m hO c (Proc.devRef .tc main_v15) (ValueIdx.ix3 u n q)
      = W6 m hO c (Proc.devRef .tc main_v13) (ValueIdx.ix3 t (0 : Fin 1) q) := by
  show StableHlo.after hostOps3 (W6 m hO c) (Proc.devRef .tc main_v15) _ = _
  after_results
  exact (cast_split _ _ u n q t ht).trans (cast_dropMid _ _ t q)

theorem fcopy3 (a : Fin 100000) (q : Fin 512) :
    W7 m hO c (Proc.devRef .tc main_v18) (ValueIdx.ix3 a (0 : Fin 1) q) = m ((c.tc : Thread nD τ).loc main_arg0) (ValueIdx.ix2 a q) := by
  show StableHlo.after hostOps3 (W6 m hO c) (Proc.devRef .tc main_v18) _ = _
  after_results
  exact (cast_addMid _ _ a q).trans (congrFun (W6_all m hO c main_arg0 (by decide)) _)

theorem gath3_at (t : Fin 51200) (q : Fin 512) :
    W8 m hO c (Proc.devRef .tc main_v19) (ValueIdx.ix3 t (0 : Fin 1) q)
      = m ((c.tc : Thread nD τ).loc main_arg0) (ValueIdx.ix2 (Cert.Spec.row (T3 m 0 (ValueIdx.ix1 t))) q) := by
  refine (congrFun (W8_arr m hO c 1) _).trans ?_
  refine (gath3_final (V7 m hO) (T3 m) hO.h3 c _).trans ?_
  exact fcopy3 m hO c _ q

theorem tbl3 (t : Fin 51200) (u : Fin 2048) (n : Fin 25) (s : Fin 10240) (ht : t.val = 25 * u.val + n.val) (hs : s.val = 2048 + u.val) :
    T3 m 0 (ValueIdx.ix1 t) = m (((0 : Dev nD).tc : Thread nD τ).loc main_arg9) (ValueIdx.ix2 s n) := by
  show StableHlo.after hostOps3 (W0 m 0) (Proc.devRef .tc main_v17) _ = _
  after_results
  exact (cast_flat _ _ u n t ht).trans (slice_rows _ _ u n s hs)

theorem chunk3_at (u : Fin 2048) (n : Fin 25) (q : Fin 512) (t : Fin 51200) (ht : t.val = 25 * u.val + n.val) :
    W9 m hO c (Proc.devRef .tc main_v21) (ValueIdx.ix3 u n q)
      = W8 m hO c (Proc.devRef .tc main_v19) (ValueIdx.ix3 t (0 : Fin 1) q) := by
  show StableHlo.after hostOps4 (W8 m hO c) (Proc.devRef .tc main_v21) _ = _
  after_results
  exact (cast_split _ _ u n q t ht).trans (cast_dropMid _ _ t q)

theorem fcopy4 (a : Fin 100000) (q : Fin 512) :
    W9 m hO c (Proc.devRef .tc main_v24) (ValueIdx.ix3 a (0 : Fin 1) q) = m ((c.tc : Thread nD τ).loc main_arg0) (ValueIdx.ix2 a q) := by
  show StableHlo.after hostOps4 (W8 m hO c) (Proc.devRef .tc main_v24) _ = _
  after_results
  exact (cast_addMid _ _ a q).trans (congrFun (W8_all m hO c main_arg0 (by decide)) _)

theorem gath4_at (t : Fin 51200) (q : Fin 512) :
    W10 m hO c (Proc.devRef .tc main_v25) (ValueIdx.ix3 t (0 : Fin 1) q)
      = m ((c.tc : Thread nD τ).loc main_arg0) (ValueIdx.ix2 (Cert.Spec.row (T4 m 0 (ValueIdx.ix1 t))) q) := by
  refine (congrFun (W10_arr m hO c 1) _).trans ?_
  refine (gath4_final (V9 m hO) (T4 m) hO.h4 c _).trans ?_
  exact fcopy4 m hO c _ q

theorem tbl4 (t : Fin 51200) (u : Fin 2048) (n : Fin 25) (s : Fin 10240) (ht : t.val = 25 * u.val + n.val) (hs : s.val = 4096 + u.val) :
    T4 m 0 (ValueIdx.ix1 t) = m (((0 : Dev nD).tc : Thread nD τ).loc main_arg9) (ValueIdx.ix2 s n) := by
  show StableHlo.after hostOps4 (W0 m 0) (Proc.devRef .tc main_v23) _ = _
  after_results
  exact (cast_flat _ _ u n t ht).trans (slice_rows _ _ u n s hs)

theorem chunk4_at (u : Fin 2048) (n : Fin 25) (q : Fin 512) (t : Fin 51200) (ht : t.val = 25 * u.val + n.val) :
    W11 m hO c (Proc.devRef .tc main_v27) (ValueIdx.ix3 u n q)
      = W10 m hO c (Proc.devRef .tc main_v25) (ValueIdx.ix3 t (0 : Fin 1) q) := by
  show StableHlo.after hostOps5 (W10 m hO c) (Proc.devRef .tc main_v27) _ = _
  after_results
  exact (cast_split _ _ u n q t ht).trans (cast_dropMid _ _ t q)

theorem fcopy5 (a : Fin 100000) (q : Fin 512) :
    W11 m hO c (Proc.devRef .tc main_v30) (ValueIdx.ix3 a (0 : Fin 1) q) = m ((c.tc : Thread nD τ).loc main_arg0) (ValueIdx.ix2 a q) := by
  show StableHlo.after hostOps5 (W10 m hO c) (Proc.devRef .tc main_v30) _ = _
  after_results
  exact (cast_addMid _ _ a q).trans (congrFun (W10_all m hO c main_arg0 (by decide)) _)

theorem gath5_at (t : Fin 51200) (q : Fin 512) :
    W12 m hO c (Proc.devRef .tc main_v31) (ValueIdx.ix3 t (0 : Fin 1) q)
      = m ((c.tc : Thread nD τ).loc main_arg0) (ValueIdx.ix2 (Cert.Spec.row (T5 m 0 (ValueIdx.ix1 t))) q) := by
  refine (congrFun (W12_arr m hO c 1) _).trans ?_
  refine (gath5_final (V11 m hO) (T5 m) hO.h5 c _).trans ?_
  exact fcopy5 m hO c _ q

theorem tbl5 (t : Fin 51200) (u : Fin 2048) (n : Fin 25) (s : Fin 10240) (ht : t.val = 25 * u.val + n.val) (hs : s.val = 6144 + u.val) :
    T5 m 0 (ValueIdx.ix1 t) = m (((0 : Dev nD).tc : Thread nD τ).loc main_arg9) (ValueIdx.ix2 s n) := by
  show StableHlo.after hostOps5 (W0 m 0) (Proc.devRef .tc main_v29) _ = _
  after_results
  exact (cast_flat _ _ u n t ht).trans (slice_rows _ _ u n s hs)

theorem chunk5_at (u : Fin 2048) (n : Fin 25) (q : Fin 512) (t : Fin 51200) (ht : t.val = 25 * u.val + n.val) :
    W13 m hO c (Proc.devRef .tc main_v33) (ValueIdx.ix3 u n q)
      = W12 m hO c (Proc.devRef .tc main_v31) (ValueIdx.ix3 t (0 : Fin 1) q) := by
  show StableHlo.after hostOps6 (W12 m hO c) (Proc.devRef .tc main_v33) _ = _
  after_results
  exact (cast_split _ _ u n q t ht).trans (cast_dropMid _ _ t q)

theorem fcopy6 (a : Fin 100000) (q : Fin 512) :
    W13 m hO c (Proc.devRef .tc main_v36) (ValueIdx.ix3 a (0 : Fin 1) q) = m ((c.tc : Thread nD τ).loc main_arg0) (ValueIdx.ix2 a q) := by
  show StableHlo.after hostOps6 (W12 m hO c) (Proc.devRef .tc main_v36) _ = _
  after_results
  exact (cast_addMid _ _ a q).trans (congrFun (W12_all m hO c main_arg0 (by decide)) _)

theorem gath6_at (t : Fin 51200) (q : Fin 512) :
    W14 m hO c (Proc.devRef .tc main_v37) (ValueIdx.ix3 t (0 : Fin 1) q)
      = m ((c.tc : Thread nD τ).loc main_arg0) (ValueIdx.ix2 (Cert.Spec.row (T6 m 0 (ValueIdx.ix1 t))) q) := by
  refine (congrFun (W14_arr m hO c 1) _).trans ?_
  refine (gath6_final (V13 m hO) (T6 m) hO.h6 c _).trans ?_
  exact fcopy6 m hO c _ q

theorem tbl6 (t : Fin 51200) (u : Fin 2048) (n : Fin 25) (s : Fin 10240) (ht : t.val = 25 * u.val + n.val) (hs : s.val = 8192 + u.val) :
    T6 m 0 (ValueIdx.ix1 t) = m (((0 : Dev nD).tc : Thread nD τ).loc main_arg9) (ValueIdx.ix2 s n) := by
  show StableHlo.after hostOps6 (W0 m 0) (Proc.devRef .tc main_v35) _ = _
  after_results
  exact (cast_flat _ _ u n t ht).trans (slice_rows _ _ u n s hs)

theorem v15_keep : W14 m hO c (Proc.devRef .tc main_v15) = W7 m hO c (Proc.devRef .tc main_v15) :=
  (W14_of_ne m hO c main_v15 (by decide)).trans <|
  (StableHlo.after_of_writes_sub hostOps6 _ hostOps6_writes (by decide)).trans <|
  (W12_of_ne m hO c main_v15 (by decide)).trans <|
  (StableHlo.after_of_writes_sub hostOps5 _ hostOps5_writes (by decide)).trans <|
  (W10_of_ne m hO c main_v15 (by decide)).trans <|
  (StableHlo.after_of_writes_sub hostOps4 _ hostOps4_writes (by decide)).trans <|
  (W8_of_ne m hO c main_v15 (by decide))
theorem v21_keep : W14 m hO c (Proc.devRef .tc main_v21) = W9 m hO c (Proc.devRef .tc main_v21) :=
  (W14_of_ne m hO c main_v21 (by decide)).trans <|
  (StableHlo.after_of_writes_sub hostOps6 _ hostOps6_writes (by decide)).trans <|
  (W12_of_ne m hO c main_v21 (by decide)).trans <|
  (StableHlo.after_of_writes_sub hostOps5 _ hostOps5_writes (by decide)).trans <|
  (W10_of_ne m hO c main_v21 (by decide))
theorem v27_keep : W14 m hO c (Proc.devRef .tc main_v27) = W11 m hO c (Proc.devRef .tc main_v27) :=
  (W14_of_ne m hO c main_v27 (by decide)).trans <|
  (StableHlo.after_of_writes_sub hostOps6 _ hostOps6_writes (by decide)).trans <|
  (W12_of_ne m hO c main_v27 (by decide))
theorem v33_keep : W14 m hO c (Proc.devRef .tc main_v33) = W13 m hO c (Proc.devRef .tc main_v33) :=
  W14_of_ne m hO c main_v33 (by decide)
theorem v40_keep : W17 m hO c (Proc.devRef .tc main_v40) = W15 m hO c (Proc.devRef .tc main_v40) :=
  (StableHlo.after_of_writes_sub hostOps8 _ hostOps8_writes (by decide)).trans <|
  (W16_of_ne m hO c main_v40 (by decide))

end

end KG

namespace KG

section
variable (m : (ℓ : Loc nD τ sig) → Buf (Elt F) ℓ) (hO : Oks m) (c : Dev nD)

theorem chunk2_val (u : Fin 2048) (n : Fin 25) (q : Fin 512) (s : Fin 10240) (hs : s.val = 0 + u.val) :
    W14 m hO c (Proc.devRef .tc main_v15) (ValueIdx.ix3 u n q)
      = m ((c.tc : Thread nD τ).loc main_arg0) (ValueIdx.ix2 (Cert.Spec.row (m (((0 : Dev nD).tc : Thread nD τ).loc main_arg9) (ValueIdx.ix2 s n))) q) := by
  have ht : (⟨25 * u.val + n.val, by omega⟩ : Fin 51200).val = 25 * u.val + n.val := rfl
  refine (congrFun (v15_keep m hO c) _).trans ?_
  refine (chunk2_at m hO c u n q _ ht).trans ?_
  refine (gath2_at m hO c _ q).trans ?_
  rw [tbl2 m _ u n s ht hs]

theorem chunk3_val (u : Fin 2048) (n : Fin 25) (q : Fin 512) (s : Fin 10240) (hs : s.val = 2048 + u.val) :
    W14 m hO c (Proc.devRef .tc main_v21) (ValueIdx.ix3 u n q)
      = m ((c.tc : Thread nD τ).loc main_arg0) (ValueIdx.ix2 (Cert.Spec.row (m (((0 : Dev nD).tc : Thread nD τ).loc main_arg9) (ValueIdx.ix2 s n))) q) := by
  have ht : (⟨25 * u.val + n.val, by omega⟩ : Fin 51200).val = 25 * u.val + n.val := rfl
  refine (congrFun (v21_keep m hO c) _).trans ?_
  refine (chunk3_at m hO c u n q _ ht).trans ?_
  refine (gath3_at m hO c _ q).trans ?_
  rw [tbl3 m _ u n s ht hs]

theorem chunk4_val (u : Fin 2048) (n : Fin 25) (q : Fin 512) (s : Fin 10240) (hs : s.val = 4096 + u.val) :
    W14 m hO c (Proc.devRef .tc main_v27) (ValueIdx.ix3 u n q)
      = m ((c.tc : Thread nD τ).loc main_arg0) (ValueIdx.ix2 (Cert.Spec.row (m (((0 : Dev nD).tc : Thread nD τ).loc main_arg9) (ValueIdx.ix2 s n))) q) := by
  have ht : (⟨25 * u.val + n.val, by omega⟩ : Fin 51200).val = 25 * u.val + n.val := rfl
  refine (congrFun (v27_keep m hO c) _).trans ?_
  refine (chunk4_at m hO c u n q _ ht).trans ?_
  refine (gath4_at m hO c _ q).trans ?_
  rw [tbl4 m _ u n s ht hs]

theorem chunk5_val (u : Fin 2048) (n : Fin 25) (q : Fin 512) (s : Fin 10240) (hs : s.val = 6144 + u.val) :
    W14 m hO c (Proc.devRef .tc main_v33) (ValueIdx.ix3 u n q)
      = m ((c.tc : Thread nD τ).loc main_arg0) (ValueIdx.ix2 (Cert.Spec.row (m (((0 : Dev nD).tc : Thread nD τ).loc main_arg9) (ValueIdx.ix2 s n))) q) := by
  have ht : (⟨25 * u.val + n.val, by omega⟩ : Fin 51200).val = 25 * u.val + n.val := rfl
  refine (congrFun (v33_keep m hO c) _).trans ?_
  refine (chunk5_at m hO c u n q _ ht).trans ?_
  refine (gath5_at m hO c _ q).trans ?_
  rw [tbl5 m _ u n s ht hs]

theorem gath6_val (u : Fin 2048) (n : Fin 25) (q : Fin 512) (s : Fin 10240) (hs : s.val = 8192 + u.val) (t : Fin 51200) (ht : t.val = 25 * u.val + n.val) :
    W14 m hO c (Proc.devRef .tc main_v37) (ValueIdx.ix3 t (0 : Fin 1) q)
      = m ((c.tc : Thread nD τ).loc main_arg0) (ValueIdx.ix2 (Cert.Spec.row (m (((0 : Dev nD).tc : Thread nD τ).loc main_arg9) (ValueIdx.ix2 s n))) q) := by
  refine (gath6_at m hO c t q).trans ?_
  rw [tbl6 m t u n s ht hs]

end

end KG

section
variable (m : (ℓ : Loc nD τ sig) → Buf (Elt F) ℓ) (hO : Oks m) (c : Dev nD)

theorem nf21_at (h9 : ∀ i, (m ((c.tc : Thread nD τ).loc main_arg9) i).toNat < 100000) (s : Fin 10240) (n : Fin 25) (q : Fin 512) :
    (V17 m hO c main_v40 : S10240x25x512.Idx → Elt F .f32) (ValueIdx.ix3 s n q)
      = m ((c.tc : Thread nD τ).loc main_arg0) (ValueIdx.ix2 (Cert.Spec.row (m ((c.tc : Thread nD τ).loc main_arg9) (ValueIdx.ix2 s n))) q) := by
  obtain rfl : c = 0 := Subsingleton.elim _ _
  have hk : s.val / 2048 = 0 ∨ s.val / 2048 = 1 ∨ s.val / 2048 = 2 ∨ s.val / 2048 = 3 ∨ s.val / 2048 = 4 := by omega
  refine (congrFun (KG.v40_keep m hO 0) _).trans ?_
  show StableHlo.after hostOps7 (W14 m hO 0) (Proc.devRef .tc main_v40) _ = _
  after_results
  rcases hk with h | h | h | h | h
  ·
    have hs : s.val = 2048 * ((0 : Fin 5) : Nat) + (⟨s.val % 2048, Nat.mod_lt _ (by omega)⟩ : Fin 2048).val := by
      show s.val = 2048 * 0 + s.val % 2048; omega
    have hs' : s.val = 0 + (⟨s.val % 2048, Nat.mod_lt _ (by omega)⟩ : Fin 2048).val := by
      show s.val = 0 + s.val % 2048; omega
    refine (KG.concat5_at _ _ _ _ _ _ (0 : Fin 5) ⟨s.val % 2048, Nat.mod_lt _ (by omega)⟩ n q s hs).trans ?_
    dsimp only [Matrix.cons_val]
    rw [StableHlo.reshape_result_ne]; rotate_left; decide
    rw [StableHlo.reshape_result_ne]; rotate_left; decide
    exact KG.chunk2_val m hO 0 _ n q s hs'
  ·
    have hs : s.val = 2048 * ((1 : Fin 5) : Nat) + (⟨s.val % 2048, Nat.mod_lt _ (by omega)⟩ : Fin 2048).val := by
      show s.val = 2048 * 1 + s.val % 2048; omega
    have hs' : s.val = 2048 + (⟨s.val % 2048, Nat.mod_lt _ (by omega)⟩ : Fin 2048).val := by
      show s.val = 2048 + s.val % 2048; omega
    refine (KG.concat5_at _ _ _ _ _ _ (1 : Fin 5) ⟨s.val % 2048, Nat.mod_lt _ (by omega)⟩ n q s hs).trans ?_
    dsimp only [Matrix.cons_val]
    rw [StableHlo.reshape_result_ne]; rotate_left; decide
    rw [StableHlo.reshape_result_ne]; rotate_left; decide
    exact KG.chunk3_val m hO 0 _ n q s hs'
  ·
    have hs : s.val = 2048 * ((2 : Fin 5) : Nat) + (⟨s.val % 2048, Nat.mod_lt _ (by omega)⟩ : Fin 2048).val := by
      show s.val = 2048 * 2 + s.val % 2048; omega
    have hs' : s.val = 4096 + (⟨s.val % 2048, Nat.mod_lt _ (by omega)⟩ : Fin 2048).val := by
      show s.val = 4096 + s.val % 2048; omega
    refine (KG.concat5_at _ _ _ _ _ _ (2 : Fin 5) ⟨s.val % 2048, Nat.mod_lt _ (by omega)⟩ n q s hs).trans ?_
    dsimp only [Matrix.cons_val]
    rw [StableHlo.reshape_result_ne]; rotate_left; decide
    rw [StableHlo.reshape_result_ne]; rotate_left; decide
    exact KG.chunk4_val m hO 0 _ n q s hs'
  ·
    have hs : s.val = 2048 * ((3 : Fin 5) : Nat) + (⟨s.val % 2048, Nat.mod_lt _ (by omega)⟩ : Fin 2048).val := by
      show s.val = 2048 * 3 + s.val % 2048; omega
    have hs' : s.val = 6144 + (⟨s.val % 2048, Nat.mod_lt _ (by omega)⟩ : Fin 2048).val := by
      show s.val = 6144 + s.val % 2048; omega
    refine (KG.concat5_at _ _ _ _ _ _ (3 : Fin 5) ⟨s.val % 2048, Nat.mod_lt _ (by omega)⟩ n q s hs).trans ?_
    dsimp only [Matrix.cons_val]
    rw [StableHlo.reshape_result_ne]; rotate_left; decide
    rw [StableHlo.reshape_result_ne]; rotate_left; decide
    exact KG.chunk5_val m hO 0 _ n q s hs'
  ·
    have hs : s.val = 2048 * ((4 : Fin 5) : Nat) + (⟨s.val % 2048, Nat.mod_lt _ (by omega)⟩ : Fin 2048).val := by
      show s.val = 2048 * 4 + s.val % 2048; omega
    have hs' : s.val = 8192 + (⟨s.val % 2048, Nat.mod_lt _ (by omega)⟩ : Fin 2048).val := by
      show s.val = 8192 + s.val % 2048; omega
    refine (KG.concat5_at _ _ _ _ _ _ (4 : Fin 5) ⟨s.val % 2048, Nat.mod_lt _ (by omega)⟩ n q s hs).trans ?_
    dsimp only [Matrix.cons_val]
    have ht : (⟨25 * (s.val % 2048) + n.val, by omega⟩ : Fin 51200).val = 25 * (⟨s.val % 2048, Nat.mod_lt _ (by omega)⟩ : Fin 2048).val + n.val := rfl
    rw [StableHlo.reshape_result, StableHlo.reshape_result]
    refine ((KG.cast_split _ _ _ n q _ ht).trans (KG.cast_dropMid _ _ _ q)).trans ?_
    exact KG.gath6_val m hO 0 _ n q s hs' _ ht

end

end Cert.KernelIdeal.Hand

end
-- ==== Proof.KerValue.lean ====
import proofs.«414926_j197568496007_1_alg».proof.Proof.B9
import proofs.«414926_j197568496007_1_alg».proof.Proof.C7Val
import proofs.«414926_j197568496007_1_alg».proof.Proof.C8Val
import proofs.«414926_j197568496007_1_alg».proof.Proof.C9Val
import proofs.«414926_j197568496007_1_alg».proof.Proof.PayVal
import proofs.«414926_j197568496007_1_alg».proof.Proof.Spec
import proofs.«414926_j197568496007_1_alg».proof.Proof.KerGather
import Idealize.ShloMosaic.Lib.Pipeline.Value
import Idealize.ShloMosaic.Lib.ValueIdx

set_option maxRecDepth 16384

noncomputable section

open scoped BigOperators

namespace Cert.KernelIdeal.KerValue

open Cert.KernelIdeal Cert.KernelIdeal.Gen Cert.KernelIdeal.Hand
open Idealize.ShloMosaic Idealize.ShloMosaic.TcCoe Idealize.SL.Sem Idealize.ShloMosaic.StableHlo

section Layout
variable {α : Type}

theorem cast_split {T R K C : Nat} (x : (⟨2, ![T, C]⟩ : Shape).Idx → α)
    (h : (⟨2, ![T, C]⟩ : Shape).ShapeCasts ⟨3, ![R, K, C]⟩) (r : Fin R) (n : Fin K) (q : Fin C) (t : Fin T)
    (ht : t.val = K * r.val + n.val) :
    shapeCast ⟨3, ![R, K, C]⟩ x h (ValueIdx.ix3 r n q) = x (ValueIdx.ix2 t q) :=
  shapeCast_apply x h _ _ (by
    rw [Shape.rowMajor_val_two, Shape.rowMajor_val_three]
    show t.val * C + q.val = (r.val * K + n.val) * C + q.val
    rw [ht, Nat.mul_comm K])

theorem cast_row {C : Nat} (x : (⟨1, ![C]⟩ : Shape).Idx → α)
    (h : (⟨1, ![C]⟩ : Shape).ShapeCasts ⟨2, ![1, C]⟩) (k : Fin C) :
    shapeCast ⟨2, ![1, C]⟩ x h (ValueIdx.ix2 (0 : Fin 1) k) = x (ValueIdx.ix1 k) :=
  shapeCast_apply x h _ _ (by
    rw [Shape.rowMajor_val_two, Shape.rowMajor_val_one]
    show k.val = 0 * C + k.val
    rw [Nat.zero_mul, Nat.zero_add])

theorem slice_rows {N M C off : Nat} (x : (⟨2, ![N, C]⟩ : Shape).Idx → α)
    (h : (⟨2, ![N, C]⟩ : Shape).Slices ![off, 0] ⟨2, ![M, C]⟩) (u : Fin M) (k : Fin C) (t : Fin N)
    (ht : t.val = off + u.val) :
    extractStridedSlice ⟨2, ![M, C]⟩ ![off, 0] x h (ValueIdx.ix2 u k) = x (ValueIdx.ix2 t k) :=
  extractStridedSlice_apply ![off, 0] x h _ _ (fun a => by
    match a with
    | ⟨0, _⟩ => exact ht
    | ⟨1, _⟩ => exact (Nat.zero_add _).symm)

end Layout

section Stages
variable (m : (ℓ : Loc nD τ sig) → Buf (Elt Ideal) ℓ) (hO : Oks m) (c : Dev nD)

abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)
abbrev A4 := m ((c.tc : Thread nD τ).loc main_arg4)
abbrev A5 := m ((c.tc : Thread nD τ).loc main_arg5)
abbrev A7 := m ((c.tc : Thread nD τ).loc main_arg7)
abbrev A8 := m ((c.tc : Thread nD τ).loc main_arg8)
abbrev A9 := m ((c.tc : Thread nD τ).loc main_arg9)

theorem x_at15 : W15 m hO c (Proc.devRef .tc main_arg1) = A1 m c :=
  (W15_keep m hO c main_arg1 (by decide)).trans (W14_all m hO c main_arg1 (by decide))

theorem v41_keep : W17 m hO c (Proc.devRef .tc main_v41) = W15 m hO c (Proc.devRef .tc main_v41) :=
  (after_of_writes_sub hostOps8 _ hostOps8_writes (by decide)).trans <|
  (W16_arr m hO c 2).trans (((dat7 (V15 m hO) c).arrAt_in 2 rfl _).trans (A_eq7 (V15 m hO) c 2))
theorem v42_keep : W17 m hO c (Proc.devRef .tc main_v42) = W15 m hO c (Proc.devRef .tc main_v42) :=
  (after_of_writes_sub hostOps8 _ hostOps8_writes (by decide)).trans <|
  (W16_arr m hO c 3).trans (((dat7 (V15 m hO) c).arrAt_in 3 rfl _).trans (A_eq7 (V15 m hO) c 3))
theorem v43_keep : W17 m hO c (Proc.devRef .tc main_v43) = W15 m hO c (Proc.devRef .tc main_v43) :=
  (after_of_writes_sub hostOps8 _ hostOps8_writes (by decide)).trans <|
  (W16_arr m hO c 4).trans (((dat7 (V15 m hO) c).arrAt_in 4 rfl _).trans (A_eq7 (V15 m hO) c 4))

theorem v44_keep : W19 m hO c (Proc.devRef .tc main_v44) = W16 m hO c (Proc.devRef .tc main_v44) :=
  (after_of_writes_sub hostOps9 _ hostOps9_writes (by decide)).trans <|
  (W18_of_ne m hO c main_v44 (by decide)).trans <|
  (after_of_writes_sub hostOps8 _ hostOps8_writes (by decide))

theorem v41_at15 (q k : Fin 512) :
    W15 m hO c (Proc.devRef .tc main_v41) (ValueIdx.ix2 q k) = A2 m c (ValueIdx.ix2 (Spec.lo q) k) := by
  show StableHlo.after hostOps7 (W14 m hO c) (Proc.devRef .tc main_v41) _ = _
  after_results
  exact (slice_rows _ _ q k (Spec.lo q) (Nat.zero_add _).symm).trans (congrFun (W14_all m hO c main_arg2 (by decide)) _)
theorem v42_at15 (q k : Fin 512) :
    W15 m hO c (Proc.devRef .tc main_v42) (ValueIdx.ix2 q k) = A2 m c (ValueIdx.ix2 (Spec.hi q) k) := by
  show StableHlo.after hostOps7 (W14 m hO c) (Proc.devRef .tc main_v42) _ = _
  after_results
  exact (slice_rows _ _ q k (Spec.hi q) rfl).trans (congrFun (W14_all m hO c main_arg2 (by decide)) _)
theorem v43_at15 (k : Fin 512) :
    W15 m hO c (Proc.devRef .tc main_v43) (ValueIdx.ix2 (0 : Fin 1) k) = A3 m c (ValueIdx.ix1 k) := by
  show StableHlo.after hostOps7 (W14 m hO c) (Proc.devRef .tc main_v43) _ = _
  after_results
  exact (cast_row _ _ k).trans (congrFun (W14_all m hO c main_arg3 (by decide)) _)
theorem v48_at19 (k : Fin 512) (j : Fin 256) :
    W19 m hO c (Proc.devRef .tc main_v48) (ValueIdx.ix2 k j) = A4 m c (ValueIdx.ix2 (Spec.lo k) j) := by
  show StableHlo.after hostOps9 (W18 m hO c) (Proc.devRef .tc main_v48) _ = _
  after_results
  exact (slice_rows _ _ k j (Spec.lo k) (Nat.zero_add _).symm).trans (congrFun (W18_all m hO c main_arg4 (by decide)) _)
theorem v49_at19 (k : Fin 512) (j : Fin 256) :
    W19 m hO c (Proc.devRef .tc main_v49) (ValueIdx.ix2 k j) = A4 m c (ValueIdx.ix2 (Spec.hi k) j) := by
  show StableHlo.after hostOps9 (W18 m hO c) (Proc.devRef .tc main_v49) _ = _
  after_results
  exact (slice_rows _ _ k j (Spec.hi k) rfl).trans (congrFun (W18_all m hO c main_arg4 (by decide)) _)
theorem v50_at19 (j : Fin 256) :
    W19 m hO c (Proc.devRef .tc main_v50) (ValueIdx.ix2 (0 : Fin 1) j) = A5 m c (ValueIdx.ix1 j) := by
  show StableHlo.after hostOps9 (W18 m hO c) (Proc.devRef .tc main_v50) _ = _
  after_results
  exact (cast_row _ _ j).trans (congrFun (W18_all m hO c main_arg5 (by decide)) _)

theorem v47_at19 (r : Fin 1024) (n : Fin 10) (k : Fin 512) :
    W19 m hO c (Proc.devRef .tc main_v47) (ValueIdx.ix3 r n k)
      = W18 m hO c (Proc.devRef .tc main_v46) (ValueIdx.ix2 (Spec.flat r n) k) := by
  show StableHlo.after hostOps9 (W18 m hO c) (Proc.devRef .tc main_v47) _ = _
  after_results
  exact cast_split _ _ r n k (Spec.flat r n) rfl

section Batch
variable (h7 : ∀ i, (m ((c.tc : Thread nD τ).loc main_arg7) i).toNat < 100000)
include h7

theorem hself_at (r : Fin 1024) (k : Fin 512) :
    W16 m hO c (Proc.devRef .tc main_v44) (ValueIdx.ix2 r k)
      = Spec.hself (A0 m c) (A1 m c) (A2 m c) (A3 m c) (A7 m c) r k := by
  have hr := r.isLt
  obtain ⟨t, p, rfl⟩ : ∃ (t : Fin 8) (p : Fin 128), r = row7 t p :=
    ⟨⟨r.val / 128, by omega⟩, ⟨r.val % 128, Nat.mod_lt _ (by decide)⟩,
      Fin.ext (by show r.val = 128 * (r.val / 128) + r.val % 128; omega)⟩
  refine (congrFun (W16_arr m hO c 5) _).trans ?_
  refine (comb7_final (V15 m hO) c t p k).trans ?_
  refine (PayVal.k7_pay1_apply _ _ _ _ _ p k).trans ?_
  unfold Spec.hself Spec.agg1
  refine congrArg Spec.relu (congrArg₂ (· + ·) (congrArg₂ (· + ·)
    (Finset.sum_congr rfl fun q _ => ?_) (Finset.sum_congr rfl fun q _ => ?_)) ?_)
  · exact congrArg₂ (· * ·) (congrFun (x_at15 m hO c) _) (v41_at15 m hO c q k)
  · exact congrArg₂ (· * ·)
      (congrArg (Ideal.div · Spec.c25) (Finset.sum_congr rfl fun n _ => nf1_at m hO c h7 (row7 t p) n q))
      (v42_at15 m hO c q k)
  · exact v43_at15 m hO c k

end Batch

section Hop1
variable (h8 : ∀ i, (m ((c.tc : Thread nD τ).loc main_arg8) i).toNat < 100000)
  (h9 : ∀ i, (m ((c.tc : Thread nD τ).loc main_arg9) i).toNat < 100000)
include h8 h9

theorem hn_at (s : Fin 10240) (k : Fin 512) :
    W18 m hO c (Proc.devRef .tc main_v46) (ValueIdx.ix2 s k)
      = Spec.hn (A0 m c) (A2 m c) (A3 m c) (A8 m c) (A9 m c) s k := by
  have hs := s.isLt
  obtain ⟨t, p, rfl⟩ : ∃ (t : Fin 80) (p : Fin 128), s = row8 t p :=
    ⟨⟨s.val / 128, by omega⟩, ⟨s.val % 128, Nat.mod_lt _ (by decide)⟩,
      Fin.ext (by show s.val = 128 * (s.val / 128) + s.val % 128; omega)⟩
  refine (congrFun (W18_arr m hO c 5) _).trans ?_
  refine (comb8_final (V17 m hO) c t p k).trans ?_
  refine (PayVal.k8_pay1_apply _ _ _ _ _ p k).trans ?_
  unfold Spec.hn Spec.nf2 Spec.agg21
  refine congrArg Spec.relu (congrArg₂ (· + ·) (congrArg₂ (· + ·)
    (Finset.sum_congr rfl fun q _ => ?_) (Finset.sum_congr rfl fun q _ => ?_)) ?_)
  · exact congrArg₂ (· * ·) (nf2_at m hO c h8 (row8 t p) q)
      ((congrFun (v41_keep m hO c) _).trans (v41_at15 m hO c q k))
  · exact congrArg₂ (· * ·)
      (congrArg (Ideal.div · Spec.c25) (Finset.sum_congr rfl fun n _ => nf21_at m hO c h9 (row8 t p) n q))
      ((congrFun (v42_keep m hO c) _).trans (v42_at15 m hO c q k))
  · exact (congrFun (v43_keep m hO c) _).trans (v43_at15 m hO c k)

end Hop1

section Top
variable (h7 : ∀ i, (m ((c.tc : Thread nD τ).loc main_arg7) i).toNat < 100000)
  (h8 : ∀ i, (m ((c.tc : Thread nD τ).loc main_arg8) i).toNat < 100000)
  (h9 : ∀ i, (m ((c.tc : Thread nD τ).loc main_arg9) i).toNat < 100000)
include h7 h8 h9

theorem out_at (r : Fin 1024) (j : Fin 256) :
    W20 m hO c (Proc.devRef .tc main_v51) (ValueIdx.ix2 r j)
      = Spec.out (A0 m c) (A1 m c) (A2 m c) (A3 m c) (A4 m c) (A5 m c) (A7 m c) (A8 m c) (A9 m c) r j := by
  obtain ⟨t, p, rfl⟩ : ∃ (t : Fin 8) (p : Fin 128), r = blkRow9 t p :=
    ⟨blkOf9 r, inBlk9 r, (blkRow9_blkOf9_inBlk9 r).symm⟩
  refine (congrFun (W20_arr m hO c 5) _).trans ?_
  refine (comb9_final (V19 m hO) c t p j).trans ?_
  refine (PayVal.k9_pay1_apply _ _ _ _ _ p j).trans ?_
  unfold Spec.out Spec.agg2
  refine congrArg Spec.relu (congrArg₂ (· + ·) (congrArg₂ (· + ·)
    (Finset.sum_congr rfl fun k _ => ?_) (Finset.sum_congr rfl fun k _ => ?_)) ?_)
  · exact congrArg₂ (· * ·)
      ((congrFun (v44_keep m hO c) _).trans (hself_at m hO c h7 (blkRow9 t p) k))
      (v48_at19 m hO c k j)
  · exact congrArg₂ (· * ·)
      (congrArg (Ideal.div · Spec.c10) (Finset.sum_congr rfl fun n _ =>
        (v47_at19 m hO c (blkRow9 t p) n k).trans (hn_at m hO c h8 h9 (Spec.flat (blkRow9 t p) n) k)))
      (v49_at19 m hO c k j)
  · exact v50_at19 m hO c j

end Top

end Stages

theorem ker_eq_spec (m : (ℓ : Loc nD τ sig) → Buf (Elt Ideal) ℓ) (hO : Oks m) (c : Dev nD)
    (h7 : ∀ i, (m ((c.tc : Thread nD τ).loc main_arg7) i).toNat < 100000)
    (h8 : ∀ i, (m ((c.tc : Thread nD τ).loc main_arg8) i).toNat < 100000)
    (h9 : ∀ i, (m ((c.tc : Thread nD τ).loc main_arg9) i).toNat < 100000) :
    W20 m hO c (Proc.devRef .tc main_v51)
      = Spec.sage (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg7)) (m ((c.tc : Thread nD τ).loc main_arg8))
        (m ((c.tc : Thread nD τ).loc main_arg9)) := by
  funext i
  obtain ⟨r, j, rfl⟩ : ∃ (r : Fin 1024) (j : Fin 256), i = ValueIdx.ix2 r j := ⟨i 0, i 1, ValueIdx.eq_ix2 i⟩
  exact out_at m hO c h7 h8 h9 r j

end Cert.KernelIdeal.KerValue

end
-- ==== Proof.RefValue.lean ====
import proofs.«414926_j197568496007_1_alg».proof.Proof.Gen.ReferenceIdeal.Read
import proofs.«414926_j197568496007_1_alg».proof.Proof.Spec
import Idealize.ShloMosaic.Lib.StableHlo.Predicate
import Mathlib.Algebra.BigOperators.Fin

noncomputable section

open scoped BigOperators

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

theorem sum_split {M : Type*} [AddCommMonoid M] (f : Fin 1024 → M) :
    ∑ k : Fin 1024, f k = ∑ q : Fin 512, f (Spec.lo q) + ∑ q : Fin 512, f (Spec.hi q) :=
  Fin.sum_univ_add (a := 512) (b := 512) f

theorem concat_lo {α : Type} {M : Nat} (a b : (⟨2, ![M, 512]⟩ : Shape).Idx → α)
    (h : Shape.Concatenates [(⟨2, ![M, 512]⟩ : Shape), ⟨2, ![M, 512]⟩] ⟨2, ![M, 1024]⟩ 1) (r : Fin M) (q : Fin 512) :
    concatenate ⟨2, ![M, 1024]⟩ 1 [⟨_, a⟩, ⟨_, b⟩] h (ix2 r (Spec.lo q)) = a (ix2 r q) :=
  concatenate_pair_apply_left 1 a b h (ix2 r (Spec.lo q)) rfl (ix2 r q)
    (fun c => by match c with | ⟨0, _⟩ => rfl | ⟨1, _⟩ => rfl)

theorem concat_hi {α : Type} {M : Nat} (a b : (⟨2, ![M, 512]⟩ : Shape).Idx → α)
    (h : Shape.Concatenates [(⟨2, ![M, 512]⟩ : Shape), ⟨2, ![M, 512]⟩] ⟨2, ![M, 1024]⟩ 1) (r : Fin M) (q : Fin 512) :
    concatenate ⟨2, ![M, 1024]⟩ 1 [⟨_, a⟩, ⟨_, b⟩] h (ix2 r (Spec.hi q)) = b (ix2 r q) :=
  concatenate_pair_apply_right 1 a b h (ix2 r (Spec.hi q)) rfl rfl (ix2 r q)
    (fun c hc => by match c with | ⟨0, _⟩ => rfl | ⟨1, _⟩ => exact absurd rfl hc)
    (by show q.val + 512 = 512 + q.val; omega)

abbrev rowDims (N C R K : Nat)
    (wf : GatherDims.WF ⟨2, ![N, C]⟩ ⟨3, ![R, K, 1]⟩ ⟨3, ![R, K, C]⟩ [2] [0] [] [0] [] 2 ![1, C]) :
    GatherDims ⟨2, ![N, C]⟩ ⟨3, ![R, K, 1]⟩ ⟨3, ![R, K, C]⟩ where
  offsetDims := [2]
  collapsedSliceDims := [0]
  operandBatchingDims := []
  startIndicesBatchingDims := []
  startIndexMap := [0]
  indexVectorDim := 2
  sliceSizes := ![1, C]
  wf := wf

theorem gather_rows {α : Type} {N C R K w : Nat} (hN : 0 < N)
    (wf : GatherDims.WF ⟨2, ![N, C]⟩ ⟨3, ![R, K, 1]⟩ ⟨3, ![R, K, C]⟩ [2] [0] [] [0] [] 2 ![1, C])
    (x : (⟨2, ![N, C]⟩ : Shape).Idx → α) (idx : IVec ⟨3, ![R, K, 1]⟩ w)
    (r : Fin R) (k : Fin K) (q : Fin C) :
    Host.gather (rowDims N C R K wf) x idx (ix3 r k q)
      = x (ix2 (⟨min (idx (ix3 r k (0 : Fin 1))).toInt.toNat (N - 1), by omega⟩ : Fin N) q) := by
  unfold Host.gather
  congr 1
  funext a
  match a with
  | ⟨0, _⟩ =>
    refine Fin.ext ?_
    show (rowDims N C R K wf).start (ix3 r k q) idx 0 + (rowDims N C R K wf).batchCoord (ix3 r k q) 0
      + (rowDims N C R K wf).offCoord (ix3 r k q) 0 = _
    have hs : (rowDims N C R K wf).siIdx (ix3 r k q) ⟨List.idxOf (0 : Fin 2) (rowDims N C R K wf).startIndexMap,
        List.idxOf_lt_length_iff.2 (List.mem_singleton.mpr rfl)⟩ = ix3 r k (0 : Fin 1) := by
      funext b; refine Fin.ext ?_
      match b with
      | ⟨0, _⟩ => rfl
      | ⟨1, _⟩ => rfl
      | ⟨2, _⟩ => rfl
    rw [GatherDims.batchCoord_eq_zero _ _ _ List.not_mem_nil,
      GatherDims.offCoord_eq_zero _ _ _
        (fun h => ((GatherDims.mem_sKept _ _).mp h).1 (List.mem_singleton.mpr rfl))]
    show (rowDims N C R K wf).start (ix3 r k q) idx 0 = _
    unfold GatherDims.start
    rw [dif_pos (List.mem_singleton.mpr rfl), hs]
    rfl
  | ⟨1, _⟩ =>
    refine Fin.ext ?_
    show (rowDims N C R K wf).start (ix3 r k q) idx 1 + (rowDims N C R K wf).batchCoord (ix3 r k q) 1
      + (rowDims N C R K wf).offCoord (ix3 r k q) 1 = q.val
    have h0 : (rowDims N C R K wf).start (ix3 r k q) idx 1 = 0 := by
      unfold GatherDims.start
      rw [dif_neg (fun h => absurd (congrArg Fin.val (List.mem_singleton.mp h)) Nat.one_ne_zero)]
    rw [h0, GatherDims.batchCoord_eq_zero _ _ _ List.not_mem_nil, Nat.add_zero, Nat.zero_add]
    rfl

theorem not_neg {w : BitVec 32} (h : w.toNat < 100000) : IntOp.cmpi .slt w 0#32 = 0#1 := by
  refine eq_zero_of_ne_one fun h1 => ?_
  have h2 : w.toNat < (0#32 : BitVec 32).toNat :=
    (Predicate.slt_iff_toNat (a := w) (b := 0#32) (by omega) (by decide)).mp h1
  rw [show (0#32 : BitVec 32).toNat = 0 from rfl] at h2
  omega

theorem wrap_id {w : BitVec 32} (h : w.toNat < 100000) (a : BitVec 32) :
    Scalar.select (IntOp.cmpi .slt w 0#32) a w = w := by
  rw [not_neg h]; exact select_zero a w

theorem clamp_row {w : BitVec 32} (h : w.toNat < 100000) :
    min w.toInt.toNat (100000 - 1) = (Spec.row w).val := by
  have h' : w.toInt = w.toNat := Predicate.toInt_eq_toNat_of_lt (by omega)
  rw [Spec.row_val]
  omega

abbrev AFeats : Type := (⟨S100000x512, .f32⟩ : BufTy).Contents (Elt Ideal)
abbrev AX : Type := (⟨S1024x512, .f32⟩ : BufTy).Contents (Elt Ideal)
abbrev AB0 : Type := (⟨S512, .f32⟩ : BufTy).Contents (Elt Ideal)
abbrev AW1 : Type := (⟨S1024x256, .f32⟩ : BufTy).Contents (Elt Ideal)
abbrev AB1 : Type := (⟨S256, .f32⟩ : BufTy).Contents (Elt Ideal)
abbrev AN1 : Type := (⟨S1024x25, .i32⟩ : BufTy).Contents (Elt Ideal)
abbrev AN2 : Type := (⟨S1024x10, .i32⟩ : BufTy).Contents (Elt Ideal)
abbrev AN21 : Type := (⟨S10240x25, .i32⟩ : BufTy).Contents (Elt Ideal)

section Batch

variable (x0 : AFeats) (x1 x2 : AX) (x3 : AB0) (x7 : AN1) (h7 : ∀ i, (x7 i).toNat < 100000)

include h7

theorem v4_apply (i : S1024x25.Idx) : val_main_v4 (F := Ideal) x7 i = x7 i := by
  rw [val_main_v4_apply, val_main_v1_apply, val_main_v0_apply, val_main_c_apply]
  exact wrap_id (h7 i) _

theorem v6_apply (r : Fin 1024) (n : Fin 25) (q : Fin 512) :
    val_main_v6 (F := Ideal) x0 x7 (ix3 r n q) = x0 (ix2 (Spec.row (x7 (ix2 r n))) q) := by
  have e : idx_main_v5 (ix3 r n (0 : Fin 1)) = ix2 r n :=
    funext fun a => Fin.ext (by match a with | ⟨0, _⟩ => rfl | ⟨1, _⟩ => rfl)
  unfold val_main_v6
  refine (gather_rows (by decide) _ x0 (val_main_v5 (F := Ideal) x7) r n q).trans
    (congrArg (fun t => x0 (ix2 t q)) (Fin.ext ?_))
  show min (val_main_v5 (F := Ideal) x7 (ix3 r n (0 : Fin 1))).toInt.toNat (100000 - 1) = _
  rw [val_main_v5_apply, e, v4_apply x7 h7]
  exact clamp_row (h7 _)

theorem v9_apply (r : Fin 1024) (q : Fin 512) :
    val_main_v9 (F := Ideal) x0 x7 (ix2 r q) = Spec.agg1 x0 x7 r q := by
  have e : ∀ k : Fin 25, idx_main_v7 (ix2 r q) k = ix3 r k q := fun k =>
    funext fun a => Fin.ext (by match a with | ⟨0, _⟩ => rfl | ⟨1, _⟩ => rfl | ⟨2, _⟩ => rfl)
  rw [val_main_v9_apply, val_main_v7_apply, val_main_v8_apply, val_main_cst_1_apply, val_main_cst_apply]
  simp only [e, v6_apply x0 x7 h7, Ideal.hostDivf_def, Ideal.ofBits_def, Ideal.ofBits_zero_f32, zero_add]
  rfl

theorem v11_apply (r : Fin 1024) (k : Fin 512) :
    val_main_v11 (F := Ideal) x0 x1 x2 x7 (ix2 r k)
      = (∑ q : Fin 512, x1 (ix2 r q) * x2 (ix2 (Spec.lo q) k))
        + (∑ q : Fin 512, Spec.agg1 x0 x7 r q * x2 (ix2 (Spec.hi q) k)) := by
  have el : ∀ j : Fin 1024, lidx_main_v11 (ix2 r k) j = ix2 r j := fun j =>
    funext fun a => Fin.ext (by match a with | ⟨0, _⟩ => rfl | ⟨1, _⟩ => rfl)
  have er : ∀ j : Fin 1024, ridx_main_v11 (ix2 r k) j = ix2 j k := fun j =>
    funext fun a => Fin.ext (by match a with | ⟨0, _⟩ => rfl | ⟨1, _⟩ => rfl)
  rw [val_main_v11_apply, sum_split]
  simp only [el, er]
  unfold val_main_v10
  simp only [concat_lo, concat_hi, v9_apply x0 x7 h7]

theorem v15_apply (r : Fin 1024) (k : Fin 512) :
    val_main_v15 (F := Ideal) x0 x1 x2 x3 x7 (ix2 r k) = Spec.hself x0 x1 x2 x3 x7 r k := by
  have eb : idx_main_v12 (idx_main_v13 (ix2 r k)) = ix1 k :=
    funext fun a => Fin.ext (by match a with | ⟨0, _⟩ => rfl)
  rw [val_main_v15_apply, val_main_v14_apply, val_main_v13_apply, val_main_v12_apply, eb,
    val_main_call0_v0_apply, val_main_call0_cst_apply, v11_apply x0 x1 x2 x7 h7]
  simp only [Ideal.maximumf_def, Ideal.addf_def, Ideal.ofBits_def, Ideal.ofBits_zero_f32]
  rfl

end Batch

section Hop1

variable (x0 : AFeats) (x2 : AX) (x3 : AB0) (x8 : AN2) (x9 : AN21)
  (h8 : ∀ i, (x8 i).toNat < 100000) (h9 : ∀ i, (x9 i).toNat < 100000)

section Self
include h8

theorem v20_apply (i : S1024x10.Idx) : val_main_v20 (F := Ideal) x8 i = x8 i := by
  rw [val_main_v20_apply, val_main_v17_apply, val_main_v16_apply, val_main_c_2_apply]
  exact wrap_id (h8 i) _

theorem v22_apply (r : Fin 1024) (n : Fin 10) (q : Fin 512) :
    val_main_v22 (F := Ideal) x0 x8 (ix3 r n q) = x0 (ix2 (Spec.row (x8 (ix2 r n))) q) := by
  have e : idx_main_v21 (ix3 r n (0 : Fin 1)) = ix2 r n :=
    funext fun a => Fin.ext (by match a with | ⟨0, _⟩ => rfl | ⟨1, _⟩ => rfl)
  unfold val_main_v22
  refine (gather_rows (by decide) _ x0 (val_main_v21 (F := Ideal) x8) r n q).trans
    (congrArg (fun t => x0 (ix2 t q)) (Fin.ext ?_))
  show min (val_main_v21 (F := Ideal) x8 (ix3 r n (0 : Fin 1))).toInt.toNat (100000 - 1) = _
  rw [val_main_v21_apply, e, v20_apply x8 h8]
  exact clamp_row (h8 _)

theorem v23_apply (s : Fin 10240) (q : Fin 512) :
    val_main_v23 (F := Ideal) x0 x8 (ix2 s q) = Spec.nf2 x0 x8 s q := by
  have hs := s.isLt
  have hq := q.isLt
  have e : idx_main_v23 (ix2 s q) = ix3 (Spec.rowOf s) (Spec.nbrOf s) q :=
    funext fun a => Fin.ext (by
      match a with
      | ⟨0, _⟩ => show (s.val * 512 + q.val) / 5120 = s.val / 10; omega
      | ⟨1, _⟩ => show (s.val * 512 + q.val) / 512 % 10 = s.val % 10; omega
      | ⟨2, _⟩ => show (s.val * 512 + q.val) % 512 = q.val; omega)
  rw [val_main_v23_apply, e, v22_apply x0 x8 h8]
  rfl

end Self

section Nbrs
include h9

theorem v28_apply (i : S10240x25.Idx) : val_main_v28 (F := Ideal) x9 i = x9 i := by
  rw [val_main_v28_apply, val_main_v25_apply, val_main_v24_apply, val_main_c_4_apply]
  exact wrap_id (h9 i) _

theorem v30_apply (s : Fin 10240) (n : Fin 25) (q : Fin 512) :
    val_main_v30 (F := Ideal) x0 x9 (ix3 s n q) = x0 (ix2 (Spec.row (x9 (ix2 s n))) q) := by
  have e : idx_main_v29 (ix3 s n (0 : Fin 1)) = ix2 s n :=
    funext fun a => Fin.ext (by match a with | ⟨0, _⟩ => rfl | ⟨1, _⟩ => rfl)
  unfold val_main_v30
  refine (gather_rows (by decide) _ x0 (val_main_v29 (F := Ideal) x9) s n q).trans
    (congrArg (fun t => x0 (ix2 t q)) (Fin.ext ?_))
  show min (val_main_v29 (F := Ideal) x9 (ix3 s n (0 : Fin 1))).toInt.toNat (100000 - 1) = _
  rw [val_main_v29_apply, e, v28_apply x9 h9]
  exact clamp_row (h9 _)

theorem v33_apply (s : Fin 10240) (q : Fin 512) :
    val_main_v33 (F := Ideal) x0 x9 (ix2 s q) = Spec.agg21 x0 x9 s q := by
  have e : ∀ k : Fin 25, idx_main_v31 (ix2 s q) k = ix3 s k q := fun k =>
    funext fun a => Fin.ext (by match a with | ⟨0, _⟩ => rfl | ⟨1, _⟩ => rfl | ⟨2, _⟩ => rfl)
  rw [val_main_v33_apply, val_main_v31_apply, val_main_v32_apply, val_main_cst_7_apply, val_main_cst_6_apply]
  simp only [e, v30_apply x0 x9 h9, Ideal.hostDivf_def, Ideal.ofBits_def, Ideal.ofBits_zero_f32, zero_add]
  rfl

end Nbrs

include h8 h9

theorem v35_apply (s : Fin 10240) (k : Fin 512) :
    val_main_v35 (F := Ideal) x0 x2 x8 x9 (ix2 s k)
      = (∑ q : Fin 512, Spec.nf2 x0 x8 s q * x2 (ix2 (Spec.lo q) k))
        + (∑ q : Fin 512, Spec.agg21 x0 x9 s q * x2 (ix2 (Spec.hi q) k)) := by
  have el : ∀ j : Fin 1024, lidx_main_v35 (ix2 s k) j = ix2 s j := fun j =>
    funext fun a => Fin.ext (by match a with | ⟨0, _⟩ => rfl | ⟨1, _⟩ => rfl)
  have er : ∀ j : Fin 1024, ridx_main_v35 (ix2 s k) j = ix2 j k := fun j =>
    funext fun a => Fin.ext (by match a with | ⟨0, _⟩ => rfl | ⟨1, _⟩ => rfl)
  rw [val_main_v35_apply, sum_split]
  simp only [el, er]
  unfold val_main_v34
  simp only [concat_lo, concat_hi, v23_apply x0 x8 h8, v33_apply x0 x9 h9]

theorem v39_apply (s : Fin 10240) (k : Fin 512) :
    val_main_v39 (F := Ideal) x0 x2 x3 x8 x9 (ix2 s k) = Spec.hn x0 x2 x3 x8 x9 s k := by
  have eb : idx_main_v36 (idx_main_v37 (ix2 s k)) = ix1 k :=
    funext fun a => Fin.ext (by match a with | ⟨0, _⟩ => rfl)
  rw [val_main_v39_apply, val_main_v38_apply, val_main_v37_apply, val_main_v36_apply, eb,
    val_main_call1_v0_apply, val_main_call1_cst_apply, v35_apply x0 x2 x8 x9 h8 h9]
  simp only [Ideal.maximumf_def, Ideal.addf_def, Ideal.ofBits_def, Ideal.ofBits_zero_f32]
  rfl

theorem v40_apply (r : Fin 1024) (n : Fin 10) (k : Fin 512) :
    val_main_v40 (F := Ideal) x0 x2 x3 x8 x9 (ix3 r n k) = Spec.hn x0 x2 x3 x8 x9 (Spec.flat r n) k := by
  have hr := r.isLt
  have hn := n.isLt
  have hk := k.isLt
  have e : idx_main_v40 (ix3 r n k) = ix2 (Spec.flat r n) k :=
    funext fun a => Fin.ext (by
      match a with
      | ⟨0, _⟩ => show ((r.val * 10 + n.val) * 512 + k.val) / 512 = 10 * r.val + n.val; omega
      | ⟨1, _⟩ => show ((r.val * 10 + n.val) * 512 + k.val) % 512 = k.val; omega)
  rw [val_main_v40_apply, e, v39_apply x0 x2 x3 x8 x9 h8 h9]

theorem v43_apply (r : Fin 1024) (k : Fin 512) :
    val_main_v43 (F := Ideal) x0 x2 x3 x8 x9 (ix2 r k) = Spec.agg2 x0 x2 x3 x8 x9 r k := by
  have e : ∀ n : Fin 10, idx_main_v41 (ix2 r k) n = ix3 r n k := fun n =>
    funext fun a => Fin.ext (by match a with | ⟨0, _⟩ => rfl | ⟨1, _⟩ => rfl | ⟨2, _⟩ => rfl)
  rw [val_main_v43_apply, val_main_v41_apply, val_main_v42_apply, val_main_cst_9_apply, val_main_cst_8_apply]
  simp only [e, v40_apply x0 x2 x3 x8 x9 h8 h9, Ideal.hostDivf_def, Ideal.ofBits_def, Ideal.ofBits_zero_f32, zero_add]
  rfl

end Hop1

section Top

variable (x0 : AFeats) (x1 x2 : AX) (x3 : AB0) (x4 : AW1) (x5 : AB1) (x7 : AN1) (x8 : AN2) (x9 : AN21)
  (h7 : ∀ i, (x7 i).toNat < 100000) (h8 : ∀ i, (x8 i).toNat < 100000) (h9 : ∀ i, (x9 i).toNat < 100000)

include h7 h8 h9

theorem v45_apply (r : Fin 1024) (j : Fin 256) :
    val_main_v45 (F := Ideal) x0 x1 x2 x3 x4 x7 x8 x9 (ix2 r j)
      = (∑ k : Fin 512, Spec.hself x0 x1 x2 x3 x7 r k * x4 (ix2 (Spec.lo k) j))
        + (∑ k : Fin 512, Spec.agg2 x0 x2 x3 x8 x9 r k * x4 (ix2 (Spec.hi k) j)) := by
  have el : ∀ t : Fin 1024, lidx_main_v45 (ix2 r j) t = ix2 r t := fun t =>
    funext fun a => Fin.ext (by match a with | ⟨0, _⟩ => rfl | ⟨1, _⟩ => rfl)
  have er : ∀ t : Fin 1024, ridx_main_v45 (ix2 r j) t = ix2 t j := fun t =>
    funext fun a => Fin.ext (by match a with | ⟨0, _⟩ => rfl | ⟨1, _⟩ => rfl)
  rw [val_main_v45_apply, sum_split]
  simp only [el, er]
  unfold val_main_v44
  simp only [concat_lo, concat_hi, v15_apply x0 x1 x2 x3 x7 h7, v43_apply x0 x2 x3 x8 x9 h8 h9]

theorem v49_apply (r : Fin 1024) (j : Fin 256) :
    val_main_v49 (F := Ideal) x0 x1 x2 x3 x4 x5 x7 x8 x9 (ix2 r j) = Spec.out x0 x1 x2 x3 x4 x5 x7 x8 x9 r j := by
  have eb : idx_main_v46 (idx_main_v47 (ix2 r j)) = ix1 j :=
    funext fun a => Fin.ext (by match a with | ⟨0, _⟩ => rfl)
  rw [val_main_v49_apply, val_main_v48_apply, val_main_v47_apply, val_main_v46_apply, eb,
    val_main_call2_v0_apply, val_main_call2_cst_apply, v45_apply x0 x1 x2 x3 x4 x7 x8 x9 h7 h8 h9]
  simp only [Ideal.maximumf_def, Ideal.addf_def, Ideal.ofBits_def, Ideal.ofBits_zero_f32]
  rfl

theorem val_eq_spec :
    val_main_v49 (F := Ideal) x0 x1 x2 x3 x4 x5 x7 x8 x9 = Spec.sage x0 x1 x2 x3 x4 x5 x7 x8 x9 := by
  funext i
  obtain ⟨r, j, rfl⟩ : ∃ (r : Fin 1024) (j : Fin 256), i = ix2 r j := ⟨i 0, i 1, eq_ix2 i⟩
  exact v49_apply x0 x1 x2 x3 x4 x5 x7 x8 x9 h7 h8 h9 r j

end Top

theorem ref_eq_spec (m : (ℓ : Loc nD τ sig) → Buf (Elt Ideal) ℓ) (c : Dev nD)
    (h7 : ∀ i, (m ((c.tc : Thread nD τ).loc main_arg7) i).toNat < 100000)
    (h8 : ∀ i, (m ((c.tc : Thread nD τ).loc main_arg8) i).toNat < 100000)
    (h9 : ∀ i, (m ((c.tc : Thread nD τ).loc main_arg9) i).toNat < 100000) :
    val_main_v49 (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg7)) (m ((c.tc : Thread nD τ).loc main_arg8))
        (m ((c.tc : Thread nD τ).loc main_arg9))
      = Spec.sage (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg7)) (m ((c.tc : Thread nD τ).loc main_arg8))
        (m ((c.tc : Thread nD τ).loc main_arg9)) :=
  val_eq_spec _ _ _ _ _ _ _ _ _ h7 h8 h9

end Cert.RefValue

end
-- ==== Proof.Bits.Tables.lean ====
import proofs.«414926_j197568496007_1_alg».proof.Proof.Gen.Kernel.Launch

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ)

abbrev W0 (c : Dev nD) : Valuation τ sig (Elt F) := fun b => m (c, b)

def T0 : pre0.Contents (Elt F) := fun j => StableHlo.after hostOps0 (W0 m (0 : Dev nD)) (pre0.ref j)
def T1 : pre1.Contents (Elt F) := fun j => StableHlo.after hostOps1 (W0 m (0 : Dev nD)) (pre1.ref j)
def T2 : pre2.Contents (Elt F) := fun j => StableHlo.after hostOps2 (W0 m (0 : Dev nD)) (pre2.ref j)
def T3 : pre3.Contents (Elt F) := fun j => StableHlo.after hostOps3 (W0 m (0 : Dev nD)) (pre3.ref j)
def T4 : pre4.Contents (Elt F) := fun j => StableHlo.after hostOps4 (W0 m (0 : Dev nD)) (pre4.ref j)
def T5 : pre5.Contents (Elt F) := fun j => StableHlo.after hostOps5 (W0 m (0 : Dev nD)) (pre5.ref j)
def T6 : pre6.Contents (Elt F) := fun j => StableHlo.after hostOps6 (W0 m (0 : Dev nD)) (pre6.ref j)

structure Oks : Prop where
  h0 : ok0 (F := F) (T0 m)
  h1 : ok1 (F := F) (T1 m)
  h2 : ok2 (F := F) (T2 m)
  h3 : ok3 (F := F) (T3 m)
  h4 : ok4 (F := F) (T4 m)
  h5 : ok5 (F := F) (T5 m)
  h6 : ok6 (F := F) (T6 m)

end Cert.Kernel.Hand

end
-- ==== Proof.Bits.OkOfPre.lean ====
import proofs.«414926_j197568496007_1_alg».proof.Proof.Bits.Tables
import proofs.«414926_j197568496007_1_alg».proof.Proof.PreIdx
import Idealize.ShloMosaic.Lib.StableHlo.Run

noncomputable section

namespace Cert.Kernel.Hand

open Cert.Kernel Cert.Kernel.Gen
open Idealize.ShloMosaic Idealize.ShloMosaic.TcCoe Idealize.SL.Sem

variable {F : FTy → Type} [FloatOps F]

theorem block_in (w : Nat) (hw : w < 100000) : ∀ a : Fin 3, (![w, 0, 0] a + 1) * S1x1x512.size a ≤ S100000x1x512.size a
  | ⟨0, _⟩ => by show (w + 1) * 1 ≤ 100000; omega
  | ⟨1, _⟩ => by show (0 + 1) * 1 ≤ 1; omega
  | ⟨2, _⟩ => by show (0 + 1) * 512 ≤ 512; omega

variable (m : (ℓ : Loc nD τ sig) → Buf (Elt F) ℓ)

theorem T0_lt (h7 : ∀ k : S1024x25.Idx, ((m (((0 : Dev nD).tc : Thread nD τ).loc main_arg7) k : BitVec 32)).toNat < 100000) (i : S25600.Idx) :
    ((T0 m 0 i : BitVec 32)).toNat < 100000 := by
  unfold T0
  show ((StableHlo.after hostOps0 (W0 m (0 : Dev nD)) (Proc.devRef .tc main_v0) i : BitVec 32)).toNat < 100000
  after_results
  exact h7 _

theorem T1_lt (h8 : ∀ k : S1024x10.Idx, ((m (((0 : Dev nD).tc : Thread nD τ).loc main_arg8) k : BitVec 32)).toNat < 100000) (i : S10240.Idx) :
    ((T1 m 0 i : BitVec 32)).toNat < 100000 := by
  unfold T1
  show ((StableHlo.after hostOps1 (W0 m (0 : Dev nD)) (Proc.devRef .tc main_v5) i : BitVec 32)).toNat < 100000
  after_results
  exact h8 _

theorem T2_lt (h9 : ∀ k : S10240x25.Idx, ((m (((0 : Dev nD).tc : Thread nD τ).loc main_arg9) k : BitVec 32)).toNat < 100000) (i : S51200.Idx) :
    ((T2 m 0 i : BitVec 32)).toNat < 100000 := by
  unfold T2
  show ((StableHlo.after hostOps2 (W0 m (0 : Dev nD)) (Proc.devRef .tc main_v11) i : BitVec 32)).toNat < 100000
  after_results
  exact h9 _

theorem T3_lt (h9 : ∀ k : S10240x25.Idx, ((m (((0 : Dev nD).tc : Thread nD τ).loc main_arg9) k : BitVec 32)).toNat < 100000) (i : S51200.Idx) :
    ((T3 m 0 i : BitVec 32)).toNat < 100000 := by
  unfold T3
  show ((StableHlo.after hostOps3 (W0 m (0 : Dev nD)) (Proc.devRef .tc main_v17) i : BitVec 32)).toNat < 100000
  after_results
  exact h9 _

theorem T4_lt (h9 : ∀ k : S10240x25.Idx, ((m (((0 : Dev nD).tc : Thread nD τ).loc main_arg9) k : BitVec 32)).toNat < 100000) (i : S51200.Idx) :
    ((T4 m 0 i : BitVec 32)).toNat < 100000 := by
  unfold T4
  show ((StableHlo.after hostOps4 (W0 m (0 : Dev nD)) (Proc.devRef .tc main_v23) i : BitVec 32)).toNat < 100000
  after_results
  exact h9 _

theorem T5_lt (h9 : ∀ k : S10240x25.Idx, ((m (((0 : Dev nD).tc : Thread nD τ).loc main_arg9) k : BitVec 32)).toNat < 100000) (i : S51200.Idx) :
    ((T5 m 0 i : BitVec 32)).toNat < 100000 := by
  unfold T5
  show ((StableHlo.after hostOps5 (W0 m (0 : Dev nD)) (Proc.devRef .tc main_v29) i : BitVec 32)).toNat < 100000
  after_results
  exact h9 _

theorem T6_lt (h9 : ∀ k : S10240x25.Idx, ((m (((0 : Dev nD).tc : Thread nD τ).loc main_arg9) k : BitVec 32)).toNat < 100000) (i : S51200.Idx) :
    ((T6 m 0 i : BitVec 32)).toNat < 100000 := by
  unfold T6
  show ((StableHlo.after hostOps6 (W0 m (0 : Dev nD)) (Proc.devRef .tc main_v35) i : BitVec 32)).toNat < 100000
  after_results
  exact h9 _

theorem oks_of_pre [Cert.Pre_finite_inputs.Facts]
    (h : ∀ c : Dev nD, Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = fun _ => 1#1) : Oks m := by
  obtain ⟨h7, h8, h9⟩ := Cert.PreIdx.idx_lt _ _ _ _ _ _ _ _ _ _ (h 0)
  exact ⟨fun _ => ⟨block_in _ (T0_lt m h7 _), .inl rfl⟩, fun _ => ⟨block_in _ (T1_lt m h8 _), .inl rfl⟩, fun _ => ⟨block_in _ (T2_lt m h9 _), .inl rfl⟩,
    fun _ => ⟨block_in _ (T3_lt m h9 _), .inl rfl⟩, fun _ => ⟨block_in _ (T4_lt m h9 _), .inl rfl⟩, fun _ => ⟨block_in _ (T5_lt m h9 _), .inl rfl⟩,
    fun _ => ⟨block_in _ (T6_lt m h9 _), .inl rfl⟩⟩

end Cert.Kernel.Hand

end
-- ==== Proof.Bits.G0.lean ====
import proofs.«414926_j197568496007_1_alg».proof.Proof.Gen.Kernel.Launch
import proofs.«414926_j197568496007_1_alg».proof.Proof.Gen.Kernel.Skeleton
import proofs.«414926_j197568496007_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))
variable (tbl : pre0.Contents (Elt F)) (hO : ok0 (F := F) tbl)

abbrev adm0 : (pcfg0 (F := F)).Adm := ⟨tbl, hO⟩
abbrev cfgM0 : Pipeline.Cfg sig Λ₀ := cfg0 (adm0 tbl hO)

def iblk0 (c : Dev nD) (w : Fin (cfgM0 tbl hO).W) (t : Fin (cfgM0 tbl hO).N) :
    (((cfgM0 tbl hO).win w).xblock ((cfgM0 tbl hO).grid.coords t)).Idx → Elt F ((cfgM0 tbl hO).win w).elt :=
  (((cfgM0 tbl hO).win w).blk t).view.read (Elt F) (V c (Pipeline.arrRef spec0 w))

abbrev ms0_0 (t : Fin (cfgM0 tbl hO).N) : Memref sig .tc .vmem S1x1x512 .f32 := spec0_0.stage ((cfgM0 tbl hO).slots t 0)
abbrev hs0_0 (t : Fin (cfgM0 tbl hO).N) : (ms0_0 tbl hO t).IsWhole := hstage0_0 (((cfgM0 tbl hO).slots t 0).cast nbuf0_0)
abbrev ms0_1 (t : Fin (cfgM0 tbl hO).N) : Memref sig .tc .vmem S1x1x512 .f32 := spec0_1.stage ((cfgM0 tbl hO).slots t 1)
abbrev hs0_1 (t : Fin (cfgM0 tbl hO).N) : (ms0_1 tbl hO t).IsWhole := hstage0_1 (((cfgM0 tbl hO).slots t 1).cast nbuf0_1)

end

/-- Some coordinates of the first call's grid: the row-gather body uses neither them nor the id table. -/
abbrev i₀ : grid0.Coords := grid0.coords ⟨0, by decide⟩

abbrev r0_0 : Rect S1x1x512 := Rect.unit (s := S1x1x512) ![0, 0, 0] S1x1x512.size inb_S1x1x512_S1x1x512_0_0_0

/-- The body stores its input row unchanged: the payload is a reshape to the same shape. -/
theorem copied (x0 : Vec F S1x1x512 .f32) : View.canon [⟨r0_0, k0_pay1 (View.ld x0 r0_0)⟩] = x0 := by
  rw [View.canon_unit_zero (funext fun a => by fin_cases a <;> rfl),
    show k0_pay1 (View.ld x0 r0_0) = View.ld x0 r0_0 from shapeCast_self _ _,
    View.ld_unit_zero (S := S1x1x512) (funext fun a => by fin_cases a <;> rfl)]

theorem cover0_1 (p0 : Vec F S1x1x512 .f32) (y : S1x1x512.Idx) :
    ∃ pc ∈ ([⟨r0_0, p0⟩] : List (View.Piece (Elt F) S1x1x512 .f32)), y ∈ pc.1.set :=
  View.cover_of_tiled [⟨r0_0, p0⟩] S1x1x512.size (by rfl) y

set_option maxHeartbeats 1000000 in
/-- The body copies its input row `x` to its output row; every other resource is returned untouched. -/
theorem copy_body (c : Dev nD) (Φ O : sProp 𝕄) (a2 : Memref sig .tc .vmem S1x1x512 .f32) (h2 : a2.IsWhole)
    (a3 : Memref sig .tc .vmem S1x1x512 .f32) (h3 : a3.IsWhole) {D D' : Type} (x' : D → Vec F S1x1x512 .f32) (y : D' → Vec F S1x1x512 .f32)
    (x : Vec F S1x1x512 .f32) (hx : ∀ d, x' d = x) :
    iprop(Φ ∗ O ∗ (∃ d, owns (c : Thread nD τ) a2 fullShare (x' d)) ∗ (∃ d, owns (c : Thread nD τ) a3 fullShare (y d)))
      ⊢ wp frame (wpE (defs₀ (F := F)) Variants.none c none) Set.univ
          (cc0__gather_kernel i₀ (Memref.whole main_v0) (Memref.isWhole_whole _) a2 h2 a3 h3)
          (fun _ => iprop(Φ ∗ O ∗ owns (c : Thread nD τ) a2 fullShare x ∗ owns (c : Thread nD τ) a3 fullShare x)) := by
  simp only [hx]
  simp only [cc0__gather_kernel_eq_skeleton]; unfold cc0__gather_kernel_skel
  unfold owns
  iintro ⟨HΦ, Ho, ⟨%d0, %f0, %hf0, H0⟩, ⟨%d1, %f1, -, H1⟩⟩
  subst hf0
  sl_exec
  sl_step
  isplitl [HΦ]; · iexact HΦ
  isplitl [Ho]; · iexact Ho
  isplitl [H0]
  · iexists f0; isplitr; · ipureintro; rfl
    iexact H0
  iexists _; isplitr
  swap; · iexact H1
  ipureintro
  exact (View.read_writes_eq_canon _ _ _ (cover0_1 _)).trans (copied _)

section
variable (V : (c : Dev nD) → (b : Ref sig .tc) → Buf (Elt F) ((c : Thread nD τ).loc b))
variable (tbl : pre0.Contents (Elt F)) (hO : ok0 (F := F) tbl)

def dat0 (c : Dev nD) : Dat τ (Elt F) Unit ℕ (UR sig nD τ) ℕ (cfgM0 tbl hO) c where
  A w := V c (Pipeline.arrRef spec0 w)
  after w t := match w with
    | ⟨0, _⟩ => iblk0 V tbl hO c 0 t
    | ⟨1, _⟩ => iblk0 V tbl hO c 0 t
  Φ _ := iprop(Pipeline.ΦA spec0 c ∗ Pipeline.prefHeld pre0 c (fun _ => fullShare) tbl)
  q _ := fullShare
  owed _ := 0

theorem before0_0 (c : Dev nD) (t : Fin (cfgM0 tbl hO).N) (d) : (dat0 V tbl hO c).before 0 t d = iblk0 V tbl hO c 0 t :=
  ((dat0 V tbl hO c).before_in_eq_fetched 0 rfl (fun _ => rfl) (fun _ _ _ => rfl) (fun _ => rfl) t d).trans rfl

theorem body_obligation0 (c : Dev nD) : BodyObligation (dat0 (F := F) V tbl hO c) (defs₀ (F := F)) Variants.none () Set.univ := fun t => by
  rw [bigSep_W0, bigSep_W0]
  exact copy_body c _ _ (ms0_0 tbl hO t) (hs0_0 tbl hO t) (ms0_1 tbl hO t) (hs0_1 tbl hO t) _ _ _ (before0_0 V tbl hO c t)

end

end Cert.Kernel.Hand

end
-- ==== Proof.Bits.B0.lean ====
import proofs.«414926_j197568496007_1_alg».proof.Proof.Bits.Tables
import proofs.«414926_j197568496007_1_alg».proof.Proof.Bits.G0
import proofs.«414926_j197568496007_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic

variable {F : FTy → Type} [FloatOps F]

abbrev keep : List (Ref sig .tc) :=
  [main_arg0, main_arg1, main_arg2, main_arg3, main_arg4, main_arg5, main_arg6, main_arg7, main_arg8, main_arg9]

section
variable (m : (ℓ : Loc nD τ sig) → Buf (Elt F) ℓ) (hO : Oks m)

abbrev W1 (c : Dev nD) : Valuation τ sig (Elt F) := StableHlo.after hostOps0 (W0 m c)

abbrev V1 (c : Dev nD) (b : Ref sig .tc) : Buf (Elt F) ((c : Thread nD τ).loc b) := W1 m c b

theorem tblAt0 (c : Dev nD) (j : Fin pre0.K) : V1 m c (pre0.ref j) = T0 m j := by
  obtain rfl : c = 0 := Subsingleton.elim _ _; rfl

def W2 (c : Dev nD) : Valuation τ sig (Elt F) :=
  Pipeline.withArrays spec0 c (W1 m c) fun w => (dat0 (V1 m) (T0 m) hO.h0 c).arrAt w (cfgM0 (T0 m) hO.h0).N
theorem W2_arr (c : Dev nD) (w : Fin (cfgM0 (T0 m) hO.h0).W) :
    W2 m hO c (Proc.devRef .tc (Pipeline.arrRef spec0 w)) = (dat0 (V1 m) (T0 m) hO.h0 c).arrAt w (cfgM0 (T0 m) hO.h0).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m hO c (Proc.devRef .tc b) = W1 m c (Proc.devRef .tc b) := by
  unfold W2; exact Pipeline.withArrays_of_ne spec0 c _ _ b hb

theorem W2_all (c : Dev nD) (r : Ref sig .tc) (hr : r ∈ keep) : W2 m hO c r = W0 m c r :=
  (W2_of_ne m hO c r ((by decide : ∀ r ∈ keep, ∀ w : Fin 2, Pipeline.arrRef spec0 w ≠ r) r hr)).trans
    (StableHlo.after_of_writes_sub hostOps0 _ hostOps0_writes ((by decide : ∀ r ∈ keep, r ∉ hostOps0_W) r hr))

end

end Cert.Kernel.Hand

end
-- ==== Proof.Bits.G1.lean ====
import proofs.«414926_j197568496007_1_alg».proof.Proof.Bits.G0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))
variable (tbl : pre1.Contents (Elt F)) (hO : ok1 (F := F) tbl)

abbrev adm1 : (pcfg1 (F := F)).Adm := ⟨tbl, hO⟩
abbrev cfgM1 : Pipeline.Cfg sig Λ₀ := cfg1 (adm1 tbl hO)

def iblk1 (c : Dev nD) (w : Fin (cfgM1 tbl hO).W) (t : Fin (cfgM1 tbl hO).N) :
    (((cfgM1 tbl hO).win w).xblock ((cfgM1 tbl hO).grid.coords t)).Idx → Elt F ((cfgM1 tbl hO).win w).elt :=
  (((cfgM1 tbl hO).win w).blk t).view.read (Elt F) (V c (Pipeline.arrRef spec1 w))

abbrev ms1_0 (t : Fin (cfgM1 tbl hO).N) : Memref sig .tc .vmem S1x1x512 .f32 := spec1_0.stage ((cfgM1 tbl hO).slots t 0)
abbrev hs1_0 (t : Fin (cfgM1 tbl hO).N) : (ms1_0 tbl hO t).IsWhole := hstage1_0 (((cfgM1 tbl hO).slots t 0).cast nbuf1_0)
abbrev ms1_1 (t : Fin (cfgM1 tbl hO).N) : Memref sig .tc .vmem S1x1x512 .f32 := spec1_1.stage ((cfgM1 tbl hO).slots t 1)
abbrev hs1_1 (t : Fin (cfgM1 tbl hO).N) : (ms1_1 tbl hO t).IsWhole := hstage1_1 (((cfgM1 tbl hO).slots t 1).cast nbuf1_1)

def dat1 (c : Dev nD) : Dat τ (Elt F) Unit ℕ (UR sig nD τ) ℕ (cfgM1 tbl hO) c where
  A w := V c (Pipeline.arrRef spec1 w)
  after w t := match w with
    | ⟨0, _⟩ => iblk1 V tbl hO c 0 t
    | ⟨1, _⟩ => iblk1 V tbl hO c 0 t
  Φ _ := iprop(Pipeline.ΦA spec1 c ∗ Pipeline.prefHeld pre1 c (fun _ => fullShare) tbl)
  q _ := fullShare
  owed _ := 0

theorem before1_0 (c : Dev nD) (t : Fin (cfgM1 tbl hO).N) (d) : (dat1 V tbl hO c).before 0 t d = iblk1 V tbl hO c 0 t :=
  ((dat1 V tbl hO c).before_in_eq_fetched 0 rfl (fun _ => rfl) (fun _ _ _ => rfl) (fun _ => rfl) t d).trans rfl

theorem body_obligation1 (c : Dev nD) : BodyObligation (dat1 (F := F) V tbl hO c) (defs₀ (F := F)) Variants.none () Set.univ := fun t => by
  rw [bigSep_W1, bigSep_W1]
  exact copy_body c _ _ (ms1_0 tbl hO t) (hs1_0 tbl hO t) (ms1_1 tbl hO t) (hs1_1 tbl hO t) _ _ _ (before1_0 V tbl hO c t)

end

end Cert.Kernel.Hand

end
-- ==== Proof.Bits.B1.lean ====
import proofs.«414926_j197568496007_1_alg».proof.Proof.Bits.B0
import proofs.«414926_j197568496007_1_alg».proof.Proof.Bits.G1

set_option maxRecDepth 16384

noncomputable section

namespace Cert.Kernel.Hand

open Cert.Kernel Cert.Kernel.Gen
open Idealize.ShloMosaic Idealize.ShloMosaic.TcCoe Idealize.ShloMosaic.Tactic

variable {F : FTy → Type} [FloatOps F]

section
variable (m : (ℓ : Loc nD τ sig) → Buf (Elt F) ℓ) (hO : Oks m)

abbrev W3 (c : Dev nD) : Valuation τ sig (Elt F) := StableHlo.after hostOps1 (W2 m hO c)

abbrev V3 (c : Dev nD) (b : Ref sig .tc) : Buf (Elt F) ((c : Thread nD τ).loc b) := W3 m hO c b

theorem tblAt1 (c : Dev nD) (j : Fin pre1.K) : V3 m hO c (pre1.ref j) = T1 m j := by
  obtain rfl : c = 0 := Subsingleton.elim _ _
  match j with
  | ⟨0, _⟩ =>
    show StableHlo.after hostOps1 (W2 m hO 0) (Proc.devRef .tc main_v5) = StableHlo.after hostOps1 (W0 m 0) (Proc.devRef .tc main_v5)
    after_results
    rw [W2_all m hO 0 main_arg8 (by decide)]

def W4 (c : Dev nD) : Valuation τ sig (Elt F) :=
  Pipeline.withArrays spec1 c (W3 m hO c) fun w => (dat1 (V3 m hO) (T1 m) hO.h1 c).arrAt w (cfgM1 (T1 m) hO.h1).N
theorem W4_arr (c : Dev nD) (w : Fin (cfgM1 (T1 m) hO.h1).W) :
    W4 m hO c (Proc.devRef .tc (Pipeline.arrRef spec1 w)) = (dat1 (V3 m hO) (T1 m) hO.h1 c).arrAt w (cfgM1 (T1 m) hO.h1).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m hO c (Proc.devRef .tc b) = W3 m hO c (Proc.devRef .tc b) := by
  unfold W4; exact Pipeline.withArrays_of_ne spec1 c _ _ b hb

theorem W4_all (c : Dev nD) (r : Ref sig .tc) (hr : r ∈ keep) : W4 m hO c r = W0 m c r :=
  (W4_of_ne m hO c r ((by decide : ∀ r ∈ keep, ∀ w : Fin 2, Pipeline.arrRef spec1 w ≠ r) r hr)).trans
    ((StableHlo.after_of_writes_sub hostOps1 _ hostOps1_writes ((by decide : ∀ r ∈ keep, r ∉ hostOps1_W) r hr)).trans (W2_all m hO c r hr))

end

end Cert.Kernel.Hand

end
-- ==== Proof.Bits.G2.lean ====
import proofs.«414926_j197568496007_1_alg».proof.Proof.Bits.G0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))
variable (tbl : pre2.Contents (Elt F)) (hO : ok2 (F := F) tbl)

abbrev adm2 : (pcfg2 (F := F)).Adm := ⟨tbl, hO⟩
abbrev cfgM2 : Pipeline.Cfg sig Λ₀ := cfg2 (adm2 tbl hO)

def iblk2 (c : Dev nD) (w : Fin (cfgM2 tbl hO).W) (t : Fin (cfgM2 tbl hO).N) :
    (((cfgM2 tbl hO).win w).xblock ((cfgM2 tbl hO).grid.coords t)).Idx → Elt F ((cfgM2 tbl hO).win w).elt :=
  (((cfgM2 tbl hO).win w).blk t).view.read (Elt F) (V c (Pipeline.arrRef spec2 w))

abbrev ms2_0 (t : Fin (cfgM2 tbl hO).N) : Memref sig .tc .vmem S1x1x512 .f32 := spec2_0.stage ((cfgM2 tbl hO).slots t 0)
abbrev hs2_0 (t : Fin (cfgM2 tbl hO).N) : (ms2_0 tbl hO t).IsWhole := hstage2_0 (((cfgM2 tbl hO).slots t 0).cast nbuf2_0)
abbrev ms2_1 (t : Fin (cfgM2 tbl hO).N) : Memref sig .tc .vmem S1x1x512 .f32 := spec2_1.stage ((cfgM2 tbl hO).slots t 1)
abbrev hs2_1 (t : Fin (cfgM2 tbl hO).N) : (ms2_1 tbl hO t).IsWhole := hstage2_1 (((cfgM2 tbl hO).slots t 1).cast nbuf2_1)

def dat2 (c : Dev nD) : Dat τ (Elt F) Unit ℕ (UR sig nD τ) ℕ (cfgM2 tbl hO) c where
  A w := V c (Pipeline.arrRef spec2 w)
  after w t := match w with
    | ⟨0, _⟩ => iblk2 V tbl hO c 0 t
    | ⟨1, _⟩ => iblk2 V tbl hO c 0 t
  Φ _ := iprop(Pipeline.ΦA spec2 c ∗ Pipeline.prefHeld pre2 c (fun _ => fullShare) tbl)
  q _ := fullShare
  owed _ := 0

theorem before2_0 (c : Dev nD) (t : Fin (cfgM2 tbl hO).N) (d) : (dat2 V tbl hO c).before 0 t d = iblk2 V tbl hO c 0 t :=
  ((dat2 V tbl hO c).before_in_eq_fetched 0 rfl (fun _ => rfl) (fun _ _ _ => rfl) (fun _ => rfl) t d).trans rfl

theorem body_obligation2 (c : Dev nD) : BodyObligation (dat2 (F := F) V tbl hO c) (defs₀ (F := F)) Variants.none () Set.univ := fun t => by
  rw [bigSep_W2, bigSep_W2]
  exact copy_body c _ _ (ms2_0 tbl hO t) (hs2_0 tbl hO t) (ms2_1 tbl hO t) (hs2_1 tbl hO t) _ _ _ (before2_0 V tbl hO c t)

end

end Cert.Kernel.Hand

end
-- ==== Proof.Bits.B2.lean ====
import proofs.«414926_j197568496007_1_alg».proof.Proof.Bits.B1
import proofs.«414926_j197568496007_1_alg».proof.Proof.Bits.G2

set_option maxRecDepth 16384

noncomputable section

namespace Cert.Kernel.Hand

open Cert.Kernel Cert.Kernel.Gen
open Idealize.ShloMosaic Idealize.ShloMosaic.TcCoe Idealize.ShloMosaic.Tactic

variable {F : FTy → Type} [FloatOps F]

section
variable (m : (ℓ : Loc nD τ sig) → Buf (Elt F) ℓ) (hO : Oks m)

abbrev W5 (c : Dev nD) : Valuation τ sig (Elt F) := StableHlo.after hostOps2 (W4 m hO c)

abbrev V5 (c : Dev nD) (b : Ref sig .tc) : Buf (Elt F) ((c : Thread nD τ).loc b) := W5 m hO c b

theorem tblAt2 (c : Dev nD) (j : Fin pre2.K) : V5 m hO c (pre2.ref j) = T2 m j := by
  obtain rfl : c = 0 := Subsingleton.elim _ _
  match j with
  | ⟨0, _⟩ =>
    show StableHlo.after hostOps2 (W4 m hO 0) (Proc.devRef .tc main_v11) = StableHlo.after hostOps2 (W0 m 0) (Proc.devRef .tc main_v11)
    after_results
    rw [W4_all m hO 0 main_arg9 (by decide)]

def W6 (c : Dev nD) : Valuation τ sig (Elt F) :=
  Pipeline.withArrays spec2 c (W5 m hO c) fun w => (dat2 (V5 m hO) (T2 m) hO.h2 c).arrAt w (cfgM2 (T2 m) hO.h2).N
theorem W6_arr (c : Dev nD) (w : Fin (cfgM2 (T2 m) hO.h2).W) :
    W6 m hO c (Proc.devRef .tc (Pipeline.arrRef spec2 w)) = (dat2 (V5 m hO) (T2 m) hO.h2 c).arrAt w (cfgM2 (T2 m) hO.h2).N := by
  unfold W6; exact Pipeline.withArrays_arr spec2 (launch2 (F := F)).win.arr_inj c _ _ w
theorem W6_of_ne (c : Dev nD) (b : Ref sig .tc) (hb : ∀ w, Pipeline.arrRef spec2 w ≠ b) :
    W6 m hO c (Proc.devRef .tc b) = W5 m hO c (Proc.devRef .tc b) := by
  unfold W6; exact Pipeline.withArrays_of_ne spec2 c _ _ b hb

theorem W6_all (c : Dev nD) (r : Ref sig .tc) (hr : r ∈ keep) : W6 m hO c r = W0 m c r :=
  (W6_of_ne m hO c r ((by decide : ∀ r ∈ keep, ∀ w : Fin 2, Pipeline.arrRef spec2 w ≠ r) r hr)).trans
    ((StableHlo.after_of_writes_sub hostOps2 _ hostOps2_writes ((by decide : ∀ r ∈ keep, r ∉ hostOps2_W) r hr)).trans (W4_all m hO c r hr))

end

end Cert.Kernel.Hand

end
-- ==== Proof.Bits.G3.lean ====
import proofs.«414926_j197568496007_1_alg».proof.Proof.Bits.G0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))
variable (tbl : pre3.Contents (Elt F)) (hO : ok3 (F := F) tbl)

abbrev adm3 : (pcfg3 (F := F)).Adm := ⟨tbl, hO⟩
abbrev cfgM3 : Pipeline.Cfg sig Λ₀ := cfg3 (adm3 tbl hO)

def iblk3 (c : Dev nD) (w : Fin (cfgM3 tbl hO).W) (t : Fin (cfgM3 tbl hO).N) :
    (((cfgM3 tbl hO).win w).xblock ((cfgM3 tbl hO).grid.coords t)).Idx → Elt F ((cfgM3 tbl hO).win w).elt :=
  (((cfgM3 tbl hO).win w).blk t).view.read (Elt F) (V c (Pipeline.arrRef spec3 w))

abbrev ms3_0 (t : Fin (cfgM3 tbl hO).N) : Memref sig .tc .vmem S1x1x512 .f32 := spec3_0.stage ((cfgM3 tbl hO).slots t 0)
abbrev hs3_0 (t : Fin (cfgM3 tbl hO).N) : (ms3_0 tbl hO t).IsWhole := hstage3_0 (((cfgM3 tbl hO).slots t 0).cast nbuf3_0)
abbrev ms3_1 (t : Fin (cfgM3 tbl hO).N) : Memref sig .tc .vmem S1x1x512 .f32 := spec3_1.stage ((cfgM3 tbl hO).slots t 1)
abbrev hs3_1 (t : Fin (cfgM3 tbl hO).N) : (ms3_1 tbl hO t).IsWhole := hstage3_1 (((cfgM3 tbl hO).slots t 1).cast nbuf3_1)

def dat3 (c : Dev nD) : Dat τ (Elt F) Unit ℕ (UR sig nD τ) ℕ (cfgM3 tbl hO) c where
  A w := V c (Pipeline.arrRef spec3 w)
  after w t := match w with
    | ⟨0, _⟩ => iblk3 V tbl hO c 0 t
    | ⟨1, _⟩ => iblk3 V tbl hO c 0 t
  Φ _ := iprop(Pipeline.ΦA spec3 c ∗ Pipeline.prefHeld pre3 c (fun _ => fullShare) tbl)
  q _ := fullShare
  owed _ := 0

theorem before3_0 (c : Dev nD) (t : Fin (cfgM3 tbl hO).N) (d) : (dat3 V tbl hO c).before 0 t d = iblk3 V tbl hO c 0 t :=
  ((dat3 V tbl hO c).before_in_eq_fetched 0 rfl (fun _ => rfl) (fun _ _ _ => rfl) (fun _ => rfl) t d).trans rfl

theorem body_obligation3 (c : Dev nD) : BodyObligation (dat3 (F := F) V tbl hO c) (defs₀ (F := F)) Variants.none () Set.univ := fun t => by
  rw [bigSep_W3, bigSep_W3]
  exact copy_body c _ _ (ms3_0 tbl hO t) (hs3_0 tbl hO t) (ms3_1 tbl hO t) (hs3_1 tbl hO t) _ _ _ (before3_0 V tbl hO c t)

end

end Cert.Kernel.Hand

end
-- ==== Proof.Bits.B3.lean ====
import proofs.«414926_j197568496007_1_alg».proof.Proof.Bits.B2
import proofs.«414926_j197568496007_1_alg».proof.Proof.Bits.G3

set_option maxRecDepth 16384

noncomputable section

namespace Cert.Kernel.Hand

open Cert.Kernel Cert.Kernel.Gen
open Idealize.ShloMosaic Idealize.ShloMosaic.TcCoe Idealize.ShloMosaic.Tactic

variable {F : FTy → Type} [FloatOps F]

section
variable (m : (ℓ : Loc nD τ sig) → Buf (Elt F) ℓ) (hO : Oks m)

abbrev W7 (c : Dev nD) : Valuation τ sig (Elt F) := StableHlo.after hostOps3 (W6 m hO c)

abbrev V7 (c : Dev nD) (b : Ref sig .tc) : Buf (Elt F) ((c : Thread nD τ).loc b) := W7 m hO c b

theorem tblAt3 (c : Dev nD) (j : Fin pre3.K) : V7 m hO c (pre3.ref j) = T3 m j := by
  obtain rfl : c = 0 := Subsingleton.elim _ _
  match j with
  | ⟨0, _⟩ =>
    show StableHlo.after hostOps3 (W6 m hO 0) (Proc.devRef .tc main_v17) = StableHlo.after hostOps3 (W0 m 0) (Proc.devRef .tc main_v17)
    after_results
    rw [W6_all m hO 0 main_arg9 (by decide)]

def W8 (c : Dev nD) : Valuation τ sig (Elt F) :=
  Pipeline.withArrays spec3 c (W7 m hO c) fun w => (dat3 (V7 m hO) (T3 m) hO.h3 c).arrAt w (cfgM3 (T3 m) hO.h3).N
theorem W8_arr (c : Dev nD) (w : Fin (cfgM3 (T3 m) hO.h3).W) :
    W8 m hO c (Proc.devRef .tc (Pipeline.arrRef spec3 w)) = (dat3 (V7 m hO) (T3 m) hO.h3 c).arrAt w (cfgM3 (T3 m) hO.h3).N := by
  unfold W8; exact Pipeline.withArrays_arr spec3 (launch3 (F := F)).win.arr_inj c _ _ w
theorem W8_of_ne (c : Dev nD) (b : Ref sig .tc) (hb : ∀ w, Pipeline.arrRef spec3 w ≠ b) :
    W8 m hO c (Proc.devRef .tc b) = W7 m hO c (Proc.devRef .tc b) := by
  unfold W8; exact Pipeline.withArrays_of_ne spec3 c _ _ b hb

theorem W8_all (c : Dev nD) (r : Ref sig .tc) (hr : r ∈ keep) : W8 m hO c r = W0 m c r :=
  (W8_of_ne m hO c r ((by decide : ∀ r ∈ keep, ∀ w : Fin 2, Pipeline.arrRef spec3 w ≠ r) r hr)).trans
    ((StableHlo.after_of_writes_sub hostOps3 _ hostOps3_writes ((by decide : ∀ r ∈ keep, r ∉ hostOps3_W) r hr)).trans (W6_all m hO c r hr))

end

end Cert.Kernel.Hand

end
-- ==== Proof.Bits.G4.lean ====
import proofs.«414926_j197568496007_1_alg».proof.Proof.Bits.G0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))
variable (tbl : pre4.Contents (Elt F)) (hO : ok4 (F := F) tbl)

abbrev adm4 : (pcfg4 (F := F)).Adm := ⟨tbl, hO⟩
abbrev cfgM4 : Pipeline.Cfg sig Λ₀ := cfg4 (adm4 tbl hO)

def iblk4 (c : Dev nD) (w : Fin (cfgM4 tbl hO).W) (t : Fin (cfgM4 tbl hO).N) :
    (((cfgM4 tbl hO).win w).xblock ((cfgM4 tbl hO).grid.coords t)).Idx → Elt F ((cfgM4 tbl hO).win w).elt :=
  (((cfgM4 tbl hO).win w).blk t).view.read (Elt F) (V c (Pipeline.arrRef spec4 w))

abbrev ms4_0 (t : Fin (cfgM4 tbl hO).N) : Memref sig .tc .vmem S1x1x512 .f32 := spec4_0.stage ((cfgM4 tbl hO).slots t 0)
abbrev hs4_0 (t : Fin (cfgM4 tbl hO).N) : (ms4_0 tbl hO t).IsWhole := hstage4_0 (((cfgM4 tbl hO).slots t 0).cast nbuf4_0)
abbrev ms4_1 (t : Fin (cfgM4 tbl hO).N) : Memref sig .tc .vmem S1x1x512 .f32 := spec4_1.stage ((cfgM4 tbl hO).slots t 1)
abbrev hs4_1 (t : Fin (cfgM4 tbl hO).N) : (ms4_1 tbl hO t).IsWhole := hstage4_1 (((cfgM4 tbl hO).slots t 1).cast nbuf4_1)

def dat4 (c : Dev nD) : Dat τ (Elt F) Unit ℕ (UR sig nD τ) ℕ (cfgM4 tbl hO) c where
  A w := V c (Pipeline.arrRef spec4 w)
  after w t := match w with
    | ⟨0, _⟩ => iblk4 V tbl hO c 0 t
    | ⟨1, _⟩ => iblk4 V tbl hO c 0 t
  Φ _ := iprop(Pipeline.ΦA spec4 c ∗ Pipeline.prefHeld pre4 c (fun _ => fullShare) tbl)
  q _ := fullShare
  owed _ := 0

theorem before4_0 (c : Dev nD) (t : Fin (cfgM4 tbl hO).N) (d) : (dat4 V tbl hO c).before 0 t d = iblk4 V tbl hO c 0 t :=
  ((dat4 V tbl hO c).before_in_eq_fetched 0 rfl (fun _ => rfl) (fun _ _ _ => rfl) (fun _ => rfl) t d).trans rfl

theorem body_obligation4 (c : Dev nD) : BodyObligation (dat4 (F := F) V tbl hO c) (defs₀ (F := F)) Variants.none () Set.univ := fun t => by
  rw [bigSep_W4, bigSep_W4]
  exact copy_body c _ _ (ms4_0 tbl hO t) (hs4_0 tbl hO t) (ms4_1 tbl hO t) (hs4_1 tbl hO t) _ _ _ (before4_0 V tbl hO c t)

end

end Cert.Kernel.Hand

end
-- ==== Proof.Bits.B4.lean ====
import proofs.«414926_j197568496007_1_alg».proof.Proof.Bits.B3
import proofs.«414926_j197568496007_1_alg».proof.Proof.Bits.G4

set_option maxRecDepth 16384

noncomputable section

namespace Cert.Kernel.Hand

open Cert.Kernel Cert.Kernel.Gen
open Idealize.ShloMosaic Idealize.ShloMosaic.TcCoe Idealize.ShloMosaic.Tactic

variable {F : FTy → Type} [FloatOps F]

section
variable (m : (ℓ : Loc nD τ sig) → Buf (Elt F) ℓ) (hO : Oks m)

abbrev W9 (c : Dev nD) : Valuation τ sig (Elt F) := StableHlo.after hostOps4 (W8 m hO c)

abbrev V9 (c : Dev nD) (b : Ref sig .tc) : Buf (Elt F) ((c : Thread nD τ).loc b) := W9 m hO c b

theorem tblAt4 (c : Dev nD) (j : Fin pre4.K) : V9 m hO c (pre4.ref j) = T4 m j := by
  obtain rfl : c = 0 := Subsingleton.elim _ _
  match j with
  | ⟨0, _⟩ =>
    show StableHlo.after hostOps4 (W8 m hO 0) (Proc.devRef .tc main_v23) = StableHlo.after hostOps4 (W0 m 0) (Proc.devRef .tc main_v23)
    after_results
    rw [W8_all m hO 0 main_arg9 (by decide)]

def W10 (c : Dev nD) : Valuation τ sig (Elt F) :=
  Pipeline.withArrays spec4 c (W9 m hO c) fun w => (dat4 (V9 m hO) (T4 m) hO.h4 c).arrAt w (cfgM4 (T4 m) hO.h4).N
theorem W10_arr (c : Dev nD) (w : Fin (cfgM4 (T4 m) hO.h4).W) :
    W10 m hO c (Proc.devRef .tc (Pipeline.arrRef spec4 w)) = (dat4 (V9 m hO) (T4 m) hO.h4 c).arrAt w (cfgM4 (T4 m) hO.h4).N := by
  unfold W10; exact Pipeline.withArrays_arr spec4 (launch4 (F := F)).win.arr_inj c _ _ w
theorem W10_of_ne (c : Dev nD) (b : Ref sig .tc) (hb : ∀ w, Pipeline.arrRef spec4 w ≠ b) :
    W10 m hO c (Proc.devRef .tc b) = W9 m hO c (Proc.devRef .tc b) := by
  unfold W10; exact Pipeline.withArrays_of_ne spec4 c _ _ b hb

theorem W10_all (c : Dev nD) (r : Ref sig .tc) (hr : r ∈ keep) : W10 m hO c r = W0 m c r :=
  (W10_of_ne m hO c r ((by decide : ∀ r ∈ keep, ∀ w : Fin 2, Pipeline.arrRef spec4 w ≠ r) r hr)).trans
    ((StableHlo.after_of_writes_sub hostOps4 _ hostOps4_writes ((by decide : ∀ r ∈ keep, r ∉ hostOps4_W) r hr)).trans (W8_all m hO c r hr))

end

end Cert.Kernel.Hand

end
-- ==== Proof.Bits.G5.lean ====
import proofs.«414926_j197568496007_1_alg».proof.Proof.Bits.G0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))
variable (tbl : pre5.Contents (Elt F)) (hO : ok5 (F := F) tbl)

abbrev adm5 : (pcfg5 (F := F)).Adm := ⟨tbl, hO⟩
abbrev cfgM5 : Pipeline.Cfg sig Λ₀ := cfg5 (adm5 tbl hO)

def iblk5 (c : Dev nD) (w : Fin (cfgM5 tbl hO).W) (t : Fin (cfgM5 tbl hO).N) :
    (((cfgM5 tbl hO).win w).xblock ((cfgM5 tbl hO).grid.coords t)).Idx → Elt F ((cfgM5 tbl hO).win w).elt :=
  (((cfgM5 tbl hO).win w).blk t).view.read (Elt F) (V c (Pipeline.arrRef spec5 w))

abbrev ms5_0 (t : Fin (cfgM5 tbl hO).N) : Memref sig .tc .vmem S1x1x512 .f32 := spec5_0.stage ((cfgM5 tbl hO).slots t 0)
abbrev hs5_0 (t : Fin (cfgM5 tbl hO).N) : (ms5_0 tbl hO t).IsWhole := hstage5_0 (((cfgM5 tbl hO).slots t 0).cast nbuf5_0)
abbrev ms5_1 (t : Fin (cfgM5 tbl hO).N) : Memref sig .tc .vmem S1x1x512 .f32 := spec5_1.stage ((cfgM5 tbl hO).slots t 1)
abbrev hs5_1 (t : Fin (cfgM5 tbl hO).N) : (ms5_1 tbl hO t).IsWhole := hstage5_1 (((cfgM5 tbl hO).slots t 1).cast nbuf5_1)

def dat5 (c : Dev nD) : Dat τ (Elt F) Unit ℕ (UR sig nD τ) ℕ (cfgM5 tbl hO) c where
  A w := V c (Pipeline.arrRef spec5 w)
  after w t := match w with
    | ⟨0, _⟩ => iblk5 V tbl hO c 0 t
    | ⟨1, _⟩ => iblk5 V tbl hO c 0 t
  Φ _ := iprop(Pipeline.ΦA spec5 c ∗ Pipeline.prefHeld pre5 c (fun _ => fullShare) tbl)
  q _ := fullShare
  owed _ := 0

theorem before5_0 (c : Dev nD) (t : Fin (cfgM5 tbl hO).N) (d) : (dat5 V tbl hO c).before 0 t d = iblk5 V tbl hO c 0 t :=
  ((dat5 V tbl hO c).before_in_eq_fetched 0 rfl (fun _ => rfl) (fun _ _ _ => rfl) (fun _ => rfl) t d).trans rfl

theorem body_obligation5 (c : Dev nD) : BodyObligation (dat5 (F := F) V tbl hO c) (defs₀ (F := F)) Variants.none () Set.univ := fun t => by
  rw [bigSep_W5, bigSep_W5]
  exact copy_body c _ _ (ms5_0 tbl hO t) (hs5_0 tbl hO t) (ms5_1 tbl hO t) (hs5_1 tbl hO t) _ _ _ (before5_0 V tbl hO c t)

end

end Cert.Kernel.Hand

end
-- ==== Proof.Bits.B5.lean ====
import proofs.«414926_j197568496007_1_alg».proof.Proof.Bits.B4
import proofs.«414926_j197568496007_1_alg».proof.Proof.Bits.G5

set_option maxRecDepth 16384

noncomputable section

namespace Cert.Kernel.Hand

open Cert.Kernel Cert.Kernel.Gen
open Idealize.ShloMosaic Idealize.ShloMosaic.TcCoe Idealize.ShloMosaic.Tactic

variable {F : FTy → Type} [FloatOps F]

section
variable (m : (ℓ : Loc nD τ sig) → Buf (Elt F) ℓ) (hO : Oks m)

abbrev W11 (c : Dev nD) : Valuation τ sig (Elt F) := StableHlo.after hostOps5 (W10 m hO c)

abbrev V11 (c : Dev nD) (b : Ref sig .tc) : Buf (Elt F) ((c : Thread nD τ).loc b) := W11 m hO c b

theorem tblAt5 (c : Dev nD) (j : Fin pre5.K) : V11 m hO c (pre5.ref j) = T5 m j := by
  obtain rfl : c = 0 := Subsingleton.elim _ _
  match j with
  | ⟨0, _⟩ =>
    show StableHlo.after hostOps5 (W10 m hO 0) (Proc.devRef .tc main_v29) = StableHlo.after hostOps5 (W0 m 0) (Proc.devRef .tc main_v29)
    after_results
    rw [W10_all m hO 0 main_arg9 (by decide)]

def W12 (c : Dev nD) : Valuation τ sig (Elt F) :=
  Pipeline.withArrays spec5 c (W11 m hO c) fun w => (dat5 (V11 m hO) (T5 m) hO.h5 c).arrAt w (cfgM5 (T5 m) hO.h5).N
theorem W12_arr (c : Dev nD) (w : Fin (cfgM5 (T5 m) hO.h5).W) :
    W12 m hO c (Proc.devRef .tc (Pipeline.arrRef spec5 w)) = (dat5 (V11 m hO) (T5 m) hO.h5 c).arrAt w (cfgM5 (T5 m) hO.h5).N := by
  unfold W12; exact Pipeline.withArrays_arr spec5 (launch5 (F := F)).win.arr_inj c _ _ w
theorem W12_of_ne (c : Dev nD) (b : Ref sig .tc) (hb : ∀ w, Pipeline.arrRef spec5 w ≠ b) :
    W12 m hO c (Proc.devRef .tc b) = W11 m hO c (Proc.devRef .tc b) := by
  unfold W12; exact Pipeline.withArrays_of_ne spec5 c _ _ b hb

theorem W12_all (c : Dev nD) (r : Ref sig .tc) (hr : r ∈ keep) : W12 m hO c r = W0 m c r :=
  (W12_of_ne m hO c r ((by decide : ∀ r ∈ keep, ∀ w : Fin 2, Pipeline.arrRef spec5 w ≠ r) r hr)).trans
    ((StableHlo.after_of_writes_sub hostOps5 _ hostOps5_writes ((by decide : ∀ r ∈ keep, r ∉ hostOps5_W) r hr)).trans (W10_all m hO c r hr))

end

end Cert.Kernel.Hand

end
-- ==== Proof.Bits.G6.lean ====
import proofs.«414926_j197568496007_1_alg».proof.Proof.Bits.G0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))
variable (tbl : pre6.Contents (Elt F)) (hO : ok6 (F := F) tbl)

abbrev adm6 : (pcfg6 (F := F)).Adm := ⟨tbl, hO⟩
abbrev cfgM6 : Pipeline.Cfg sig Λ₀ := cfg6 (adm6 tbl hO)

def iblk6 (c : Dev nD) (w : Fin (cfgM6 tbl hO).W) (t : Fin (cfgM6 tbl hO).N) :
    (((cfgM6 tbl hO).win w).xblock ((cfgM6 tbl hO).grid.coords t)).Idx → Elt F ((cfgM6 tbl hO).win w).elt :=
  (((cfgM6 tbl hO).win w).blk t).view.read (Elt F) (V c (Pipeline.arrRef spec6 w))

abbrev ms6_0 (t : Fin (cfgM6 tbl hO).N) : Memref sig .tc .vmem S1x1x512 .f32 := spec6_0.stage ((cfgM6 tbl hO).slots t 0)
abbrev hs6_0 (t : Fin (cfgM6 tbl hO).N) : (ms6_0 tbl hO t).IsWhole := hstage6_0 (((cfgM6 tbl hO).slots t 0).cast nbuf6_0)
abbrev ms6_1 (t : Fin (cfgM6 tbl hO).N) : Memref sig .tc .vmem S1x1x512 .f32 := spec6_1.stage ((cfgM6 tbl hO).slots t 1)
abbrev hs6_1 (t : Fin (cfgM6 tbl hO).N) : (ms6_1 tbl hO t).IsWhole := hstage6_1 (((cfgM6 tbl hO).slots t 1).cast nbuf6_1)

def dat6 (c : Dev nD) : Dat τ (Elt F) Unit ℕ (UR sig nD τ) ℕ (cfgM6 tbl hO) c where
  A w := V c (Pipeline.arrRef spec6 w)
  after w t := match w with
    | ⟨0, _⟩ => iblk6 V tbl hO c 0 t
    | ⟨1, _⟩ => iblk6 V tbl hO c 0 t
  Φ _ := iprop(Pipeline.ΦA spec6 c ∗ Pipeline.prefHeld pre6 c (fun _ => fullShare) tbl)
  q _ := fullShare
  owed _ := 0

theorem before6_0 (c : Dev nD) (t : Fin (cfgM6 tbl hO).N) (d) : (dat6 V tbl hO c).before 0 t d = iblk6 V tbl hO c 0 t :=
  ((dat6 V tbl hO c).before_in_eq_fetched 0 rfl (fun _ => rfl) (fun _ _ _ => rfl) (fun _ => rfl) t d).trans rfl

theorem body_obligation6 (c : Dev nD) : BodyObligation (dat6 (F := F) V tbl hO c) (defs₀ (F := F)) Variants.none () Set.univ := fun t => by
  rw [bigSep_W6, bigSep_W6]
  exact copy_body c _ _ (ms6_0 tbl hO t) (hs6_0 tbl hO t) (ms6_1 tbl hO t) (hs6_1 tbl hO t) _ _ _ (before6_0 V tbl hO c t)

end

end Cert.Kernel.Hand

end
-- ==== Proof.Bits.B6.lean ====
import proofs.«414926_j197568496007_1_alg».proof.Proof.Bits.B5
import proofs.«414926_j197568496007_1_alg».proof.Proof.Bits.G6

set_option maxRecDepth 16384

noncomputable section

namespace Cert.Kernel.Hand

open Cert.Kernel Cert.Kernel.Gen
open Idealize.ShloMosaic Idealize.ShloMosaic.TcCoe Idealize.ShloMosaic.Tactic

variable {F : FTy → Type} [FloatOps F]

section
variable (m : (ℓ : Loc nD τ sig) → Buf (Elt F) ℓ) (hO : Oks m)

abbrev W13 (c : Dev nD) : Valuation τ sig (Elt F) := StableHlo.after hostOps6 (W12 m hO c)

abbrev V13 (c : Dev nD) (b : Ref sig .tc) : Buf (Elt F) ((c : Thread nD τ).loc b) := W13 m hO c b

theorem tblAt6 (c : Dev nD) (j : Fin pre6.K) : V13 m hO c (pre6.ref j) = T6 m j := by
  obtain rfl : c = 0 := Subsingleton.elim _ _
  match j with
  | ⟨0, _⟩ =>
    show StableHlo.after hostOps6 (W12 m hO 0) (Proc.devRef .tc main_v35) = StableHlo.after hostOps6 (W0 m 0) (Proc.devRef .tc main_v35)
    after_results
    rw [W12_all m hO 0 main_arg9 (by decide)]

def W14 (c : Dev nD) : Valuation τ sig (Elt F) :=
  Pipeline.withArrays spec6 c (W13 m hO c) fun w => (dat6 (V13 m hO) (T6 m) hO.h6 c).arrAt w (cfgM6 (T6 m) hO.h6).N
theorem W14_arr (c : Dev nD) (w : Fin (cfgM6 (T6 m) hO.h6).W) :
    W14 m hO c (Proc.devRef .tc (Pipeline.arrRef spec6 w)) = (dat6 (V13 m hO) (T6 m) hO.h6 c).arrAt w (cfgM6 (T6 m) hO.h6).N := by
  unfold W14; exact Pipeline.withArrays_arr spec6 (launch6 (F := F)).win.arr_inj c _ _ w
theorem W14_of_ne (c : Dev nD) (b : Ref sig .tc) (hb : ∀ w, Pipeline.arrRef spec6 w ≠ b) :
    W14 m hO c (Proc.devRef .tc b) = W13 m hO c (Proc.devRef .tc b) := by
  unfold W14; exact Pipeline.withArrays_of_ne spec6 c _ _ b hb

theorem W14_all (c : Dev nD) (r : Ref sig .tc) (hr : r ∈ keep) : W14 m hO c r = W0 m c r :=
  (W14_of_ne m hO c r ((by decide : ∀ r ∈ keep, ∀ w : Fin 2, Pipeline.arrRef spec6 w ≠ r) r hr)).trans
    ((StableHlo.after_of_writes_sub hostOps6 _ hostOps6_writes ((by decide : ∀ r ∈ keep, r ∉ hostOps6_W) r hr)).trans (W12_all m hO c r hr))

end

end Cert.Kernel.Hand

end
-- ==== Proof.Bits.C7.lean ====
import proofs.«414926_j197568496007_1_alg».proof.Proof.Gen.Kernel.Launch
import proofs.«414926_j197568496007_1_alg».proof.Proof.Gen.Kernel.Skeleton
import proofs.«414926_j197568496007_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region7

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem hz7_2 : (![0, 0] : Fin 2 → Nat) = fun _ => 0 := funext fun a => by fin_cases a <;> rfl
theorem hz7_3 : (![0, 0, 0] : Fin 3 → Nat) = fun _ => 0 := funext fun a => by fin_cases a <;> rfl

abbrev r7_S128x512 : Rect S128x512 := Rect.unit (s := S128x512) ![0, 0] S128x512.size inb_S128x512_S128x512_0_0
abbrev r7_S128x25x512 : Rect S128x25x512 := Rect.unit (s := S128x25x512) ![0, 0, 0] S128x25x512.size inb_S128x25x512_S128x25x512_0_0_0
abbrev r7_S512x512 : Rect S512x512 := Rect.unit (s := S512x512) ![0, 0] S512x512.size inb_S512x512_S512x512_0_0
abbrev r7_S1x512 : Rect S1x512 := Rect.unit (s := S1x512) ![0, 0] S1x512.size inb_S1x512_S1x512_0_0

def out7_5 (x0 : Vec F S128x512 .f32) (x1 : Vec F S128x25x512 .f32) (x2 x3 : Vec F S512x512 .f32) (x4 : Vec F S1x512 .f32) : Vec F S128x512 .f32 :=
  View.canon [⟨r7_S128x512, k7_pay1 (View.ld x1 r7_S128x25x512) (View.ld x0 r7_S128x512) (View.ld x2 r7_S512x512) (View.ld x3 r7_S512x512) (View.ld x4 r7_S1x512)⟩]

theorem out7_5_eq (x0 : Vec F S128x512 .f32) (x1 : Vec F S128x25x512 .f32) (x2 x3 : Vec F S512x512 .f32) (x4 : Vec F S1x512 .f32) :
    out7_5 x0 x1 x2 x3 x4 = k7_pay1 x1 x0 x2 x3 x4 := by
  unfold out7_5
  rw [View.canon_unit_zero hz7_2]
  simp only [View.ld_unit_zero (S := S128x512) hz7_2, View.ld_unit_zero (S := S128x25x512) hz7_3,
    View.ld_unit_zero (S := S512x512) hz7_2, View.ld_unit_zero (S := S1x512) hz7_2]

theorem cover7_5 (p0 : Vec F S128x512 .f32) (y : S128x512.Idx) :
    ∃ pc ∈ ([⟨r7_S128x512, p0⟩] : List (View.Piece (Elt F) S128x512 .f32)), y ∈ pc.1.set :=
  ⟨_, List.mem_singleton_self _, View.mem_set_unit_zero hz7_2 inb_S128x512_S128x512_0_0 y⟩

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_5 (c : Dev nD) (t : Fin cfg7.N) :
    (dat7 V c).after 5 t = out7_5 (iblk7 V c 0 t) (iblk7 V c 1 t) (iblk7 V c 2 t) (iblk7 V c 3 t) (iblk7 V c 4 t) := by
  dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl
theorem before7_2 (c : Dev nD) (t : Fin cfg7.N) (d) : (dat7 V c).before 2 t d = iblk7 V c 2 t :=
  ((dat7 V c).before_in_eq_fetched 2 rfl (fun _ => rfl) (fun _ _ _ => rfl) (fun _ => rfl) t d).trans rfl
theorem before7_3 (c : Dev nD) (t : Fin cfg7.N) (d) : (dat7 V c).before 3 t d = iblk7 V c 3 t :=
  ((dat7 V c).before_in_eq_fetched 3 rfl (fun _ => rfl) (fun _ _ _ => rfl) (fun _ => rfl) t d).trans rfl
theorem before7_4 (c : Dev nD) (t : Fin cfg7.N) (d) : (dat7 V c).before 4 t d = iblk7 V c 4 t :=
  ((dat7 V c).before_in_eq_fetched 4 rfl (fun _ => rfl) (fun _ _ _ => rfl) (fun _ => rfl) t d).trans rfl

set_option maxHeartbeats 1000000 in
/-- The fused layer's body leaves its five inputs as they are and puts its one store in the output; the rest is returned untouched. -/
theorem combine_body7 (c : Dev nD) (Φ O : sProp 𝕄) (i : grid7.Coords)
    (arg1 : Memref sig .tc .vmem S128x512 .f32) (harg1 : arg1.IsWhole) (arg2 : Memref sig .tc .vmem S128x25x512 .f32) (harg2 : arg2.IsWhole)
    (arg3 : Memref sig .tc .vmem S512x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S128x512 .f32) (harg6 : arg6.IsWhole)
    {D0 D1 D2 D3 D4 D5 : Type} (x0' : D0 → Vec F S128x512 .f32) (x1' : D1 → Vec F S128x25x512 .f32) (x2' : D2 → Vec F S512x512 .f32)
    (x3' : D3 → Vec F S512x512 .f32) (x4' : D4 → Vec F S1x512 .f32) (y : D5 → Vec F S128x512 .f32)
    (x0 : Vec F S128x512 .f32) (x1 : Vec F S128x25x512 .f32) (x2 : Vec F S512x512 .f32) (x3 : Vec F S512x512 .f32) (x4 : Vec F S1x512 .f32)
    (e0 : ∀ d, x0' d = x0) (e1 : ∀ d, x1' d = x1) (e2 : ∀ d, x2' d = x2) (e3 : ∀ d, x3' d = x3) (e4 : ∀ d, x4' d = x4)
    (z : Vec F S128x512 .f32) (hz : z = out7_5 x0 x1 x2 x3 x4) :
    iprop(Φ ∗ O ∗ (∃ d, owns (c : Thread nD τ) arg1 fullShare (x0' d)) ∗ (∃ d, owns (c : Thread nD τ) arg2 fullShare (x1' d))
        ∗ (∃ d, owns (c : Thread nD τ) arg3 fullShare (x2' d)) ∗ (∃ d, owns (c : Thread nD τ) arg4 fullShare (x3' d))
        ∗ (∃ d, owns (c : Thread nD τ) arg5 fullShare (x4' d)) ∗ (∃ d, owns (c : Thread nD τ) arg6 fullShare (y d)))
      ⊢ wp frame (wpE (defs₀ (F := F)) Variants.none c none) Set.univ
          (cc7__combine_kernel i arg1 harg1 arg2 harg2 arg3 harg3 arg4 harg4 arg5 harg5 arg6 harg6)
          (fun _ => iprop(Φ ∗ O ∗ owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare z)) := by
  subst hz; simp only [e0, e1, e2, e3, e4]
  simp only [cc7__combine_kernel_eq_skeleton]; unfold cc7__combine_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  subst hf0; subst hf1; subst hf2; subst hf3; subst hf4
  sl_exec
  sl_step
  isplitl [HΦ]; · iexact HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

theorem body_obligation7 (c : Dev nD) : BodyObligation (dat7 (F := F) V c) (defs₀ (F := F)) Variants.none () Set.univ := fun t => by
  rw [bigSep_W7, bigSep_W7]
  exact combine_body7 c ((dat7 V c).Φ t.castSucc) ((dat7 V c).owesAt () t.castSucc) (grid7.coords t) (st7_0 t) (hstage7_0 ((cfg7.slots t 0).cast nbuf7_0)) (st7_1 t) (hstage7_1 ((cfg7.slots t 1).cast nbuf7_1)) (st7_2 t) (hstage7_2 ((cfg7.slots t 2).cast nbuf7_2)) (st7_3 t) (hstage7_3 ((cfg7.slots t 3).cast nbuf7_3)) (st7_4 t) (hstage7_4 ((cfg7.slots t 4).cast nbuf7_4)) (st7_5 t) (hstage7_5 ((cfg7.slots t 5).cast nbuf7_5))
    ((dat7 V c).before 0 t) ((dat7 V c).before 1 t) ((dat7 V c).before 2 t) ((dat7 V c).before 3 t) ((dat7 V c).before 4 t) ((dat7 V c).before 5 t)
    (iblk7 V c 0 t) (iblk7 V c 1 t) (iblk7 V c 2 t) (iblk7 V c 3 t) (iblk7 V c 4 t)
    (before7_0 V c t) (before7_1 V c t) (before7_2 V c t) (before7_3 V c t) (before7_4 V c t)
    ((dat7 V c).after 5 t) (after7_5 V c t)

end Region7

end Cert.Kernel.Hand

end
-- ==== Proof.Bits.B7.lean ====
import proofs.«414926_j197568496007_1_alg».proof.Proof.Bits.B6
import proofs.«414926_j197568496007_1_alg».proof.Proof.Bits.C7

set_option maxRecDepth 16384

noncomputable section

namespace Cert.Kernel.Hand

open Cert.Kernel Cert.Kernel.Gen
open Idealize.ShloMosaic Idealize.ShloMosaic.TcCoe Idealize.ShloMosaic.Tactic

variable {F : FTy → Type} [FloatOps F]

section
variable (m : (ℓ : Loc nD τ sig) → Buf (Elt F) ℓ) (hO : Oks m)

abbrev W15 (c : Dev nD) : Valuation τ sig (Elt F) := StableHlo.after hostOps7 (W14 m hO c)

abbrev V15 (c : Dev nD) (b : Ref sig .tc) : Buf (Elt F) ((c : Thread nD τ).loc b) := W15 m hO c b

theorem W15_keep (c : Dev nD) (r : Ref sig .tc) (hr : r ∈ keep) : W15 m hO c r = W14 m hO c r :=
  StableHlo.after_of_writes_sub hostOps7 _ hostOps7_writes ((by decide : ∀ r ∈ keep, r ∉ hostOps7_W) r hr)

def W16 (c : Dev nD) : Valuation τ sig (Elt F) :=
  Pipeline.withArrays spec7 c (W15 m hO c) fun w => (dat7 (V15 m hO) c).arrAt w cfg7.N
theorem W16_arr (c : Dev nD) (w : Fin cfg7.W) :
    W16 m hO c (Proc.devRef .tc (Pipeline.arrRef spec7 w)) = (dat7 (V15 m hO) c).arrAt w cfg7.N := by
  unfold W16; exact Pipeline.withArrays_arr spec7 (launch7 (F := F)).win.arr_inj c _ _ w
theorem W16_of_ne (c : Dev nD) (b : Ref sig .tc) (hb : ∀ w, Pipeline.arrRef spec7 w ≠ b) :
    W16 m hO c (Proc.devRef .tc b) = W15 m hO c (Proc.devRef .tc b) := by
  unfold W16; exact Pipeline.withArrays_of_ne spec7 c _ _ b hb

theorem W16_keep (c : Dev nD) (r : Ref sig .tc) (hr : r ∈ keep) : W16 m hO c r = W15 m hO c r := by
  by_cases h1 : r = main_arg1
  · subst h1
    exact (W16_arr m hO c 0).trans (((dat7 (V15 m hO) c).arrAt_in 0 rfl _).trans (A_eq7 (V15 m hO) c 0))
  · exact W16_of_ne m hO c r ((by decide : ∀ r ∈ keep, r ≠ main_arg1 → ∀ w : Fin 6, Pipeline.arrRef spec7 w ≠ r) r hr h1)

theorem W16_all (c : Dev nD) (r : Ref sig .tc) (hr : r ∈ keep) : W16 m hO c r = W0 m c r :=
  (W16_keep m hO c r hr).trans ((W15_keep m hO c r hr).trans (W14_all m hO c r hr))

end

end Cert.Kernel.Hand

end
-- ==== Proof.Bits.C8.lean ====
import proofs.«414926_j197568496007_1_alg».proof.Proof.Gen.Kernel.Launch
import proofs.«414926_j197568496007_1_alg».proof.Proof.Gen.Kernel.Skeleton
import proofs.«414926_j197568496007_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region8

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem hz8_2 : (![0, 0] : Fin 2 → Nat) = fun _ => 0 := funext fun a => by fin_cases a <;> rfl
theorem hz8_3 : (![0, 0, 0] : Fin 3 → Nat) = fun _ => 0 := funext fun a => by fin_cases a <;> rfl

abbrev r8_S128x512 : Rect S128x512 := Rect.unit (s := S128x512) ![0, 0] S128x512.size inb_S128x512_S128x512_0_0
abbrev r8_S128x25x512 : Rect S128x25x512 := Rect.unit (s := S128x25x512) ![0, 0, 0] S128x25x512.size inb_S128x25x512_S128x25x512_0_0_0
abbrev r8_S512x512 : Rect S512x512 := Rect.unit (s := S512x512) ![0, 0] S512x512.size inb_S512x512_S512x512_0_0
abbrev r8_S1x512 : Rect S1x512 := Rect.unit (s := S1x512) ![0, 0] S1x512.size inb_S1x512_S1x512_0_0

def out8_5 (x0 : Vec F S128x512 .f32) (x1 : Vec F S128x25x512 .f32) (x2 x3 : Vec F S512x512 .f32) (x4 : Vec F S1x512 .f32) : Vec F S128x512 .f32 :=
  View.canon [⟨r8_S128x512, k8_pay1 (View.ld x1 r8_S128x25x512) (View.ld x0 r8_S128x512) (View.ld x2 r8_S512x512) (View.ld x3 r8_S512x512) (View.ld x4 r8_S1x512)⟩]

theorem out8_5_eq (x0 : Vec F S128x512 .f32) (x1 : Vec F S128x25x512 .f32) (x2 x3 : Vec F S512x512 .f32) (x4 : Vec F S1x512 .f32) :
    out8_5 x0 x1 x2 x3 x4 = k8_pay1 x1 x0 x2 x3 x4 := by
  unfold out8_5
  rw [View.canon_unit_zero hz8_2]
  simp only [View.ld_unit_zero (S := S128x512) hz8_2, View.ld_unit_zero (S := S128x25x512) hz8_3,
    View.ld_unit_zero (S := S512x512) hz8_2, View.ld_unit_zero (S := S1x512) hz8_2]

theorem cover8_5 (p0 : Vec F S128x512 .f32) (y : S128x512.Idx) :
    ∃ pc ∈ ([⟨r8_S128x512, p0⟩] : List (View.Piece (Elt F) S128x512 .f32)), y ∈ pc.1.set :=
  ⟨_, List.mem_singleton_self _, View.mem_set_unit_zero hz8_2 inb_S128x512_S128x512_0_0 y⟩

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_5 (c : Dev nD) (t : Fin cfg8.N) :
    (dat8 V c).after 5 t = out8_5 (iblk8 V c 0 t) (iblk8 V c 1 t) (iblk8 V c 2 t) (iblk8 V c 3 t) (iblk8 V c 4 t) := by
  dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun _ => rfl) t d).trans rfl
theorem before8_1 (c : Dev nD) (t : Fin cfg8.N) (d) : (dat8 V c).before 1 t d = iblk8 V c 1 t :=
  ((dat8 V c).before_in_eq_fetched 1 rfl (fun _ => rfl) (fun _ _ _ => rfl) (fun _ => rfl) t d).trans rfl
theorem before8_2 (c : Dev nD) (t : Fin cfg8.N) (d) : (dat8 V c).before 2 t d = iblk8 V c 2 t :=
  ((dat8 V c).before_in_eq_fetched 2 rfl (fun _ => rfl) (fun _ _ _ => rfl) (fun _ => rfl) t d).trans rfl
theorem before8_3 (c : Dev nD) (t : Fin cfg8.N) (d) : (dat8 V c).before 3 t d = iblk8 V c 3 t :=
  ((dat8 V c).before_in_eq_fetched 3 rfl (fun _ => rfl) (fun _ _ _ => rfl) (fun _ => rfl) t d).trans rfl
theorem before8_4 (c : Dev nD) (t : Fin cfg8.N) (d) : (dat8 V c).before 4 t d = iblk8 V c 4 t :=
  ((dat8 V c).before_in_eq_fetched 4 rfl (fun _ => rfl) (fun _ _ _ => rfl) (fun _ => rfl) t d).trans rfl

set_option maxHeartbeats 1000000 in
/-- The fused layer's body leaves its five inputs as they are and puts its one store in the output; the rest is returned untouched. -/
theorem combine_body8 (c : Dev nD) (Φ O : sProp 𝕄) (i : grid8.Coords)
    (arg1 : Memref sig .tc .vmem S128x512 .f32) (harg1 : arg1.IsWhole) (arg2 : Memref sig .tc .vmem S128x25x512 .f32) (harg2 : arg2.IsWhole)
    (arg3 : Memref sig .tc .vmem S512x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S128x512 .f32) (harg6 : arg6.IsWhole)
    {D0 D1 D2 D3 D4 D5 : Type} (x0' : D0 → Vec F S128x512 .f32) (x1' : D1 → Vec F S128x25x512 .f32) (x2' : D2 → Vec F S512x512 .f32)
    (x3' : D3 → Vec F S512x512 .f32) (x4' : D4 → Vec F S1x512 .f32) (y : D5 → Vec F S128x512 .f32)
    (x0 : Vec F S128x512 .f32) (x1 : Vec F S128x25x512 .f32) (x2 : Vec F S512x512 .f32) (x3 : Vec F S512x512 .f32) (x4 : Vec F S1x512 .f32)
    (e0 : ∀ d, x0' d = x0) (e1 : ∀ d, x1' d = x1) (e2 : ∀ d, x2' d = x2) (e3 : ∀ d, x3' d = x3) (e4 : ∀ d, x4' d = x4)
    (z : Vec F S128x512 .f32) (hz : z = out8_5 x0 x1 x2 x3 x4) :
    iprop(Φ ∗ O ∗ (∃ d, owns (c : Thread nD τ) arg1 fullShare (x0' d)) ∗ (∃ d, owns (c : Thread nD τ) arg2 fullShare (x1' d))
        ∗ (∃ d, owns (c : Thread nD τ) arg3 fullShare (x2' d)) ∗ (∃ d, owns (c : Thread nD τ) arg4 fullShare (x3' d))
        ∗ (∃ d, owns (c : Thread nD τ) arg5 fullShare (x4' d)) ∗ (∃ d, owns (c : Thread nD τ) arg6 fullShare (y d)))
      ⊢ wp frame (wpE (defs₀ (F := F)) Variants.none c none) Set.univ
          (cc8__combine_kernel i arg1 harg1 arg2 harg2 arg3 harg3 arg4 harg4 arg5 harg5 arg6 harg6)
          (fun _ => iprop(Φ ∗ O ∗ owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare z)) := by
  subst hz; simp only [e0, e1, e2, e3, e4]
  simp only [cc8__combine_kernel_eq_skeleton]; unfold cc8__combine_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  subst hf0; subst hf1; subst hf2; subst hf3; subst hf4
  sl_exec
  sl_step
  isplitl [HΦ]; · iexact HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

theorem body_obligation8 (c : Dev nD) : BodyObligation (dat8 (F := F) V c) (defs₀ (F := F)) Variants.none () Set.univ := fun t => by
  rw [bigSep_W8, bigSep_W8]
  exact combine_body8 c ((dat8 V c).Φ t.castSucc) ((dat8 V c).owesAt () t.castSucc) (grid8.coords t) (st8_0 t) (hstage8_0 ((cfg8.slots t 0).cast nbuf8_0)) (st8_1 t) (hstage8_1 ((cfg8.slots t 1).cast nbuf8_1)) (st8_2 t) (hstage8_2 ((cfg8.slots t 2).cast nbuf8_2)) (st8_3 t) (hstage8_3 ((cfg8.slots t 3).cast nbuf8_3)) (st8_4 t) (hstage8_4 ((cfg8.slots t 4).cast nbuf8_4)) (st8_5 t) (hstage8_5 ((cfg8.slots t 5).cast nbuf8_5))
    ((dat8 V c).before 0 t) ((dat8 V c).before 1 t) ((dat8 V c).before 2 t) ((dat8 V c).before 3 t) ((dat8 V c).before 4 t) ((dat8 V c).before 5 t)
    (iblk8 V c 0 t) (iblk8 V c 1 t) (iblk8 V c 2 t) (iblk8 V c 3 t) (iblk8 V c 4 t)
    (before8_0 V c t) (before8_1 V c t) (before8_2 V c t) (before8_3 V c t) (before8_4 V c t)
    ((dat8 V c).after 5 t) (after8_5 V c t)

end Region8

end Cert.Kernel.Hand

end
-- ==== Proof.Bits.B8.lean ====
import proofs.«414926_j197568496007_1_alg».proof.Proof.Bits.B7
import proofs.«414926_j197568496007_1_alg».proof.Proof.Bits.C8

set_option maxRecDepth 16384

noncomputable section

namespace Cert.Kernel.Hand

open Cert.Kernel Cert.Kernel.Gen
open Idealize.ShloMosaic Idealize.ShloMosaic.TcCoe Idealize.ShloMosaic.Tactic

variable {F : FTy → Type} [FloatOps F]

section
variable (m : (ℓ : Loc nD τ sig) → Buf (Elt F) ℓ) (hO : Oks m)

abbrev W17 (c : Dev nD) : Valuation τ sig (Elt F) := StableHlo.after hostOps8 (W16 m hO c)

abbrev V17 (c : Dev nD) (b : Ref sig .tc) : Buf (Elt F) ((c : Thread nD τ).loc b) := W17 m hO c b

theorem W17_keep (c : Dev nD) (r : Ref sig .tc) (hr : r ∈ keep) : W17 m hO c r = W16 m hO c r :=
  StableHlo.after_of_writes_sub hostOps8 _ hostOps8_writes ((by decide : ∀ r ∈ keep, r ∉ hostOps8_W) r hr)

def W18 (c : Dev nD) : Valuation τ sig (Elt F) :=
  Pipeline.withArrays spec8 c (W17 m hO c) fun w => (dat8 (V17 m hO) c).arrAt w cfg8.N
theorem W18_arr (c : Dev nD) (w : Fin cfg8.W) :
    W18 m hO c (Proc.devRef .tc (Pipeline.arrRef spec8 w)) = (dat8 (V17 m hO) c).arrAt w cfg8.N := by
  unfold W18; exact Pipeline.withArrays_arr spec8 (launch8 (F := F)).win.arr_inj c _ _ w
theorem W18_of_ne (c : Dev nD) (b : Ref sig .tc) (hb : ∀ w, Pipeline.arrRef spec8 w ≠ b) :
    W18 m hO c (Proc.devRef .tc b) = W17 m hO c (Proc.devRef .tc b) := by
  unfold W18; exact Pipeline.withArrays_of_ne spec8 c _ _ b hb
theorem W18_keep (c : Dev nD) (r : Ref sig .tc) (hr : r ∈ keep) : W18 m hO c r = W17 m hO c r :=
  W18_of_ne m hO c r ((by decide : ∀ r ∈ keep, ∀ w : Fin 6, Pipeline.arrRef spec8 w ≠ r) r hr)

theorem W18_all (c : Dev nD) (r : Ref sig .tc) (hr : r ∈ keep) : W18 m hO c r = W0 m c r :=
  (W18_keep m hO c r hr).trans ((W17_keep m hO c r hr).trans (W16_all m hO c r hr))

end

end Cert.Kernel.Hand

end
-- ==== Proof.Bits.C9.lean ====
import proofs.«414926_j197568496007_1_alg».proof.Proof.Gen.Kernel.Launch
import proofs.«414926_j197568496007_1_alg».proof.Proof.Gen.Kernel.Skeleton
import proofs.«414926_j197568496007_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region9

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem hz9_2 : (![0, 0] : Fin 2 → Nat) = fun _ => 0 := funext fun a => by fin_cases a <;> rfl
theorem hz9_3 : (![0, 0, 0] : Fin 3 → Nat) = fun _ => 0 := funext fun a => by fin_cases a <;> rfl

abbrev r9_S128x512 : Rect S128x512 := Rect.unit (s := S128x512) ![0, 0] S128x512.size inb_S128x512_S128x512_0_0
abbrev r9_S128x10x512 : Rect S128x10x512 := Rect.unit (s := S128x10x512) ![0, 0, 0] S128x10x512.size inb_S128x10x512_S128x10x512_0_0_0
abbrev r9_S512x256 : Rect S512x256 := Rect.unit (s := S512x256) ![0, 0] S512x256.size inb_S512x256_S512x256_0_0
abbrev r9_S1x256 : Rect S1x256 := Rect.unit (s := S1x256) ![0, 0] S1x256.size inb_S1x256_S1x256_0_0
abbrev r9_S128x256 : Rect S128x256 := Rect.unit (s := S128x256) ![0, 0] S128x256.size inb_S128x256_S128x256_0_0

def out9_5 (x0 : Vec F S128x512 .f32) (x1 : Vec F S128x10x512 .f32) (x2 x3 : Vec F S512x256 .f32) (x4 : Vec F S1x256 .f32) : Vec F S128x256 .f32 :=
  View.canon [⟨r9_S128x256, k9_pay1 (View.ld x1 r9_S128x10x512) (View.ld x0 r9_S128x512) (View.ld x2 r9_S512x256) (View.ld x3 r9_S512x256) (View.ld x4 r9_S1x256)⟩]

theorem out9_5_eq (x0 : Vec F S128x512 .f32) (x1 : Vec F S128x10x512 .f32) (x2 x3 : Vec F S512x256 .f32) (x4 : Vec F S1x256 .f32) :
    out9_5 x0 x1 x2 x3 x4 = k9_pay1 x1 x0 x2 x3 x4 := by
  unfold out9_5
  rw [View.canon_unit_zero hz9_2]
  simp only [View.ld_unit_zero (S := S128x512) hz9_2, View.ld_unit_zero (S := S128x10x512) hz9_3,
    View.ld_unit_zero (S := S512x256) hz9_2, View.ld_unit_zero (S := S1x256) hz9_2]

theorem cover9_5 (p0 : Vec F S128x256 .f32) (y : S128x256.Idx) :
    ∃ pc ∈ ([⟨r9_S128x256, p0⟩] : List (View.Piece (Elt F) S128x256 .f32)), y ∈ pc.1.set :=
  ⟨_, List.mem_singleton_self _, View.mem_set_unit_zero hz9_2 inb_S128x256_S128x256_0_0 y⟩

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

theorem after9_5 (c : Dev nD) (t : Fin cfg9.N) :
    (dat9 V c).after 5 t = out9_5 (iblk9 V c 0 t) (iblk9 V c 1 t) (iblk9 V c 2 t) (iblk9 V c 3 t) (iblk9 V c 4 t) := by
  dsimp only [dat9]

theorem before9_0 (c : Dev nD) (t : Fin cfg9.N) (d) : (dat9 V c).before 0 t d = iblk9 V c 0 t :=
  ((dat9 V c).before_in_eq_fetched 0 rfl (fun _ => rfl) (fun _ _ _ => rfl) (fun _ => rfl) t d).trans rfl
theorem before9_1 (c : Dev nD) (t : Fin cfg9.N) (d) : (dat9 V c).before 1 t d = iblk9 V c 1 t :=
  ((dat9 V c).before_in_eq_fetched 1 rfl (fun _ => rfl) (fun _ _ _ => rfl) (fun _ => rfl) t d).trans rfl
theorem before9_2 (c : Dev nD) (t : Fin cfg9.N) (d) : (dat9 V c).before 2 t d = iblk9 V c 2 t :=
  ((dat9 V c).before_in_eq_fetched 2 rfl (fun _ => rfl) (fun _ _ _ => rfl) (fun _ => rfl) t d).trans rfl
theorem before9_3 (c : Dev nD) (t : Fin cfg9.N) (d) : (dat9 V c).before 3 t d = iblk9 V c 3 t :=
  ((dat9 V c).before_in_eq_fetched 3 rfl (fun _ => rfl) (fun _ _ _ => rfl) (fun _ => rfl) t d).trans rfl
theorem before9_4 (c : Dev nD) (t : Fin cfg9.N) (d) : (dat9 V c).before 4 t d = iblk9 V c 4 t :=
  ((dat9 V c).before_in_eq_fetched 4 rfl (fun _ => rfl) (fun _ _ _ => rfl) (fun _ => rfl) t d).trans rfl

set_option maxHeartbeats 1000000 in
/-- The fused layer's body leaves its five inputs as they are and puts its one store in the output; the rest is returned untouched. -/
theorem combine_body9 (c : Dev nD) (Φ O : sProp 𝕄) (i : grid9.Coords)
    (arg1 : Memref sig .tc .vmem S128x512 .f32) (harg1 : arg1.IsWhole) (arg2 : Memref sig .tc .vmem S128x10x512 .f32) (harg2 : arg2.IsWhole)
    (arg3 : Memref sig .tc .vmem S512x256 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S128x256 .f32) (harg6 : arg6.IsWhole)
    {D0 D1 D2 D3 D4 D5 : Type} (x0' : D0 → Vec F S128x512 .f32) (x1' : D1 → Vec F S128x10x512 .f32) (x2' : D2 → Vec F S512x256 .f32)
    (x3' : D3 → Vec F S512x256 .f32) (x4' : D4 → Vec F S1x256 .f32) (y : D5 → Vec F S128x256 .f32)
    (x0 : Vec F S128x512 .f32) (x1 : Vec F S128x10x512 .f32) (x2 : Vec F S512x256 .f32) (x3 : Vec F S512x256 .f32) (x4 : Vec F S1x256 .f32)
    (e0 : ∀ d, x0' d = x0) (e1 : ∀ d, x1' d = x1) (e2 : ∀ d, x2' d = x2) (e3 : ∀ d, x3' d = x3) (e4 : ∀ d, x4' d = x4)
    (z : Vec F S128x256 .f32) (hz : z = out9_5 x0 x1 x2 x3 x4) :
    iprop(Φ ∗ O ∗ (∃ d, owns (c : Thread nD τ) arg1 fullShare (x0' d)) ∗ (∃ d, owns (c : Thread nD τ) arg2 fullShare (x1' d))
        ∗ (∃ d, owns (c : Thread nD τ) arg3 fullShare (x2' d)) ∗ (∃ d, owns (c : Thread nD τ) arg4 fullShare (x3' d))
        ∗ (∃ d, owns (c : Thread nD τ) arg5 fullShare (x4' d)) ∗ (∃ d, owns (c : Thread nD τ) arg6 fullShare (y d)))
      ⊢ wp frame (wpE (defs₀ (F := F)) Variants.none c none) Set.univ
          (cc9__combine_kernel i arg1 harg1 arg2 harg2 arg3 harg3 arg4 harg4 arg5 harg5 arg6 harg6)
          (fun _ => iprop(Φ ∗ O ∗ owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare z)) := by
  subst hz; simp only [e0, e1, e2, e3, e4]
  simp only [cc9__combine_kernel_eq_skeleton]; unfold cc9__combine_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  subst hf0; subst hf1; subst hf2; subst hf3; subst hf4
  sl_exec
  sl_step
  isplitl [HΦ]; · iexact HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

theorem body_obligation9 (c : Dev nD) : BodyObligation (dat9 (F := F) V c) (defs₀ (F := F)) Variants.none () Set.univ := fun t => by
  rw [bigSep_W9, bigSep_W9]
  exact combine_body9 c ((dat9 V c).Φ t.castSucc) ((dat9 V c).owesAt () t.castSucc) (grid9.coords t) (st9_0 t) (hstage9_0 ((cfg9.slots t 0).cast nbuf9_0)) (st9_1 t) (hstage9_1 ((cfg9.slots t 1).cast nbuf9_1)) (st9_2 t) (hstage9_2 ((cfg9.slots t 2).cast nbuf9_2)) (st9_3 t) (hstage9_3 ((cfg9.slots t 3).cast nbuf9_3)) (st9_4 t) (hstage9_4 ((cfg9.slots t 4).cast nbuf9_4)) (st9_5 t) (hstage9_5 ((cfg9.slots t 5).cast nbuf9_5))
    ((dat9 V c).before 0 t) ((dat9 V c).before 1 t) ((dat9 V c).before 2 t) ((dat9 V c).before 3 t) ((dat9 V c).before 4 t) ((dat9 V c).before 5 t)
    (iblk9 V c 0 t) (iblk9 V c 1 t) (iblk9 V c 2 t) (iblk9 V c 3 t) (iblk9 V c 4 t)
    (before9_0 V c t) (before9_1 V c t) (before9_2 V c t) (before9_3 V c t) (before9_4 V c t)
    ((dat9 V c).after 5 t) (after9_5 V c t)

end Region9

end Cert.Kernel.Hand

end
-- ==== Proof.Bits.B9.lean ====
import proofs.«414926_j197568496007_1_alg».proof.Proof.Bits.B8
import proofs.«414926_j197568496007_1_alg».proof.Proof.Bits.C9

set_option maxRecDepth 16384

noncomputable section

namespace Cert.Kernel.Hand

open Cert.Kernel Cert.Kernel.Gen
open Idealize.ShloMosaic Idealize.ShloMosaic.TcCoe Idealize.ShloMosaic.Tactic

variable {F : FTy → Type} [FloatOps F]

section
variable (m : (ℓ : Loc nD τ sig) → Buf (Elt F) ℓ) (hO : Oks m)

abbrev W19 (c : Dev nD) : Valuation τ sig (Elt F) := StableHlo.after hostOps9 (W18 m hO c)

abbrev V19 (c : Dev nD) (b : Ref sig .tc) : Buf (Elt F) ((c : Thread nD τ).loc b) := W19 m hO c b

theorem W19_keep (c : Dev nD) (r : Ref sig .tc) (hr : r ∈ keep) : W19 m hO c r = W18 m hO c r :=
  StableHlo.after_of_writes_sub hostOps9 _ hostOps9_writes ((by decide : ∀ r ∈ keep, r ∉ hostOps9_W) r hr)

def W20 (c : Dev nD) : Valuation τ sig (Elt F) :=
  Pipeline.withArrays spec9 c (W19 m hO c) fun w => (dat9 (V19 m hO) c).arrAt w cfg9.N
theorem W20_arr (c : Dev nD) (w : Fin cfg9.W) :
    W20 m hO c (Proc.devRef .tc (Pipeline.arrRef spec9 w)) = (dat9 (V19 m hO) c).arrAt w cfg9.N := by
  unfold W20; exact Pipeline.withArrays_arr spec9 (launch9 (F := F)).win.arr_inj c _ _ w
theorem W20_of_ne (c : Dev nD) (b : Ref sig .tc) (hb : ∀ w, Pipeline.arrRef spec9 w ≠ b) :
    W20 m hO c (Proc.devRef .tc b) = W19 m hO c (Proc.devRef .tc b) := by
  unfold W20; exact Pipeline.withArrays_of_ne spec9 c _ _ b hb
theorem W20_keep (c : Dev nD) (r : Ref sig .tc) (hr : r ∈ keep) : W20 m hO c r = W19 m hO c r :=
  W20_of_ne m hO c r ((by decide : ∀ r ∈ keep, ∀ w : Fin 6, Pipeline.arrRef spec9 w ≠ r) r hr)

theorem W20_all (c : Dev nD) (r : Ref sig .tc) (hr : r ∈ keep) : W20 m hO c r = W0 m c r :=
  (W20_keep m hO c r hr).trans ((W19_keep m hO c r hr).trans (W18_all m hO c r hr))

end

end Cert.Kernel.Hand

end
-- ==== Proof.Bits.Fam.lean ====
import proofs.«414926_j197568496007_1_alg».proof.Proof.Bits.B9

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable (m : (ℓ : Loc nD τ sig) → Buf (Elt F) ℓ) (hO : Oks m)

def adm : (p : Fin 10) → (pcfgs (F := F) p).Adm
  | ⟨0, _⟩ => ⟨T0 m, hO.h0⟩
  | ⟨1, _⟩ => ⟨T1 m, hO.h1⟩
  | ⟨2, _⟩ => ⟨T2 m, hO.h2⟩
  | ⟨3, _⟩ => ⟨T3 m, hO.h3⟩
  | ⟨4, _⟩ => ⟨T4 m, hO.h4⟩
  | ⟨5, _⟩ => ⟨T5 m, hO.h5⟩
  | ⟨6, _⟩ => ⟨T6 m, hO.h6⟩
  | ⟨7, _⟩ => cfg7.toPCfg_adm
  | ⟨8, _⟩ => cfg8.toPCfg_adm
  | ⟨9, _⟩ => cfg9.toPCfg_adm

def pdats : (p : Fin 10) → (c : Dev nD) → Dat τ (Elt F) Unit ℕ (UR sig nD τ) ℕ (Pipeline.pin (pcfgs (F := F)) (adm m hO) p) c
  | ⟨0, _⟩ => fun c => dat0 (V1 m) (T0 m) hO.h0 c
  | ⟨1, _⟩ => fun c => dat1 (V3 m hO) (T1 m) hO.h1 c
  | ⟨2, _⟩ => fun c => dat2 (V5 m hO) (T2 m) hO.h2 c
  | ⟨3, _⟩ => fun c => dat3 (V7 m hO) (T3 m) hO.h3 c
  | ⟨4, _⟩ => fun c => dat4 (V9 m hO) (T4 m) hO.h4 c
  | ⟨5, _⟩ => fun c => dat5 (V11 m hO) (T5 m) hO.h5 c
  | ⟨6, _⟩ => fun c => dat6 (V13 m hO) (T6 m) hO.h6 c
  | ⟨7, _⟩ => fun c => dat7 (V15 m hO) c
  | ⟨8, _⟩ => fun c => dat8 (V17 m hO) c
  | ⟨9, _⟩ => fun c => dat9 (V19 m hO) c

end

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.Bits.Regs.lean ====
import proofs.«414926_j197568496007_1_alg».proof.Proof.Bits.Fam

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable (m : (ℓ : Loc nD τ sig) → Buf (Elt F) ℓ) (hO : Oks m)

/-- A valuation read at the TensorCore's references. -/
abbrev atTc (W : Dev nD → Valuation τ sig (Elt F)) (c : Dev nD) (b : Ref sig .tc) : Buf (Elt F) ((c : Thread nD τ).loc b) := W c b

variable (p : Fin 10) (Wi : Dev nD → Valuation τ sig (Elt F))

/-- The buffers that are neither an array nor a table of call `p`, at its entry contents. -/
abbrev restP (c : Dev nD) : sProp 𝕄 :=
  Pipeline.unscopedRestP (Ix := Unit) (Name := ℕ) (U := UR sig nD τ) (Lvl := ℕ) (pcfgs (F := F) p).pre (pcfgs (F := F) p).spec c (atTc Wi c)

/-- What call `p` leaves: its arrays at their final contents, every other buffer as entered. -/
abbrev outOf (c : Dev nD) : Valuation τ sig (Elt F) :=
  Pipeline.withArrays (Pipeline.pin (pcfgs (F := F)) (adm m hO) p).spec c (Wi c) fun w =>
    (pdats m hO p c).arrAt w (Pipeline.pin (pcfgs (F := F)) (adm m hO) p).N

/-- Call `p`'s tables, at the contents the family fixes for them. -/
abbrev tabs (c : Dev nD) : sProp 𝕄 := Pipeline.prefHeld (pcfgs (F := F) p).pre c (fun _ => fullShare) (adm m hO p).1

/-- If the entry contents have the tables at those contents, the buffers that are no array of the call are the tables and the rest. -/
theorem rest_split (lf : Pipeline.PLaunchFacts (nD := nD) (τ := τ) (pcfgs (F := F)) p) (htbl : ∀ c k, atTc Wi c ((pcfgs (F := F) p).pre.ref k) = (adm m hO p).1 k) (c : Dev nD) :
    (Pipeline.unscopedRest (Ix := Unit) (Name := ℕ) (U := UR sig nD τ) (Lvl := ℕ) (pcfgs (F := F) p).spec c (atTc Wi c) : sProp 𝕄)
      = iprop(tabs m hO p c ∗ restP p Wi c) :=
  (Pipeline.unscopedRest_split (Ix := Unit) (Name := ℕ) (U := UR sig nD τ) (Lvl := ℕ) lf.pre c (atTc Wi c)).trans
    (congrArg (fun T => iprop(Pipeline.prefHeld (pcfgs (F := F) p).pre c (fun _ => fullShare) T ∗ restP p Wi c)) (funext (htbl c)))

set_option backward.isDefEq.respectTransparency.types false in
/-- Call `p` as a segment of @main: its arrays are taken out at entry and put back at exit; its tables and the generator register pass through. -/
def regOf (lf : Pipeline.PLaunchFacts (nD := nD) (τ := τ) (pcfgs (F := F)) p)
    (hb : ∀ c, BodyObligation (pdats m hO p c) (defs₀ (F := F)) Variants.none () Set.univ)
    (howed : ∀ c t, (pdats m hO p c).owed t = 0)
    (hshare : ∀ c w, (pdats m hO p c).share w = fullShare)
    (hrec : ∀ c, (pdats m hO p c).recorded 0 = Set.univ)
    (hA : ∀ c w, (pdats m hO p c).A w = atTc Wi c (Pipeline.arrRef (Pipeline.pin (pcfgs (F := F)) (adm m hO) p).spec w))
    (hΦi : ∀ c, iprop(Pipeline.ΦA (pcfgs (F := F) p).spec c ∗ tabs m hO p c) ⊢ (pdats m hO p c).Φ 0)
    (hΦo : ∀ c, (pdats m hO p c).Φ (Fin.last _) ⊢ iprop(Pipeline.ΦA (pcfgs (F := F) p).spec c ∗ tabs m hO p c))
    (htbl : ∀ c k, atTc Wi c ((pcfgs (F := F) p).pre.ref k) = (adm m hO p).1 k) :
    Pipeline.RegionSeg (pcfgs (F := F)) (adm m hO) (pdats m hO) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (outOf m hO p Wi c) ∗ R c)
  X c := iprop(∃ r, prngReg c r)
  Y c := iprop((∃ r, prngReg c r) ∗ tabs m hO p c)
  Z c := restP p Wi c
  hentry c := by
    rw [Pipeline.ownSems0_none]
    have hsplit := Pipeline.arrays_of_unscopedBufs (p := p) (pcfgs (F := F)) (adm m hO) (pdats m hO) lf.win lf.arr_whole c (hshare c) (atTc Wi c) (hA c)
    rw [Pipeline.unscopedBufs_held] at hsplit
    iintro ⟨⟨Hub, Hp, HO⟩, -, -⟩
    ihave H := hsplit $$ Hub
    icases H with ⟨Ha, Hrest⟩
    ihave Hrest' := (Entails.of_eq (rest_split m hO p Wi lf htbl c)) $$ Hrest
    icases Hrest' with ⟨Hpf, Hz⟩
    imodintro
    isplitl [Ha]; · iexact Ha
    isplitl [Hpf]; · iexact Hpf
    isplitl [HO]
    · unfold Pipeline.Dat.owesAt; rw [howed c]; unfold Pipeline.owesWithin
      icases HO with ⟨%W, HO⟩; iexists W; isplitr; · ipureintro; exact fun x _ => Or.inl (by rw [hrec c]; exact Set.mem_univ x)
      iexact HO
    isplitl [Hp]; · iexact Hp
    iexact Hz
  hin c := by
    refine .trans ?_ (hΦi c); unfold Pipeline.ΦA
    iintro ⟨Hp, Hpf, Hr⟩
    isplitl [Hr Hp]
    · isplitl [Hr]; · iexact Hr
      iexact Hp
    iexact Hpf
  hout c := by
    rw [Pipeline.ownSems0_none]; refine (hΦo c).trans ?_; unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := p) (pcfgs (F := F)) (adm m hO) (Ix := Unit) (Name := ℕ) (U := UR sig nD τ) (Lvl := ℕ)
      lf.win lf.arr_whole c (pdats m hO) (hshare c) (atTc Wi c) (atTc (outOf m hO p Wi) c)
      ((pdats m hO p c).arrAt · (Pipeline.pin (pcfgs (F := F)) (adm m hO) p).N)
      (fun w => (Pipeline.withArrays_arr _ lf.win.arr_inj c (Wi c) (fun w => (pdats m hO p c).arrAt w _) w).symm)
      (fun b hb => Pipeline.withArrays_of_ne _ c (Wi c) (fun w => (pdats m hO p c).arrAt w _) b
        fun w e => hb (Finset.mem_image.mpr ⟨w, Finset.mem_univ _, e⟩))
    rw [Pipeline.unscopedBufs_held] at hjoin
    iintro ⟨Ha, HO, ⟨HY, Hpf⟩, Hz⟩
    ihave Hrest := (Entails.of_eq (rest_split m hO p Wi lf htbl c).symm) $$ [Hpf Hz]
    · isplitl [Hpf]; · iexact Hpf
      iexact Hz
    imodintro
    isplitl [Ha Hrest]
    · iapply hjoin; isplitl [Ha] <;> iassumption
    isplitl [HY]; · iexact HY
    unfold Pipeline.Dat.owesAt; rw [howed c]; unfold Pipeline.owesWithin
    icases HO with ⟨%W, -, HO⟩; iexists W; iexact HO

end

section
variable (m : (ℓ : Loc nD τ sig) → Buf (Elt F) ℓ) (hO : Oks m)

/-- A call without tables holds none. -/
theorem drop_tabs (p : Fin 10) (h0 : IsEmpty (Fin (pcfgs (F := F) p).pre.K)) (c : Dev nD) (A : sProp 𝕄) :
    iprop(A ∗ tabs m hO p c) ⊣⊢ A := by
  rw [show tabs m hO p c = BI.emp from by
    haveI := h0; show Pipeline.prefHeld _ _ _ _ = _; unfold Pipeline.prefHeld; rw [Finset.univ_eq_empty, BI.bigSep_empty]]
  exact sep_emp

def reg0 := regOf m hO 0 (W1 m) launch0 (body_obligation0 (V1 m) (T0 m) hO.h0) (fun _ _ => rfl)
  (fun c => (pdats m hO 0 c).share_full fun _ => rfl) (fun _ => rfl) (fun _ _ => rfl) (fun _ => .rfl) (fun _ => .rfl) (tblAt0 m)
def reg1 := regOf m hO 1 (W3 m hO) launch1 (body_obligation1 (V3 m hO) (T1 m) hO.h1) (fun _ _ => rfl)
  (fun c => (pdats m hO 1 c).share_full fun _ => rfl) (fun _ => rfl) (fun _ _ => rfl) (fun _ => .rfl) (fun _ => .rfl) (tblAt1 m hO)
def reg2 := regOf m hO 2 (W5 m hO) launch2 (body_obligation2 (V5 m hO) (T2 m) hO.h2) (fun _ _ => rfl)
  (fun c => (pdats m hO 2 c).share_full fun _ => rfl) (fun _ => rfl) (fun _ _ => rfl) (fun _ => .rfl) (fun _ => .rfl) (tblAt2 m hO)
def reg3 := regOf m hO 3 (W7 m hO) launch3 (body_obligation3 (V7 m hO) (T3 m) hO.h3) (fun _ _ => rfl)
  (fun c => (pdats m hO 3 c).share_full fun _ => rfl) (fun _ => rfl) (fun _ _ => rfl) (fun _ => .rfl) (fun _ => .rfl) (tblAt3 m hO)
def reg4 := regOf m hO 4 (W9 m hO) launch4 (body_obligation4 (V9 m hO) (T4 m) hO.h4) (fun _ _ => rfl)
  (fun c => (pdats m hO 4 c).share_full fun _ => rfl) (fun _ => rfl) (fun _ _ => rfl) (fun _ => .rfl) (fun _ => .rfl) (tblAt4 m hO)
def reg5 := regOf m hO 5 (W11 m hO) launch5 (body_obligation5 (V11 m hO) (T5 m) hO.h5) (fun _ _ => rfl)
  (fun c => (pdats m hO 5 c).share_full fun _ => rfl) (fun _ => rfl) (fun _ _ => rfl) (fun _ => .rfl) (fun _ => .rfl) (tblAt5 m hO)
def reg6 := regOf m hO 6 (W13 m hO) launch6 (body_obligation6 (V13 m hO) (T6 m) hO.h6) (fun _ _ => rfl)
  (fun c => (pdats m hO 6 c).share_full fun _ => rfl) (fun _ => rfl) (fun _ _ => rfl) (fun _ => .rfl) (fun _ => .rfl) (tblAt6 m hO)
def reg7 := regOf m hO 7 (W15 m hO) launch7 (body_obligation7 (V15 m hO)) (fun _ _ => rfl)
  (fun c => (pdats m hO 7 c).share_full fun _ => rfl) (fun _ => rfl) (fun _ _ => rfl) (fun c => (drop_tabs m hO 7 Fin.isEmpty c _).1)
  (fun c => (drop_tabs m hO 7 Fin.isEmpty c _).2) fun _ k => k.elim0
def reg8 := regOf m hO 8 (W17 m hO) launch8 (body_obligation8 (V17 m hO)) (fun _ _ => rfl)
  (fun c => (pdats m hO 8 c).share_full fun _ => rfl) (fun _ => rfl) (fun _ _ => rfl) (fun c => (drop_tabs m hO 8 Fin.isEmpty c _).1)
  (fun c => (drop_tabs m hO 8 Fin.isEmpty c _).2) fun _ k => k.elim0
def reg9 := regOf m hO 9 (W19 m hO) launch9 (body_obligation9 (V19 m hO)) (fun _ _ => rfl)
  (fun c => (pdats m hO 9 c).share_full fun _ => rfl) (fun _ => rfl) (fun _ _ => rfl) (fun c => (drop_tabs m hO 9 Fin.isEmpty c _).1)
  (fun c => (drop_tabs m hO 9 Fin.isEmpty c _).2) fun _ k => k.elim0

end

end Cert.Kernel.Hand

end
-- ==== Proof.Bits.RunAll.lean ====
import proofs.«414926_j197568496007_1_alg».proof.Proof.Bits.Regs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (m : (ℓ : Loc nD τ sig) → Buf (Elt F) ℓ) (ρ : Dev nD → PrngReg) (hO : Oks m)

abbrev segs : List (Pipeline.Seg (pcfgs (F := F)) (adm m hO) (pdats m hO) () defs₀ 𝒱₀ L lv) :=
  [
    .host (hseg hostOps0 hostOps0_sub hostOps0_fresh (W0 m)),
    .region (reg0 m hO),
    .host (hseg hostOps1 hostOps1_sub hostOps1_fresh (W2 m hO)),
    .region (reg1 m hO),
    .host (hseg hostOps2 hostOps2_sub hostOps2_fresh (W4 m hO)),
    .region (reg2 m hO),
    .host (hseg hostOps3 hostOps3_sub hostOps3_fresh (W6 m hO)),
    .region (reg3 m hO),
    .host (hseg hostOps4 hostOps4_sub hostOps4_fresh (W8 m hO)),
    .region (reg4 m hO),
    .host (hseg hostOps5 hostOps5_sub hostOps5_fresh (W10 m hO)),
    .region (reg5 m hO),
    .host (hseg hostOps6 hostOps6_sub hostOps6_fresh (W12 m hO)),
    .region (reg6 m hO),
    .host (hseg hostOps7 hostOps7_sub hostOps7_fresh (W14 m hO)),
    .region (reg7 m hO),
    .host (hseg hostOps8 hostOps8_sub hostOps8_fresh (W16 m hO)),
    .region (reg8 m hO),
    .host (hseg hostOps9 hostOps9_sub hostOps9_fresh (W18 m hO)),
    .region (reg9 m hO) ]

theorem main_run (c : Dev nD) : main (F := F) c = Pipeline.Seg.run (segs m hO) := (main_chain c).trans (by chain_rfl)

abbrev Tₙ (c : Dev nD) : sProp 𝕄 := iprop(StableHlo.held (c : Thread nD τ) (Pipeline.ucRefs τ sig) (W20 m hO c) ∗ ∃ r, prngReg c r)

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = W20 m hO c b) :=
  Pipeline.θ_run_regions_kit (pcfgs (F := F)) (adm m hO) (pdats m hO) () (cellOf_inj (adm m hO)) emb₁ defs₀ 𝒱₀ L lv m ρ main (segs m hO)
    (fun c Q => by rw [main_run m hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hO)) (cellOf_inj (adm m hO)))
      (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO)))
              (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO)))
              (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hO)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show iprop(StableHlo.held (c : Thread nD τ) (Pipeline.ucRefs τ sig) (W20 m hO c) ∗ R c)
          ⊢ iprop(Tₙ m hO c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m hO c b)
    (hfin := fun c s' => by
      iintro ⟨⟨Hh, -⟩, HSI⟩
      unfold StableHlo.held
      imodintro
      iapply (pointsTo_read_all (Pipeline.ucRefs τ sig) (fun b => (((c : Thread nD τ)).1, b)) (W20 m hO c) s')
      isplitl [Hh] <;> iassumption)
    (hQ := fun s h c => h c)

/-- Read off the last boundary: the result array, and every argument array as launched. -/
theorem run_frame : θ_run defs (onTc (τ := τ) (main (F := F))) ⟨m, fun _ => 0, ρ⟩
    (fun r => ∀ c : Dev nD, r.2.mem ((c : Thread nD τ).loc main_v51) = W20 m hO c (Proc.devRef .tc main_v51)
      ∧ keep.Forall fun a => r.2.mem ((c : Thread nD τ).loc a) = m ((c : Thread nD τ).loc a)) :=
  (θ_run defs _ _).mono (fun r h c => ⟨h c _ (mem_uc main_v51 (by decide)), List.forall_iff_forall_mem.mpr fun a ha =>
    (h c _ (mem_uc a ((by decide : ∀ a ∈ keep, ¬ (Proc.devRef .tc a : DevRef τ sig).isScoped) a ha))).trans
      ((W20_all m hO c a ha).trans rfl)⟩) (run_all m ρ hO)

end

end Cert.Kernel.Hand

end
-- ==== Proof.lean ====
import proofs.«414926_j197568496007_1_alg».proof.Defs
import proofs.«414926_j197568496007_1_alg».proof.Proof.Gen.Kernel
import proofs.«414926_j197568496007_1_alg».proof.Proof.Gen.Kernel.Skeleton
import proofs.«414926_j197568496007_1_alg».proof.Proof.Gen.Kernel.Launch
import proofs.«414926_j197568496007_1_alg».proof.Proof.Gen.Kernel.Regions
import proofs.«414926_j197568496007_1_alg».proof.Proof.Gen.Kernel.Points
import proofs.«414926_j197568496007_1_alg».proof.Proof.Gen.KernelIdeal
import proofs.«414926_j197568496007_1_alg».proof.Proof.Gen.KernelIdeal.Skeleton
import proofs.«414926_j197568496007_1_alg».proof.Proof.Gen.KernelIdeal.Launch
import proofs.«414926_j197568496007_1_alg».proof.Proof.Gen.KernelIdeal.Regions
import proofs.«414926_j197568496007_1_alg».proof.Proof.Gen.KernelIdeal.Points
import proofs.«414926_j197568496007_1_alg».proof.Proof.Gen.ReferenceIdeal
import proofs.«414926_j197568496007_1_alg».proof.Proof.Gen.Pre_finite_inputs
import proofs.«414926_j197568496007_1_alg».proof.Proof.Gen.ReferenceIdeal.Run
import proofs.«414926_j197568496007_1_alg».proof.Proof.Gen.ReferenceIdeal.Read
import proofs.«414926_j197568496007_1_alg».proof.Proof.PreIdx
import proofs.«414926_j197568496007_1_alg».proof.Proof.OkOfPre
import proofs.«414926_j197568496007_1_alg».proof.Proof.B9
import proofs.«414926_j197568496007_1_alg».proof.Proof.Fam
import proofs.«414926_j197568496007_1_alg».proof.Proof.RunAll
import proofs.«414926_j197568496007_1_alg».proof.Proof.KerValue
import proofs.«414926_j197568496007_1_alg».proof.Proof.RefValue
import proofs.«414926_j197568496007_1_alg».proof.Proof.Bits.OkOfPre
import proofs.«414926_j197568496007_1_alg».proof.Proof.Bits.B9
import proofs.«414926_j197568496007_1_alg».proof.Proof.Bits.Fam
import proofs.«414926_j197568496007_1_alg».proof.Proof.Bits.RunAll
import Idealize.ShloMosaic.Adequacy
import Idealize.ShloMosaic.Init

set_option maxRecDepth 16384

noncomputable section

namespace Cert.Proof.SageClaims

open Idealize.ShloMosaic Idealize.ShloMosaic.TcCoe Idealize.SL.Sem

theorem frame_p : Cert.frame_Kernel := fun m ρ hpre =>
  (θ_run Cert.Kernel.defs _ _).mono (fun _ h c => (h c).2) (Cert.Kernel.Hand.run_frame (F := Bits) m ρ (Cert.Kernel.Hand.oks_of_pre m hpre))

theorem frame_pi : Cert.frame_KernelIdeal := fun m ρ hpre =>
  (θ_run Cert.KernelIdeal.defs _ _).mono (fun _ h c => (h c).2) (Cert.KernelIdeal.Hand.run_frame (F := Ideal) m ρ (Cert.KernelIdeal.Hand.oks_of_pre m hpre))

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  have hO : Cert.KernelIdeal.Hand.Oks m := Cert.KernelIdeal.Hand.oks_of_pre m hpre
  refine ⟨fun c => Cert.KernelIdeal.Hand.W20 m hO c (Proc.devRef .tc Cert.KernelIdeal.main_v51),
    Cert.KernelIdeal.Hand.run_frame (F := Ideal) m ρ hO, ?_⟩
  refine (θ_run Cert.ReferenceIdeal.defs _ _).mono (fun r h c => ⟨?_, (h c).2⟩)
    (Cert.ReferenceIdeal.Value.run (F := Ideal) m' ρ')
  obtain ⟨h7, h8, h9⟩ := Cert.PreIdx.idx_lt _ _ _ _ _ _ _ _ _ _ (hpre c)
  obtain ⟨e0, e1, e2, e3, e4, e5, e6, e7, e8, e9⟩ := hagree c
  have h7' : ∀ i, (m' ((c.tc : Thread Cert.ReferenceIdeal.nD Cert.ReferenceIdeal.τ).loc Cert.ReferenceIdeal.main_arg7) i).toNat < 100000 := by
    rw [e7]; exact h7
  have h8' : ∀ i, (m' ((c.tc : Thread Cert.ReferenceIdeal.nD Cert.ReferenceIdeal.τ).loc Cert.ReferenceIdeal.main_arg8) i).toNat < 100000 := by
    rw [e8]; exact h8
  have h9' : ∀ i, (m' ((c.tc : Thread Cert.ReferenceIdeal.nD Cert.ReferenceIdeal.τ).loc Cert.ReferenceIdeal.main_arg9) i).toNat < 100000 := by
    rw [e9]; exact h9
  rw [(h c).1, Cert.ReferenceIdeal.Read.val_main_v49_eq, Cert.RefValue.ref_eq_spec m' c h7' h8' h9',
    e0, e1, e2, e3, e4, e5, e7, e8, e9]
  exact (Cert.KernelIdeal.KerValue.ker_eq_spec m hO c h7 h8 h9).symm

end Cert.Proof.SageClaims

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    SageClaims.frame_p, SageClaims.frame_pi, SageClaims.frame_ri, SageClaims.preserves, SageClaims.algebraic⟩

end Cert.Proof

end
